-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S160000 : Shape := ⟨1, ![160000]⟩
abbrev S512x512 : Shape := ⟨2, ![512, 512]⟩
abbrev S512 : Shape := ⟨1, ![512]⟩
abbrev S3x512x256 : Shape := ⟨3, ![3, 512, 256]⟩
abbrev S256 : Shape := ⟨1, ![256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S3x512x256 : S_.BroadcastsInDim S3x512x256 (![] : Fin 0 → Fin S3x512x256.rank)
  reducesTo_S3x512x256_S_d0_1_2 : S3x512x256.ReducesTo [0, 1, 2] S_
  bcast_S_S256 : S_.BroadcastsInDim S256 (![] : Fin 0 → Fin S256.rank)
  reducesTo_S256_S_d0 : S256.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_c_14 : IVec S_ 32 := constantI S_ 32 0#32
  let main_v39 : IVec S2x160000 32 := broadcastInDim S2x160000 ![] bcast_S_S2x160000 main_c_14
  let main_v40 : IVec S2x160000 1 := cmpi .sge main_arg1 main_v39
  let main_c_15 : IVec S_ 32 := constantI S_ 32 10000#32
  let main_v41 : IVec S2x160000 32 := broadcastInDim S2x160000 ![] bcast_S_S2x160000 main_c_15
  let main_v42 : IVec S2x160000 1 := cmpi .slt main_arg1 main_v41
  let main_v43 : IVec S2x160000 1 := andi main_v40 main_v42
  let main_c_16 : IVec S_ 1 := constantI S_ 1 1#1
  let main_v44 : IVec S_ 1 := (fun x v => Host.reduce IntOp.andi x v reducesTo_S2x160000_S_d0_1 h_S_) main_v43 main_c_16
  let main_v45 : IVec S_ 1 := andi main_v38 main_v44
  main_v45

def fn_part1 {F : FTy → Type} [FloatOps F] (main_arg1 : IVec S2x160000 32) (main_arg5 : FVec F S512x512 .f32) (main_arg6 : FVec F S512 .f32) (main_arg7 : FVec F S3x512x256 .f32) (main_arg8 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S3x512x256 .f32 := Host.absf main_arg7
  let main_cst_10 : FVec F S_ .f32 := constant S_ .f32 0x7F800000#32
  let main_v30 : FVec F S3x512x256 .f32 := broadcastInDim S3x512x256 ![] bcast_S_S3x512x256 main_cst_10
  let main_v31 : IVec S3x512x256 1 := cmpf .olt main_v29 main_v30
  let main_c_11 : IVec S_ 1 := constantI S_ 1 1#1
  let main_v32 : IVec S_ 1 := (fun x v => Host.reduce IntOp.andi x v reducesTo_S3x512x256_S_d0_1_2 h_S_) main_v31 main_c_11
  let main_v33 : IVec S_ 1 := andi main_v28 main_v32
  fn_part2 (F := F) main_arg1 main_arg8 main_v33

def fn {F : FTy → Type} [FloatOps F] (main_arg0 : FVec F S10000x512 .f32) (main_arg1 : IVec S2x160000 32) (main_arg2 : FVec F S160000 .f32) (main_arg3 : FVec F S512x512 .f32) (main_arg4 : FVec F S512 .f32) (main_arg5 : FVec F S512x512 .f32) (main_arg6 : FVec F S512 .f32) (main_arg7 : FVec F S3x512x256 .f32) (main_arg8 : FVec F S256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S160000 .f32 := Host.absf main_arg2
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg5 main_arg6 main_arg7 main_arg8 main_v13 main_v16
-- ==== Kernel.lean ====
abbrev S10000x512 : Shape := ⟨2, ![10000, 512]⟩
abbrev S2x160000 : Shape := ⟨2, ![2, 160000]⟩
abbrev S160000 : Shape := ⟨1, ![160000]⟩
abbrev S512x512 : Shape := ⟨2, ![512, 512]⟩
abbrev S512 : Shape := ⟨1, ![512]⟩
abbrev S3x512x256 : Shape := ⟨3, ![3, 512, 256]⟩
abbrev S256 : Shape := ⟨1, ![256]⟩
abbrev S1x160000 : Shape := ⟨2, ![1, 160000]⟩
abbrev S10000 : Shape := ⟨1, ![10000]⟩
abbrev S170000 : Shape := ⟨1, ![170000]⟩
abbrev S_ : Shape := ⟨0, ![]⟩
abbrev S170000x1 : Shape := ⟨2, ![170000, 1]⟩
abbrev S10240x10240 : Shape := ⟨2, ![10240, 10240]⟩
abbrev S170000x2 : Shape := ⟨2, ![170000, 2]⟩
abbrev S160000x1 : Shape := ⟨2, ![160000, 1]⟩
abbrev S160000x2 : Shape := ⟨2, ![160000, 2]⟩
abbrev S10240x512 : Shape := ⟨2, ![10240, 512]⟩
abbrev S1 : Shape := ⟨1, ![1]⟩
abbrev S1x512x256 : Shape := ⟨3, ![1, 512, 256]⟩
abbrev S512x256 : Shape := ⟨2, ![512, 256]⟩
abbrev S1024x512 : Shape := ⟨2, ![1024, 512]⟩
abbrev S1x512 : Shape := ⟨2, ![1, 512]⟩
abbrev S1024x2048 : Shape := ⟨2, ![1024, 2048]⟩
abbrev S2048x512 : Shape := ⟨2, ![2048, 512]⟩
abbrev S1x256 : Shape := ⟨2, ![1, 256]⟩
abbrev S10240x256 : Shape := ⟨2, ![10240, 256]⟩
abbrev S1024x256 : Shape := ⟨2, ![1024, 256]⟩
abbrev S10000x256 : Shape := ⟨2, ![10000, 256]⟩

abbrev nBuf : Space → Nat
  | .hbm => 158
  | .vmem => 52
  | .smem => 0
  | _ => 0

abbrev hbmTy0_0 (i : Nat) : BufTy := match i % 128 with
  | 0 => ⟨S10000x512, .f32⟩
  | 1 => ⟨S2x160000, .i32⟩
  | 2 => ⟨S160000, .f32⟩
  | 3 => ⟨S512x512, .f32⟩
  | 4 => ⟨S512, .f32⟩
  | 5 => ⟨S512x512, .f32⟩
  | 6 => ⟨S512, .f32⟩
  | 7 => ⟨S3x512x256, .f32⟩
  | 8 => ⟨S256, .f32⟩
  | 9 => ⟨S1x160000, .i32⟩
  | 10 => ⟨S160000, .i32⟩
  | 11 => ⟨S1x160000, .i32⟩
  | 12 => ⟨S160000, .i32⟩
  | 13 => ⟨S10000, .i32⟩
  | 14 => ⟨S170000, .i32⟩
  | 15 => ⟨S170000, .i32⟩
  | 16 => ⟨S_, .f32⟩
  | 17 => ⟨S10000, .f32⟩
  | 18 => ⟨S170000, .f32⟩
  | 19 => ⟨S_, .f32⟩
  | 20 => ⟨S10000, .f32⟩
  | 21 => ⟨S170000x1, .i32⟩
  | 22 => ⟨S10000, .f32⟩
  | 23 => ⟨S_, .f32⟩
  | 24 => ⟨S10000, .f32⟩
  | 25 => ⟨S10000, .i1⟩
  | 26 => ⟨S10000, .f32⟩
  | 27 => ⟨S_, .f32⟩
  | 28 => ⟨S_, .f32⟩
  | 29 => ⟨S10000, .f32⟩
  | 30 => ⟨S10000, .f32⟩
  | 31 => ⟨S_, .i32⟩
  | 32 => ⟨S170000, .i32⟩
  | 33 => ⟨S170000, .i1⟩
  | 34 => ⟨S_, .i32⟩
  | 35 => ⟨S170000, .i32⟩
  | 36 => ⟨S170000, .i32⟩
  | 37 => ⟨S170000, .i32⟩
  | 38 => ⟨S170000x1, .i32⟩
  | 39 => ⟨S170000, .f32⟩
  | 40 => ⟨S170000, .f32⟩
  | 41 => ⟨S_, .i32⟩
  | 42 => ⟨S170000, .i32⟩
  | 43 => ⟨S170000, .i1⟩
  | 44 => ⟨S_, .i32⟩
  | 45 => ⟨S170000, .i32⟩
  | 46 => ⟨S170000, .i32⟩
  | 47 => ⟨S170000, .i32⟩
  | 48 => ⟨S170000x1, .i32⟩
  | 49 => ⟨S170000, .f32⟩
  | 50 => ⟨S170000, .f32⟩
  | 51 => ⟨S_, .f32⟩
  | 52 => ⟨S10240x10240, .f32⟩
  | 53 => ⟨S_, .i32⟩
  | 54 => ⟨S170000, .i32⟩
  | 55 => ⟨S170000, .i1⟩
  | 56 => ⟨S_, .i32⟩
  | 57 => ⟨S170000, .i32⟩
  | 58 => ⟨S170000, .i32⟩
  | 59 => ⟨S170000, .i32⟩
  | 60 => ⟨S_, .i32⟩
  | 61 => ⟨S170000, .i32⟩
  | 62 => ⟨S170000, .i1⟩
  | 63 => ⟨S_, .i32⟩
  | 64 => ⟨S170000, .i32⟩
  | 65 => ⟨S170000, .i32⟩
  | 66 => ⟨S170000, .i32⟩
  | 67 => ⟨S170000x1, .i32⟩
  | 68 => ⟨S170000x1, .i32⟩
  | 69 => ⟨S170000x2, .i32⟩
  | 70 => ⟨S10240x10240, .f32⟩
  | 71 => ⟨S10240x10240, .bf16⟩
  | 72 => ⟨S160000, .i1⟩
  | 73 => ⟨S_, .f32⟩
  | 74 => ⟨S160000, .f32⟩
  | 75 => ⟨S160000, .f32⟩
  | 76 => ⟨S_, .f32⟩
  | 77 => ⟨S10000, .f32⟩
  | 78 => ⟨S160000x1, .i32⟩
  | 79 => ⟨S10000, .f32⟩
  | 80 => ⟨S_, .f32⟩
  | 81 => ⟨S10000, .f32⟩
  | 82 => ⟨S10000, .i1⟩
  | 83 => ⟨S10000, .f32⟩
  | 84 => ⟨S_, .f32⟩
  | 85 => ⟨S_, .f32⟩
  | 86 => ⟨S10000, .f32⟩
  | 87 => ⟨S10000, .f32⟩
  | 88 => ⟨S_, .i32⟩
  | 89 => ⟨S160000, .i32⟩
  | 90 => ⟨S160000, .i1⟩
  | 91 => ⟨S_, .i32⟩
  | 92 => ⟨S160000, .i32⟩
  | 93 => ⟨S160000, .i32⟩
  | 94 => ⟨S160000, .i32⟩
  | 95 => ⟨S160000x1, .i32⟩
  | 96 => ⟨S160000, .f32⟩
  | 97 => ⟨S160000, .f32⟩
  | 98 => ⟨S_, .i32⟩
  | 99 => ⟨S160000, .i32⟩
  | 100 => ⟨S160000, .i1⟩
  | 101 => ⟨S_, .i32⟩
  | 102 => ⟨S160000, .i32⟩
  | 103 => ⟨S160000, .i32⟩
  | 104 => ⟨S160000, .i32⟩
  | 105 => ⟨S160000x1, .i32⟩
  | 106 => ⟨S160000, .f32⟩
  | 107 => ⟨S160000, .f32⟩
  | 108 => ⟨S_, .f32⟩
  | 109 => ⟨S10240x10240, .f32⟩
  | 110 => ⟨S160000, .f32⟩
  | 111 => ⟨S_, .i32⟩
  | 112 => ⟨S160000, .i32⟩
  | 113 => ⟨S160000, .i1⟩
  | 114 => ⟨S_, .i32⟩
  | 115 => ⟨S160000, .i32⟩
  | 116 => ⟨S160000, .i32⟩
  | 117 => ⟨S160000, .i32⟩
  | 118 => ⟨S_, .i32⟩
  | 119 => ⟨S160000, .i32⟩
  | 120 => ⟨S160000, .i1⟩
  | 121 => ⟨S_, .i32⟩
  | 122 => ⟨S160000, .i32⟩
  | 123 => ⟨S160000, .i32⟩
  | 124 => ⟨S160000, .i32⟩
  | 125 => ⟨S160000x1, .i32⟩
  | 126 => ⟨S160000x1, .i32⟩
  | 127 => ⟨S160000x2, .i32⟩
  | _ => ⟨S10000x512, .f32⟩

abbrev hbmTy0_1 (i : Nat) : BufTy := match i % 128 with
  | 0 => ⟨S10240x10240, .f32⟩
  | 1 => ⟨S10240x10240, .bf16⟩
  | 2 => ⟨S_, .f32⟩
  | 3 => ⟨S10240x512, .f32⟩
  | 4 => ⟨S_, .i32⟩
  | 5 => ⟨S1, .i32⟩
  | 6 => ⟨S10240x512, .f32⟩
  | 7 => ⟨S10240x512, .bf16⟩
  | 8 => ⟨S512x512, .bf16⟩
  | 9 => ⟨S512x512, .bf16⟩
  | 10 => ⟨S1x512x256, .f32⟩
  | 11 => ⟨S512x256, .f32⟩
  | 12 => ⟨S512x256, .bf16⟩
  | 13 => ⟨S1x512x256, .f32⟩
  | 14 => ⟨S512x256, .f32⟩
  | 15 => ⟨S512x256, .bf16⟩
  | 16 => ⟨S1x512x256, .f32⟩
  | 17 => ⟨S512x256, .f32⟩
  | 18 => ⟨S512x256, .bf16⟩
  | 19 => ⟨S10240x512, .bf16⟩
  | 20 => ⟨S1x512, .f32⟩
  | 21 => ⟨S10240x512, .bf16⟩
  | 22 => ⟨S10240x512, .bf16⟩
  | 23 => ⟨S1x512, .f32⟩
  | 24 => ⟨S10240x512, .bf16⟩
  | 25 => ⟨S10240x512, .bf16⟩
  | 26 => ⟨S10240x512, .bf16⟩
  | 27 => ⟨S1x256, .f32⟩
  | 28 => ⟨S10240x256, .f32⟩
  | 29 => ⟨S10000x256, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x2048, .bf16⟩
  | .local _ .vmem, ⟨7, _⟩ => ⟨S1024x2048, .bf16⟩
  | .local _ .vmem, ⟨8, _⟩ => ⟨S10240x512, .bf16⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .bf16⟩
  | .local _ .vmem, ⟨14, _⟩ => ⟨S1024x512, .bf16⟩
  | .local _ .vmem, ⟨15, _⟩ => ⟨S512x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .f32⟩
  | .local _ .vmem, ⟨19, _⟩ => ⟨S1024x2048, .bf16⟩
  | .local _ .vmem, ⟨20, _⟩ => ⟨S1024x2048, .bf16⟩
  | .local _ .vmem, ⟨21, _⟩ => ⟨S10240x512, .bf16⟩
  | .local _ .vmem, ⟨22, _⟩ => ⟨S1x512, .f32⟩
  | .local _ .vmem, ⟨23, _⟩ => ⟨S1024x512, .bf16⟩
  | .local _ .vmem, ⟨24, _⟩ => ⟨S1024x512, .bf16⟩
  | .local _ .vmem, ⟨25, _⟩ => ⟨S1024x512, .f32⟩
  | .local _ .vmem, ⟨26, _⟩ => ⟨S1024x2048, .bf16⟩
  | .local _ .vmem, ⟨27, _⟩ => ⟨S1024x2048, .bf16⟩
  | .local _ .vmem, ⟨28, _⟩ => ⟨S10240x512, .bf16⟩
  | .local _ .vmem, ⟨29, _⟩ => ⟨S1024x512, .bf16⟩
  | .local _ .vmem, ⟨30, _⟩ => ⟨S1024x512, .bf16⟩
  | .local _ .vmem, ⟨31, _⟩ => ⟨S1024x512, .f32⟩
  | .local _ .vmem, ⟨32, _⟩ => ⟨S1024x2048, .bf16⟩
  | .local _ .vmem, ⟨33, _⟩ => ⟨S1024x2048, .bf16⟩
  | .local _ .vmem, ⟨34, _⟩ => ⟨S10240x512, .bf16⟩
  | .local _ .vmem, ⟨35, _⟩ => ⟨S1024x512, .bf16⟩
  | .local _ .vmem, ⟨36, _⟩ => ⟨S1024x512, .bf16⟩
  | .local _ .vmem, ⟨37, _⟩ => ⟨S1024x512, .bf16⟩
  | .local _ .vmem, ⟨38, _⟩ => ⟨S1024x512, .bf16⟩
  | .local _ .vmem, ⟨39, _⟩ => ⟨S1024x512, .f32⟩
  | .local _ .vmem, ⟨40, _⟩ => ⟨S1024x512, .bf16⟩
  | .local _ .vmem, ⟨41, _⟩ => ⟨S1024x512, .bf16⟩
  | .local _ .vmem, ⟨42, _⟩ => ⟨S1024x512, .bf16⟩
  | .local _ .vmem, ⟨43, _⟩ => ⟨S1024x512, .bf16⟩
  | .local _ .vmem, ⟨44, _⟩ => ⟨S1024x512, .bf16⟩
  | .local _ .vmem, ⟨45, _⟩ => ⟨S1024x512, .bf16⟩
  | .local _ .vmem, ⟨46, _⟩ => ⟨S512x256, .bf16⟩
  | .local _ .vmem, ⟨47, _⟩ => ⟨S512x256, .bf16⟩
  | .local _ .vmem, ⟨48, _⟩ => ⟨S512x256, .bf16⟩
  | .local _ .vmem, ⟨49, _⟩ => ⟨S1x256, .f32⟩
  | .local _ .vmem, ⟨50, _⟩ => ⟨S1024x256, .f32⟩
  | .local _ .vmem, ⟨51, _⟩ => ⟨S1024x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_call1_v0 : Ref sig .tc := ⟨.hbm, 74, rfl⟩
abbrev main_v49 : Ref sig .tc := ⟨.hbm, 75, rfl⟩
abbrev main_cst_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_14 : Ref sig .tc := ⟨.hbm, 84, rfl⟩
abbrev main_call2_v0 : Ref sig .tc := ⟨.hbm, 85, rfl⟩
abbrev main_call2_v1 : Ref sig .tc := ⟨.hbm, 86, rfl⟩
abbrev main_v56 : Ref sig .tc := ⟨.hbm, 87, rfl⟩
abbrev main_c_15 : Ref sig .tc := ⟨.hbm, 88, rfl⟩
abbrev main_v57 : Ref sig .tc := ⟨.hbm, 89, rfl⟩
abbrev main_v58 : Ref sig .tc := ⟨.hbm, 90, rfl⟩
abbrev main_c_16 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_17 : Ref sig .tc := ⟨.hbm, 98, rfl⟩
abbrev main_v65 : Ref sig .tc := ⟨.hbm, 99, rfl⟩
abbrev main_v66 : Ref sig .tc := ⟨.hbm, 100, rfl⟩
abbrev main_c_18 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_19 : Ref sig .tc := ⟨.hbm, 108, rfl⟩
abbrev main_v73 : Ref sig .tc := ⟨.hbm, 109, rfl⟩
abbrev main_v74 : Ref sig .tc := ⟨.hbm, 110, rfl⟩
abbrev main_c_20 : Ref sig .tc := ⟨.hbm, 111, rfl⟩
abbrev main_v75 : Ref sig .tc := ⟨.hbm, 112, rfl⟩
abbrev main_v76 : Ref sig .tc := ⟨.hbm, 113, rfl⟩
abbrev main_c_21 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_22 : Ref sig .tc := ⟨.hbm, 118, rfl⟩
abbrev main_v80 : Ref sig .tc := ⟨.hbm, 119, rfl⟩
abbrev main_v81 : Ref sig .tc := ⟨.hbm, 120, rfl⟩
abbrev main_c_23 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_24 : Ref sig .tc := ⟨.hbm, 130, rfl⟩
abbrev main_v90 : Ref sig .tc := ⟨.hbm, 131, rfl⟩
abbrev main_c_25 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc5_scratch0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg6_0 : Ref sig .tc := ⟨.vmem, 49, rfl⟩
abbrev cc6_stg7_0 : Ref sig .tc := ⟨.vmem, 50, rfl⟩
abbrev cc6_stg7_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem2_1 : DmaSem sig := 39
abbrev cc6_sem3_0 : DmaSem sig := 40
abbrev cc6_sem4_0 : DmaSem sig := 41
abbrev cc6_sem5_0 : DmaSem sig := 42
abbrev cc6_sem6_0 : DmaSem sig := 43
abbrev cc6_sem7_0 : DmaSem sig := 44
abbrev cc6_sem7_1 : DmaSem sig := 45

abbrev nD : Nat := 1
abbrev τ : Topo := Topo.v7x

variable {F : FTy → Type} [FloatOps F]

abbrev grid0 : Pipeline.Grid := ⟨2, ![10, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![10, 5], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![10, 1], ![false, false]⟩

def k2_cond2 (i : grid2.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![10, 5], ![false, false]⟩

def k3_mult1 (i : grid3.Coords) : BitVec 32 :=
  let arg1 : BitVec 32 := BitVec.ofNat 32 (i 1).val
  let c2048_i32 : BitVec 32 := 2048#32
  let v5 : BitVec 32 := Scalar.muli arg1 c2048_i32
  v5
def k3_off1 (i : grid3.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k3_cond2 (i : grid3.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S10240x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![10, 5], ![false, false]⟩

def k4_mult1 (i : grid4.Coords) : BitVec 32 :=
  let arg1 : BitVec 32 := BitVec.ofNat 32 (i 1).val
  let c2048_i32 : BitVec 32 := 2048#32
  let v5 : BitVec 32 := Scalar.muli arg1 c2048_i32
  v5
def k4_off1 (i : grid4.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k4_cond2 (i : grid4.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S10240x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![10, 5], ![false, false]⟩

def k5_mult1 (i : grid5.Coords) : BitVec 32 :=
  let arg1 : BitVec 32 := BitVec.ofNat 32 (i 1).val
  let c2048_i32 : BitVec 32 := 2048#32
  let v5 : BitVec 32 := Scalar.muli arg1 c2048_i32
  v5
def k5_off1 (i : grid5.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k5_cond2 (i : grid5.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S10240x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1024x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S512x256 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S512x256 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x256 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S1024x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S10000 : S_.BroadcastsInDim S10000 (![] : Fin 0 → Fin S10000.rank)
  bcast_S170000_S170000x1_0 : S170000.BroadcastsInDim S170000x1 (![0] : Fin 1 → Fin S170000x1.rank)
  bcast_S_S170000 : S_.BroadcastsInDim S170000 (![] : Fin 0 → Fin S170000.rank)
  bcast_S_S10240x10240 : S_.BroadcastsInDim S10240x10240 (![] : Fin 0 → Fin S10240x10240.rank)
  concatenates_S170000x1_S170000x1_S170000x2_d1 : Shape.Concatenates [S170000x1, S170000x1] S170000x2 1
  bitsLt_bf16_f32 : FTy.bits .bf16 < FTy.bits .f32
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  bcast_S_S10240x512 : S_.BroadcastsInDim S10240x512 (![] : Fin 0 → Fin S10240x512.rank)
  bcast_S_S1 : S_.BroadcastsInDim S1 (![] : Fin 0 → Fin S1.rank)
  slices_S3x512x256_S1x512x256_0_0_0 : S3x512x256.Slices ![0, 0, 0] S1x512x256
  shapeCasts_S1x512x256_S512x256 : S1x512x256.ShapeCasts S512x256
  slices_S3x512x256_S1x512x256_1_0_0 : S3x512x256.Slices ![1, 0, 0] S1x512x256
  slices_S3x512x256_S1x512x256_2_0_0 : S3x512x256.Slices ![2, 0, 0] S1x512x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1024x512_S1024x512_0_0 : (Rect.unit (s := S1024x512) ![0, 0] S1024x512.size inb_S1024x512_S1024x512_0_0).PackedRows (EltTy.packing .bf16)
  shapeCasts_S512_S1x512 : S512.ShapeCasts S1x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  slices_S10240x256_S10000x256_0_0 : S10240x256.Slices ![0, 0] S10000x256
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S10240x10240_S170000x2_S170000_n_01_01_1_wf : ScatterDims.WF S10240x10240 S170000x2 S170000 [] [0, 1] [0, 1] 1
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  scatter_S10240x10240_S160000x2_S160000_n_01_01_1_wf : ScatterDims.WF S10240x10240 S160000x2 S160000 [] [0, 1] [0, 1] 1
  scatter_S10240x512_S1_S10000x512_01_n_0_0_wf : ScatterDims.WF S10240x512 S1 S10000x512 [0, 1] [] [0] 0
  dot_S1024x512_S512x512_S1024x512_1_0_0_1_n_n_wf : DotDims.WF S1024x512 S512x512 S1024x512 [1] [0] [0] [1] [] []
  dot_S1024x2048_S2048x512_S1024x512_1_0_0_1_n_n_wf : DotDims.WF S1024x2048 S2048x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S10240x512.size a
  hwx0_0 : ∀ i : grid0.Coords, EltTy.bits .bf16 = 32 ∨ (Rect.block (s := S10240x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S10240x512.size a
  hwx0_2 : ∀ i : grid0.Coords, EltTy.bits .bf16 = 32 ∨ (Rect.block (s := S10240x512) S1024x512.size (cc0_transform_2 i) (hinb0_2 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x512.size a ≤ S10240x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S10240x10240.size a
  hwx1_0 : ∀ i : grid1.Coords, EltTy.bits .bf16 = 32 ∨ (Rect.block (s := S10240x10240) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x512.size a ≤ S10240x512.size a
  hwx1_1 : ∀ i : grid1.Coords, EltTy.bits .bf16 = 32 ∨ (Rect.block (s := S10240x512) S10240x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S10240x512.size a
  hwx1_3 : ∀ i : grid1.Coords, EltTy.bits .bf16 = 32 ∨ (Rect.block (s := S10240x512) S1024x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S10240x512.size a
  hwx2_0 : ∀ i : grid2.Coords, EltTy.bits .bf16 = 32 ∨ (Rect.block (s := S10240x512) S1024x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S10240x512.size a
  hwx2_2 : ∀ i : grid2.Coords, EltTy.bits .bf16 = 32 ∨ (Rect.block (s := S10240x512) S1024x512.size (cc2_transform_2 i) (hinb2_2 i)).WholeWords (EltTy.packing .bf16)
  hrank3 : 0 < grid3.rank
  k3_mult1_dvd : ∀ i : grid3.Coords, 2048 ∣ (k3_mult1 i).toNat
  k3_off1_inb : ∀ i : grid3.Coords, ∀ a, (k3_off1 i) a + S2048x512.size a ≤ S10240x512.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S10240x10240.size a
  hwx3_0 : ∀ i : grid3.Coords, EltTy.bits .bf16 = 32 ∨ (Rect.block (s := S10240x10240) S1024x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x512.size a ≤ S10240x512.size a
  hwx3_1 : ∀ i : grid3.Coords, EltTy.bits .bf16 = 32 ∨ (Rect.block (s := S10240x512) S10240x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S10240x512.size a
  hwx3_3 : ∀ i : grid3.Coords, EltTy.bits .bf16 = 32 ∨ (Rect.block (s := S10240x512) S1024x512.size (cc3_transform_3 i) (hinb3_3 i)).WholeWords (EltTy.packing .bf16)
  hrank4 : 0 < grid4.rank
  k4_mult1_dvd : ∀ i : grid4.Coords, 2048 ∣ (k4_mult1 i).toNat
  k4_off1_inb : ∀ i : grid4.Coords, ∀ a, (k4_off1 i) a + S2048x512.size a ≤ S10240x512.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S10240x10240.size a
  hwx4_0 : ∀ i : grid4.Coords, EltTy.bits .bf16 = 32 ∨ (Rect.block (s := S10240x10240) S1024x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10240x512.size a ≤ S10240x512.size a
  hwx4_1 : ∀ i : grid4.Coords, EltTy.bits .bf16 = 32 ∨ (Rect.block (s := S10240x512) S10240x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x512.size a ≤ S10240x512.size a
  hwx4_2 : ∀ i : grid4.Coords, EltTy.bits .bf16 = 32 ∨ (Rect.block (s := S10240x512) S1024x512.size (cc4_transform_2 i) (hinb4_2 i)).WholeWords (EltTy.packing .bf16)
  hrank5 : 0 < grid5.rank
  k5_mult1_dvd : ∀ i : grid5.Coords, 2048 ∣ (k5_mult1 i).toNat
  k5_off1_inb : ∀ i : grid5.Coords, ∀ a, (k5_off1 i) a + S2048x512.size a ≤ S10240x512.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S10240x10240.size a
  hwx5_0 : ∀ i : grid5.Coords, EltTy.bits .bf16 = 32 ∨ (Rect.block (s := S10240x10240) S1024x2048.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10240x512.size a ≤ S10240x512.size a
  hwx5_1 : ∀ i : grid5.Coords, EltTy.bits .bf16 = 32 ∨ (Rect.block (s := S10240x512) S10240x512.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x512.size a ≤ S10240x512.size a
  hwx5_2 : ∀ i : grid5.Coords, EltTy.bits .bf16 = 32 ∨ (Rect.block (s := S10240x512) S1024x512.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x512.size a ≤ S10240x512.size a
  hwx5_3 : ∀ i : grid5.Coords, EltTy.bits .bf16 = 32 ∨ (Rect.block (s := S10240x512) S1024x512.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x512.size a ≤ S10240x512.size a
  hwx6_0 : ∀ i : grid6.Coords, EltTy.bits .bf16 = 32 ∨ (Rect.block (s := S10240x512) S1024x512.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x512.size a ≤ S10240x512.size a
  hwx6_1 : ∀ i : grid6.Coords, EltTy.bits .bf16 = 32 ∨ (Rect.block (s := S10240x512) S1024x512.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x512.size a ≤ S10240x512.size a
  hwx6_2 : ∀ i : grid6.Coords, EltTy.bits .bf16 = 32 ∨ (Rect.block (s := S10240x512) S1024x512.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x256.size a ≤ S512x256.size a
  hwx6_3 : ∀ i : grid6.Coords, EltTy.bits .bf16 = 32 ∨ (Rect.block (s := S512x256) S512x256.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S512x256.size a ≤ S512x256.size a
  hwx6_4 : ∀ i : grid6.Coords, EltTy.bits .bf16 = 32 ∨ (Rect.block (s := S512x256) S512x256.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x256.size a ≤ S512x256.size a
  hwx6_5 : ∀ i : grid6.Coords, EltTy.bits .bf16 = 32 ∨ (Rect.block (s := S512x256) S512x256.size (cc6_transform_5 i) (hinb6_5 i)).WholeWords (EltTy.packing .bf16)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1024x256.size a ≤ S10240x256.size a
  hwx6_7 : ∀ i : grid6.Coords, EltTy.bits .f32 = 32 ∨ (Rect.block (s := S10240x256) S1024x256.size (cc6_transform_7 i) (hinb6_7 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def scatter_S10240x512_S1_S10000x512_01_n_0_0 : ScatterDims S10240x512 S1 S10000x512 where
  updateWindowDims := [0, 1]
  insertedWindowDims := []
  scatterDimsToOperandDims := [0]
  indexVectorDim := 0
  wf := scatter_S10240x512_S1_S10000x512_01_n_0_0_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v93) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v94) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v105) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v47) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v105) S10240x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v106) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v107) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v107) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v95) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v108) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v47) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v108) S10240x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v109) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v110) S1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v89) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v110) S10240x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v111) S1024x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v89) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S10240x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v110) S1024x512.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v112) S1024x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v110) S1024x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v111) S1024x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v112) S1024x512.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v98) S512x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v101) S512x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v104) S512x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v113) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v114) S1024x256.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S160000 : Shape := ⟨1, ![160000]⟩
abbrev S512x512 : Shape := ⟨2, ![512, 512]⟩
abbrev S512 : Shape := ⟨1, ![512]⟩
abbrev S3x512x256 : Shape := ⟨3, ![3, 512, 256]⟩
abbrev S256 : Shape := ⟨1, ![256]⟩
abbrev S1x160000 : Shape := ⟨2, ![1, 160000]⟩
abbrev S10000 : Shape := ⟨1, ![10000]⟩
abbrev S170000 : Shape := ⟨1, ![170000]⟩
abbrev S_ : Shape := ⟨0, ![]⟩
abbrev S170000x1 : Shape := ⟨2, ![170000, 1]⟩
abbrev S170000x512 : Shape := ⟨2, ![170000, 512]⟩
abbrev S1x512 : Shape := ⟨2, ![1, 512]⟩
abbrev S160000x1 : Shape := ⟨2, ![160000, 1]⟩
abbrev S1x512x256 : Shape := ⟨3, ![1, 512, 256]⟩
abbrev S512x256 : Shape := ⟨2, ![512, 256]⟩
abbrev S10000x256 : Shape := ⟨2, ![10000, 256]⟩
abbrev S160000x512 : Shape := ⟨2, ![160000, 512]⟩
abbrev S1x256 : Shape := ⟨2, ![1, 256]⟩

abbrev nBuf : Space → Nat
  | .hbm => 259
  | .vmem => 0
  | .smem => 0
  | _ => 0

abbrev hbmTy0_0 (i : Nat) : BufTy := match i % 128 with
  | 0 => ⟨S10000x512, .f32⟩
  | 1 => ⟨S2x160000, .i32⟩
  | 2 => ⟨S160000, .f32⟩
  | 3 => ⟨S512x512, .f32⟩
  | 4 => ⟨S512, .f32⟩
  | 5 => ⟨S512x512, .f32⟩
  | 6 => ⟨S512, .f32⟩
  | 7 => ⟨S3x512x256, .f32⟩
  | 8 => ⟨S256, .f32⟩
  | 9 => ⟨S1x160000, .i32⟩
  | 10 => ⟨S160000, .i32⟩
  | 11 => ⟨S1x160000, .i32⟩
  | 12 => ⟨S160000, .i32⟩
  | 13 => ⟨S10000, .i32⟩
  | 14 => ⟨S170000, .i32⟩
  | 15 => ⟨S170000, .i32⟩
  | 16 => ⟨S_, .f32⟩
  | 17 => ⟨S10000, .f32⟩
  | 18 => ⟨S170000, .f32⟩
  | 19 => ⟨S_, .f32⟩
  | 20 => ⟨S10000, .f32⟩
  | 21 => ⟨S170000x1, .i32⟩
  | 22 => ⟨S10000, .f32⟩
  | 23 => ⟨S_, .f32⟩
  | 24 => ⟨S10000, .f32⟩
  | 25 => ⟨S10000, .i1⟩
  | 26 => ⟨S10000, .f32⟩
  | 27 => ⟨S_, .f32⟩
  | 28 => ⟨S_, .f32⟩
  | 29 => ⟨S10000, .f32⟩
  | 30 => ⟨S10000, .f32⟩
  | 31 => ⟨S_, .i32⟩
  | 32 => ⟨S170000, .i32⟩
  | 33 => ⟨S170000, .i1⟩
  | 34 => ⟨S_, .i32⟩
  | 35 => ⟨S170000, .i32⟩
  | 36 => ⟨S170000, .i32⟩
  | 37 => ⟨S170000, .i32⟩
  | 38 => ⟨S170000x1, .i32⟩
  | 39 => ⟨S170000, .f32⟩
  | 40 => ⟨S170000, .f32⟩
  | 41 => ⟨S_, .i32⟩
  | 42 => ⟨S170000, .i32⟩
  | 43 => ⟨S170000, .i1⟩
  | 44 => ⟨S_, .i32⟩
  | 45 => ⟨S170000, .i32⟩
  | 46 => ⟨S170000, .i32⟩
  | 47 => ⟨S170000, .i32⟩
  | 48 => ⟨S170000x1, .i32⟩
  | 49 => ⟨S170000, .f32⟩
  | 50 => ⟨S170000, .f32⟩
  | 51 => ⟨S10000x512, .f32⟩
  | 52 => ⟨S170000x1, .f32⟩
  | 53 => ⟨S_, .i32⟩
  | 54 => ⟨S170000, .i32⟩
  | 55 => ⟨S170000, .i1⟩
  | 56 => ⟨S_, .i32⟩
  | 57 => ⟨S170000, .i32⟩
  | 58 => ⟨S170000, .i32⟩
  | 59 => ⟨S170000, .i32⟩
  | 60 => ⟨S170000x1, .i32⟩
  | 61 => ⟨S170000x512, .f32⟩
  | 62 => ⟨S170000x512, .f32⟩
  | 63 => ⟨S170000x512, .f32⟩
  | 64 => ⟨S_, .f32⟩
  | 65 => ⟨S10000x512, .f32⟩
  | 66 => ⟨S170000x1, .i32⟩
  | 67 => ⟨S10000x512, .f32⟩
  | 68 => ⟨S1x512, .f32⟩
  | 69 => ⟨S10000x512, .f32⟩
  | 70 => ⟨S10000x512, .f32⟩
  | 71 => ⟨S_, .f32⟩
  | 72 => ⟨S10000x512, .f32⟩
  | 73 => ⟨S10000x512, .f32⟩
  | 74 => ⟨S_, .f32⟩
  | 75 => ⟨S10000x512, .f32⟩
  | 76 => ⟨S10000x512, .f32⟩
  | 77 => ⟨S_, .f32⟩
  | 78 => ⟨S10000x512, .f32⟩
  | 79 => ⟨S10000x512, .f32⟩
  | 80 => ⟨S10000x512, .f32⟩
  | 81 => ⟨S_, .f32⟩
  | 82 => ⟨S10000x512, .f32⟩
  | 83 => ⟨S10000x512, .f32⟩
  | 84 => ⟨S10000x512, .f32⟩
  | 85 => ⟨S10000, .i32⟩
  | 86 => ⟨S170000, .i32⟩
  | 87 => ⟨S170000, .i32⟩
  | 88 => ⟨S_, .f32⟩
  | 89 => ⟨S10000, .f32⟩
  | 90 => ⟨S170000, .f32⟩
  | 91 => ⟨S_, .f32⟩
  | 92 => ⟨S10000, .f32⟩
  | 93 => ⟨S170000x1, .i32⟩
  | 94 => ⟨S10000, .f32⟩
  | 95 => ⟨S_, .f32⟩
  | 96 => ⟨S10000, .f32⟩
  | 97 => ⟨S10000, .i1⟩
  | 98 => ⟨S10000, .f32⟩
  | 99 => ⟨S_, .f32⟩
  | 100 => ⟨S_, .f32⟩
  | 101 => ⟨S10000, .f32⟩
  | 102 => ⟨S10000, .f32⟩
  | 103 => ⟨S_, .i32⟩
  | 104 => ⟨S170000, .i32⟩
  | 105 => ⟨S170000, .i1⟩
  | 106 => ⟨S_, .i32⟩
  | 107 => ⟨S170000, .i32⟩
  | 108 => ⟨S170000, .i32⟩
  | 109 => ⟨S170000, .i32⟩
  | 110 => ⟨S170000x1, .i32⟩
  | 111 => ⟨S170000, .f32⟩
  | 112 => ⟨S170000, .f32⟩
  | 113 => ⟨S_, .i32⟩
  | 114 => ⟨S170000, .i32⟩
  | 115 => ⟨S170000, .i1⟩
  | 116 => ⟨S_, .i32⟩
  | 117 => ⟨S170000, .i32⟩
  | 118 => ⟨S170000, .i32⟩
  | 119 => ⟨S170000, .i32⟩
  | 120 => ⟨S170000x1, .i32⟩
  | 121 => ⟨S170000, .f32⟩
  | 122 => ⟨S170000, .f32⟩
  | 123 => ⟨S10000x512, .f32⟩
  | 124 => ⟨S170000x1, .f32⟩
  | 125 => ⟨S_, .i32⟩
  | 126 => ⟨S170000, .i32⟩
  | 127 => ⟨S170000, .i1⟩
  | _ => ⟨S10000x512, .f32⟩

abbrev hbmTy0_1 (i : Nat) : BufTy := match i % 128 with
  | 0 => ⟨S_, .i32⟩
  | 1 => ⟨S170000, .i32⟩
  | 2 => ⟨S170000, .i32⟩
  | 3 => ⟨S170000, .i32⟩
  | 4 => ⟨S170000x1, .i32⟩
  | 5 => ⟨S170000x512, .f32⟩
  | 6 => ⟨S170000x512, .f32⟩
  | 7 => ⟨S170000x512, .f32⟩
  | 8 => ⟨S_, .f32⟩
  | 9 => ⟨S10000x512, .f32⟩
  | 10 => ⟨S170000x1, .i32⟩
  | 11 => ⟨S10000x512, .f32⟩
  | 12 => ⟨S1x512, .f32⟩
  | 13 => ⟨S10000x512, .f32⟩
  | 14 => ⟨S10000x512, .f32⟩
  | 15 => ⟨S_, .f32⟩
  | 16 => ⟨S10000x512, .f32⟩
  | 17 => ⟨S10000x512, .f32⟩
  | 18 => ⟨S_, .f32⟩
  | 19 => ⟨S10000x512, .f32⟩
  | 20 => ⟨S10000x512, .f32⟩
  | 21 => ⟨S_, .f32⟩
  | 22 => ⟨S10000x512, .f32⟩
  | 23 => ⟨S10000x512, .f32⟩
  | 24 => ⟨S10000x512, .f32⟩
  | 25 => ⟨S_, .f32⟩
  | 26 => ⟨S10000x512, .f32⟩
  | 27 => ⟨S10000x512, .f32⟩
  | 28 => ⟨S10000x512, .f32⟩
  | 29 => ⟨S160000, .i1⟩
  | 30 => ⟨S_, .f32⟩
  | 31 => ⟨S160000, .f32⟩
  | 32 => ⟨S160000, .f32⟩
  | 33 => ⟨S_, .f32⟩
  | 34 => ⟨S10000, .f32⟩
  | 35 => ⟨S160000x1, .i32⟩
  | 36 => ⟨S10000, .f32⟩
  | 37 => ⟨S_, .f32⟩
  | 38 => ⟨S10000, .f32⟩
  | 39 => ⟨S10000, .i1⟩
  | 40 => ⟨S10000, .f32⟩
  | 41 => ⟨S_, .f32⟩
  | 42 => ⟨S_, .f32⟩
  | 43 => ⟨S10000, .f32⟩
  | 44 => ⟨S10000, .f32⟩
  | 45 => ⟨S_, .i32⟩
  | 46 => ⟨S160000, .i32⟩
  | 47 => ⟨S160000, .i1⟩
  | 48 => ⟨S_, .i32⟩
  | 49 => ⟨S160000, .i32⟩
  | 50 => ⟨S160000, .i32⟩
  | 51 => ⟨S160000, .i32⟩
  | 52 => ⟨S160000x1, .i32⟩
  | 53 => ⟨S160000, .f32⟩
  | 54 => ⟨S160000, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S160000, .f32⟩
  | 64 => ⟨S160000, .f32⟩
  | 65 => ⟨S1x512x256, .f32⟩
  | 66 => ⟨S512x256, .f32⟩
  | 67 => ⟨S10000x256, .f32⟩
  | 68 => ⟨S160000x1, .f32⟩
  | 69 => ⟨S_, .i32⟩
  | 70 => ⟨S160000, .i32⟩
  | 71 => ⟨S160000, .i1⟩
  | 72 => ⟨S_, .i32⟩
  | 73 => ⟨S160000, .i32⟩
  | 74 => ⟨S160000, .i32⟩
  | 75 => ⟨S160000, .i32⟩
  | 76 => ⟨S160000x1, .i32⟩
  | 77 => ⟨S160000x512, .f32⟩
  | 78 => ⟨S160000x512, .f32⟩
  | 79 => ⟨S160000x512, .f32⟩
  | 80 => ⟨S_, .f32⟩
  | 81 => ⟨S10000x512, .f32⟩
  | 82 => ⟨S160000x1, .i32⟩
  | 83 => ⟨S10000x512, .f32⟩
  | 84 => ⟨S10000x512, .f32⟩
  | 85 => ⟨S1x512x256, .f32⟩
  | 86 => ⟨S512x256, .f32⟩
  | 87 => ⟨S10000x256, .f32⟩
  | 88 => ⟨S10000x256, .f32⟩
  | 89 => ⟨S160000x1, .f32⟩
  | 90 => ⟨S_, .i32⟩
  | 91 => ⟨S160000, .i32⟩
  | 92 => ⟨S160000, .i1⟩
  | 93 => ⟨S_, .i32⟩
  | 94 => ⟨S160000, .i32⟩
  | 95 => ⟨S160000, .i32⟩
  | 96 => ⟨S160000, .i32⟩
  | 97 => ⟨S160000x1, .i32⟩
  | 98 => ⟨S160000x512, .f32⟩
  | 99 => ⟨S160000x512, .f32⟩
  | 100 => ⟨S160000x512, .f32⟩
  | 101 => ⟨S_, .f32⟩
  | 102 => ⟨S10000x512, .f32⟩
  | 103 => ⟨S160000x1, .i32⟩
  | 104 => ⟨S10000x512, .f32⟩
  | 105 => ⟨S10000x512, .f32⟩
  | 106 => ⟨S_, .f32⟩
  | 107 => ⟨S10000x512, .f32⟩
  | 108 => ⟨S10000x512, .f32⟩
  | 109 => ⟨S10000x512, .f32⟩
  | 110 => ⟨S1x512x256, .f32⟩
  | 111 => ⟨S512x256, .f32⟩
  | 112 => ⟨S10000x256, .f32⟩
  | 113 => ⟨S10000x256, .f32⟩
  | 114 => ⟨S1x256, .f32⟩
  | 115 => ⟨S10000x256, .f32⟩
  | 116 => ⟨S10000x256, .f32⟩
  | 117 => ⟨S_, .f32⟩
  | 118 => ⟨S10000x256, .f32⟩
  | 119 => ⟨S10000x256, .f32⟩
  | 120 => ⟨S_, .f32⟩
  | 121 => ⟨S10000x256, .f32⟩
  | 122 => ⟨S10000x256, .f32⟩
  | 123 => ⟨S_, .f32⟩
  | 124 => ⟨S10000x256, .f32⟩
  | 125 => ⟨S10000x256, .f32⟩
  | 126 => ⟨S10000x256, .f32⟩
  | 127 => ⟨S_, .f32⟩
  | _ => ⟨S10000x512, .f32⟩

abbrev hbmTy0_2 (i : Nat) : BufTy := match i % 128 with
  | 0 => ⟨S10000x256, .f32⟩
  | 1 => ⟨S10000x256, .f32⟩
  | 2 => ⟨S10000x256, .f32⟩
  | _ => ⟨S10000x512, .f32⟩

abbrev hbmTy (i : Nat) : BufTy := match i / 128 with
  | 0 => hbmTy0_0 i
  | 1 => hbmTy0_1 i
  | 2 => hbmTy0_2 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_cst_0 : Ref sig .tc := ⟨.hbm, 74, rfl⟩
abbrev main_call1_v2 : Ref sig .tc := ⟨.hbm, 75, rfl⟩
abbrev main_call1_v3 : Ref sig .tc := ⟨.hbm, 76, rfl⟩
abbrev main_call1_cst_1 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_cst_2 : Ref sig .tc := ⟨.hbm, 81, rfl⟩
abbrev main_call1_v7 : Ref sig .tc := ⟨.hbm, 82, rfl⟩
abbrev main_call1_v8 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_9 : Ref sig .tc := ⟨.hbm, 88, rfl⟩
abbrev main_v53 : Ref sig .tc := ⟨.hbm, 89, rfl⟩
abbrev main_v54 : Ref sig .tc := ⟨.hbm, 90, rfl⟩
abbrev main_cst_10 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_12 : Ref sig .tc := ⟨.hbm, 99, rfl⟩
abbrev main_call2_v0 : Ref sig .tc := ⟨.hbm, 100, rfl⟩
abbrev main_call2_v1 : Ref sig .tc := ⟨.hbm, 101, rfl⟩
abbrev main_v61 : Ref sig .tc := ⟨.hbm, 102, rfl⟩
abbrev main_c_13 : Ref sig .tc := ⟨.hbm, 103, rfl⟩
abbrev main_v62 : Ref sig .tc := ⟨.hbm, 104, rfl⟩
abbrev main_v63 : Ref sig .tc := ⟨.hbm, 105, rfl⟩
abbrev main_c_14 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_15 : Ref sig .tc := ⟨.hbm, 113, rfl⟩
abbrev main_v70 : Ref sig .tc := ⟨.hbm, 114, rfl⟩
abbrev main_v71 : Ref sig .tc := ⟨.hbm, 115, rfl⟩
abbrev main_c_16 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_17 : Ref sig .tc := ⟨.hbm, 125, rfl⟩
abbrev main_v80 : Ref sig .tc := ⟨.hbm, 126, rfl⟩
abbrev main_v81 : Ref sig .tc := ⟨.hbm, 127, rfl⟩
abbrev main_c_18 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_19 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_call3_cst : Ref sig .tc := ⟨.hbm, 143, rfl⟩
abbrev main_call3_v0 : Ref sig .tc := ⟨.hbm, 144, rfl⟩
abbrev main_call3_v1 : Ref sig .tc := ⟨.hbm, 145, rfl⟩
abbrev main_call3_cst_0 : Ref sig .tc := ⟨.hbm, 146, rfl⟩
abbrev main_call3_v2 : Ref sig .tc := ⟨.hbm, 147, rfl⟩
abbrev main_call3_v3 : Ref sig .tc := ⟨.hbm, 148, rfl⟩
abbrev main_call3_cst_1 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_cst_2 : Ref sig .tc := ⟨.hbm, 153, rfl⟩
abbrev main_call3_v7 : Ref sig .tc := ⟨.hbm, 154, rfl⟩
abbrev main_call3_v8 : Ref sig .tc := ⟨.hbm, 155, rfl⟩
abbrev main_v95 : Ref sig .tc := ⟨.hbm, 156, rfl⟩
abbrev main_v96 : Ref sig .tc := ⟨.hbm, 157, rfl⟩
abbrev main_cst_20 : Ref sig .tc := ⟨.hbm, 158, rfl⟩
abbrev main_call4_v0 : Ref sig .tc := ⟨.hbm, 159, rfl⟩
abbrev main_v97 : Ref sig .tc := ⟨.hbm, 160, rfl⟩
abbrev main_cst_21 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_cst_22 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_23 : Ref sig .tc := ⟨.hbm, 169, rfl⟩
abbrev main_call5_v0 : Ref sig .tc := ⟨.hbm, 170, rfl⟩
abbrev main_call5_v1 : Ref sig .tc := ⟨.hbm, 171, rfl⟩
abbrev main_v104 : Ref sig .tc := ⟨.hbm, 172, rfl⟩
abbrev main_c_24 : Ref sig .tc := ⟨.hbm, 173, rfl⟩
abbrev main_v105 : Ref sig .tc := ⟨.hbm, 174, rfl⟩
abbrev main_v106 : Ref sig .tc := ⟨.hbm, 175, rfl⟩
abbrev main_c_25 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_c_26 : Ref sig .tc := ⟨.hbm, 183, rfl⟩
abbrev main_v113 : Ref sig .tc := ⟨.hbm, 184, rfl⟩
abbrev main_v114 : Ref sig .tc := ⟨.hbm, 185, rfl⟩
abbrev main_c_27 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_c_28 : Ref sig .tc := ⟨.hbm, 197, rfl⟩
abbrev main_v125 : Ref sig .tc := ⟨.hbm, 198, rfl⟩
abbrev main_v126 : Ref sig .tc := ⟨.hbm, 199, rfl⟩
abbrev main_c_29 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_cst_30 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_c_31 : Ref sig .tc := ⟨.hbm, 218, rfl⟩
abbrev main_v143 : Ref sig .tc := ⟨.hbm, 219, rfl⟩
abbrev main_v144 : Ref sig .tc := ⟨.hbm, 220, rfl⟩
abbrev main_c_32 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_cst_33 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_cst_34 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_call6_cst : Ref sig .tc := ⟨.hbm, 245, rfl⟩
abbrev main_call6_v0 : Ref sig .tc := ⟨.hbm, 246, rfl⟩
abbrev main_call6_v1 : Ref sig .tc := ⟨.hbm, 247, rfl⟩
abbrev main_call6_cst_0 : Ref sig .tc := ⟨.hbm, 248, rfl⟩
abbrev main_call6_v2 : Ref sig .tc := ⟨.hbm, 249, rfl⟩
abbrev main_call6_v3 : Ref sig .tc := ⟨.hbm, 250, rfl⟩
abbrev main_call6_cst_1 : Ref sig .tc := ⟨.hbm, 251, rfl⟩
abbrev main_call6_v4 : Ref sig .tc := ⟨.hbm, 252, rfl⟩
abbrev main_call6_v5 : Ref sig .tc := ⟨.hbm, 253, rfl⟩
abbrev main_call6_v6 : Ref sig .tc := ⟨.hbm, 254, rfl⟩
abbrev main_call6_cst_2 : Ref sig .tc := ⟨.hbm, 255, rfl⟩
abbrev main_call6_v7 : Ref sig .tc := ⟨.hbm, 256, rfl⟩
abbrev main_call6_v8 : Ref sig .tc := ⟨.hbm, 257, rfl⟩
abbrev main_v166 : Ref sig .tc := ⟨.hbm, 258, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S10000 : S_.BroadcastsInDim S10000 (![] : Fin 0 → Fin S10000.rank)
  bcast_S170000_S170000x1_0 : S170000.BroadcastsInDim S170000x1 (![0] : Fin 1 → Fin S170000x1.rank)
  bcast_S_S170000 : S_.BroadcastsInDim S170000 (![] : Fin 0 → Fin S170000.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S160000 : S_.BroadcastsInDim S160000 (![] : Fin 0 → Fin S160000.rank)
  bcast_S160000_S160000x1_0 : S160000.BroadcastsInDim S160000x1 (![0] : Fin 1 → Fin S160000x1.rank)
  slices_S3x512x256_S1x512x256_0_0_0 : S3x512x256.Slices ![0, 0, 0] S1x512x256
  shapeCasts_S1x512x256_S512x256 : S1x512x256.ShapeCasts S512x256
  bcast_S160000x1_S160000x512_0_1 : S160000x1.BroadcastsInDim S160000x512 (![0, 1] : Fin 2 → Fin S160000x512.rank)
  slices_S3x512x256_S1x512x256_1_0_0 : S3x512x256.Slices ![1, 0, 0] S1x512x256
  slices_S3x512x256_S1x512x256_2_0_0 : S3x512x256.Slices ![2, 0, 0] S1x512x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x512_S512x512_S10000x512_1_0_0_1_n_n_wf : DotDims.WF S10000x512 S512x512 S10000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  dot_S10000x512_S512x256_S10000x256_1_0_0_1_n_n_wf : DotDims.WF S10000x512 S512x256 S10000x256 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf

class Facts : Prop extends Facts₀ where

variable [Facts]
-- ==== Proof.K.Region0.lean ====
import proofs.«402230_j66554813219093_3_alg».proof.Proof.Gen.Kernel.Launch
import proofs.«402230_j66554813219093_3_alg».proof.Proof.Gen.Kernel.Skeleton
import proofs.«402230_j66554813219093_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) := by decide +kernel
abbrev cond0_1 (i : grid0.Coords) : Prop := k0_cond2 i = 1#1
theorem hcond0_1 : ∀ t : Fin cfg0.N, cond0_1 (grid0.coords t) := by decide +kernel

-- the contracted axis has a single block, so the store's condition holds at every point
theorem live0 : ∀ t : Fin cfg0.N, idle0 2 (grid0.coords t) = false := by decide +kernel

abbrev VO0_2 : View sig .tc .vmem S1024x512 .bf16 := (Memref.whole cc0_stg2_0 : Memref sig .tc .vmem S1024x512 .bf16).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev scM0_0 : Memref sig .tc .vmem S1024x512 .f32 := Memref.whole cc0_scratch0

section
variable (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1024x512 .f32) (harg5 : arg5.IsWhole) (hc0 : cond0_0 i) (hc1 : cond0_1 i)
  (x0 : Vec F S1024x512 .bf16) (x1 : Vec F S512x512 .bf16)

-- the body's run, with the pieces its stores leave in the output and in the accumulator
def kernelRun0 :
    Σ' (L2 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_unfold [cc0__matmul_kernel]
    sl_exec (disch := first | exact hc0 | exact hc1)
    sl_step
    iapply Hk
    isplitl [H0]; · iexists _; iframe H0; ipureintro; exact harg2.read_unread _
    isplitl [H1]; · iexists _; iframe H1; ipureintro; exact harg3.read_unread _
    isplitl [H2]; · iexists _; iexact H2
    iexists _; iexact HS0

-- one store fills the output's whole block
theorem cover0_2 (y : S1024x512.Idx) : ∃ pc ∈ (kernelRun0 c i arg2 harg2 arg3 harg3 arg4 harg4 arg5 harg5 hc0 hc1 x0 x1).1, y ∈ pc.1.set :=
  View.cover_of_tiledL _ S1024x512.size (by sl_kernel_rfl) y

def out0_2 : Vec F S1024x512 .bf16 :=
  VO0_2.read (Elt F) (VO0_2.writes (Elt F) VO0_2.junk (kernelRun0 c i arg2 harg2 arg3 harg3 arg4 harg4 arg5 harg5 hc0 hc1 x0 x1).1)

end

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t) := by dsimp only [dat0]

-- the body leaves each input's block in place
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

-- both conditions hold at every point, so the one run applies; the invariant lends it the accumulator and takes it back
theorem body_obligation0 (c : Dev nD) : BodyObligation (dat0 (F := F) V c) (defs₀ (F := F)) Variants.none () Set.univ := fun t => by
  rw [bigSep_W0, bigSep_W0]
  sl_whnfR [defs₀, Defs.onTc]
  simp only [before0_0, before0_1]
  dsimp only [dat0]
  unfold Pipeline.ΦA
  rw [live0, scopedRest0_split]
  simp only [← owns_whole]
  iintro ⟨⟨⟨HS0, Hr⟩, Hg⟩, Ho, ⟨%d0, H0⟩, ⟨%d1, H1⟩, ⟨%d2, H2⟩⟩
  iapply ((kernelRun0 c (grid0.coords t) _ _ _ _ _ _ _ _ (hcond0_0 t) (hcond0_1 t) (iblk0 V c 0 t) (iblk0 V c 1 t)).2.2 Set.univ _)
  iframe H0 H1 HS0
  isplitl [H2]; · iexists _; iexact H2
  iintro ⟨H0, H1, ⟨%e2, H2⟩, ⟨%es0, HS0⟩⟩
  iframe Hr Hg H0 H1
  isplitl [HS0]
  · iexists _; unfold owns; iexists _; iframe HS0; ipureintro; rfl
  isplitl [Ho]; · iexact Ho
  unfold owns; iexists _; iframe H2; ipureintro
  exact View.read_writes_of_cover _ _ _ _ _ fun _ => cover0_2 ..

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

end Cert.Kernel.Hand

end
-- ==== Proof.K.Region1.lean ====
import proofs.«402230_j66554813219093_3_alg».proof.Proof.Gen.Kernel.Launch
import proofs.«402230_j66554813219093_3_alg».proof.Proof.Gen.Kernel.Skeleton
import proofs.«402230_j66554813219093_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 := by decide +kernel

abbrev cond1_1 (i : grid1.Coords) : Prop := k1_cond2 i = 1#1
theorem hcond1_1 : ∀ t : Fin cfg1.N, cond1_1 (grid1.coords t) ↔ t.val % 5 = 4 := by decide +kernel

theorem liveAt1 : ∀ (w : Fin cfg1.W) (t : Fin cfg1.N), w ≠ 3 → cfg1.idle w (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev VO1_3 : View sig .tc .vmem S1024x512 .bf16 := (Memref.whole cc1_stg3_0 : Memref sig .tc .vmem S1024x512 .bf16).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
abbrev scM1_0 : Memref sig .tc .vmem S1024x512 .f32 := Memref.whole cc1_scratch0
abbrev VS1_0 : View sig .tc .vmem S1024x512 .f32 := scM1_0.view

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1_0 fullShare d)) ∗ restBut1 (F := F) c) ∗ (∃ r, prngReg c r)) := by
  unfold Pipeline.ΦA; rw [scopedRest1_split]; simp only [scM1_0, owns_whole]; try rfl

-- a whole buffer that reads as x holds the one contents that read as x
private theorem owns_eq_unread {sp : Space} {s : Shape} {e : EltTy} {m : Memref sig .tc sp s e} (h : m.IsWhole) (c : Dev nD) (x : Vec F s e) :
    (owns (c : Thread nD τ) m fullShare x : sProp 𝕄) = (m.view.loc (c : Thread nD τ) ↦[m.view.set]{fullShare} h.unread x) := by
  rw [owns_eq_rep, h.eq_unread (View.read_rep _ x)]

section
variable (c : Dev nD) (i : grid1.Coords) (arg2 : Memref sig .tc .vmem S1024x2048 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole)

section
variable (hc0 : cond1_0 i) (hc1 : ¬cond1_1 i) (x0 : Vec F S1024x2048 .bf16) (x1 : Vec F S10240x512 .bf16) (x2 : Vec F S1x512 .f32)
include hc0 hc1

def kernelRun1_A :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_bias_celu_kernel i arg2 harg2 arg3 harg3 arg4 harg4 arg5 harg5 arg6 harg6) K } := by
  refine ⟨[], ?_, fun xi3 E K => ?run⟩
  case run =>
    simp only [cc1__agg_bias_celu_kernel_eq_skeleton]; unfold cc1__agg_bias_celu_kernel_skel
    rw [owns_eq_unread harg2, owns_eq_unread harg3, owns_eq_unread harg4, owns_eq_unread harg5]; unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

def out1_A_3 : Vec F S1024x512 .bf16 := VO1_3.read (Elt F) (VO1_3.writes (Elt F) VO1_3.junk (kernelRun1_A c i arg2 harg2 arg3 harg3 arg4 harg4 arg5 harg5 arg6 harg6 hc0 hc1 x0 x1 x2).1)

theorem scover1_A_0 (y : S1024x512.Idx) : ∃ pc ∈ (kernelRun1_A c i arg2 harg2 arg3 harg3 arg4 harg4 arg5 harg5 arg6 harg6 hc0 hc1 x0 x1 x2).2.1, y ∈ pc.1.set :=
  View.cover_of_tiledL _ S1024x512.size (by sl_kernel_rfl) y

def sout1_A_0 : Vec F S1024x512 .f32 := VS1_0.read (Elt F) (VS1_0.writes (Elt F) VS1_0.junk (kernelRun1_A c i arg2 harg2 arg3 harg3 arg4 harg4 arg5 harg5 arg6 harg6 hc0 hc1 x0 x1 x2).2.1)

end

section
variable (hc0 : ¬cond1_0 i) (hc1 : ¬cond1_1 i) (x0 : Vec F S1024x2048 .bf16) (x1 : Vec F S10240x512 .bf16) (x2 : Vec F S1x512 .f32) (xs0 : Vec F S1024x512 .f32)
include hc0 hc1

def kernelRun1_B :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_bias_celu_kernel i arg2 harg2 arg3 harg3 arg4 harg4 arg5 harg5 arg6 harg6) K } := by
  refine ⟨[], ?_, fun xi3 E K => ?run⟩
  case run =>
    simp only [cc1__agg_bias_celu_kernel_eq_skeleton]; unfold cc1__agg_bias_celu_kernel_skel
    rw [owns_eq_unread harg2, owns_eq_unread harg3, owns_eq_unread harg4, owns_eq_unread harg5, owns_eq_unread harg6]
    iintro ⟨H0, H1, H2, H3, HS0, Hk⟩
    sl_exec (disch := first | exact hc0 | exact hc1)
    sl_step
    iapply Hk
    iframe H0 H1 H2 H3
    iexists _; iexact HS0

def out1_B_3 : Vec F S1024x512 .bf16 := VO1_3.read (Elt F) (VO1_3.writes (Elt F) VO1_3.junk (kernelRun1_B c i arg2 harg2 arg3 harg3 arg4 harg4 arg5 harg5 arg6 harg6 hc0 hc1 x0 x1 x2 xs0).1)

theorem scover1_B_0 (y : S1024x512.Idx) : ∃ pc ∈ (kernelRun1_B c i arg2 harg2 arg3 harg3 arg4 harg4 arg5 harg5 arg6 harg6 hc0 hc1 x0 x1 x2 xs0).2.1, y ∈ pc.1.set :=
  View.cover_of_tiledL _ S1024x512.size (by sl_kernel_rfl) y

def sout1_B_0 : Vec F S1024x512 .f32 := VS1_0.read (Elt F) (VS1_0.writes (Elt F) VS1_0.junk (kernelRun1_B c i arg2 harg2 arg3 harg3 arg4 harg4 arg5 harg5 arg6 harg6 hc0 hc1 x0 x1 x2 xs0).2.1)

end

section
variable (hc0 : ¬cond1_0 i) (hc1 : cond1_1 i) (x0 : Vec F S1024x2048 .bf16) (x1 : Vec F S10240x512 .bf16) (x2 : Vec F S1x512 .f32) (xs0 : Vec F S1024x512 .f32)
include hc0 hc1

def kernelRun1_C :
    Σ' (L3 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__agg_bias_celu_kernel i arg2 harg2 arg3 harg3 arg4 harg4 arg5 harg5 arg6 harg6) K } := by
  refine ⟨?_, ?_, fun E K => ?run⟩
  case run =>
    simp only [cc1__agg_bias_celu_kernel_eq_skeleton]; unfold cc1__agg_bias_celu_kernel_skel
    rw [owns_eq_unread harg2, owns_eq_unread harg3, owns_eq_unread harg4, owns_eq_unread harg6]; unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

theorem cover1_C_3 (y : S1024x512.Idx) : ∃ pc ∈ (kernelRun1_C c i arg2 harg2 arg3 harg3 arg4 harg4 arg5 harg5 arg6 harg6 hc0 hc1 x0 x1 x2 xs0).1, y ∈ pc.1.set :=
  View.cover_of_tiledL _ S1024x512.size (by sl_kernel_rfl) y

def out1_C_3 : Vec F S1024x512 .bf16 := VO1_3.read (Elt F) (VO1_3.writes (Elt F) VO1_3.junk (kernelRun1_C c i arg2 harg2 arg3 harg3 arg4 harg4 arg5 harg5 arg6 harg6 hc0 hc1 x0 x1 x2 xs0).1)

theorem scover1_C_0 (y : S1024x512.Idx) : ∃ pc ∈ (kernelRun1_C c i arg2 harg2 arg3 harg3 arg4 harg4 arg5 harg5 arg6 harg6 hc0 hc1 x0 x1 x2 xs0).2.1, y ∈ pc.1.set :=
  View.cover_of_tiledL _ S1024x512.size (by sl_kernel_rfl) y

def sout1_C_0 : Vec F S1024x512 .f32 := VS1_0.read (Elt F) (VS1_0.writes (Elt F) VS1_0.junk (kernelRun1_C c i arg2 harg2 arg3 harg3 arg4 harg4 arg5 harg5 arg6 harg6 hc0 hc1 x0 x1 x2 xs0).2.1)

end

end

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- one step of the accumulation: the pair after point t from the accumulator's value p before it, by the residue of t mod 5
def outsStep1 (c : Dev nD) (t : Fin cfg1.N) (p : Vec F S1024x512 .f32) : Vec F S1024x512 .bf16 × Vec F S1024x512 .f32 :=
  if h0 : t.val % 5 = 0 then
    have h1 : ¬t.val % 5 = 4 := by omega
    (out1_A_3 c (grid1.coords t) _ (hs1_0 t) _ (hs1_1 t) _ (hs1_2 t) _ (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) _ (hs1_0 t) _ (hs1_1 t) _ (hs1_2 t) _ (hs1_3 t) scM1_0 (Memref.isWhole_whole _) ((hcond1_0 t).mpr h0) (fun h => h1 ((hcond1_1 t).mp h)) (iblk1 V c 0 t) (iblk1 V c 1 t) (iblk1 V c 2 t))
  else if h1 : t.val % 5 = 4 then
    (out1_C_3 c (grid1.coords t) _ (hs1_0 t) _ (hs1_1 t) _ (hs1_2 t) _ (hs1_3 t) scM1_0 (Memref.isWhole_whole _) (fun h => h0 ((hcond1_0 t).mp h)) ((hcond1_1 t).mpr h1) (iblk1 V c 0 t) (iblk1 V c 1 t) (iblk1 V c 2 t) p, sout1_C_0 c (grid1.coords t) _ (hs1_0 t) _ (hs1_1 t) _ (hs1_2 t) _ (hs1_3 t) scM1_0 (Memref.isWhole_whole _) (fun h => h0 ((hcond1_0 t).mp h)) ((hcond1_1 t).mpr h1) (iblk1 V c 0 t) (iblk1 V c 1 t) (iblk1 V c 2 t) p)
  else
    (out1_B_3 c (grid1.coords t) _ (hs1_0 t) _ (hs1_1 t) _ (hs1_2 t) _ (hs1_3 t) scM1_0 (Memref.isWhole_whole _) (fun h => h0 ((hcond1_0 t).mp h)) (fun h => h1 ((hcond1_1 t).mp h)) (iblk1 V c 0 t) (iblk1 V c 1 t) (iblk1 V c 2 t) p, sout1_B_0 c (grid1.coords t) _ (hs1_0 t) _ (hs1_1 t) _ (hs1_2 t) _ (hs1_3 t) scM1_0 (Memref.isWhole_whole _) (fun h => h0 ((hcond1_0 t).mp h)) (fun h => h1 ((hcond1_1 t).mp h)) (iblk1 V c 0 t) (iblk1 V c 1 t) (iblk1 V c 2 t) p)

def outsAt1 (c : Dev nD) : (n : ℕ) → n < cfg1.N → Vec F S1024x512 .bf16 × Vec F S1024x512 .f32
  | 0, hn => outsStep1 V c ⟨0, hn⟩ (VS1_0.read (Elt F) VS1_0.junk)
  | n + 1, hn => outsStep1 V c ⟨n + 1, hn⟩ (outsAt1 c n (Nat.lt_of_succ_lt hn)).2

theorem outsAt1_A (c : Dev nD) (t : Fin cfg1.N) (h0 : t.val % 5 = 0) (h1 : ¬t.val % 5 = 4) :
    outsAt1 V c t.val t.isLt = (out1_A_3 c (grid1.coords t) _ (hs1_0 t) _ (hs1_1 t) _ (hs1_2 t) _ (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) _ (hs1_0 t) _ (hs1_1 t) _ (hs1_2 t) _ (hs1_3 t) scM1_0 (Memref.isWhole_whole _) ((hcond1_0 t).mpr h0) (fun h => h1 ((hcond1_1 t).mp h)) (iblk1 V c 0 t) (iblk1 V c 1 t) (iblk1 V c 2 t)) := by
  obtain ⟨_ | n, hn⟩ := t
  · rfl
  · exact dif_pos h0

theorem outsAt1_B (c : Dev nD) (t : Fin cfg1.N) (h0 : ¬t.val % 5 = 0) (h1 : ¬t.val % 5 = 4) :
    outsAt1 V c t.val t.isLt = (out1_B_3 c (grid1.coords t) _ (hs1_0 t) _ (hs1_1 t) _ (hs1_2 t) _ (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) _ (hs1_0 t) _ (hs1_1 t) _ (hs1_2 t) _ (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨_ | n, hn⟩ := t
  · exact absurd (Nat.zero_mod _) h0
  · exact (dif_neg h0).trans ((dif_neg h1).trans rfl)

theorem outsAt1_C (c : Dev nD) (t : Fin cfg1.N) (h0 : ¬t.val % 5 = 0) (h1 : t.val % 5 = 4) :
    outsAt1 V c t.val t.isLt = (out1_C_3 c (grid1.coords t) _ (hs1_0 t) _ (hs1_1 t) _ (hs1_2 t) _ (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) _ (hs1_0 t) _ (hs1_1 t) _ (hs1_2 t) _ (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨_ | n, hn⟩ := t
  · exact absurd (Nat.zero_mod _) h0
  · exact (dif_neg h0).trans ((dif_pos h1).trans rfl)

-- the invariant before position n
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 (F := F) c) ∗ (∃ r, prngReg c r)) := by
  cases n with
  | zero => exact absurd rfl hz
  | succ n => rfl

-- at any position the invariant implies the entry invariant: the accumulator's value is forgotten
theorem PhiS1_le (c : Dev nD) (n : ℕ) (h : n ≤ cfg1.N) :
    PhiS1 V c n h ⊢ iprop(iprop((∃ d, owns (c : Thread nD τ) scM1_0 fullShare d) ∗ restBut1 (F := F) c) ∗ (∃ r, prngReg c r)) := by
  cases n with
  | zero => exact Entails.of_eq (PhiA1_eq c)
  | succ n =>
    rw [PhiS1_pos V c _ h n.succ_ne_zero]
    iintro ⟨⟨HS0, HR⟩, Hg⟩
    iframe HR Hg
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- the residue of t mod 5 selects the case; the invariant lends the accumulator and takes it back at this point's value
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = iprop(iprop(owns (c : Thread nD τ) scM1_0 fullShare ((outsAt1 V c t.val t.isLt).2) ∗ restBut1 (F := F) c) ∗ (∃ r, prngReg c r)) from rfl,
    show (dat1 V c).Φ t.castSucc = PhiS1 V c t.val (Nat.le_of_lt t.isLt) from rfl,
    show (dat1 V c).leavesExact 0 t = owns (c : Thread nD τ) (ms1_0 t) fullShare (iblk1 V c 0 t) from by
      unfold Dat.leavesExact; rw [liveAt1 0 t (by decide)]; rfl,
    show (dat1 V c).leavesExact 1 t = owns (c : Thread nD τ) (ms1_1 t) fullShare (iblk1 V c 1 t) from by
      unfold Dat.leavesExact; rw [liveAt1 1 t (by decide)]; rfl,
    show (dat1 V c).leavesExact 2 t = owns (c : Thread nD τ) (ms1_2 t) fullShare (iblk1 V c 2 t) from by
      unfold Dat.leavesExact; rw [liveAt1 2 t (by decide)]; rfl]
  by_cases h1 : t.val % 5 = 4
  · have h0 : ¬t.val % 5 = 0 := by omega
    rw [show (dat1 V c).leavesExact 3 t = owns (c : Thread nD τ) (ms1_3 t) fullShare ((dat1 V c).after 3 t) from by
      unfold Dat.leavesExact; rw [liveAt1_3 t ((hcond1_1 t).mpr h1)], after1_3, outsAt1_C V c t h0 h1]
    unfold out1_C_3 sout1_C_0; try dsimp only
    rw [PhiS1_pos V c _ _ (by omega : t.val ≠ 0)]
    iintro ⟨⟨⟨HS0, HR⟩, Hg⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) _ _ _ _).2.2 Set.univ _)
    iframe H0 H1 H2 HS0
    isplitl [H3]; · iexists _; iexact H3
    iintro ⟨H0, H1, H2, ⟨%e3, H3⟩, ⟨%es0, HS0⟩⟩
    iframe HR Hg Ho H0 H1 H2
    isplitl [HS0]
    · ihave H' := (Ring.owns_of_writes_tiledL VS1_0 S1024x512.size) $$ HS0; iapply H'; ipureintro; sl_kernel_rfl
    ihave H' := (Ring.owns_of_writes_tiledL VO1_3 S1024x512.size) $$ H3; iapply H'; ipureintro; sl_kernel_rfl
  rw [Dat.leavesExact_idle (dat1 V c) 3 t (idleAt1_3 t (fun h => h1 ((hcond1_1 t).mp h))) (noFlush1_3 t (fun h => h1 ((hcond1_1 t).mp h)))]
  by_cases h0 : t.val % 5 = 0
  case' pos =>
    rw [outsAt1_A V c t h0 h1]
    unfold sout1_A_0; try dsimp only
    refine (sep_mono_left (PhiS1_le V c _ _)).trans ?_
    iintro ⟨⟨⟨HS0, HR⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) _ _ _).2.2 _ Set.univ _)
  case' neg =>
    rw [outsAt1_B V c t h0 h1]
    unfold sout1_B_0; try dsimp only
    rw [PhiS1_pos V c _ _ (by omega : t.val ≠ 0)]
    iintro ⟨⟨⟨HS0, HR⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) (fun h => h1 ((hcond1_1 t).mp h)) _ _ _ _).2.2 _ Set.univ _)
  all_goals
    iframe H0 H1 H2 H3 HS0
    iintro ⟨H0, H1, H2, H3, ⟨%es0, HS0⟩⟩
    iframe HR Hg Ho H0 H1 H2
    isplitl [HS0]
    · ihave H' := (Ring.owns_of_writes_tiledL VS1_0 S1024x512.size) $$ HS0; iapply H'; ipureintro; sl_kernel_rfl
    iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c := by
  rw [PhiA1_eq]; exact PhiS1_le V c _ le_rfl

end Cert.Kernel.Hand

end
-- ==== Proof.K.Region2.lean ====
import proofs.«402230_j66554813219093_3_alg».proof.Proof.Gen.Kernel.Launch
import proofs.«402230_j66554813219093_3_alg».proof.Proof.Gen.Kernel.Skeleton
import proofs.«402230_j66554813219093_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) := by decide +kernel
abbrev cond2_1 (i : grid2.Coords) : Prop := k2_cond2 i = 1#1
theorem hcond2_1 : ∀ t : Fin cfg2.N, cond2_1 (grid2.coords t) := by decide +kernel

-- the contracted axis has a single block, so the store's condition holds at every point
theorem live2 : ∀ t : Fin cfg2.N, idle2 2 (grid2.coords t) = false := by decide +kernel

abbrev VO2_2 : View sig .tc .vmem S1024x512 .bf16 := (Memref.whole cc2_stg2_0 : Memref sig .tc .vmem S1024x512 .bf16).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .bf16 := win2_2.stage (cfg2.slots t 2)
abbrev hs2_2 (t : Fin cfg2.N) : (ms2_2 t).IsWhole := hstage2_2 ((cfg2.slots t 2).cast nbuf2_2)
abbrev scM2_0 : Memref sig .tc .vmem S1024x512 .f32 := Memref.whole cc2_scratch0

section
variable (c : Dev nD) (i : grid2.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1024x512 .f32) (harg5 : arg5.IsWhole) (hc0 : cond2_0 i) (hc1 : cond2_1 i)
  (x0 : Vec F S1024x512 .bf16) (x1 : Vec F S512x512 .bf16)

-- the body's run, with the pieces its stores leave in the output and in the accumulator
def kernelRun2 :
    Σ' (L2 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_kernel i arg2 harg2 arg3 harg3 arg4 harg4 arg5 harg5) K } := by
  refine ⟨?_, ?_, fun E K => ?run⟩
  case run =>
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_unfold [cc2__matmul_kernel]
    sl_exec (disch := first | exact hc0 | exact hc1)
    sl_step
    iapply Hk
    isplitl [H0]; · iexists _; iframe H0; ipureintro; exact harg2.read_unread _
    isplitl [H1]; · iexists _; iframe H1; ipureintro; exact harg3.read_unread _
    isplitl [H2]; · iexists _; iexact H2
    iexists _; iexact HS0

-- one store fills the output's whole block
theorem cover2_2 (y : S1024x512.Idx) : ∃ pc ∈ (kernelRun2 c i arg2 harg2 arg3 harg3 arg4 harg4 arg5 harg5 hc0 hc1 x0 x1).1, y ∈ pc.1.set :=
  View.cover_of_tiledL _ S1024x512.size (by sl_kernel_rfl) y

def out2_2 : Vec F S1024x512 .bf16 :=
  VO2_2.read (Elt F) (VO2_2.writes (Elt F) VO2_2.junk (kernelRun2 c i arg2 harg2 arg3 harg3 arg4 harg4 arg5 harg5 hc0 hc1 x0 x1).1)

end

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 c (grid2.coords t) (ms2_0 t) (hs2_0 t) (ms2_1 t) (hs2_1 t) (ms2_2 t) (hs2_2 t) scM2_0 (Memref.isWhole_whole _) (hcond2_0 t) (hcond2_1 t) (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 c (grid2.coords t) (ms2_0 t) (hs2_0 t) (ms2_1 t) (hs2_1 t) (ms2_2 t) (hs2_2 t) scM2_0 (Memref.isWhole_whole _) (hcond2_0 t) (hcond2_1 t) (iblk2 V c 0 t) (iblk2 V c 1 t) := by dsimp only [dat2]

-- the body leaves each input's block in place
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

-- both conditions hold at every point, so the one run applies; the invariant lends it the accumulator and takes it back
theorem body_obligation2 (c : Dev nD) : BodyObligation (dat2 (F := F) V c) (defs₀ (F := F)) Variants.none () Set.univ := fun t => by
  rw [bigSep_W2, bigSep_W2]
  sl_whnfR [defs₀, Defs.onTc]
  simp only [before2_0, before2_1]
  dsimp only [dat2]
  unfold Pipeline.ΦA
  rw [live2, scopedRest2_split]
  simp only [← owns_whole]
  iintro ⟨⟨⟨HS0, Hr⟩, Hg⟩, Ho, ⟨%d0, H0⟩, ⟨%d1, H1⟩, ⟨%d2, H2⟩⟩
  iapply ((kernelRun2 c (grid2.coords t) _ _ _ _ _ _ _ _ (hcond2_0 t) (hcond2_1 t) (iblk2 V c 0 t) (iblk2 V c 1 t)).2.2 Set.univ _)
  iframe H0 H1 HS0
  isplitl [H2]; · iexists _; iexact H2
  iintro ⟨H0, H1, ⟨%e2, H2⟩, ⟨%es0, HS0⟩⟩
  iframe Hr Hg H0 H1
  isplitl [HS0]
  · iexists _; unfold owns; iexists _; iframe HS0; ipureintro; rfl
  isplitl [Ho]; · iexact Ho
  unfold owns; iexists _; iframe H2; ipureintro
  exact View.read_writes_of_cover _ _ _ _ _ fun _ => cover2_2 ..

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.Kernel.Hand

end
-- ==== Proof.K.Region3.lean ====
import proofs.«402230_j66554813219093_3_alg».proof.Proof.Gen.Kernel.Launch
import proofs.«402230_j66554813219093_3_alg».proof.Proof.Gen.Kernel.Skeleton
import proofs.«402230_j66554813219093_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 5 = 0 := by decide +kernel

abbrev cond3_1 (i : grid3.Coords) : Prop := k3_cond2 i = 1#1
theorem hcond3_1 : ∀ t : Fin cfg3.N, cond3_1 (grid3.coords t) ↔ t.val % 5 = 4 := by decide +kernel

theorem liveAt3 : ∀ (w : Fin cfg3.W) (t : Fin cfg3.N), w ≠ 3 → cfg3.idle w (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

abbrev VO3_3 : View sig .tc .vmem S1024x512 .bf16 := (Memref.whole cc3_stg3_0 : Memref sig .tc .vmem S1024x512 .bf16).view
abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10240x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .bf16 := win3_3.stage (cfg3.slots t 3)
abbrev hs3_3 (t : Fin cfg3.N) : (ms3_3 t).IsWhole := hstage3_3 ((cfg3.slots t 3).cast nbuf3_3)
abbrev scM3_0 : Memref sig .tc .vmem S1024x512 .f32 := Memref.whole cc3_scratch0
abbrev VS3_0 : View sig .tc .vmem S1024x512 .f32 := scM3_0.view

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns (c : Thread nD τ) scM3_0 fullShare d)) ∗ restBut3 (F := F) c) ∗ (∃ r, prngReg c r)) := by
  unfold Pipeline.ΦA; rw [scopedRest3_split]; simp only [scM3_0, owns_whole]; try rfl

-- a whole buffer that reads as x holds the one contents that read as x
private theorem owns_eq_unread {sp : Space} {s : Shape} {e : EltTy} {m : Memref sig .tc sp s e} (h : m.IsWhole) (c : Dev nD) (x : Vec F s e) :
    (owns (c : Thread nD τ) m fullShare x : sProp 𝕄) = (m.view.loc (c : Thread nD τ) ↦[m.view.set]{fullShare} h.unread x) := by
  rw [owns_eq_rep, h.eq_unread (View.read_rep _ x)]

section
variable (c : Dev nD) (i : grid3.Coords) (arg2 : Memref sig .tc .vmem S1024x2048 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole)

section
variable (hc0 : cond3_0 i) (hc1 : ¬cond3_1 i) (x0 : Vec F S1024x2048 .bf16) (x1 : Vec F S10240x512 .bf16) (x2 : Vec F S1x512 .f32)
include hc0 hc1

def kernelRun3_A :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__agg_bias_celu_kernel i arg2 harg2 arg3 harg3 arg4 harg4 arg5 harg5 arg6 harg6) K } := by
  refine ⟨[], ?_, fun xi3 E K => ?run⟩
  case run =>
    simp only [cc3__agg_bias_celu_kernel_eq_skeleton]; unfold cc3__agg_bias_celu_kernel_skel
    rw [owns_eq_unread harg2, owns_eq_unread harg3, owns_eq_unread harg4, owns_eq_unread harg5]; unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

def out3_A_3 : Vec F S1024x512 .bf16 := VO3_3.read (Elt F) (VO3_3.writes (Elt F) VO3_3.junk (kernelRun3_A c i arg2 harg2 arg3 harg3 arg4 harg4 arg5 harg5 arg6 harg6 hc0 hc1 x0 x1 x2).1)

theorem scover3_A_0 (y : S1024x512.Idx) : ∃ pc ∈ (kernelRun3_A c i arg2 harg2 arg3 harg3 arg4 harg4 arg5 harg5 arg6 harg6 hc0 hc1 x0 x1 x2).2.1, y ∈ pc.1.set :=
  View.cover_of_tiledL _ S1024x512.size (by sl_kernel_rfl) y

def sout3_A_0 : Vec F S1024x512 .f32 := VS3_0.read (Elt F) (VS3_0.writes (Elt F) VS3_0.junk (kernelRun3_A c i arg2 harg2 arg3 harg3 arg4 harg4 arg5 harg5 arg6 harg6 hc0 hc1 x0 x1 x2).2.1)

end

section
variable (hc0 : ¬cond3_0 i) (hc1 : ¬cond3_1 i) (x0 : Vec F S1024x2048 .bf16) (x1 : Vec F S10240x512 .bf16) (x2 : Vec F S1x512 .f32) (xs0 : Vec F S1024x512 .f32)
include hc0 hc1

def kernelRun3_B :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__agg_bias_celu_kernel i arg2 harg2 arg3 harg3 arg4 harg4 arg5 harg5 arg6 harg6) K } := by
  refine ⟨[], ?_, fun xi3 E K => ?run⟩
  case run =>
    simp only [cc3__agg_bias_celu_kernel_eq_skeleton]; unfold cc3__agg_bias_celu_kernel_skel
    rw [owns_eq_unread harg2, owns_eq_unread harg3, owns_eq_unread harg4, owns_eq_unread harg5, owns_eq_unread harg6]
    iintro ⟨H0, H1, H2, H3, HS0, Hk⟩
    sl_exec (disch := first | exact hc0 | exact hc1)
    sl_step
    iapply Hk
    iframe H0 H1 H2 H3
    iexists _; iexact HS0

def out3_B_3 : Vec F S1024x512 .bf16 := VO3_3.read (Elt F) (VO3_3.writes (Elt F) VO3_3.junk (kernelRun3_B c i arg2 harg2 arg3 harg3 arg4 harg4 arg5 harg5 arg6 harg6 hc0 hc1 x0 x1 x2 xs0).1)

theorem scover3_B_0 (y : S1024x512.Idx) : ∃ pc ∈ (kernelRun3_B c i arg2 harg2 arg3 harg3 arg4 harg4 arg5 harg5 arg6 harg6 hc0 hc1 x0 x1 x2 xs0).2.1, y ∈ pc.1.set :=
  View.cover_of_tiledL _ S1024x512.size (by sl_kernel_rfl) y

def sout3_B_0 : Vec F S1024x512 .f32 := VS3_0.read (Elt F) (VS3_0.writes (Elt F) VS3_0.junk (kernelRun3_B c i arg2 harg2 arg3 harg3 arg4 harg4 arg5 harg5 arg6 harg6 hc0 hc1 x0 x1 x2 xs0).2.1)

end

section
variable (hc0 : ¬cond3_0 i) (hc1 : cond3_1 i) (x0 : Vec F S1024x2048 .bf16) (x1 : Vec F S10240x512 .bf16) (x2 : Vec F S1x512 .f32) (xs0 : Vec F S1024x512 .f32)
include hc0 hc1

def kernelRun3_C :
    Σ' (L3 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__agg_bias_celu_kernel i arg2 harg2 arg3 harg3 arg4 harg4 arg5 harg5 arg6 harg6) K } := by
  refine ⟨?_, ?_, fun E K => ?run⟩
  case run =>
    simp only [cc3__agg_bias_celu_kernel_eq_skeleton]; unfold cc3__agg_bias_celu_kernel_skel
    rw [owns_eq_unread harg2, owns_eq_unread harg3, owns_eq_unread harg4, owns_eq_unread harg6]; unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

theorem cover3_C_3 (y : S1024x512.Idx) : ∃ pc ∈ (kernelRun3_C c i arg2 harg2 arg3 harg3 arg4 harg4 arg5 harg5 arg6 harg6 hc0 hc1 x0 x1 x2 xs0).1, y ∈ pc.1.set :=
  View.cover_of_tiledL _ S1024x512.size (by sl_kernel_rfl) y

def out3_C_3 : Vec F S1024x512 .bf16 := VO3_3.read (Elt F) (VO3_3.writes (Elt F) VO3_3.junk (kernelRun3_C c i arg2 harg2 arg3 harg3 arg4 harg4 arg5 harg5 arg6 harg6 hc0 hc1 x0 x1 x2 xs0).1)

theorem scover3_C_0 (y : S1024x512.Idx) : ∃ pc ∈ (kernelRun3_C c i arg2 harg2 arg3 harg3 arg4 harg4 arg5 harg5 arg6 harg6 hc0 hc1 x0 x1 x2 xs0).2.1, y ∈ pc.1.set :=
  View.cover_of_tiledL _ S1024x512.size (by sl_kernel_rfl) y

def sout3_C_0 : Vec F S1024x512 .f32 := VS3_0.read (Elt F) (VS3_0.writes (Elt F) VS3_0.junk (kernelRun3_C c i arg2 harg2 arg3 harg3 arg4 harg4 arg5 harg5 arg6 harg6 hc0 hc1 x0 x1 x2 xs0).2.1)

end

end

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- one step of the accumulation: the pair after point t from the accumulator's value p before it, by the residue of t mod 5
def outsStep3 (c : Dev nD) (t : Fin cfg3.N) (p : Vec F S1024x512 .f32) : Vec F S1024x512 .bf16 × Vec F S1024x512 .f32 :=
  if h0 : t.val % 5 = 0 then
    have h1 : ¬t.val % 5 = 4 := by omega
    (out3_A_3 c (grid3.coords t) _ (hs3_0 t) _ (hs3_1 t) _ (hs3_2 t) _ (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) _ (hs3_0 t) _ (hs3_1 t) _ (hs3_2 t) _ (hs3_3 t) scM3_0 (Memref.isWhole_whole _) ((hcond3_0 t).mpr h0) (fun h => h1 ((hcond3_1 t).mp h)) (iblk3 V c 0 t) (iblk3 V c 1 t) (iblk3 V c 2 t))
  else if h1 : t.val % 5 = 4 then
    (out3_C_3 c (grid3.coords t) _ (hs3_0 t) _ (hs3_1 t) _ (hs3_2 t) _ (hs3_3 t) scM3_0 (Memref.isWhole_whole _) (fun h => h0 ((hcond3_0 t).mp h)) ((hcond3_1 t).mpr h1) (iblk3 V c 0 t) (iblk3 V c 1 t) (iblk3 V c 2 t) p, sout3_C_0 c (grid3.coords t) _ (hs3_0 t) _ (hs3_1 t) _ (hs3_2 t) _ (hs3_3 t) scM3_0 (Memref.isWhole_whole _) (fun h => h0 ((hcond3_0 t).mp h)) ((hcond3_1 t).mpr h1) (iblk3 V c 0 t) (iblk3 V c 1 t) (iblk3 V c 2 t) p)
  else
    (out3_B_3 c (grid3.coords t) _ (hs3_0 t) _ (hs3_1 t) _ (hs3_2 t) _ (hs3_3 t) scM3_0 (Memref.isWhole_whole _) (fun h => h0 ((hcond3_0 t).mp h)) (fun h => h1 ((hcond3_1 t).mp h)) (iblk3 V c 0 t) (iblk3 V c 1 t) (iblk3 V c 2 t) p, sout3_B_0 c (grid3.coords t) _ (hs3_0 t) _ (hs3_1 t) _ (hs3_2 t) _ (hs3_3 t) scM3_0 (Memref.isWhole_whole _) (fun h => h0 ((hcond3_0 t).mp h)) (fun h => h1 ((hcond3_1 t).mp h)) (iblk3 V c 0 t) (iblk3 V c 1 t) (iblk3 V c 2 t) p)

def outsAt3 (c : Dev nD) : (n : ℕ) → n < cfg3.N → Vec F S1024x512 .bf16 × Vec F S1024x512 .f32
  | 0, hn => outsStep3 V c ⟨0, hn⟩ (VS3_0.read (Elt F) VS3_0.junk)
  | n + 1, hn => outsStep3 V c ⟨n + 1, hn⟩ (outsAt3 c n (Nat.lt_of_succ_lt hn)).2

theorem outsAt3_A (c : Dev nD) (t : Fin cfg3.N) (h0 : t.val % 5 = 0) (h1 : ¬t.val % 5 = 4) :
    outsAt3 V c t.val t.isLt = (out3_A_3 c (grid3.coords t) _ (hs3_0 t) _ (hs3_1 t) _ (hs3_2 t) _ (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) _ (hs3_0 t) _ (hs3_1 t) _ (hs3_2 t) _ (hs3_3 t) scM3_0 (Memref.isWhole_whole _) ((hcond3_0 t).mpr h0) (fun h => h1 ((hcond3_1 t).mp h)) (iblk3 V c 0 t) (iblk3 V c 1 t) (iblk3 V c 2 t)) := by
  obtain ⟨_ | n, hn⟩ := t
  · rfl
  · exact dif_pos h0

theorem outsAt3_B (c : Dev nD) (t : Fin cfg3.N) (h0 : ¬t.val % 5 = 0) (h1 : ¬t.val % 5 = 4) :
    outsAt3 V c t.val t.isLt = (out3_B_3 c (grid3.coords t) _ (hs3_0 t) _ (hs3_1 t) _ (hs3_2 t) _ (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) _ (hs3_0 t) _ (hs3_1 t) _ (hs3_2 t) _ (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨_ | n, hn⟩ := t
  · exact absurd (Nat.zero_mod _) h0
  · exact (dif_neg h0).trans ((dif_neg h1).trans rfl)

theorem outsAt3_C (c : Dev nD) (t : Fin cfg3.N) (h0 : ¬t.val % 5 = 0) (h1 : t.val % 5 = 4) :
    outsAt3 V c t.val t.isLt = (out3_C_3 c (grid3.coords t) _ (hs3_0 t) _ (hs3_1 t) _ (hs3_2 t) _ (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) _ (hs3_0 t) _ (hs3_1 t) _ (hs3_2 t) _ (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨_ | n, hn⟩ := t
  · exact absurd (Nat.zero_mod _) h0
  · exact (dif_neg h0).trans ((dif_pos h1).trans rfl)

-- the invariant before position n
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 (F := F) c) ∗ (∃ r, prngReg c r))

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ restBut3 (F := F) c) ∗ (∃ r, prngReg c r)) := by
  cases n with
  | zero => exact absurd rfl hz
  | succ n => rfl

-- at any position the invariant implies the entry invariant: the accumulator's value is forgotten
theorem PhiS3_le (c : Dev nD) (n : ℕ) (h : n ≤ cfg3.N) :
    PhiS3 V c n h ⊢ iprop(iprop((∃ d, owns (c : Thread nD τ) scM3_0 fullShare d) ∗ restBut3 (F := F) c) ∗ (∃ r, prngReg c r)) := by
  cases n with
  | zero => exact Entails.of_eq (PhiA3_eq c)
  | succ n =>
    rw [PhiS3_pos V c _ h n.succ_ne_zero]
    iintro ⟨⟨HS0, HR⟩, Hg⟩
    iframe HR Hg
    iexists _; iexact HS0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = (outsAt3 V c t.val t.isLt).1 := rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

-- the residue of t mod 5 selects the case; the invariant lends the accumulator and takes it back at this point's value
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = iprop(iprop(owns (c : Thread nD τ) scM3_0 fullShare ((outsAt3 V c t.val t.isLt).2) ∗ restBut3 (F := F) c) ∗ (∃ r, prngReg c r)) from rfl,
    show (dat3 V c).Φ t.castSucc = PhiS3 V c t.val (Nat.le_of_lt t.isLt) from rfl,
    show (dat3 V c).leavesExact 0 t = owns (c : Thread nD τ) (ms3_0 t) fullShare (iblk3 V c 0 t) from by
      unfold Dat.leavesExact; rw [liveAt3 0 t (by decide)]; rfl,
    show (dat3 V c).leavesExact 1 t = owns (c : Thread nD τ) (ms3_1 t) fullShare (iblk3 V c 1 t) from by
      unfold Dat.leavesExact; rw [liveAt3 1 t (by decide)]; rfl,
    show (dat3 V c).leavesExact 2 t = owns (c : Thread nD τ) (ms3_2 t) fullShare (iblk3 V c 2 t) from by
      unfold Dat.leavesExact; rw [liveAt3 2 t (by decide)]; rfl]
  by_cases h1 : t.val % 5 = 4
  · have h0 : ¬t.val % 5 = 0 := by omega
    rw [show (dat3 V c).leavesExact 3 t = owns (c : Thread nD τ) (ms3_3 t) fullShare ((dat3 V c).after 3 t) from by
      unfold Dat.leavesExact; rw [liveAt3_3 t ((hcond3_1 t).mpr h1)], after3_3, outsAt3_C V c t h0 h1]
    unfold out3_C_3 sout3_C_0; try dsimp only
    rw [PhiS3_pos V c _ _ (by omega : t.val ≠ 0)]
    iintro ⟨⟨⟨HS0, HR⟩, Hg⟩, Ho, ⟨%d0, H0⟩, ⟨%d1, H1⟩, ⟨%d2, H2⟩, ⟨%d3, H3⟩⟩
    iapply ((kernelRun3_C c (grid3.coords t) _ _ _ _ _ _ _ _ _ _ (fun h => h0 ((hcond3_0 t).mp h)) ((hcond3_1 t).mpr h1) _ _ _ _).2.2 Set.univ _)
    iframe H0 H1 H2 HS0
    isplitl [H3]; · iexists _; iexact H3
    iintro ⟨H0, H1, H2, ⟨%e3, H3⟩, ⟨%es0, HS0⟩⟩
    iframe HR Hg Ho H0 H1 H2
    isplitl [HS0]
    · ihave H' := (Ring.owns_of_writes_tiledL VS3_0 S1024x512.size) $$ HS0; iapply H'; ipureintro; sl_kernel_rfl
    ihave H' := (Ring.owns_of_writes_tiledL VO3_3 S1024x512.size) $$ H3; iapply H'; ipureintro; sl_kernel_rfl
  rw [Dat.leavesExact_idle (dat3 V c) 3 t (idleAt3_3 t (fun h => h1 ((hcond3_1 t).mp h))) (noFlush3_3 t (fun h => h1 ((hcond3_1 t).mp h)))]
  by_cases h0 : t.val % 5 = 0
  case' pos =>
    rw [outsAt3_A V c t h0 h1]
    unfold sout3_A_0; try dsimp only
    refine (sep_mono_left (PhiS3_le V c _ _)).trans ?_
    iintro ⟨⟨⟨HS0, HR⟩, Hg⟩, Ho, ⟨%d0, H0⟩, ⟨%d1, H1⟩, ⟨%d2, H2⟩, ⟨%d3, H3⟩⟩
    iapply ((kernelRun3_A c (grid3.coords t) _ _ _ _ _ _ _ _ _ _ ((hcond3_0 t).mpr h0) (fun h => h1 ((hcond3_1 t).mp h)) _ _ _).2.2 _ Set.univ _)
  case' neg =>
    rw [outsAt3_B V c t h0 h1]
    unfold sout3_B_0; try dsimp only
    rw [PhiS3_pos V c _ _ (by omega : t.val ≠ 0)]
    iintro ⟨⟨⟨HS0, HR⟩, Hg⟩, Ho, ⟨%d0, H0⟩, ⟨%d1, H1⟩, ⟨%d2, H2⟩, ⟨%d3, H3⟩⟩
    iapply ((kernelRun3_B c (grid3.coords t) _ _ _ _ _ _ _ _ _ _ (fun h => h0 ((hcond3_0 t).mp h)) (fun h => h1 ((hcond3_1 t).mp h)) _ _ _ _).2.2 _ Set.univ _)
  all_goals
    iframe H0 H1 H2 H3 HS0
    iintro ⟨H0, H1, H2, H3, ⟨%es0, HS0⟩⟩
    iframe HR Hg Ho H0 H1 H2
    isplitl [HS0]
    · ihave H' := (Ring.owns_of_writes_tiledL VS3_0 S1024x512.size) $$ HS0; iapply H'; ipureintro; sl_kernel_rfl
    iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := by
  rw [PhiA3_eq]; exact PhiS3_le V c _ le_rfl

end Cert.Kernel.Hand

end
-- ==== Proof.K.Region4.lean ====
import proofs.«402230_j66554813219093_3_alg».proof.Proof.Gen.Kernel.Launch
import proofs.«402230_j66554813219093_3_alg».proof.Proof.Gen.Kernel.Skeleton
import proofs.«402230_j66554813219093_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 5 = 0 := by decide +kernel

abbrev cond4_1 (i : grid4.Coords) : Prop := k4_cond2 i = 1#1
theorem hcond4_1 : ∀ t : Fin cfg4.N, cond4_1 (grid4.coords t) ↔ t.val % 5 = 4 := by decide +kernel

theorem idle4 : ∀ t : Fin cfg4.N, cfg4.idle 0 (grid4.coords t) = false ∧ cfg4.idle 1 (grid4.coords t) = false
    ∧ (t.val % 5 = 4 → cfg4.idle 2 (grid4.coords t) = false)
    ∧ (¬t.val % 5 = 4 → cfg4.idle 2 (grid4.coords t) = true ∧ (cfg4.win 2).flush t = false) := by decide +kernel

abbrev VO4_2 : View sig .tc .vmem S1024x512 .bf16 := (Memref.whole cc4_stg2_0 : Memref sig .tc .vmem S1024x512 .bf16).view
abbrev ms4_0 (t : Fin cfg4.N) : Memref sig .tc .vmem S1024x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10240x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x512 .bf16 := win4_2.stage (cfg4.slots t 2)
abbrev hs4_2 (t : Fin cfg4.N) : (ms4_2 t).IsWhole := hstage4_2 ((cfg4.slots t 2).cast nbuf4_2)
abbrev scM4_0 : Memref sig .tc .vmem S1024x512 .f32 := Memref.whole cc4_scratch0
abbrev VS4_0 : View sig .tc .vmem S1024x512 .f32 := scM4_0.view

section Body
variable (c : Dev nD) (i : grid4.Coords) (arg2 : Memref sig .tc .vmem S1024x2048 .bf16) (harg2 : arg2.IsWhole) (arg3 : Memref sig .tc .vmem S10240x512 .bf16) (harg3 : arg3.IsWhole)
  (arg4 : Memref sig .tc .vmem S1024x512 .bf16) (harg4 : arg4.IsWhole) (arg5 : Memref sig .tc .vmem S1024x512 .f32) (harg5 : arg5.IsWhole)

section A
variable (hc0 : cond4_0 i) (hc1 : ¬cond4_1 i) (x0 : Vec F S1024x2048 .bf16) (x1 : Vec F S10240x512 .bf16)

-- At k = 0 the accumulator, entered at anything, is reset and the first product added; the output block is untouched.
noncomputable def kernelRun4_A :
    Σ' (L2 : List (View.Piece (Elt F) S1024x512 .bf16)), { LS0 : List (View.Piece (Elt F) S1024x512 .f32) //
      ∀ (xi2 : Vec F S1024x512 .bf16) (E : Set ℕ) (K : PUnit → sProp 𝕄),
        iprop(owns c arg2 fullShare x0 ∗ owns c arg3 fullShare x1 ∗ owns c arg4 fullShare xi2 ∗ (∃ d, owns c arg5 fullShare d)
            ∗ (iprop(owns c arg2 fullShare x0 ∗ owns c arg3 fullShare x1 ∗ owns c arg4 fullShare xi2 ∗ (∃ f, arg5.view.loc c ↦[arg5.view.set]{fullShare} arg5.view.writes (Elt F) f LS0)) -∗ K ⟨⟩))
          ⊢ wp frame (wpE (defs₀ (F := F)) Variants.none c none) E (cc4__agg_matmul_kernel i arg2 harg2 arg3 harg3 arg4 harg4 arg5 harg5) K } := by
  refine ⟨[], ?_, fun xi2 E K => ?run⟩
  case run =>
    simp only [cc4__agg_matmul_kernel_eq_skeleton]; unfold cc4__agg_matmul_kernel_skel
    unfold owns
    iintro ⟨⟨%f0, %hf0, H0⟩, ⟨%f1, %hf1, H1⟩, H2, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

def out4_A_2 : Vec F S1024x512 .bf16 :=
  VO4_2.read (Elt F) (VO4_2.writes (Elt F) VO4_2.junk (kernelRun4_A c i arg2 harg2 arg3 harg3 arg4 harg4 arg5 harg5 hc0 hc1 x0 x1).1)

theorem scover4_A_0 (y : S1024x512.Idx) : ∃ pc ∈ (kernelRun4_A c i arg2 harg2 arg3 harg3 arg4 harg4 arg5 harg5 hc0 hc1 x0 x1).2.1, y ∈ pc.1.set :=
  View.cover_of_tiledL _ S1024x512.size (by sl_kernel_rfl) y

def sout4_A_0 : Vec F S1024x512 .f32 :=
  VS4_0.read (Elt F) (VS4_0.writes (Elt F) VS4_0.junk (kernelRun4_A c i arg2 harg2 arg3 harg3 arg4 harg4 arg5 harg5 hc0 hc1 x0 x1).2.1)

end A

section BC
variable (hc0 : ¬cond4_0 i)

section B
variable (hc1 : ¬cond4_1 i) (x0 : Vec F S1024x2048 .bf16) (x1 : Vec F S10240x512 .bf16) (xs0 : Vec F S1024x512 .f32)

-- At 0 < k < 4 the product is added to the accumulator as the point before left it.
noncomputable def kernelRun4_B :
    Σ' (L2 : List (View.Piece (Elt F) S1024x512 .bf16)), { LS0 : List (View.Piece (Elt F) S1024x512 .f32) //
      ∀ (xi2 : Vec F S1024x512 .bf16) (E : Set ℕ) (K : PUnit → sProp 𝕄),
        iprop(owns c arg2 fullShare x0 ∗ owns c arg3 fullShare x1 ∗ owns c arg4 fullShare xi2 ∗ owns c arg5 fullShare xs0
            ∗ (iprop(owns c arg2 fullShare x0 ∗ owns c arg3 fullShare x1 ∗ owns c arg4 fullShare xi2 ∗ (∃ f, arg5.view.loc c ↦[arg5.view.set]{fullShare} arg5.view.writes (Elt F) f LS0)) -∗ K ⟨⟩))
          ⊢ wp frame (wpE (defs₀ (F := F)) Variants.none c none) E (cc4__agg_matmul_kernel i arg2 harg2 arg3 harg3 arg4 harg4 arg5 harg5) K } := by
  refine ⟨[], ?_, fun xi2 E K => ?run⟩
  case run =>
    simp only [cc4__agg_matmul_kernel_eq_skeleton]; unfold cc4__agg_matmul_kernel_skel
    unfold owns
    iintro ⟨⟨%f0, %hf0, H0⟩, ⟨%f1, %hf1, H1⟩, H2, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

def out4_B_2 : Vec F S1024x512 .bf16 :=
  VO4_2.read (Elt F) (VO4_2.writes (Elt F) VO4_2.junk (kernelRun4_B c i arg2 harg2 arg3 harg3 arg4 harg4 arg5 harg5 hc0 hc1 x0 x1 xs0).1)

theorem scover4_B_0 (y : S1024x512.Idx) : ∃ pc ∈ (kernelRun4_B c i arg2 harg2 arg3 harg3 arg4 harg4 arg5 harg5 hc0 hc1 x0 x1 xs0).2.1, y ∈ pc.1.set :=
  View.cover_of_tiledL _ S1024x512.size (by sl_kernel_rfl) y

def sout4_B_0 : Vec F S1024x512 .f32 :=
  VS4_0.read (Elt F) (VS4_0.writes (Elt F) VS4_0.junk (kernelRun4_B c i arg2 harg2 arg3 harg3 arg4 harg4 arg5 harg5 hc0 hc1 x0 x1 xs0).2.1)

end B

section C
variable (hc1 : cond4_1 i) (x0 : Vec F S1024x2048 .bf16) (x1 : Vec F S10240x512 .bf16) (xs0 : Vec F S1024x512 .f32)

-- At k = 4 the last product is added and the accumulator, rounded, is stored over the whole output block.
noncomputable def kernelRun4_C :
    Σ' (L2 : List (View.Piece (Elt F) S1024x512 .bf16)), { LS0 : List (View.Piece (Elt F) S1024x512 .f32) //
      ∀ (E : Set ℕ) (K : PUnit → sProp 𝕄),
        iprop(owns c arg2 fullShare x0 ∗ owns c arg3 fullShare x1 ∗ (∃ d, owns c arg4 fullShare d) ∗ owns c arg5 fullShare xs0
            ∗ (iprop(owns c arg2 fullShare x0 ∗ owns c arg3 fullShare x1 ∗ (∃ f, arg4.view.loc c ↦[arg4.view.set]{fullShare} arg4.view.writes (Elt F) f L2) ∗ (∃ f, arg5.view.loc c ↦[arg5.view.set]{fullShare} arg5.view.writes (Elt F) f LS0)) -∗ K ⟨⟩))
          ⊢ wp frame (wpE (defs₀ (F := F)) Variants.none c none) E (cc4__agg_matmul_kernel i arg2 harg2 arg3 harg3 arg4 harg4 arg5 harg5) K } := by
  refine ⟨?_, ?_, fun E K => ?run⟩
  case run =>
    simp only [cc4__agg_matmul_kernel_eq_skeleton]; unfold cc4__agg_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

theorem cover4_C_2 (y : S1024x512.Idx) : ∃ pc ∈ (kernelRun4_C c i arg2 harg2 arg3 harg3 arg4 harg4 arg5 harg5 hc0 hc1 x0 x1 xs0).1, y ∈ pc.1.set :=
  View.cover_of_tiledL _ S1024x512.size (by sl_kernel_rfl) y

def out4_C_2 : Vec F S1024x512 .bf16 :=
  VO4_2.read (Elt F) (VO4_2.writes (Elt F) VO4_2.junk (kernelRun4_C c i arg2 harg2 arg3 harg3 arg4 harg4 arg5 harg5 hc0 hc1 x0 x1 xs0).1)

theorem scover4_C_0 (y : S1024x512.Idx) : ∃ pc ∈ (kernelRun4_C c i arg2 harg2 arg3 harg3 arg4 harg4 arg5 harg5 hc0 hc1 x0 x1 xs0).2.1, y ∈ pc.1.set :=
  View.cover_of_tiledL _ S1024x512.size (by sl_kernel_rfl) y

def sout4_C_0 : Vec F S1024x512 .f32 :=
  VS4_0.read (Elt F) (VS4_0.writes (Elt F) VS4_0.junk (kernelRun4_C c i arg2 harg2 arg3 harg3 arg4 harg4 arg5 harg5 hc0 hc1 x0 x1 xs0).2.1)

end C
end BC
end Body

-- The resting invariant, with what it says of the accumulator as a parameter.
abbrev inv4 (c : Dev nD) (P : sProp 𝕄) : sProp 𝕄 :=
  iprop(iprop(P ∗ Pipeline.scopedRestBut (Ix := Unit) (Name := ℕ) (U := UR sig nD τ) (Lvl := ℕ) (Val := Elt F) spec4 c [cc4_scratch0]) ∗ (∃ r, prngReg c r))

theorem PhiA4_eq (c : Dev nD) : (Pipeline.ΦA spec4 c : sProp 𝕄) = inv4 c iprop(∃ d, owns c scM4_0 fullShare d) := by
  unfold Pipeline.ΦA inv4; rw [scopedRest4_split]; simp only [scM4_0, owns_whole]; try rfl

section Region
variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

variable (t : Fin cfg4.N)

-- What point t leaves in the output block and in the accumulator, the accumulator entered at xs.
def step4 (xs : Vec F S1024x512 .f32) : Vec F S1024x512 .bf16 × Vec F S1024x512 .f32 :=
  if h0 : t.val % 5 = 0 then
    (out4_A_2 c (grid4.coords t) (ms4_0 t) (hs4_0 t) (ms4_1 t) (hs4_1 t) (ms4_2 t) (hs4_2 t) scM4_0 (Memref.isWhole_whole _) ((hcond4_0 t).mpr h0) (fun h => by have := (hcond4_1 t).mp h; omega) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => by have := (hcond4_1 t).mp h; omega) (iblk4 V c 0 t) (iblk4 V c 1 t))
  else if h1 : t.val % 5 = 4 then
    (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) xs, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) xs)
  else
    (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) xs, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) xs)

def outsAt4 : (n : ℕ) → n < cfg4.N → Vec F S1024x512 .bf16 × Vec F S1024x512 .f32
  | 0, hn => step4 V c ⟨0, hn⟩ (VS4_0.read (Elt F) VS4_0.junk)
  | n + 1, hn => step4 V c ⟨n + 1, hn⟩ (outsAt4 n (Nat.lt_of_succ_lt hn)).2

theorem outsAt4_A (h0 : t.val % 5 = 0) (h1 : ¬t.val % 5 = 4) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n <;> (show step4 V c _ _ = _; exact dif_pos h0)

theorem outsAt4_B (h0 : ¬t.val % 5 = 0) (h1 : ¬t.val % 5 = 4) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact absurd (Nat.zero_mod _) h0
  | succ n => show step4 V c _ _ = _; exact (dif_neg h0).trans (dif_neg h1)

theorem outsAt4_C (h0 : ¬t.val % 5 = 0) (h1 : t.val % 5 = 4) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact absurd (Nat.zero_mod _) h0
  | succ n => show step4 V c _ _ = _; exact (dif_neg h0).trans (dif_pos h1)

-- The invariant before position n: at rest before the first point, afterwards the accumulator at what the point before left.
def PhiS4 : (n : ℕ) → n ≤ cfg4.N → sProp 𝕄
  | 0, _ => Pipeline.ΦA spec4 c
  | n + 1, hn => inv4 c (owns c scM4_0 fullShare (outsAt4 V c n hn).2)

-- At any position the invariant gives the resting one back: the accumulator's named contents are forgotten.
theorem PhiS4_out : ∀ n hn, PhiS4 V c n hn ⊢ inv4 c iprop(∃ d, owns c scM4_0 fullShare d)
  | 0, _ => .of_eq (PhiA4_eq c)
  | n + 1, hn => by
    unfold PhiS4 inv4; iintro ⟨⟨HS0, HR⟩, Hg⟩; iframe HR Hg; iexists _; iexact HS0

theorem PhiS4_pos (n : ℕ) (h : n ≤ cfg4.N) (hz : n ≠ 0) :
    PhiS4 V c n h = inv4 c (owns c scM4_0 fullShare (outsAt4 V c (n - 1) (by omega)).2) := by
  cases n with
  | zero => exact absurd rfl hz
  | succ n => rfl

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (w : Fin cfg4.W) : (dat4 V c).A w = V c (Pipeline.arrRef spec4 w) := rfl

theorem after4_2 : (dat4 V c).after 2 t = (outsAt4 V c t.val t.isLt).1 := rfl

theorem before4_0 (d) : (dat4 V c).before 0 t d = iblk4 V c 0 t :=
  ((dat4 V c).before_in_eq_fetched 0 rfl (fun _ => rfl) (fun _ _ _ => rfl) (fun _ => rfl) t d).trans rfl
theorem before4_1 (d) : (dat4 V c).before 1 t d = iblk4 V c 1 t :=
  ((dat4 V c).before_in_eq_fetched 1 rfl (fun _ => rfl) (fun _ _ _ => rfl) (fun _ => rfl) t d).trans rfl

def bodyPre4 : sProp 𝕄 :=
  iprop((dat4 V c).Φ t.castSucc ∗ (dat4 V c).owesAt () t.castSucc
    ∗ (∃ d, owns c (ms4_0 t) fullShare ((dat4 V c).before 0 t d))
    ∗ (∃ d, owns c (ms4_1 t) fullShare ((dat4 V c).before 1 t d))
    ∗ (∃ d, owns c (ms4_2 t) fullShare ((dat4 V c).before 2 t d)))

def bodyPost4 : sProp 𝕄 :=
  iprop((dat4 V c).Φ t.succ ∗ (dat4 V c).owesAt () t.succ
    ∗ (dat4 V c).leavesExact 0 t ∗ (dat4 V c).leavesExact 1 t ∗ (dat4 V c).leavesExact 2 t)

-- The invariant hands the body the accumulator and takes it back at this point's contents; the rest is framed.
theorem sound_body4 :
    bodyPre4 V c t ⊢ wp frame (wpE (defs₀ (F := F)) Variants.none c none) Set.univ (bodyAt4 t) (fun _ => bodyPost4 V c t) := by
  unfold bodyPre4 bodyPost4 bodyAt4
  simp only [before4_0, before4_1]
  obtain ⟨i0, i1, i2, i3⟩ := idle4 t
  rw [show (dat4 V c).owesAt () t.succ = (dat4 V c).owesAt () t.castSucc from rfl,
    show (dat4 V c).Φ t.succ = inv4 c (owns c scM4_0 fullShare (outsAt4 V c t.val t.isLt).2) from rfl,
    show (dat4 V c).Φ t.castSucc = PhiS4 V c t.val (Nat.le_of_lt t.isLt) from rfl,
    show (dat4 V c).leavesExact 0 t = owns c (ms4_0 t) fullShare (iblk4 V c 0 t) from by unfold Dat.leavesExact; rw [i0]; try rfl,
    show (dat4 V c).leavesExact 1 t = owns c (ms4_1 t) fullShare (iblk4 V c 1 t) from by unfold Dat.leavesExact; rw [i1]; try rfl]
  unfold inv4
  by_cases h1 : t.val % 5 = 4
  · have h0 : ¬t.val % 5 = 0 := by omega
    rw [show (dat4 V c).leavesExact 2 t = owns c (ms4_2 t) fullShare ((dat4 V c).after 2 t) from by unfold Dat.leavesExact; rw [i2 h1],
      after4_2, outsAt4_C V c t h0 h1, PhiS4_pos V c t.val _ (by omega)]
    unfold out4_C_2 sout4_C_0; dsimp only
    iintro ⟨⟨⟨HS0, HR⟩, Hg⟩, Ho, ⟨%d0, H0⟩, ⟨%d1, H1⟩, ⟨%d2, H2⟩⟩
    iapply ((kernelRun4_C c (grid4.coords t) _ _ _ _ _ _ _ _ (mt (hcond4_0 t).mp h0) ((hcond4_1 t).mpr h1) _ _ _).2.2 Set.univ _)
    iframe H0 H1 HS0
    isplitl [H2]; · iexists _; iexact H2
    iintro ⟨H0, H1, ⟨%g, H2⟩, ⟨%f, HS0⟩⟩
    iframe HR Hg Ho H0 H1
    isplitl [HS0]
    · ihave H' := (Ring.owns_of_writes_tiledL VS4_0 S1024x512.size) $$ HS0; iapply H'; ipureintro; sl_kernel_rfl
    ihave H' := (Ring.owns_of_writes_tiledL VO4_2 S1024x512.size) $$ H2; iapply H'; ipureintro; sl_kernel_rfl
  · rw [Dat.leavesExact_idle (dat4 V c) 2 t (i3 h1).1 (i3 h1).2]
    by_cases h0 : t.val % 5 = 0
    · rw [outsAt4_A V c t h0 h1]
      unfold sout4_A_0; dsimp only
      iintro ⟨HΦ, Ho, ⟨%d0, H0⟩, ⟨%d1, H1⟩, ⟨%d2, H2⟩⟩
      ihave ⟨⟨HS0, HR⟩, Hg⟩ := (PhiS4_out V c _ _) $$ HΦ
      iapply ((kernelRun4_A c (grid4.coords t) _ _ _ _ _ _ _ _ ((hcond4_0 t).mpr h0) (mt (hcond4_1 t).mp h1) _ _).2.2 _ Set.univ _)
      iframe H0 H1 H2 HS0
      iintro ⟨H0, H1, H2, ⟨%f, HS0⟩⟩
      iframe HR Hg Ho H0 H1
      isplitl [HS0]
      · ihave H' := (Ring.owns_of_writes_tiledL VS4_0 S1024x512.size) $$ HS0; iapply H'; ipureintro; sl_kernel_rfl
      iexists _; iexact H2
    · rw [outsAt4_B V c t h0 h1, PhiS4_pos V c t.val _ (by omega)]
      unfold sout4_B_0; dsimp only
      iintro ⟨⟨⟨HS0, HR⟩, Hg⟩, Ho, ⟨%d0, H0⟩, ⟨%d1, H1⟩, ⟨%d2, H2⟩⟩
      iapply ((kernelRun4_B c (grid4.coords t) _ _ _ _ _ _ _ _ (mt (hcond4_0 t).mp h0) (mt (hcond4_1 t).mp h1) _ _ _).2.2 _ Set.univ _)
      iframe H0 H1 H2 HS0
      iintro ⟨H0, H1, H2, ⟨%f, HS0⟩⟩
      iframe HR Hg Ho H0 H1
      isplitl [HS0]
      · ihave H' := (Ring.owns_of_writes_tiledL VS4_0 S1024x512.size) $$ HS0; iapply H'; ipureintro; sl_kernel_rfl
      iexists _; iexact H2

theorem body_obligation4 : BodyObligation (dat4 (F := F) V c) (defs₀ (F := F)) Variants.none () Set.univ := fun t => by
  rw [bigSep_W4, bigSep_W4]
  exact sound_body4 V c t

theorem hin4 : Pipeline.ΦA spec4 c ⊢ (dat4 V c).Φ 0 := .rfl

theorem hout4 : (dat4 V c).Φ (Fin.last cfg4.N) ⊢ Pipeline.ΦA spec4 c :=
  (PhiS4_out V c cfg4.N (Nat.le_refl _)).trans (.of_eq (PhiA4_eq c).symm)

end Region

end Cert.Kernel.Hand

end
-- ==== Proof.K.Region5.lean ====
import proofs.«402230_j66554813219093_3_alg».proof.Proof.Gen.Kernel.Launch
import proofs.«402230_j66554813219093_3_alg».proof.Proof.Gen.Kernel.Skeleton
import proofs.«402230_j66554813219093_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
abbrev cond5_0 (i : grid5.Coords) : Prop :=
  (Scalar.cmpi .ne (Scalar.extui (Scalar.cmpi .eq (BitVec.ofNat 32 (i 1).val) 0#32)) 0#32) = 1#1
theorem hcond5_0 : ∀ t : Fin cfg5.N, cond5_0 (grid5.coords t) ↔ t.val % 5 = 0 :=
  (by decide +kernel : ∀ t : Fin grid5.N, cond5_0 (grid5.coords t) ↔ t.val % 5 = 0)
abbrev cond5_1 (i : grid5.Coords) : Prop := k5_cond2 i = 1#1
theorem hcond5_1 : ∀ t : Fin cfg5.N, cond5_1 (grid5.coords t) ↔ t.val % 5 = 4 :=
  (by decide +kernel : ∀ t : Fin grid5.N, cond5_1 (grid5.coords t) ↔ t.val % 5 = 4)
theorem idle5_3 : ∀ t : Fin cfg5.N, ¬cond5_1 (grid5.coords t) →
    cfg5.idle 3 (grid5.coords t) = true ∧ (cfg5.win 3).flush t = false := by decide +kernel
theorem liveAt5_3 : ∀ t : Fin cfg5.N, cond5_1 (grid5.coords t) → cfg5.idle 3 (grid5.coords t) = false := by decide +kernel
abbrev VO5_3 : View sig .tc .vmem S1024x512 .bf16 := (Memref.whole cc5_stg3_0 : Memref sig .tc .vmem S1024x512 .bf16).view
abbrev ms5_0 (t : Fin cfg5.N) : Memref sig .tc .vmem S1024x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S10240x512 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x512 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x512 .bf16 := win5_3.stage (cfg5.slots t 3)
abbrev hs5_3 (t : Fin cfg5.N) : (ms5_3 t).IsWhole := hstage5_3 ((cfg5.slots t 3).cast nbuf5_3)
abbrev scM5_0 : Memref sig .tc .vmem S1024x512 .f32 := Memref.whole cc5_scratch0
abbrev VS5_0 : View sig .tc .vmem S1024x512 .f32 := scM5_0.view
abbrev rest5 (c : Dev nD) : sProp 𝕄 :=
  Pipeline.scopedRestBut (Ix := Unit) (Name := ℕ) (U := UR sig nD τ) (Lvl := ℕ) (Val := Elt F) spec5 c [cc5_scratch0]
theorem PhiA5_eq (c : Dev nD) :
    (Pipeline.ΦA spec5 c : sProp 𝕄)
      = iprop(iprop((∃ d, owns (c : Thread nD τ) scM5_0 fullShare d) ∗ rest5 (F := F) c) ∗ (∃ r, prngReg c r)) := by
  unfold Pipeline.ΦA; rw [scopedRest5_split]; simp only [scM5_0, owns_whole]; try rfl
/-- Reading through a whole memref is a bijection, so owning it at `X` is owning its elements at the contents that read `X`. -/
theorem owns_unread {sp : Space} {sh : Shape} {e : EltTy} {m : Memref sig .tc sp sh e} (h : m.IsWhole) (c : Dev nD) (X : sh.Idx → Elt F e) :
    (owns (c : Thread nD τ) m fullShare X : sProp 𝕄) = (m.view.loc (c : Thread nD τ) ↦[m.view.set]{fullShare} h.unread X) := by
  rw [owns_eq_rep, h.eq_unread (View.read_rep _ X)]
/-- Stores that cover a buffer determine what it reads, whatever it held before. -/
theorem owns_of_cover {sp sp' : Space} {κ' : Kind} {sh : Shape} {e : EltTy} (c : Dev nD) (m : Memref sig .tc sp sh e)
    (v' : View sig κ' sp' sh e) (L : List (View.Piece (Elt F) sh e)) (hL : ∀ y, ∃ pc ∈ L, y ∈ pc.1.set) :
    iprop(∃ f, m.view.loc (c : Thread nD τ) ↦[m.view.set]{fullShare} m.view.writes (Elt F) f L)
      ⊢ (owns (c : Thread nD τ) m fullShare (v'.read (Elt F) (v'.writes (Elt F) v'.junk L)) : sProp 𝕄) := by
  unfold owns; iintro ⟨%f, H⟩; iexists _; isplitr; swap; · iexact H
  ipureintro; exact View.read_writes_of_cover _ _ _ _ _ hL
section Runs
variable (c : Dev nD) (i : grid5.Coords)
  (arg2 : Memref sig .tc .vmem S1024x2048 .bf16) (harg2 : arg2.IsWhole)
  (arg3 : Memref sig .tc .vmem S10240x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .f32) (harg6 : arg6.IsWhole)
section
variable (hc0 : cond5_0 i) (hc1 : ¬cond5_1 i) (x0 : Vec F S1024x2048 .bf16) (x1 : Vec F S10240x512 .bf16) (x2 : Vec F S1024x512 .bf16)
noncomputable def kernelRun5_A :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E
              (cc5__agg_combine_kernel i arg2 harg2 arg3 harg3 arg4 harg4 arg5 harg5 arg6 harg6) K } := by
  refine ⟨[], ?_, fun xi3 E K => ?run⟩
  case run =>
    simp only [owns_unread harg2, owns_unread harg3, owns_unread harg4, owns_unread harg5, owns_unread harg6]
    simp only [cc5__agg_combine_kernel_eq_skeleton]; unfold cc5__agg_combine_kernel_skel
    iintro ⟨H0, H1, H2, H3, ⟨%d, HS0⟩, Hk⟩
    sl_exec (disch := first | exact hc0 | exact hc1)
    sl_step
    iapply Hk
    iframe H0 H1 H2 H3
    iexists _; iexact HS0
local notation "runA5" => kernelRun5_A c i arg2 harg2 arg3 harg3 arg4 harg4 arg5 harg5 arg6 harg6
theorem scover5_A_0 (y : S1024x512.Idx) : ∃ pc ∈ (runA5 hc0 hc1 x0 x1 x2).2.1, y ∈ pc.1.set :=
  View.cover_of_tiledL (runA5 hc0 hc1 x0 x1 x2).2.1 S1024x512.size (by sl_kernel_rfl) y
def sout5_A_0 : Vec F S1024x512 .f32 :=
  VS5_0.read (Elt F) (VS5_0.writes (Elt F) VS5_0.junk (runA5 hc0 hc1 x0 x1 x2).2.1)
end
section
variable (hc0 : ¬cond5_0 i) (hc1 : ¬cond5_1 i) (x0 : Vec F S1024x2048 .bf16) (x1 : Vec F S10240x512 .bf16) (x2 : Vec F S1024x512 .bf16) (xs0 : Vec F S1024x512 .f32)
noncomputable def kernelRun5_B :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E
              (cc5__agg_combine_kernel i arg2 harg2 arg3 harg3 arg4 harg4 arg5 harg5 arg6 harg6) K } := by
  refine ⟨[], ?_, fun xi3 E K => ?run⟩
  case run =>
    simp only [owns_unread harg2, owns_unread harg3, owns_unread harg4, owns_unread harg5, owns_unread harg6]
    simp only [cc5__agg_combine_kernel_eq_skeleton]; unfold cc5__agg_combine_kernel_skel
    iintro ⟨H0, H1, H2, H3, HS0, Hk⟩
    sl_exec (disch := first | exact hc0 | exact hc1)
    sl_step
    iapply Hk
    iframe H0 H1 H2 H3
    iexists _; iexact HS0
local notation "runB5" => kernelRun5_B c i arg2 harg2 arg3 harg3 arg4 harg4 arg5 harg5 arg6 harg6
theorem scover5_B_0 (y : S1024x512.Idx) : ∃ pc ∈ (runB5 hc0 hc1 x0 x1 x2 xs0).2.1, y ∈ pc.1.set :=
  View.cover_of_tiledL (runB5 hc0 hc1 x0 x1 x2 xs0).2.1 S1024x512.size (by sl_kernel_rfl) y
def sout5_B_0 : Vec F S1024x512 .f32 :=
  VS5_0.read (Elt F) (VS5_0.writes (Elt F) VS5_0.junk (runB5 hc0 hc1 x0 x1 x2 xs0).2.1)
end
section
variable (hc0 : ¬cond5_0 i) (hc1 : cond5_1 i) (x0 : Vec F S1024x2048 .bf16) (x1 : Vec F S10240x512 .bf16) (x2 : Vec F S1024x512 .bf16) (xs0 : Vec F S1024x512 .f32)
noncomputable def kernelRun5_C :
    Σ' (L3 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E
              (cc5__agg_combine_kernel i arg2 harg2 arg3 harg3 arg4 harg4 arg5 harg5 arg6 harg6) K } := by
  refine ⟨?_, ?_, fun E K => ?run⟩
  case run =>
    simp only [owns_unread harg2, owns_unread harg3, owns_unread harg4, owns_unread harg5, owns_unread harg6]
    simp only [cc5__agg_combine_kernel_eq_skeleton]; unfold cc5__agg_combine_kernel_skel
    iintro ⟨H0, H1, H2, ⟨%d, H3⟩, HS0, Hk⟩
    sl_exec (disch := first | exact hc0 | exact hc1)
    sl_step
    iapply Hk
    iframe H0 H1 H2
    isplitl [H3]; · iexists _; iexact H3
    iexists _; iexact HS0
local notation "runC5" => kernelRun5_C c i arg2 harg2 arg3 harg3 arg4 harg4 arg5 harg5 arg6 harg6
theorem cover5_C_3 (y : S1024x512.Idx) : ∃ pc ∈ (runC5 hc0 hc1 x0 x1 x2 xs0).1, y ∈ pc.1.set :=
  View.cover_of_tiledL (runC5 hc0 hc1 x0 x1 x2 xs0).1 S1024x512.size (by sl_kernel_rfl) y
def out5_C_3 : Vec F S1024x512 .bf16 :=
  VO5_3.read (Elt F) (VO5_3.writes (Elt F) VO5_3.junk (runC5 hc0 hc1 x0 x1 x2 xs0).1)
theorem scover5_C_0 (y : S1024x512.Idx) : ∃ pc ∈ (runC5 hc0 hc1 x0 x1 x2 xs0).2.1, y ∈ pc.1.set :=
  View.cover_of_tiledL (runC5 hc0 hc1 x0 x1 x2 xs0).2.1 S1024x512.size (by sl_kernel_rfl) y
def sout5_C_0 : Vec F S1024x512 .f32 :=
  VS5_0.read (Elt F) (VS5_0.writes (Elt F) VS5_0.junk (runC5 hc0 hc1 x0 x1 x2 xs0).2.1)
end
end Runs
section Region
variable (V : (c : Dev nD) → (b : Ref sig .tc) → Buf (Elt F) ((c : Thread nD τ).loc b)) (c : Dev nD)
def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))
def ptA5 (t : Fin cfg5.N) (h0 : t.val % 5 = 0) : Vec F S1024x512 .bf16 × Vec F S1024x512 .f32 :=
  (VO5_3.read (Elt F) VO5_3.junk,
   sout5_A_0 c (grid5.coords t) (ms5_0 t) (hs5_0 t) (ms5_1 t) (hs5_1 t) (ms5_2 t) (hs5_2 t) (ms5_3 t) (hs5_3 t) scM5_0 (Memref.isWhole_whole _)
      ((hcond5_0 t).mpr h0) (fun h => by have := (hcond5_1 t).mp h; omega) (iblk5 V c 0 t) (iblk5 V c 1 t) (iblk5 V c 2 t))
def ptB5 (t : Fin cfg5.N) (h0 : ¬t.val % 5 = 0) (h1 : ¬t.val % 5 = 4) (xs : Vec F S1024x512 .f32) :
    Vec F S1024x512 .bf16 × Vec F S1024x512 .f32 :=
  (VO5_3.read (Elt F) VO5_3.junk,
   sout5_B_0 c (grid5.coords t) (ms5_0 t) (hs5_0 t) (ms5_1 t) (hs5_1 t) (ms5_2 t) (hs5_2 t) (ms5_3 t) (hs5_3 t) scM5_0 (Memref.isWhole_whole _)
      (fun h => h0 ((hcond5_0 t).mp h)) (fun h => h1 ((hcond5_1 t).mp h)) (iblk5 V c 0 t) (iblk5 V c 1 t) (iblk5 V c 2 t) xs)
def ptC5 (t : Fin cfg5.N) (h0 : ¬t.val % 5 = 0) (h1 : t.val % 5 = 4) (xs : Vec F S1024x512 .f32) :
    Vec F S1024x512 .bf16 × Vec F S1024x512 .f32 :=
  (out5_C_3 c (grid5.coords t) (ms5_0 t) (hs5_0 t) (ms5_1 t) (hs5_1 t) (ms5_2 t) (hs5_2 t) (ms5_3 t) (hs5_3 t) scM5_0 (Memref.isWhole_whole _)
      (fun h => h0 ((hcond5_0 t).mp h)) ((hcond5_1 t).mpr h1) (iblk5 V c 0 t) (iblk5 V c 1 t) (iblk5 V c 2 t) xs,
   sout5_C_0 c (grid5.coords t) (ms5_0 t) (hs5_0 t) (ms5_1 t) (hs5_1 t) (ms5_2 t) (hs5_2 t) (ms5_3 t) (hs5_3 t) scM5_0 (Memref.isWhole_whole _)
      (fun h => h0 ((hcond5_0 t).mp h)) ((hcond5_1 t).mpr h1) (iblk5 V c 0 t) (iblk5 V c 1 t) (iblk5 V c 2 t) xs)
def outsAt5 : (n : ℕ) → n < cfg5.N → Vec F S1024x512 .bf16 × Vec F S1024x512 .f32
  | 0, hn => ptA5 V c ⟨0, hn⟩ (Nat.zero_mod _)
  | n + 1, hn =>
    if h0 : (n + 1) % 5 = 0 then ptA5 V c ⟨n + 1, hn⟩ h0
    else
      if h1 : (n + 1) % 5 = 4 then ptC5 V c ⟨n + 1, hn⟩ h0 h1 (outsAt5 n (Nat.lt_of_succ_lt hn)).2
      else ptB5 V c ⟨n + 1, hn⟩ h0 h1 (outsAt5 n (Nat.lt_of_succ_lt hn)).2
theorem outsAt5_A (t : Fin cfg5.N) (h0 : t.val % 5 = 0) : outsAt5 V c t.val t.isLt = ptA5 V c t h0 := by
  obtain ⟨n, hn⟩ := t
  cases n with
  | zero => exact rfl
  | succ n => exact (dif_pos h0).trans rfl
theorem outsAt5_B (t : Fin cfg5.N) (h0 : ¬t.val % 5 = 0) (h1 : ¬t.val % 5 = 4) :
    outsAt5 V c t.val t.isLt
      = ptB5 V c t h0 h1 (outsAt5 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt5_C (t : Fin cfg5.N) (h0 : ¬t.val % 5 = 0) (h1 : t.val % 5 = 4) :
    outsAt5 V c t.val t.isLt
      = ptC5 V c t h0 h1 (outsAt5 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)
def PhiS5 : (n : ℕ) → n ≤ cfg5.N → sProp 𝕄
  | 0, _ => Pipeline.ΦA spec5 c
  | n + 1, hn => iprop(iprop(owns (c : Thread nD τ) scM5_0 fullShare ((outsAt5 V c n hn).2) ∗ rest5 (F := F) c) ∗ (∃ r, prngReg c r))
theorem PhiS5_pos (n : ℕ) (h : n ≤ cfg5.N) (hz : n ≠ 0) :
    PhiS5 V c n h
      = iprop(iprop(owns (c : Thread nD τ) scM5_0 fullShare ((outsAt5 V c (n - 1) (by omega)).2) ∗ rest5 (F := F) c) ∗ (∃ r, prngReg c r)) := by
  cases n with
  | zero => exact absurd rfl hz
  | succ n => rfl
def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0
theorem A_eq5 (w : Fin cfg5.W) : (dat5 V c).A w = V c (Pipeline.arrRef spec5 w) := by
  dsimp only [dat5]
theorem PhiS5_castSucc (t : Fin cfg5.N) :
    (dat5 V c).Φ t.castSucc = PhiS5 V c t.val (Nat.le_of_lt t.isLt) := by
  dsimp only [dat5]; simp only [Fin.coe_castSucc]
theorem after5_3 (t : Fin cfg5.N) : (dat5 V c).after 3 t = (outsAt5 V c t.val t.isLt).1 := by dsimp only [dat5]
theorem Phi5_succ (t : Fin cfg5.N) : (dat5 V c).Φ t.succ
    = iprop(iprop(owns (c : Thread nD τ) scM5_0 fullShare ((outsAt5 V c t.val t.isLt).2) ∗ rest5 (F := F) c) ∗ (∃ r, prngReg c r)) := rfl
/-- At any position the invariant holds the accumulator at some contents. -/
theorem PhiS5_any : ∀ (n : ℕ) (h : n ≤ cfg5.N), PhiS5 V c n h
    ⊢ iprop(iprop((∃ d, owns (c : Thread nD τ) scM5_0 fullShare d) ∗ rest5 (F := F) c) ∗ (∃ r, prngReg c r))
  | 0, _ => by rw [← PhiA5_eq]; exact .rfl
  | n + 1, _ => by
    rw [PhiS5]; iintro ⟨⟨HS0, Hr⟩, Hg⟩; iframe Hr Hg; iexists _; iexact HS0
/-- One argument for the three inputs, which differ only in the window. -/
theorem before5 (t : Fin cfg5.N) : (∀ d, (dat5 V c).before 0 t d = iblk5 V c 0 t)
    ∧ (∀ d, (dat5 V c).before 1 t d = iblk5 V c 1 t) ∧ (∀ d, (dat5 V c).before 2 t d = iblk5 V c 2 t) := by
  refine ⟨?_, ?_, ?_⟩ <;>
    exact fun d => ((dat5 V c).before_in_eq_fetched _ rfl (fun _ => rfl) (fun _ _ _ => rfl) (fun _ => rfl) t d).trans rfl
theorem leaves5_0 (t : Fin cfg5.N) :
    (dat5 V c).leavesExact 0 t = owns (c : Thread nD τ) (ms5_0 t) fullShare (iblk5 V c 0 t) := rfl
theorem leaves5_1 (t : Fin cfg5.N) :
    (dat5 V c).leavesExact 1 t = owns (c : Thread nD τ) (ms5_1 t) fullShare (iblk5 V c 1 t) := rfl
theorem leaves5_2 (t : Fin cfg5.N) :
    (dat5 V c).leavesExact 2 t = owns (c : Thread nD τ) (ms5_2 t) fullShare (iblk5 V c 2 t) := rfl
def bodyPre5 (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))
def bodyPost5 (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)
theorem sound_body5 (t : Fin cfg5.N) :
    bodyPre5 V c t ⊢ wp frame (wpE (defs₀ (F := F)) Variants.none c none) Set.univ (bodyAt5 t) (fun _ => bodyPost5 V c t) := by
  unfold bodyPre5 bodyPost5 bodyAt5
  simp only [(before5 V c t).1, (before5 V c t).2.1, (before5 V c t).2.2]
  rw [show (dat5 V c).owesAt () t.succ = (dat5 V c).owesAt () t.castSucc from rfl, Phi5_succ, PhiS5_castSucc,
    leaves5_0, leaves5_1, leaves5_2]
  by_cases h0 : t.val % 5 = 0
  · have hc1 : ¬cond5_1 (grid5.coords t) := fun h => by have := (hcond5_1 t).mp h; omega
    rw [Dat.leavesExact_idle (dat5 V c) 3 t (idle5_3 t hc1).1 (idle5_3 t hc1).2, outsAt5_A V c t h0]
    unfold ptA5 sout5_A_0; dsimp only
    refine (sep_mono_left (PhiS5_any V c _ _)).trans ?_
    iintro ⟨⟨⟨HS0, Hr⟩, Hg⟩, Ho, ⟨%d0, H0⟩, ⟨%d1, H1⟩, ⟨%d2, H2⟩, ⟨%d3, H3⟩⟩
    iapply ((kernelRun5_A c (grid5.coords t) _ _ _ _ _ _ _ _ _ _ ((hcond5_0 t).mpr h0) hc1 (iblk5 V c 0 t) (iblk5 V c 1 t) (iblk5 V c 2 t)).2.2
      ((dat5 V c).before 3 t d3) Set.univ _)
    iframe H0 H1 H2 H3 HS0
    iintro ⟨H0, H1, H2, H3, HS0⟩
    iframe Hr Hg Ho H0 H1 H2
    isplitl [HS0]; · iapply owns_of_cover c _ _ _ (scover5_A_0 c _ _ _ _ _ _ _ _ _ _ _ _ _ _ _ _); iexact HS0
    iexists _; iexact H3
  · rw [PhiS5_pos V c _ _ fun h => h0 (by rw [h])]
    by_cases h1 : t.val % 5 = 4
    · rw [show (dat5 V c).leavesExact 3 t = owns (c : Thread nD τ) (ms5_3 t) fullShare ((dat5 V c).after 3 t) from by
        unfold Dat.leavesExact; rw [liveAt5_3 t ((hcond5_1 t).mpr h1)], after5_3, outsAt5_C V c t h0 h1]
      unfold ptC5 out5_C_3 sout5_C_0; dsimp only
      iintro ⟨⟨⟨HS0, Hr⟩, Hg⟩, Ho, ⟨%d0, H0⟩, ⟨%d1, H1⟩, ⟨%d2, H2⟩, ⟨%d3, H3⟩⟩
      iapply ((kernelRun5_C c (grid5.coords t) _ _ _ _ _ _ _ _ _ _ (fun h => h0 ((hcond5_0 t).mp h)) ((hcond5_1 t).mpr h1)
        (iblk5 V c 0 t) (iblk5 V c 1 t) (iblk5 V c 2 t) _).2.2 Set.univ _)
      iframe H0 H1 H2 HS0
      isplitl [H3]; · iexists _; iexact H3
      iintro ⟨H0, H1, H2, H3, HS0⟩
      iframe Hr Hg Ho H0 H1 H2
      isplitl [HS0]; · iapply owns_of_cover c _ _ _ (scover5_C_0 c _ _ _ _ _ _ _ _ _ _ _ _ _ _ _ _ _); iexact HS0
      iapply owns_of_cover c _ _ _ (cover5_C_3 c _ _ _ _ _ _ _ _ _ _ _ _ _ _ _ _ _); iexact H3
    · have hc1 : ¬cond5_1 (grid5.coords t) := fun h => h1 ((hcond5_1 t).mp h)
      rw [Dat.leavesExact_idle (dat5 V c) 3 t (idle5_3 t hc1).1 (idle5_3 t hc1).2, outsAt5_B V c t h0 h1]
      unfold ptB5 sout5_B_0; dsimp only
      iintro ⟨⟨⟨HS0, Hr⟩, Hg⟩, Ho, ⟨%d0, H0⟩, ⟨%d1, H1⟩, ⟨%d2, H2⟩, ⟨%d3, H3⟩⟩
      iapply ((kernelRun5_B c (grid5.coords t) _ _ _ _ _ _ _ _ _ _ (fun h => h0 ((hcond5_0 t).mp h)) hc1
        (iblk5 V c 0 t) (iblk5 V c 1 t) (iblk5 V c 2 t) _).2.2 ((dat5 V c).before 3 t d3) Set.univ _)
      iframe H0 H1 H2 H3 HS0
      iintro ⟨H0, H1, H2, H3, HS0⟩
      iframe Hr Hg Ho H0 H1 H2
      isplitl [HS0]; · iapply owns_of_cover c _ _ _ (scover5_B_0 c _ _ _ _ _ _ _ _ _ _ _ _ _ _ _ _ _); iexact HS0
      iexists _; iexact H3
theorem body_obligation5 : BodyObligation (dat5 (F := F) V c) (defs₀ (F := F)) Variants.none () Set.univ := fun t => by
  rw [bigSep_W5, bigSep_W5]
  exact sound_body5 V c t
theorem hin5 : Pipeline.ΦA spec5 c ⊢ (dat5 V c).Φ 0 := .rfl
theorem hout5 : (dat5 V c).Φ (Fin.last cfg5.N) ⊢ Pipeline.ΦA spec5 c := by
  rw [PhiA5_eq]; exact PhiS5_any V c cfg5.N le_rfl
end Region
end Cert.Kernel.Hand
end
-- ==== Proof.K.Region6.lean ====
import proofs.«402230_j66554813219093_3_alg».proof.Proof.Gen.Kernel.Launch
import proofs.«402230_j66554813219093_3_alg».proof.Proof.Gen.Kernel.Skeleton
import proofs.«402230_j66554813219093_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1024x512 := Rect.unit (s := S1024x512) ![0, 0] S1024x512.size inb_S1024x512_S1024x512_0_0
abbrev r6_1 : Rect S512x256 := Rect.unit (s := S512x256) ![0, 0] S512x256.size inb_S512x256_S512x256_0_0
abbrev r6_2 : Rect S1x256 := Rect.unit (s := S1x256) ![0, 0] S1x256.size inb_S1x256_S1x256_0_0
abbrev r6_3 : Rect S1024x256 := Rect.unit (s := S1024x256) ![0, 0] S1024x256.size inb_S1024x256_S1024x256_0_0

def out6_7 (x0 : Vec F S1024x512 .bf16) (x1 : Vec F S1024x512 .bf16) (x2 : Vec F S1024x512 .bf16) (x3 : Vec F S512x256 .bf16) (x4 : Vec F S512x256 .bf16) (x5 : Vec F S512x256 .bf16) (x6 : Vec F S1x256 .f32) : Vec F S1024x256 .f32 :=
  View.canon [⟨r6_3, k6_pay1 (View.ld x0 r6_0) (View.ld x1 r6_0) (View.ld x2 r6_0) (View.ld x3 r6_1) (View.ld x4 r6_1) (View.ld x5 r6_1) (View.ld x6 r6_2)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := rfl

theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

-- the body leaves each input's block in place
theorem before6 (c : Dev nD) (t : Fin cfg6.N) (w : Fin cfg6.W) (hw : w ≠ 7) (d) : (dat6 V c).before w t d = (dat6 V c).after w t := by
  obtain ⟨_ | _ | _ | _ | _ | _ | _ | _ | n, h⟩ := w
  iterate 7 exact (dat6 V c).before_in_eq_fetched _ rfl (fun _ => rfl) (fun _ _ _ => rfl) (fun _ => rfl) t d
  · exact absurd rfl hw
  · exact absurd h (Nat.not_lt.2 (Nat.le_add_left 8 n))

-- the body reads its inputs and makes one store, of the output's whole block
theorem body_obligation6 (c : Dev nD) : BodyObligation (dat6 (F := F) V c) (defs₀ (F := F)) Variants.none () Set.univ := fun t => by
  rw [bigSep_W6, bigSep_W6]
  sl_whnfR [defs₀, Defs.onTc]
  simp only [before6 V c t 0 (by decide), before6 V c t 1 (by decide), before6 V c t 2 (by decide), before6 V c t 3 (by decide), before6 V c t 4 (by decide), before6 V c t 5 (by decide), before6 V c t 6 (by decide)]
  dsimp only [dat6]
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  sl_unfold [cc6__cheb_out_kernel]
  sl_exec
  sl_step
  iframe HΦ
  isplitl [Ho]; · iexact Ho
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  isplitl [H4]; · iexists _; iframe H4; ipureintro; exact hf4
  isplitl [H5]; · iexists _; iframe H5; ipureintro; exact hf5
  isplitl [H6]; · iexists _; iframe H6; ipureintro; exact hf6
  iexists _; iframe H7; ipureintro
  rw [← hf0, ← hf1, ← hf2, ← hf3, ← hf4, ← hf5, ← hf6]
  exact View.read_writes_eq_canon _ _ _ (View.cover_of_tiled _ S1024x256.size (by rfl))

theorem hin6 (c : Dev nD) : Pipeline.ΦA spec6 c ⊢ (dat6 V c).Φ 0 := .rfl

theorem hout6 (c : Dev nD) : (dat6 V c).Φ (Fin.last cfg6.N) ⊢ Pipeline.ΦA spec6 c := .rfl

end Cert.Kernel.Hand

end
-- ==== Proof.K.Run.lean ====
import proofs.«402230_j66554813219093_3_alg».proof.Proof.K.ValueCond
import proofs.«402230_j66554813219093_3_alg».proof.Proof.K.Region0
import proofs.«402230_j66554813219093_3_alg».proof.Proof.K.Region1
import proofs.«402230_j66554813219093_3_alg».proof.Proof.K.Region2
import proofs.«402230_j66554813219093_3_alg».proof.Proof.K.Region3
import proofs.«402230_j66554813219093_3_alg».proof.Proof.K.Region4
import proofs.«402230_j66554813219093_3_alg».proof.Proof.K.Region5
import proofs.«402230_j66554813219093_3_alg».proof.Proof.K.Region6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rd (W : Dev nD → Valuation τ sig (Elt F)) : (c : Dev nD) → (b : Ref sig .tc) → Buf (Elt F) ((c : Thread nD τ).loc b) :=
  fun c b => W c b

abbrev U7 : Dev nD → Valuation τ sig (Elt F) := fun c => V7 m c

def o105 (c : Dev nD) : Buf (Elt F) ((c : Thread nD τ).loc main_v105) :=
  (dat0 (rd (U7 m)) c).arrAt (2 : Fin cfg0.W) cfg0.N

abbrev U8 : Dev nD → Valuation τ sig (Elt F) := fun c => Function.update (U7 m c) main_v105 (o105 m c)

abbrev U9 : Dev nD → Valuation τ sig (Elt F) := fun c => StableHlo.after hostOps1 (U8 m c)

def o107 (c : Dev nD) : Buf (Elt F) ((c : Thread nD τ).loc main_v107) :=
  (dat1 (rd (U9 m)) c).arrAt (3 : Fin cfg1.W) cfg1.N

abbrev U10 : Dev nD → Valuation τ sig (Elt F) := fun c => Function.update (U9 m c) main_v107 (o107 m c)

def o108 (c : Dev nD) : Buf (Elt F) ((c : Thread nD τ).loc main_v108) :=
  (dat2 (rd (U10 m)) c).arrAt (2 : Fin cfg2.W) cfg2.N

abbrev U11 : Dev nD → Valuation τ sig (Elt F) := fun c => Function.update (U10 m c) main_v108 (o108 m c)

abbrev U12 : Dev nD → Valuation τ sig (Elt F) := fun c => StableHlo.after hostOps3 (U11 m c)

def o110 (c : Dev nD) : Buf (Elt F) ((c : Thread nD τ).loc main_v110) :=
  (dat3 (rd (U12 m)) c).arrAt (3 : Fin cfg3.W) cfg3.N

abbrev U13 : Dev nD → Valuation τ sig (Elt F) := fun c => Function.update (U12 m c) main_v110 (o110 m c)

def o111 (c : Dev nD) : Buf (Elt F) ((c : Thread nD τ).loc main_v111) :=
  (dat4 (rd (U13 m)) c).arrAt (2 : Fin cfg4.W) cfg4.N

abbrev U14 : Dev nD → Valuation τ sig (Elt F) := fun c => Function.update (U13 m c) main_v111 (o111 m c)

def o112 (c : Dev nD) : Buf (Elt F) ((c : Thread nD τ).loc main_v112) :=
  (dat5 (rd (U14 m)) c).arrAt (3 : Fin cfg5.W) cfg5.N

abbrev U15 : Dev nD → Valuation τ sig (Elt F) := fun c => Function.update (U14 m c) main_v112 (o112 m c)

abbrev U16 : Dev nD → Valuation τ sig (Elt F) := fun c => StableHlo.after hostOps6 (U15 m c)

def o114 (c : Dev nD) : Buf (Elt F) ((c : Thread nD τ).loc main_v114) :=
  (dat6 (rd (U16 m)) c).arrAt (7 : Fin cfg6.W) cfg6.N

abbrev U17 : Dev nD → Valuation τ sig (Elt F) := fun c => Function.update (U16 m c) main_v114 (o114 m c)

abbrev U18 : Dev nD → Valuation τ sig (Elt F) := fun c => StableHlo.after hostOps7 (U17 m c)

def outs : Outs (F := F) := fun _ r c =>
  if h : r = main_v105 then h ▸ o105 m c
  else if h : r = main_v107 then h ▸ o107 m c
  else if h : r = main_v108 then h ▸ o108 m c
  else if h : r = main_v110 then h ▸ o110 m c
  else if h : r = main_v111 then h ▸ o111 m c
  else if h : r = main_v112 then h ▸ o112 m c
  else if h : r = main_v114 then h ▸ o114 m c
  else m ((c : Thread nD τ).loc r)

theorem outs_v105 (J : ℕ) (c : Dev nD) : outs m J main_v105 c = o105 m c := by
  unfold outs; rw [dif_pos rfl]
theorem outs_v107 (J : ℕ) (c : Dev nD) : outs m J main_v107 c = o107 m c := by
  unfold outs; rw [dif_neg (by decide), dif_pos rfl]
theorem outs_v108 (J : ℕ) (c : Dev nD) : outs m J main_v108 c = o108 m c := by
  unfold outs; rw [dif_neg (by decide), dif_neg (by decide), dif_pos rfl]
theorem outs_v110 (J : ℕ) (c : Dev nD) : outs m J main_v110 c = o110 m c := by
  unfold outs; rw [dif_neg (by decide), dif_neg (by decide), dif_neg (by decide), dif_pos rfl]
theorem outs_v111 (J : ℕ) (c : Dev nD) : outs m J main_v111 c = o111 m c := by
  unfold outs; rw [dif_neg (by decide), dif_neg (by decide), dif_neg (by decide), dif_neg (by decide), dif_pos rfl]
theorem outs_v112 (J : ℕ) (c : Dev nD) : outs m J main_v112 c = o112 m c := by
  unfold outs; rw [dif_neg (by decide), dif_neg (by decide), dif_neg (by decide), dif_neg (by decide), dif_neg (by decide), dif_pos rfl]
theorem outs_v114 (J : ℕ) (c : Dev nD) : outs m J main_v114 c = o114 m c := by
  unfold outs; rw [dif_neg (by decide), dif_neg (by decide), dif_neg (by decide), dif_neg (by decide), dif_neg (by decide), dif_neg (by decide), dif_pos rfl]

theorem V8_eq (c : Dev nD) : V8 m (outs m) c = U8 m c := by
  show Function.update (V7 m c) main_v105 (outs m 8 main_v105 c) = _; rw [outs_v105]
theorem V9_eq (c : Dev nD) : V9 m (outs m) c = U9 m c := by
  show StableHlo.after hostOps1 (V8 m (outs m) c) = _; rw [V8_eq]
theorem V10_eq (c : Dev nD) : V10 m (outs m) c = U10 m c := by
  show Function.update (V9 m (outs m) c) main_v107 (outs m 10 main_v107 c) = _; rw [outs_v107, V9_eq]
theorem V11_eq (c : Dev nD) : V11 m (outs m) c = U11 m c := by
  show Function.update (V10 m (outs m) c) main_v108 (outs m 11 main_v108 c) = _; rw [outs_v108, V10_eq]
theorem V12_eq (c : Dev nD) : V12 m (outs m) c = U12 m c := by
  show StableHlo.after hostOps3 (V11 m (outs m) c) = _; rw [V11_eq]
theorem V13_eq (c : Dev nD) : V13 m (outs m) c = U13 m c := by
  show Function.update (V12 m (outs m) c) main_v110 (outs m 13 main_v110 c) = _; rw [outs_v110, V12_eq]
theorem V14_eq (c : Dev nD) : V14 m (outs m) c = U14 m c := by
  show Function.update (V13 m (outs m) c) main_v111 (outs m 14 main_v111 c) = _; rw [outs_v111, V13_eq]
theorem V15_eq (c : Dev nD) : V15 m (outs m) c = U15 m c := by
  show Function.update (V14 m (outs m) c) main_v112 (outs m 15 main_v112 c) = _; rw [outs_v112, V14_eq]
theorem V16_eq (c : Dev nD) : V16 m (outs m) c = U16 m c := by
  show StableHlo.after hostOps6 (V15 m (outs m) c) = _; rw [V15_eq]
theorem V17_eq (c : Dev nD) : V17 m (outs m) c = U17 m c := by
  show Function.update (V16 m (outs m) c) main_v114 (outs m 17 main_v114 c) = _; rw [outs_v114, V16_eq]
theorem V18_eq (c : Dev nD) : V18 m (outs m) c = U18 m c := by
  show StableHlo.after hostOps7 (V17 m (outs m) c) = _; rw [V17_eq]

def pdats : (p : Fin 7) → (c : Dev nD) → Dat τ (Elt F) Unit ℕ (UR sig nD τ) ℕ (cfgs p) c
  | ⟨0, _⟩ => fun c => dat0 (rd (U7 m)) c
  | ⟨1, _⟩ => fun c => dat1 (rd (U9 m)) c
  | ⟨2, _⟩ => fun c => dat2 (rd (U10 m)) c
  | ⟨3, _⟩ => fun c => dat3 (rd (U12 m)) c
  | ⟨4, _⟩ => fun c => dat4 (rd (U13 m)) c
  | ⟨5, _⟩ => fun c => dat5 (rd (U14 m)) c
  | ⟨6, _⟩ => fun c => dat6 (rd (U16 m)) c
abbrev 𝒱₀ : Variants := Variants.none

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

set_option backward.isDefEq.respectTransparency.types false in
/-- Every window but the output `wo` is an input and distinct windows have distinct arrays, so the exit contents are the entry contents updated at `wo`'s array. -/
def regOf (p : Fin 7) (lf : Pipeline.LaunchFacts (nD := nD) (τ := τ) cfgs p) (Uin Uout : Dev nD → Valuation τ sig (Elt F))
    (wo : Fin (cfgs p).W) (hio : ∀ w, w ≠ wo → ((cfgs p).win w).isOut = false)
    (hUout : ∀ c, Uout c = Function.update (Uin c) (Pipeline.arrRef (cfgs p).spec wo) ((pdats m p c).arrAt wo (cfgs p).N))
    (hbody : ∀ c, BodyObligation (pdats m p c) (defs₀ (F := F)) 𝒱₀ () Set.univ)
    (hq : ∀ c w, (pdats m p c).q w = fullShare) (howed : ∀ c t, (pdats m p c).owed t = 0) (hrec : ∀ c x, x ∈ (pdats m p c).recorded 0)
    (hA : ∀ c w, (pdats m p c).A w = rd Uin c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Uin c) ∗ Rst c)
  post c := iprop(StableHlo.held (c : Thread nD τ) (Pipeline.ucRefs τ sig) (Uout c) ∗ Rst c)
  X c := iprop(∃ r, prngReg c r)
  Y c := iprop(∃ r, prngReg c r)
  Z c := Pipeline.unscopedRest (Ix := Unit) (Name := ℕ) (U := UR sig nD τ) (Lvl := ℕ) (cfgs p).spec c (rd Uin c)
  hentry c := by
    rw [Pipeline.ownSems0_none]
    have hsplit := Pipeline.arrays_of_unscopedBufs (p := p) (pcfgs (F := F)) adm (pdats m) lf.win lf.arr_whole c
      ((pdats m p c).share_full (hq c)) (rd Uin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine (?_ : _ ⊢ Pipeline.ΦA (cfgs p).spec c).trans (hin c)
    unfold Pipeline.ΦA
    iintro ⟨Hp, -, Hr⟩
    isplitl [Hr]; · iexact Hr
    iexact Hp
  hout c := by
    rw [Pipeline.ownSems0_none]
    refine (hout c).trans (?_ : Pipeline.ΦA (cfgs p).spec c ⊢ _)
    unfold Pipeline.ΦA
    iintro ⟨Hr, Hp⟩
    isplitl [Hp]; · iexact Hp
    isplitr; · iempintro
    iexact Hr
  hexit c := by
    have hF : ∀ w, (pdats m p c).arrAt w (cfgs p).N = rd Uout c (Pipeline.arrRef (cfgs p).spec w) := fun w => by
      show _ = Uout c (Proc.devRef .tc (Pipeline.arrRef (cfgs p).spec w))
      rw [hUout c]
      by_cases h : w = wo
      · subst h; exact Eq.symm (Function.update_self _ _ (Uin c))
      · rw [(pdats m p c).arrAt_in w (hio w h), hA]
        exact (Function.update_of_ne (StableHlo.devRef_ne_of_ne (τ := τ) fun e => h (lf.win.arr_inj e)) _ _).symm
    have hrest : ∀ b, b ∉ Finset.univ.image (Pipeline.arrRef (cfgs p).spec) → rd Uout c b = rd Uin c b := fun b hb => by
      show Uout c _ = _
      rw [hUout c]
      exact Function.update_of_ne (StableHlo.devRef_ne_of_ne (τ := τ) fun e => hb (Finset.mem_image.mpr ⟨wo, Finset.mem_univ _, e.symm⟩)) _ _
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd Uin c) (rd Uout c) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m 0 launch0 (U7 m) (U8 m) 2 (by decide) (fun _ => rfl) (body_obligation0 _) (fun _ _ => rfl) (fun _ _ => rfl) (fun _ _ => trivial) (A_eq0 _) (hin0 _) (hout0 _)
def reg1 := regOf m 1 launch1 (U9 m) (U10 m) 3 (by decide) (fun _ => rfl) (body_obligation1 _) (fun _ _ => rfl) (fun _ _ => rfl) (fun _ _ => trivial) (A_eq1 _) (hin1 _) (hout1 _)
def reg2 := regOf m 2 launch2 (U10 m) (U11 m) 2 (by decide) (fun _ => rfl) (body_obligation2 _) (fun _ _ => rfl) (fun _ _ => rfl) (fun _ _ => trivial) (A_eq2 _) (hin2 _) (hout2 _)
def reg3 := regOf m 3 launch3 (U12 m) (U13 m) 3 (by decide) (fun _ => rfl) (body_obligation3 _) (fun _ _ => rfl) (fun _ _ => rfl) (fun _ _ => trivial) (A_eq3 _) (hin3 _) (hout3 _)
def reg4 := regOf m 4 launch4 (U13 m) (U14 m) 2 (by decide) (fun _ => rfl) (body_obligation4 _) (fun _ _ => rfl) (fun _ _ => rfl) (fun _ _ => trivial) (A_eq4 _) (hin4 _) (hout4 _)
def reg5 := regOf m 5 launch5 (U14 m) (U15 m) 3 (by decide) (fun _ => rfl) (body_obligation5 _) (fun _ _ => rfl) (fun _ _ => rfl) (fun _ _ => trivial) (A_eq5 _) (hin5 _) (hout5 _)
def reg6 := regOf m 6 launch6 (U16 m) (U17 m) 7 (by decide) (fun _ => rfl) (body_obligation6 _) (fun _ _ => rfl) (fun _ _ => rfl) (fun _ _ => trivial) (A_eq6 _) (hin6 _) (hout6 _)

set_option backward.isDefEq.respectTransparency.types false in
theorem run_value : θ_run defs (onTc (τ := τ) (main (F := F))) ⟨m, fun _ => 0, ρ⟩ (fun r => ∀ c : Dev nD,
      r.2.mem ((c.tc : Thread nD τ).loc main_v115) = U18 m c main_v115
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := value_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      have hcore : ∀ c : Dev nD, (iprop(unscopedSems0 c ∗ owes (c : Thread nD τ) ((0 : Dev nD → CellTallies nD τ sig Unit) c) ∅
          ∗ Pipeline.launchCred (0 : Dev nD → CellTallies nD τ sig Unit) c ∗ prngReg c (ρ c) ∗ (fun _ : Dev nD => (iprop(emp) : sProp 𝕄)) c) : sProp 𝕄)
          ⊢ Rst (F := F) c := fun c => by
        iintro ⟨-, HO, -, Hp, -⟩
        isplitl [Hp]; · iexists _; iexact Hp
        iexists ∅; iexact HO
      have hmono : (bigSep Finset.univ fun c : Dev nD => (iprop(unscopedSems0 c ∗ owes (c : Thread nD τ) ((0 : Dev nD → CellTallies nD τ sig Unit) c) ∅
          ∗ Pipeline.launchCred (0 : Dev nD → CellTallies nD τ sig Unit) c ∗ prngReg c (ρ c) ∗ (fun _ : Dev nD => (iprop(emp) : sProp 𝕄)) c) : sProp 𝕄))
          ⊢ bigSep Finset.univ (fun c : Dev nD => Rst (F := F) c) := bigSep_mono fun c _ => hcore c
      iintro ⟨H, -⟩
      imodintro
      iapply hmono
      iexact H)
    (hE7 := fun c => by iintro ⟨-, HO⟩; iexact HO)
    (reg0 m) (fun c => .rfl) (fun c => by rw [V8_eq]; exact .rfl)
    (reg1 m) (fun c => by rw [V9_eq]; exact .rfl) (fun c => by rw [V10_eq]; exact .rfl)
    (reg2 m) (fun c => by rw [V10_eq]; exact .rfl) (fun c => by rw [V11_eq]; exact .rfl)
    (reg3 m) (fun c => by rw [V12_eq]; exact .rfl) (fun c => by rw [V13_eq]; exact .rfl)
    (reg4 m) (fun c => by rw [V13_eq]; exact .rfl) (fun c => by rw [V14_eq]; exact .rfl)
    (reg5 m) (fun c => by rw [V14_eq]; exact .rfl) (fun c => by rw [V15_eq]; exact .rfl)
    (reg6 m) (fun c => by rw [V16_eq]; exact .rfl) (fun c => by rw [V17_eq]; exact .rfl)
  refine (θ_run defs _ _).mono (fun r hr c => ?_) h
  have := hr c
  rw [V18_eq] at this
  exact this

end Cert.Kernel.Hand

end
-- ==== Proof.KI.Region0.lean ====
import proofs.«402230_j66554813219093_3_alg».proof.Proof.Gen.KernelIdeal.Launch
import proofs.«402230_j66554813219093_3_alg».proof.Proof.Gen.KernelIdeal.Skeleton
import proofs.«402230_j66554813219093_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) := by decide +kernel
abbrev cond0_1 (i : grid0.Coords) : Prop := k0_cond2 i = 1#1
theorem hcond0_1 : ∀ t : Fin cfg0.N, cond0_1 (grid0.coords t) := by decide +kernel

-- the contracted axis has a single block, so the store's condition holds at every point
theorem live0 : ∀ t : Fin cfg0.N, idle0 2 (grid0.coords t) = false := by decide +kernel

abbrev VO0_2 : View sig .tc .vmem S1024x512 .bf16 := (Memref.whole cc0_stg2_0 : Memref sig .tc .vmem S1024x512 .bf16).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev scM0_0 : Memref sig .tc .vmem S1024x512 .f32 := Memref.whole cc0_scratch0

section
variable (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1024x512 .f32) (harg5 : arg5.IsWhole) (hc0 : cond0_0 i) (hc1 : cond0_1 i)
  (x0 : Vec F S1024x512 .bf16) (x1 : Vec F S512x512 .bf16)

-- the body's run, with the pieces its stores leave in the output and in the accumulator
def kernelRun0 :
    Σ' (L2 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_unfold [cc0__matmul_kernel]
    sl_exec (disch := first | exact hc0 | exact hc1)
    sl_step
    iapply Hk
    isplitl [H0]; · iexists _; iframe H0; ipureintro; exact harg2.read_unread _
    isplitl [H1]; · iexists _; iframe H1; ipureintro; exact harg3.read_unread _
    isplitl [H2]; · iexists _; iexact H2
    iexists _; iexact HS0

-- one store fills the output's whole block
theorem cover0_2 (y : S1024x512.Idx) : ∃ pc ∈ (kernelRun0 c i arg2 harg2 arg3 harg3 arg4 harg4 arg5 harg5 hc0 hc1 x0 x1).1, y ∈ pc.1.set :=
  View.cover_of_tiledL _ S1024x512.size (by sl_kernel_rfl) y

def out0_2 : Vec F S1024x512 .bf16 :=
  VO0_2.read (Elt F) (VO0_2.writes (Elt F) VO0_2.junk (kernelRun0 c i arg2 harg2 arg3 harg3 arg4 harg4 arg5 harg5 hc0 hc1 x0 x1).1)

end

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t) := by dsimp only [dat0]

-- the body leaves each input's block in place
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

-- both conditions hold at every point, so the one run applies; the invariant lends it the accumulator and takes it back
theorem body_obligation0 (c : Dev nD) : BodyObligation (dat0 (F := F) V c) (defs₀ (F := F)) Variants.none () Set.univ := fun t => by
  rw [bigSep_W0, bigSep_W0]
  sl_whnfR [defs₀, Defs.onTc]
  simp only [before0_0, before0_1]
  dsimp only [dat0]
  unfold Pipeline.ΦA
  rw [live0, scopedRest0_split]
  simp only [← owns_whole]
  iintro ⟨⟨⟨HS0, Hr⟩, Hg⟩, Ho, ⟨%d0, H0⟩, ⟨%d1, H1⟩, ⟨%d2, H2⟩⟩
  iapply ((kernelRun0 c (grid0.coords t) _ _ _ _ _ _ _ _ (hcond0_0 t) (hcond0_1 t) (iblk0 V c 0 t) (iblk0 V c 1 t)).2.2 Set.univ _)
  iframe H0 H1 HS0
  isplitl [H2]; · iexists _; iexact H2
  iintro ⟨H0, H1, ⟨%e2, H2⟩, ⟨%es0, HS0⟩⟩
  iframe Hr Hg H0 H1
  isplitl [HS0]
  · iexists _; unfold owns; iexists _; iframe HS0; ipureintro; rfl
  isplitl [Ho]; · iexact Ho
  unfold owns; iexists _; iframe H2; ipureintro
  exact View.read_writes_of_cover _ _ _ _ _ fun _ => cover0_2 ..

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

end Cert.KernelIdeal.Hand

end
-- ==== Proof.KI.Region1.lean ====
import proofs.«402230_j66554813219093_3_alg».proof.Proof.Gen.KernelIdeal.Launch
import proofs.«402230_j66554813219093_3_alg».proof.Proof.Gen.KernelIdeal.Skeleton
import proofs.«402230_j66554813219093_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 := by decide +kernel

abbrev cond1_1 (i : grid1.Coords) : Prop := k1_cond2 i = 1#1
theorem hcond1_1 : ∀ t : Fin cfg1.N, cond1_1 (grid1.coords t) ↔ t.val % 5 = 4 := by decide +kernel

theorem liveAt1 : ∀ (w : Fin cfg1.W) (t : Fin cfg1.N), w ≠ 3 → cfg1.idle w (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev VO1_3 : View sig .tc .vmem S1024x512 .bf16 := (Memref.whole cc1_stg3_0 : Memref sig .tc .vmem S1024x512 .bf16).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
abbrev scM1_0 : Memref sig .tc .vmem S1024x512 .f32 := Memref.whole cc1_scratch0
abbrev VS1_0 : View sig .tc .vmem S1024x512 .f32 := scM1_0.view

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1_0 fullShare d)) ∗ restBut1 (F := F) c) ∗ (∃ r, prngReg c r)) := by
  unfold Pipeline.ΦA; rw [scopedRest1_split]; simp only [scM1_0, owns_whole]; try rfl

-- a whole buffer that reads as x holds the one contents that read as x
private theorem owns_eq_unread {sp : Space} {s : Shape} {e : EltTy} {m : Memref sig .tc sp s e} (h : m.IsWhole) (c : Dev nD) (x : Vec F s e) :
    (owns (c : Thread nD τ) m fullShare x : sProp 𝕄) = (m.view.loc (c : Thread nD τ) ↦[m.view.set]{fullShare} h.unread x) := by
  rw [owns_eq_rep, h.eq_unread (View.read_rep _ x)]

section
variable (c : Dev nD) (i : grid1.Coords) (arg2 : Memref sig .tc .vmem S1024x2048 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole)

section
variable (hc0 : cond1_0 i) (hc1 : ¬cond1_1 i) (x0 : Vec F S1024x2048 .bf16) (x1 : Vec F S10240x512 .bf16) (x2 : Vec F S1x512 .f32)
include hc0 hc1

def kernelRun1_A :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_bias_celu_kernel i arg2 harg2 arg3 harg3 arg4 harg4 arg5 harg5 arg6 harg6) K } := by
  refine ⟨[], ?_, fun xi3 E K => ?run⟩
  case run =>
    simp only [cc1__agg_bias_celu_kernel_eq_skeleton]; unfold cc1__agg_bias_celu_kernel_skel
    rw [owns_eq_unread harg2, owns_eq_unread harg3, owns_eq_unread harg4, owns_eq_unread harg5]; unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

def out1_A_3 : Vec F S1024x512 .bf16 := VO1_3.read (Elt F) (VO1_3.writes (Elt F) VO1_3.junk (kernelRun1_A c i arg2 harg2 arg3 harg3 arg4 harg4 arg5 harg5 arg6 harg6 hc0 hc1 x0 x1 x2).1)

theorem scover1_A_0 (y : S1024x512.Idx) : ∃ pc ∈ (kernelRun1_A c i arg2 harg2 arg3 harg3 arg4 harg4 arg5 harg5 arg6 harg6 hc0 hc1 x0 x1 x2).2.1, y ∈ pc.1.set :=
  View.cover_of_tiledL _ S1024x512.size (by sl_kernel_rfl) y

def sout1_A_0 : Vec F S1024x512 .f32 := VS1_0.read (Elt F) (VS1_0.writes (Elt F) VS1_0.junk (kernelRun1_A c i arg2 harg2 arg3 harg3 arg4 harg4 arg5 harg5 arg6 harg6 hc0 hc1 x0 x1 x2).2.1)

end

section
variable (hc0 : ¬cond1_0 i) (hc1 : ¬cond1_1 i) (x0 : Vec F S1024x2048 .bf16) (x1 : Vec F S10240x512 .bf16) (x2 : Vec F S1x512 .f32) (xs0 : Vec F S1024x512 .f32)
include hc0 hc1

def kernelRun1_B :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_bias_celu_kernel i arg2 harg2 arg3 harg3 arg4 harg4 arg5 harg5 arg6 harg6) K } := by
  refine ⟨[], ?_, fun xi3 E K => ?run⟩
  case run =>
    simp only [cc1__agg_bias_celu_kernel_eq_skeleton]; unfold cc1__agg_bias_celu_kernel_skel
    rw [owns_eq_unread harg2, owns_eq_unread harg3, owns_eq_unread harg4, owns_eq_unread harg5, owns_eq_unread harg6]
    iintro ⟨H0, H1, H2, H3, HS0, Hk⟩
    sl_exec (disch := first | exact hc0 | exact hc1)
    sl_step
    iapply Hk
    iframe H0 H1 H2 H3
    iexists _; iexact HS0

def out1_B_3 : Vec F S1024x512 .bf16 := VO1_3.read (Elt F) (VO1_3.writes (Elt F) VO1_3.junk (kernelRun1_B c i arg2 harg2 arg3 harg3 arg4 harg4 arg5 harg5 arg6 harg6 hc0 hc1 x0 x1 x2 xs0).1)

theorem scover1_B_0 (y : S1024x512.Idx) : ∃ pc ∈ (kernelRun1_B c i arg2 harg2 arg3 harg3 arg4 harg4 arg5 harg5 arg6 harg6 hc0 hc1 x0 x1 x2 xs0).2.1, y ∈ pc.1.set :=
  View.cover_of_tiledL _ S1024x512.size (by sl_kernel_rfl) y

def sout1_B_0 : Vec F S1024x512 .f32 := VS1_0.read (Elt F) (VS1_0.writes (Elt F) VS1_0.junk (kernelRun1_B c i arg2 harg2 arg3 harg3 arg4 harg4 arg5 harg5 arg6 harg6 hc0 hc1 x0 x1 x2 xs0).2.1)

end

section
variable (hc0 : ¬cond1_0 i) (hc1 : cond1_1 i) (x0 : Vec F S1024x2048 .bf16) (x1 : Vec F S10240x512 .bf16) (x2 : Vec F S1x512 .f32) (xs0 : Vec F S1024x512 .f32)
include hc0 hc1

def kernelRun1_C :
    Σ' (L3 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__agg_bias_celu_kernel i arg2 harg2 arg3 harg3 arg4 harg4 arg5 harg5 arg6 harg6) K } := by
  refine ⟨?_, ?_, fun E K => ?run⟩
  case run =>
    simp only [cc1__agg_bias_celu_kernel_eq_skeleton]; unfold cc1__agg_bias_celu_kernel_skel
    rw [owns_eq_unread harg2, owns_eq_unread harg3, owns_eq_unread harg4, owns_eq_unread harg6]; unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

theorem cover1_C_3 (y : S1024x512.Idx) : ∃ pc ∈ (kernelRun1_C c i arg2 harg2 arg3 harg3 arg4 harg4 arg5 harg5 arg6 harg6 hc0 hc1 x0 x1 x2 xs0).1, y ∈ pc.1.set :=
  View.cover_of_tiledL _ S1024x512.size (by sl_kernel_rfl) y

def out1_C_3 : Vec F S1024x512 .bf16 := VO1_3.read (Elt F) (VO1_3.writes (Elt F) VO1_3.junk (kernelRun1_C c i arg2 harg2 arg3 harg3 arg4 harg4 arg5 harg5 arg6 harg6 hc0 hc1 x0 x1 x2 xs0).1)

theorem scover1_C_0 (y : S1024x512.Idx) : ∃ pc ∈ (kernelRun1_C c i arg2 harg2 arg3 harg3 arg4 harg4 arg5 harg5 arg6 harg6 hc0 hc1 x0 x1 x2 xs0).2.1, y ∈ pc.1.set :=
  View.cover_of_tiledL _ S1024x512.size (by sl_kernel_rfl) y

def sout1_C_0 : Vec F S1024x512 .f32 := VS1_0.read (Elt F) (VS1_0.writes (Elt F) VS1_0.junk (kernelRun1_C c i arg2 harg2 arg3 harg3 arg4 harg4 arg5 harg5 arg6 harg6 hc0 hc1 x0 x1 x2 xs0).2.1)

end

end

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- one step of the accumulation: the pair after point t from the accumulator's value p before it, by the residue of t mod 5
def outsStep1 (c : Dev nD) (t : Fin cfg1.N) (p : Vec F S1024x512 .f32) : Vec F S1024x512 .bf16 × Vec F S1024x512 .f32 :=
  if h0 : t.val % 5 = 0 then
    have h1 : ¬t.val % 5 = 4 := by omega
    (out1_A_3 c (grid1.coords t) _ (hs1_0 t) _ (hs1_1 t) _ (hs1_2 t) _ (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) _ (hs1_0 t) _ (hs1_1 t) _ (hs1_2 t) _ (hs1_3 t) scM1_0 (Memref.isWhole_whole _) ((hcond1_0 t).mpr h0) (fun h => h1 ((hcond1_1 t).mp h)) (iblk1 V c 0 t) (iblk1 V c 1 t) (iblk1 V c 2 t))
  else if h1 : t.val % 5 = 4 then
    (out1_C_3 c (grid1.coords t) _ (hs1_0 t) _ (hs1_1 t) _ (hs1_2 t) _ (hs1_3 t) scM1_0 (Memref.isWhole_whole _) (fun h => h0 ((hcond1_0 t).mp h)) ((hcond1_1 t).mpr h1) (iblk1 V c 0 t) (iblk1 V c 1 t) (iblk1 V c 2 t) p, sout1_C_0 c (grid1.coords t) _ (hs1_0 t) _ (hs1_1 t) _ (hs1_2 t) _ (hs1_3 t) scM1_0 (Memref.isWhole_whole _) (fun h => h0 ((hcond1_0 t).mp h)) ((hcond1_1 t).mpr h1) (iblk1 V c 0 t) (iblk1 V c 1 t) (iblk1 V c 2 t) p)
  else
    (out1_B_3 c (grid1.coords t) _ (hs1_0 t) _ (hs1_1 t) _ (hs1_2 t) _ (hs1_3 t) scM1_0 (Memref.isWhole_whole _) (fun h => h0 ((hcond1_0 t).mp h)) (fun h => h1 ((hcond1_1 t).mp h)) (iblk1 V c 0 t) (iblk1 V c 1 t) (iblk1 V c 2 t) p, sout1_B_0 c (grid1.coords t) _ (hs1_0 t) _ (hs1_1 t) _ (hs1_2 t) _ (hs1_3 t) scM1_0 (Memref.isWhole_whole _) (fun h => h0 ((hcond1_0 t).mp h)) (fun h => h1 ((hcond1_1 t).mp h)) (iblk1 V c 0 t) (iblk1 V c 1 t) (iblk1 V c 2 t) p)

def outsAt1 (c : Dev nD) : (n : ℕ) → n < cfg1.N → Vec F S1024x512 .bf16 × Vec F S1024x512 .f32
  | 0, hn => outsStep1 V c ⟨0, hn⟩ (VS1_0.read (Elt F) VS1_0.junk)
  | n + 1, hn => outsStep1 V c ⟨n + 1, hn⟩ (outsAt1 c n (Nat.lt_of_succ_lt hn)).2

theorem outsAt1_A (c : Dev nD) (t : Fin cfg1.N) (h0 : t.val % 5 = 0) (h1 : ¬t.val % 5 = 4) :
    outsAt1 V c t.val t.isLt = (out1_A_3 c (grid1.coords t) _ (hs1_0 t) _ (hs1_1 t) _ (hs1_2 t) _ (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) _ (hs1_0 t) _ (hs1_1 t) _ (hs1_2 t) _ (hs1_3 t) scM1_0 (Memref.isWhole_whole _) ((hcond1_0 t).mpr h0) (fun h => h1 ((hcond1_1 t).mp h)) (iblk1 V c 0 t) (iblk1 V c 1 t) (iblk1 V c 2 t)) := by
  obtain ⟨_ | n, hn⟩ := t
  · rfl
  · exact dif_pos h0

theorem outsAt1_B (c : Dev nD) (t : Fin cfg1.N) (h0 : ¬t.val % 5 = 0) (h1 : ¬t.val % 5 = 4) :
    outsAt1 V c t.val t.isLt = (out1_B_3 c (grid1.coords t) _ (hs1_0 t) _ (hs1_1 t) _ (hs1_2 t) _ (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) _ (hs1_0 t) _ (hs1_1 t) _ (hs1_2 t) _ (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨_ | n, hn⟩ := t
  · exact absurd (Nat.zero_mod _) h0
  · exact (dif_neg h0).trans ((dif_neg h1).trans rfl)

theorem outsAt1_C (c : Dev nD) (t : Fin cfg1.N) (h0 : ¬t.val % 5 = 0) (h1 : t.val % 5 = 4) :
    outsAt1 V c t.val t.isLt = (out1_C_3 c (grid1.coords t) _ (hs1_0 t) _ (hs1_1 t) _ (hs1_2 t) _ (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) _ (hs1_0 t) _ (hs1_1 t) _ (hs1_2 t) _ (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨_ | n, hn⟩ := t
  · exact absurd (Nat.zero_mod _) h0
  · exact (dif_neg h0).trans ((dif_pos h1).trans rfl)

-- the invariant before position n
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 (F := F) c) ∗ (∃ r, prngReg c r)) := by
  cases n with
  | zero => exact absurd rfl hz
  | succ n => rfl

-- at any position the invariant implies the entry invariant: the accumulator's value is forgotten
theorem PhiS1_le (c : Dev nD) (n : ℕ) (h : n ≤ cfg1.N) :
    PhiS1 V c n h ⊢ iprop(iprop((∃ d, owns (c : Thread nD τ) scM1_0 fullShare d) ∗ restBut1 (F := F) c) ∗ (∃ r, prngReg c r)) := by
  cases n with
  | zero => exact Entails.of_eq (PhiA1_eq c)
  | succ n =>
    rw [PhiS1_pos V c _ h n.succ_ne_zero]
    iintro ⟨⟨HS0, HR⟩, Hg⟩
    iframe HR Hg
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- the residue of t mod 5 selects the case; the invariant lends the accumulator and takes it back at this point's value
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = iprop(iprop(owns (c : Thread nD τ) scM1_0 fullShare ((outsAt1 V c t.val t.isLt).2) ∗ restBut1 (F := F) c) ∗ (∃ r, prngReg c r)) from rfl,
    show (dat1 V c).Φ t.castSucc = PhiS1 V c t.val (Nat.le_of_lt t.isLt) from rfl,
    show (dat1 V c).leavesExact 0 t = owns (c : Thread nD τ) (ms1_0 t) fullShare (iblk1 V c 0 t) from by
      unfold Dat.leavesExact; rw [liveAt1 0 t (by decide)]; rfl,
    show (dat1 V c).leavesExact 1 t = owns (c : Thread nD τ) (ms1_1 t) fullShare (iblk1 V c 1 t) from by
      unfold Dat.leavesExact; rw [liveAt1 1 t (by decide)]; rfl,
    show (dat1 V c).leavesExact 2 t = owns (c : Thread nD τ) (ms1_2 t) fullShare (iblk1 V c 2 t) from by
      unfold Dat.leavesExact; rw [liveAt1 2 t (by decide)]; rfl]
  by_cases h1 : t.val % 5 = 4
  · have h0 : ¬t.val % 5 = 0 := by omega
    rw [show (dat1 V c).leavesExact 3 t = owns (c : Thread nD τ) (ms1_3 t) fullShare ((dat1 V c).after 3 t) from by
      unfold Dat.leavesExact; rw [liveAt1_3 t ((hcond1_1 t).mpr h1)], after1_3, outsAt1_C V c t h0 h1]
    unfold out1_C_3 sout1_C_0; try dsimp only
    rw [PhiS1_pos V c _ _ (by omega : t.val ≠ 0)]
    iintro ⟨⟨⟨HS0, HR⟩, Hg⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) _ _ _ _).2.2 Set.univ _)
    iframe H0 H1 H2 HS0
    isplitl [H3]; · iexists _; iexact H3
    iintro ⟨H0, H1, H2, ⟨%e3, H3⟩, ⟨%es0, HS0⟩⟩
    iframe HR Hg Ho H0 H1 H2
    isplitl [HS0]
    · ihave H' := (Ring.owns_of_writes_tiledL VS1_0 S1024x512.size) $$ HS0; iapply H'; ipureintro; sl_kernel_rfl
    ihave H' := (Ring.owns_of_writes_tiledL VO1_3 S1024x512.size) $$ H3; iapply H'; ipureintro; sl_kernel_rfl
  rw [Dat.leavesExact_idle (dat1 V c) 3 t (idleAt1_3 t (fun h => h1 ((hcond1_1 t).mp h))) (noFlush1_3 t (fun h => h1 ((hcond1_1 t).mp h)))]
  by_cases h0 : t.val % 5 = 0
  case' pos =>
    rw [outsAt1_A V c t h0 h1]
    unfold sout1_A_0; try dsimp only
    refine (sep_mono_left (PhiS1_le V c _ _)).trans ?_
    iintro ⟨⟨⟨HS0, HR⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) _ _ _).2.2 _ Set.univ _)
  case' neg =>
    rw [outsAt1_B V c t h0 h1]
    unfold sout1_B_0; try dsimp only
    rw [PhiS1_pos V c _ _ (by omega : t.val ≠ 0)]
    iintro ⟨⟨⟨HS0, HR⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) (fun h => h1 ((hcond1_1 t).mp h)) _ _ _ _).2.2 _ Set.univ _)
  all_goals
    iframe H0 H1 H2 H3 HS0
    iintro ⟨H0, H1, H2, H3, ⟨%es0, HS0⟩⟩
    iframe HR Hg Ho H0 H1 H2
    isplitl [HS0]
    · ihave H' := (Ring.owns_of_writes_tiledL VS1_0 S1024x512.size) $$ HS0; iapply H'; ipureintro; sl_kernel_rfl
    iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c := by
  rw [PhiA1_eq]; exact PhiS1_le V c _ le_rfl

end Cert.KernelIdeal.Hand

end
-- ==== Proof.KI.Region2.lean ====
import proofs.«402230_j66554813219093_3_alg».proof.Proof.Gen.KernelIdeal.Launch
import proofs.«402230_j66554813219093_3_alg».proof.Proof.Gen.KernelIdeal.Skeleton
import proofs.«402230_j66554813219093_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) := by decide +kernel
abbrev cond2_1 (i : grid2.Coords) : Prop := k2_cond2 i = 1#1
theorem hcond2_1 : ∀ t : Fin cfg2.N, cond2_1 (grid2.coords t) := by decide +kernel

-- the contracted axis has a single block, so the store's condition holds at every point
theorem live2 : ∀ t : Fin cfg2.N, idle2 2 (grid2.coords t) = false := by decide +kernel

abbrev VO2_2 : View sig .tc .vmem S1024x512 .bf16 := (Memref.whole cc2_stg2_0 : Memref sig .tc .vmem S1024x512 .bf16).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .bf16 := win2_2.stage (cfg2.slots t 2)
abbrev hs2_2 (t : Fin cfg2.N) : (ms2_2 t).IsWhole := hstage2_2 ((cfg2.slots t 2).cast nbuf2_2)
abbrev scM2_0 : Memref sig .tc .vmem S1024x512 .f32 := Memref.whole cc2_scratch0

section
variable (c : Dev nD) (i : grid2.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1024x512 .f32) (harg5 : arg5.IsWhole) (hc0 : cond2_0 i) (hc1 : cond2_1 i)
  (x0 : Vec F S1024x512 .bf16) (x1 : Vec F S512x512 .bf16)

-- the body's run, with the pieces its stores leave in the output and in the accumulator
def kernelRun2 :
    Σ' (L2 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_kernel i arg2 harg2 arg3 harg3 arg4 harg4 arg5 harg5) K } := by
  refine ⟨?_, ?_, fun E K => ?run⟩
  case run =>
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_unfold [cc2__matmul_kernel]
    sl_exec (disch := first | exact hc0 | exact hc1)
    sl_step
    iapply Hk
    isplitl [H0]; · iexists _; iframe H0; ipureintro; exact harg2.read_unread _
    isplitl [H1]; · iexists _; iframe H1; ipureintro; exact harg3.read_unread _
    isplitl [H2]; · iexists _; iexact H2
    iexists _; iexact HS0

-- one store fills the output's whole block
theorem cover2_2 (y : S1024x512.Idx) : ∃ pc ∈ (kernelRun2 c i arg2 harg2 arg3 harg3 arg4 harg4 arg5 harg5 hc0 hc1 x0 x1).1, y ∈ pc.1.set :=
  View.cover_of_tiledL _ S1024x512.size (by sl_kernel_rfl) y

def out2_2 : Vec F S1024x512 .bf16 :=
  VO2_2.read (Elt F) (VO2_2.writes (Elt F) VO2_2.junk (kernelRun2 c i arg2 harg2 arg3 harg3 arg4 harg4 arg5 harg5 hc0 hc1 x0 x1).1)

end

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 c (grid2.coords t) (ms2_0 t) (hs2_0 t) (ms2_1 t) (hs2_1 t) (ms2_2 t) (hs2_2 t) scM2_0 (Memref.isWhole_whole _) (hcond2_0 t) (hcond2_1 t) (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 c (grid2.coords t) (ms2_0 t) (hs2_0 t) (ms2_1 t) (hs2_1 t) (ms2_2 t) (hs2_2 t) scM2_0 (Memref.isWhole_whole _) (hcond2_0 t) (hcond2_1 t) (iblk2 V c 0 t) (iblk2 V c 1 t) := by dsimp only [dat2]

-- the body leaves each input's block in place
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

-- both conditions hold at every point, so the one run applies; the invariant lends it the accumulator and takes it back
theorem body_obligation2 (c : Dev nD) : BodyObligation (dat2 (F := F) V c) (defs₀ (F := F)) Variants.none () Set.univ := fun t => by
  rw [bigSep_W2, bigSep_W2]
  sl_whnfR [defs₀, Defs.onTc]
  simp only [before2_0, before2_1]
  dsimp only [dat2]
  unfold Pipeline.ΦA
  rw [live2, scopedRest2_split]
  simp only [← owns_whole]
  iintro ⟨⟨⟨HS0, Hr⟩, Hg⟩, Ho, ⟨%d0, H0⟩, ⟨%d1, H1⟩, ⟨%d2, H2⟩⟩
  iapply ((kernelRun2 c (grid2.coords t) _ _ _ _ _ _ _ _ (hcond2_0 t) (hcond2_1 t) (iblk2 V c 0 t) (iblk2 V c 1 t)).2.2 Set.univ _)
  iframe H0 H1 HS0
  isplitl [H2]; · iexists _; iexact H2
  iintro ⟨H0, H1, ⟨%e2, H2⟩, ⟨%es0, HS0⟩⟩
  iframe Hr Hg H0 H1
  isplitl [HS0]
  · iexists _; unfold owns; iexists _; iframe HS0; ipureintro; rfl
  isplitl [Ho]; · iexact Ho
  unfold owns; iexists _; iframe H2; ipureintro
  exact View.read_writes_of_cover _ _ _ _ _ fun _ => cover2_2 ..

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.KernelIdeal.Hand

end
-- ==== Proof.KI.Region3.lean ====
import proofs.«402230_j66554813219093_3_alg».proof.Proof.Gen.KernelIdeal.Launch
import proofs.«402230_j66554813219093_3_alg».proof.Proof.Gen.KernelIdeal.Skeleton
import proofs.«402230_j66554813219093_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 5 = 0 := by decide +kernel

abbrev cond3_1 (i : grid3.Coords) : Prop := k3_cond2 i = 1#1
theorem hcond3_1 : ∀ t : Fin cfg3.N, cond3_1 (grid3.coords t) ↔ t.val % 5 = 4 := by decide +kernel

theorem liveAt3 : ∀ (w : Fin cfg3.W) (t : Fin cfg3.N), w ≠ 3 → cfg3.idle w (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

abbrev VO3_3 : View sig .tc .vmem S1024x512 .bf16 := (Memref.whole cc3_stg3_0 : Memref sig .tc .vmem S1024x512 .bf16).view
abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10240x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .bf16 := win3_3.stage (cfg3.slots t 3)
abbrev hs3_3 (t : Fin cfg3.N) : (ms3_3 t).IsWhole := hstage3_3 ((cfg3.slots t 3).cast nbuf3_3)
abbrev scM3_0 : Memref sig .tc .vmem S1024x512 .f32 := Memref.whole cc3_scratch0
abbrev VS3_0 : View sig .tc .vmem S1024x512 .f32 := scM3_0.view

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns (c : Thread nD τ) scM3_0 fullShare d)) ∗ restBut3 (F := F) c) ∗ (∃ r, prngReg c r)) := by
  unfold Pipeline.ΦA; rw [scopedRest3_split]; simp only [scM3_0, owns_whole]; try rfl

-- a whole buffer that reads as x holds the one contents that read as x
private theorem owns_eq_unread {sp : Space} {s : Shape} {e : EltTy} {m : Memref sig .tc sp s e} (h : m.IsWhole) (c : Dev nD) (x : Vec F s e) :
    (owns (c : Thread nD τ) m fullShare x : sProp 𝕄) = (m.view.loc (c : Thread nD τ) ↦[m.view.set]{fullShare} h.unread x) := by
  rw [owns_eq_rep, h.eq_unread (View.read_rep _ x)]

section
variable (c : Dev nD) (i : grid3.Coords) (arg2 : Memref sig .tc .vmem S1024x2048 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole)

section
variable (hc0 : cond3_0 i) (hc1 : ¬cond3_1 i) (x0 : Vec F S1024x2048 .bf16) (x1 : Vec F S10240x512 .bf16) (x2 : Vec F S1x512 .f32)
include hc0 hc1

def kernelRun3_A :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__agg_bias_celu_kernel i arg2 harg2 arg3 harg3 arg4 harg4 arg5 harg5 arg6 harg6) K } := by
  refine ⟨[], ?_, fun xi3 E K => ?run⟩
  case run =>
    simp only [cc3__agg_bias_celu_kernel_eq_skeleton]; unfold cc3__agg_bias_celu_kernel_skel
    rw [owns_eq_unread harg2, owns_eq_unread harg3, owns_eq_unread harg4, owns_eq_unread harg5]; unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

def out3_A_3 : Vec F S1024x512 .bf16 := VO3_3.read (Elt F) (VO3_3.writes (Elt F) VO3_3.junk (kernelRun3_A c i arg2 harg2 arg3 harg3 arg4 harg4 arg5 harg5 arg6 harg6 hc0 hc1 x0 x1 x2).1)

theorem scover3_A_0 (y : S1024x512.Idx) : ∃ pc ∈ (kernelRun3_A c i arg2 harg2 arg3 harg3 arg4 harg4 arg5 harg5 arg6 harg6 hc0 hc1 x0 x1 x2).2.1, y ∈ pc.1.set :=
  View.cover_of_tiledL _ S1024x512.size (by sl_kernel_rfl) y

def sout3_A_0 : Vec F S1024x512 .f32 := VS3_0.read (Elt F) (VS3_0.writes (Elt F) VS3_0.junk (kernelRun3_A c i arg2 harg2 arg3 harg3 arg4 harg4 arg5 harg5 arg6 harg6 hc0 hc1 x0 x1 x2).2.1)

end

section
variable (hc0 : ¬cond3_0 i) (hc1 : ¬cond3_1 i) (x0 : Vec F S1024x2048 .bf16) (x1 : Vec F S10240x512 .bf16) (x2 : Vec F S1x512 .f32) (xs0 : Vec F S1024x512 .f32)
include hc0 hc1

def kernelRun3_B :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__agg_bias_celu_kernel i arg2 harg2 arg3 harg3 arg4 harg4 arg5 harg5 arg6 harg6) K } := by
  refine ⟨[], ?_, fun xi3 E K => ?run⟩
  case run =>
    simp only [cc3__agg_bias_celu_kernel_eq_skeleton]; unfold cc3__agg_bias_celu_kernel_skel
    rw [owns_eq_unread harg2, owns_eq_unread harg3, owns_eq_unread harg4, owns_eq_unread harg5, owns_eq_unread harg6]
    iintro ⟨H0, H1, H2, H3, HS0, Hk⟩
    sl_exec (disch := first | exact hc0 | exact hc1)
    sl_step
    iapply Hk
    iframe H0 H1 H2 H3
    iexists _; iexact HS0

def out3_B_3 : Vec F S1024x512 .bf16 := VO3_3.read (Elt F) (VO3_3.writes (Elt F) VO3_3.junk (kernelRun3_B c i arg2 harg2 arg3 harg3 arg4 harg4 arg5 harg5 arg6 harg6 hc0 hc1 x0 x1 x2 xs0).1)

theorem scover3_B_0 (y : S1024x512.Idx) : ∃ pc ∈ (kernelRun3_B c i arg2 harg2 arg3 harg3 arg4 harg4 arg5 harg5 arg6 harg6 hc0 hc1 x0 x1 x2 xs0).2.1, y ∈ pc.1.set :=
  View.cover_of_tiledL _ S1024x512.size (by sl_kernel_rfl) y

def sout3_B_0 : Vec F S1024x512 .f32 := VS3_0.read (Elt F) (VS3_0.writes (Elt F) VS3_0.junk (kernelRun3_B c i arg2 harg2 arg3 harg3 arg4 harg4 arg5 harg5 arg6 harg6 hc0 hc1 x0 x1 x2 xs0).2.1)

end

section
variable (hc0 : ¬cond3_0 i) (hc1 : cond3_1 i) (x0 : Vec F S1024x2048 .bf16) (x1 : Vec F S10240x512 .bf16) (x2 : Vec F S1x512 .f32) (xs0 : Vec F S1024x512 .f32)
include hc0 hc1

def kernelRun3_C :
    Σ' (L3 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__agg_bias_celu_kernel i arg2 harg2 arg3 harg3 arg4 harg4 arg5 harg5 arg6 harg6) K } := by
  refine ⟨?_, ?_, fun E K => ?run⟩
  case run =>
    simp only [cc3__agg_bias_celu_kernel_eq_skeleton]; unfold cc3__agg_bias_celu_kernel_skel
    rw [owns_eq_unread harg2, owns_eq_unread harg3, owns_eq_unread harg4, owns_eq_unread harg6]; unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

theorem cover3_C_3 (y : S1024x512.Idx) : ∃ pc ∈ (kernelRun3_C c i arg2 harg2 arg3 harg3 arg4 harg4 arg5 harg5 arg6 harg6 hc0 hc1 x0 x1 x2 xs0).1, y ∈ pc.1.set :=
  View.cover_of_tiledL _ S1024x512.size (by sl_kernel_rfl) y

def out3_C_3 : Vec F S1024x512 .bf16 := VO3_3.read (Elt F) (VO3_3.writes (Elt F) VO3_3.junk (kernelRun3_C c i arg2 harg2 arg3 harg3 arg4 harg4 arg5 harg5 arg6 harg6 hc0 hc1 x0 x1 x2 xs0).1)

theorem scover3_C_0 (y : S1024x512.Idx) : ∃ pc ∈ (kernelRun3_C c i arg2 harg2 arg3 harg3 arg4 harg4 arg5 harg5 arg6 harg6 hc0 hc1 x0 x1 x2 xs0).2.1, y ∈ pc.1.set :=
  View.cover_of_tiledL _ S1024x512.size (by sl_kernel_rfl) y

def sout3_C_0 : Vec F S1024x512 .f32 := VS3_0.read (Elt F) (VS3_0.writes (Elt F) VS3_0.junk (kernelRun3_C c i arg2 harg2 arg3 harg3 arg4 harg4 arg5 harg5 arg6 harg6 hc0 hc1 x0 x1 x2 xs0).2.1)

end

end

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- one step of the accumulation: the pair after point t from the accumulator's value p before it, by the residue of t mod 5
def outsStep3 (c : Dev nD) (t : Fin cfg3.N) (p : Vec F S1024x512 .f32) : Vec F S1024x512 .bf16 × Vec F S1024x512 .f32 :=
  if h0 : t.val % 5 = 0 then
    have h1 : ¬t.val % 5 = 4 := by omega
    (out3_A_3 c (grid3.coords t) _ (hs3_0 t) _ (hs3_1 t) _ (hs3_2 t) _ (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) _ (hs3_0 t) _ (hs3_1 t) _ (hs3_2 t) _ (hs3_3 t) scM3_0 (Memref.isWhole_whole _) ((hcond3_0 t).mpr h0) (fun h => h1 ((hcond3_1 t).mp h)) (iblk3 V c 0 t) (iblk3 V c 1 t) (iblk3 V c 2 t))
  else if h1 : t.val % 5 = 4 then
    (out3_C_3 c (grid3.coords t) _ (hs3_0 t) _ (hs3_1 t) _ (hs3_2 t) _ (hs3_3 t) scM3_0 (Memref.isWhole_whole _) (fun h => h0 ((hcond3_0 t).mp h)) ((hcond3_1 t).mpr h1) (iblk3 V c 0 t) (iblk3 V c 1 t) (iblk3 V c 2 t) p, sout3_C_0 c (grid3.coords t) _ (hs3_0 t) _ (hs3_1 t) _ (hs3_2 t) _ (hs3_3 t) scM3_0 (Memref.isWhole_whole _) (fun h => h0 ((hcond3_0 t).mp h)) ((hcond3_1 t).mpr h1) (iblk3 V c 0 t) (iblk3 V c 1 t) (iblk3 V c 2 t) p)
  else
    (out3_B_3 c (grid3.coords t) _ (hs3_0 t) _ (hs3_1 t) _ (hs3_2 t) _ (hs3_3 t) scM3_0 (Memref.isWhole_whole _) (fun h => h0 ((hcond3_0 t).mp h)) (fun h => h1 ((hcond3_1 t).mp h)) (iblk3 V c 0 t) (iblk3 V c 1 t) (iblk3 V c 2 t) p, sout3_B_0 c (grid3.coords t) _ (hs3_0 t) _ (hs3_1 t) _ (hs3_2 t) _ (hs3_3 t) scM3_0 (Memref.isWhole_whole _) (fun h => h0 ((hcond3_0 t).mp h)) (fun h => h1 ((hcond3_1 t).mp h)) (iblk3 V c 0 t) (iblk3 V c 1 t) (iblk3 V c 2 t) p)

def outsAt3 (c : Dev nD) : (n : ℕ) → n < cfg3.N → Vec F S1024x512 .bf16 × Vec F S1024x512 .f32
  | 0, hn => outsStep3 V c ⟨0, hn⟩ (VS3_0.read (Elt F) VS3_0.junk)
  | n + 1, hn => outsStep3 V c ⟨n + 1, hn⟩ (outsAt3 c n (Nat.lt_of_succ_lt hn)).2

theorem outsAt3_A (c : Dev nD) (t : Fin cfg3.N) (h0 : t.val % 5 = 0) (h1 : ¬t.val % 5 = 4) :
    outsAt3 V c t.val t.isLt = (out3_A_3 c (grid3.coords t) _ (hs3_0 t) _ (hs3_1 t) _ (hs3_2 t) _ (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) _ (hs3_0 t) _ (hs3_1 t) _ (hs3_2 t) _ (hs3_3 t) scM3_0 (Memref.isWhole_whole _) ((hcond3_0 t).mpr h0) (fun h => h1 ((hcond3_1 t).mp h)) (iblk3 V c 0 t) (iblk3 V c 1 t) (iblk3 V c 2 t)) := by
  obtain ⟨_ | n, hn⟩ := t
  · rfl
  · exact dif_pos h0

theorem outsAt3_B (c : Dev nD) (t : Fin cfg3.N) (h0 : ¬t.val % 5 = 0) (h1 : ¬t.val % 5 = 4) :
    outsAt3 V c t.val t.isLt = (out3_B_3 c (grid3.coords t) _ (hs3_0 t) _ (hs3_1 t) _ (hs3_2 t) _ (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) _ (hs3_0 t) _ (hs3_1 t) _ (hs3_2 t) _ (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨_ | n, hn⟩ := t
  · exact absurd (Nat.zero_mod _) h0
  · exact (dif_neg h0).trans ((dif_neg h1).trans rfl)

theorem outsAt3_C (c : Dev nD) (t : Fin cfg3.N) (h0 : ¬t.val % 5 = 0) (h1 : t.val % 5 = 4) :
    outsAt3 V c t.val t.isLt = (out3_C_3 c (grid3.coords t) _ (hs3_0 t) _ (hs3_1 t) _ (hs3_2 t) _ (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) _ (hs3_0 t) _ (hs3_1 t) _ (hs3_2 t) _ (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨_ | n, hn⟩ := t
  · exact absurd (Nat.zero_mod _) h0
  · exact (dif_neg h0).trans ((dif_pos h1).trans rfl)

-- the invariant before position n
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 (F := F) c) ∗ (∃ r, prngReg c r))

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ restBut3 (F := F) c) ∗ (∃ r, prngReg c r)) := by
  cases n with
  | zero => exact absurd rfl hz
  | succ n => rfl

-- at any position the invariant implies the entry invariant: the accumulator's value is forgotten
theorem PhiS3_le (c : Dev nD) (n : ℕ) (h : n ≤ cfg3.N) :
    PhiS3 V c n h ⊢ iprop(iprop((∃ d, owns (c : Thread nD τ) scM3_0 fullShare d) ∗ restBut3 (F := F) c) ∗ (∃ r, prngReg c r)) := by
  cases n with
  | zero => exact Entails.of_eq (PhiA3_eq c)
  | succ n =>
    rw [PhiS3_pos V c _ h n.succ_ne_zero]
    iintro ⟨⟨HS0, HR⟩, Hg⟩
    iframe HR Hg
    iexists _; iexact HS0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = (outsAt3 V c t.val t.isLt).1 := rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

-- the residue of t mod 5 selects the case; the invariant lends the accumulator and takes it back at this point's value
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = iprop(iprop(owns (c : Thread nD τ) scM3_0 fullShare ((outsAt3 V c t.val t.isLt).2) ∗ restBut3 (F := F) c) ∗ (∃ r, prngReg c r)) from rfl,
    show (dat3 V c).Φ t.castSucc = PhiS3 V c t.val (Nat.le_of_lt t.isLt) from rfl,
    show (dat3 V c).leavesExact 0 t = owns (c : Thread nD τ) (ms3_0 t) fullShare (iblk3 V c 0 t) from by
      unfold Dat.leavesExact; rw [liveAt3 0 t (by decide)]; rfl,
    show (dat3 V c).leavesExact 1 t = owns (c : Thread nD τ) (ms3_1 t) fullShare (iblk3 V c 1 t) from by
      unfold Dat.leavesExact; rw [liveAt3 1 t (by decide)]; rfl,
    show (dat3 V c).leavesExact 2 t = owns (c : Thread nD τ) (ms3_2 t) fullShare (iblk3 V c 2 t) from by
      unfold Dat.leavesExact; rw [liveAt3 2 t (by decide)]; rfl]
  by_cases h1 : t.val % 5 = 4
  · have h0 : ¬t.val % 5 = 0 := by omega
    rw [show (dat3 V c).leavesExact 3 t = owns (c : Thread nD τ) (ms3_3 t) fullShare ((dat3 V c).after 3 t) from by
      unfold Dat.leavesExact; rw [liveAt3_3 t ((hcond3_1 t).mpr h1)], after3_3, outsAt3_C V c t h0 h1]
    unfold out3_C_3 sout3_C_0; try dsimp only
    rw [PhiS3_pos V c _ _ (by omega : t.val ≠ 0)]
    iintro ⟨⟨⟨HS0, HR⟩, Hg⟩, Ho, ⟨%d0, H0⟩, ⟨%d1, H1⟩, ⟨%d2, H2⟩, ⟨%d3, H3⟩⟩
    iapply ((kernelRun3_C c (grid3.coords t) _ _ _ _ _ _ _ _ _ _ (fun h => h0 ((hcond3_0 t).mp h)) ((hcond3_1 t).mpr h1) _ _ _ _).2.2 Set.univ _)
    iframe H0 H1 H2 HS0
    isplitl [H3]; · iexists _; iexact H3
    iintro ⟨H0, H1, H2, ⟨%e3, H3⟩, ⟨%es0, HS0⟩⟩
    iframe HR Hg Ho H0 H1 H2
    isplitl [HS0]
    · ihave H' := (Ring.owns_of_writes_tiledL VS3_0 S1024x512.size) $$ HS0; iapply H'; ipureintro; sl_kernel_rfl
    ihave H' := (Ring.owns_of_writes_tiledL VO3_3 S1024x512.size) $$ H3; iapply H'; ipureintro; sl_kernel_rfl
  rw [Dat.leavesExact_idle (dat3 V c) 3 t (idleAt3_3 t (fun h => h1 ((hcond3_1 t).mp h))) (noFlush3_3 t (fun h => h1 ((hcond3_1 t).mp h)))]
  by_cases h0 : t.val % 5 = 0
  case' pos =>
    rw [outsAt3_A V c t h0 h1]
    unfold sout3_A_0; try dsimp only
    refine (sep_mono_left (PhiS3_le V c _ _)).trans ?_
    iintro ⟨⟨⟨HS0, HR⟩, Hg⟩, Ho, ⟨%d0, H0⟩, ⟨%d1, H1⟩, ⟨%d2, H2⟩, ⟨%d3, H3⟩⟩
    iapply ((kernelRun3_A c (grid3.coords t) _ _ _ _ _ _ _ _ _ _ ((hcond3_0 t).mpr h0) (fun h => h1 ((hcond3_1 t).mp h)) _ _ _).2.2 _ Set.univ _)
  case' neg =>
    rw [outsAt3_B V c t h0 h1]
    unfold sout3_B_0; try dsimp only
    rw [PhiS3_pos V c _ _ (by omega : t.val ≠ 0)]
    iintro ⟨⟨⟨HS0, HR⟩, Hg⟩, Ho, ⟨%d0, H0⟩, ⟨%d1, H1⟩, ⟨%d2, H2⟩, ⟨%d3, H3⟩⟩
    iapply ((kernelRun3_B c (grid3.coords t) _ _ _ _ _ _ _ _ _ _ (fun h => h0 ((hcond3_0 t).mp h)) (fun h => h1 ((hcond3_1 t).mp h)) _ _ _ _).2.2 _ Set.univ _)
  all_goals
    iframe H0 H1 H2 H3 HS0
    iintro ⟨H0, H1, H2, H3, ⟨%es0, HS0⟩⟩
    iframe HR Hg Ho H0 H1 H2
    isplitl [HS0]
    · ihave H' := (Ring.owns_of_writes_tiledL VS3_0 S1024x512.size) $$ HS0; iapply H'; ipureintro; sl_kernel_rfl
    iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := by
  rw [PhiA3_eq]; exact PhiS3_le V c _ le_rfl

end Cert.KernelIdeal.Hand

end
-- ==== Proof.KI.Region4.lean ====
import proofs.«402230_j66554813219093_3_alg».proof.Proof.Gen.KernelIdeal.Launch
import proofs.«402230_j66554813219093_3_alg».proof.Proof.Gen.KernelIdeal.Skeleton
import proofs.«402230_j66554813219093_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 5 = 0 := by decide +kernel

abbrev cond4_1 (i : grid4.Coords) : Prop := k4_cond2 i = 1#1
theorem hcond4_1 : ∀ t : Fin cfg4.N, cond4_1 (grid4.coords t) ↔ t.val % 5 = 4 := by decide +kernel

theorem idle4 : ∀ t : Fin cfg4.N, cfg4.idle 0 (grid4.coords t) = false ∧ cfg4.idle 1 (grid4.coords t) = false
    ∧ (t.val % 5 = 4 → cfg4.idle 2 (grid4.coords t) = false)
    ∧ (¬t.val % 5 = 4 → cfg4.idle 2 (grid4.coords t) = true ∧ (cfg4.win 2).flush t = false) := by decide +kernel

abbrev VO4_2 : View sig .tc .vmem S1024x512 .bf16 := (Memref.whole cc4_stg2_0 : Memref sig .tc .vmem S1024x512 .bf16).view
abbrev ms4_0 (t : Fin cfg4.N) : Memref sig .tc .vmem S1024x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10240x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x512 .bf16 := win4_2.stage (cfg4.slots t 2)
abbrev hs4_2 (t : Fin cfg4.N) : (ms4_2 t).IsWhole := hstage4_2 ((cfg4.slots t 2).cast nbuf4_2)
abbrev scM4_0 : Memref sig .tc .vmem S1024x512 .f32 := Memref.whole cc4_scratch0
abbrev VS4_0 : View sig .tc .vmem S1024x512 .f32 := scM4_0.view

section Body
variable (c : Dev nD) (i : grid4.Coords) (arg2 : Memref sig .tc .vmem S1024x2048 .bf16) (harg2 : arg2.IsWhole) (arg3 : Memref sig .tc .vmem S10240x512 .bf16) (harg3 : arg3.IsWhole)
  (arg4 : Memref sig .tc .vmem S1024x512 .bf16) (harg4 : arg4.IsWhole) (arg5 : Memref sig .tc .vmem S1024x512 .f32) (harg5 : arg5.IsWhole)

section A
variable (hc0 : cond4_0 i) (hc1 : ¬cond4_1 i) (x0 : Vec F S1024x2048 .bf16) (x1 : Vec F S10240x512 .bf16)

-- At k = 0 the accumulator, entered at anything, is reset and the first product added; the output block is untouched.
noncomputable def kernelRun4_A :
    Σ' (L2 : List (View.Piece (Elt F) S1024x512 .bf16)), { LS0 : List (View.Piece (Elt F) S1024x512 .f32) //
      ∀ (xi2 : Vec F S1024x512 .bf16) (E : Set ℕ) (K : PUnit → sProp 𝕄),
        iprop(owns c arg2 fullShare x0 ∗ owns c arg3 fullShare x1 ∗ owns c arg4 fullShare xi2 ∗ (∃ d, owns c arg5 fullShare d)
            ∗ (iprop(owns c arg2 fullShare x0 ∗ owns c arg3 fullShare x1 ∗ owns c arg4 fullShare xi2 ∗ (∃ f, arg5.view.loc c ↦[arg5.view.set]{fullShare} arg5.view.writes (Elt F) f LS0)) -∗ K ⟨⟩))
          ⊢ wp frame (wpE (defs₀ (F := F)) Variants.none c none) E (cc4__agg_matmul_kernel i arg2 harg2 arg3 harg3 arg4 harg4 arg5 harg5) K } := by
  refine ⟨[], ?_, fun xi2 E K => ?run⟩
  case run =>
    simp only [cc4__agg_matmul_kernel_eq_skeleton]; unfold cc4__agg_matmul_kernel_skel
    unfold owns
    iintro ⟨⟨%f0, %hf0, H0⟩, ⟨%f1, %hf1, H1⟩, H2, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

def out4_A_2 : Vec F S1024x512 .bf16 :=
  VO4_2.read (Elt F) (VO4_2.writes (Elt F) VO4_2.junk (kernelRun4_A c i arg2 harg2 arg3 harg3 arg4 harg4 arg5 harg5 hc0 hc1 x0 x1).1)

theorem scover4_A_0 (y : S1024x512.Idx) : ∃ pc ∈ (kernelRun4_A c i arg2 harg2 arg3 harg3 arg4 harg4 arg5 harg5 hc0 hc1 x0 x1).2.1, y ∈ pc.1.set :=
  View.cover_of_tiledL _ S1024x512.size (by sl_kernel_rfl) y

def sout4_A_0 : Vec F S1024x512 .f32 :=
  VS4_0.read (Elt F) (VS4_0.writes (Elt F) VS4_0.junk (kernelRun4_A c i arg2 harg2 arg3 harg3 arg4 harg4 arg5 harg5 hc0 hc1 x0 x1).2.1)

end A

section BC
variable (hc0 : ¬cond4_0 i)

section B
variable (hc1 : ¬cond4_1 i) (x0 : Vec F S1024x2048 .bf16) (x1 : Vec F S10240x512 .bf16) (xs0 : Vec F S1024x512 .f32)

-- At 0 < k < 4 the product is added to the accumulator as the point before left it.
noncomputable def kernelRun4_B :
    Σ' (L2 : List (View.Piece (Elt F) S1024x512 .bf16)), { LS0 : List (View.Piece (Elt F) S1024x512 .f32) //
      ∀ (xi2 : Vec F S1024x512 .bf16) (E : Set ℕ) (K : PUnit → sProp 𝕄),
        iprop(owns c arg2 fullShare x0 ∗ owns c arg3 fullShare x1 ∗ owns c arg4 fullShare xi2 ∗ owns c arg5 fullShare xs0
            ∗ (iprop(owns c arg2 fullShare x0 ∗ owns c arg3 fullShare x1 ∗ owns c arg4 fullShare xi2 ∗ (∃ f, arg5.view.loc c ↦[arg5.view.set]{fullShare} arg5.view.writes (Elt F) f LS0)) -∗ K ⟨⟩))
          ⊢ wp frame (wpE (defs₀ (F := F)) Variants.none c none) E (cc4__agg_matmul_kernel i arg2 harg2 arg3 harg3 arg4 harg4 arg5 harg5) K } := by
  refine ⟨[], ?_, fun xi2 E K => ?run⟩
  case run =>
    simp only [cc4__agg_matmul_kernel_eq_skeleton]; unfold cc4__agg_matmul_kernel_skel
    unfold owns
    iintro ⟨⟨%f0, %hf0, H0⟩, ⟨%f1, %hf1, H1⟩, H2, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

def out4_B_2 : Vec F S1024x512 .bf16 :=
  VO4_2.read (Elt F) (VO4_2.writes (Elt F) VO4_2.junk (kernelRun4_B c i arg2 harg2 arg3 harg3 arg4 harg4 arg5 harg5 hc0 hc1 x0 x1 xs0).1)

theorem scover4_B_0 (y : S1024x512.Idx) : ∃ pc ∈ (kernelRun4_B c i arg2 harg2 arg3 harg3 arg4 harg4 arg5 harg5 hc0 hc1 x0 x1 xs0).2.1, y ∈ pc.1.set :=
  View.cover_of_tiledL _ S1024x512.size (by sl_kernel_rfl) y

def sout4_B_0 : Vec F S1024x512 .f32 :=
  VS4_0.read (Elt F) (VS4_0.writes (Elt F) VS4_0.junk (kernelRun4_B c i arg2 harg2 arg3 harg3 arg4 harg4 arg5 harg5 hc0 hc1 x0 x1 xs0).2.1)

end B

section C
variable (hc1 : cond4_1 i) (x0 : Vec F S1024x2048 .bf16) (x1 : Vec F S10240x512 .bf16) (xs0 : Vec F S1024x512 .f32)

-- At k = 4 the last product is added and the accumulator, rounded, is stored over the whole output block.
noncomputable def kernelRun4_C :
    Σ' (L2 : List (View.Piece (Elt F) S1024x512 .bf16)), { LS0 : List (View.Piece (Elt F) S1024x512 .f32) //
      ∀ (E : Set ℕ) (K : PUnit → sProp 𝕄),
        iprop(owns c arg2 fullShare x0 ∗ owns c arg3 fullShare x1 ∗ (∃ d, owns c arg4 fullShare d) ∗ owns c arg5 fullShare xs0
            ∗ (iprop(owns c arg2 fullShare x0 ∗ owns c arg3 fullShare x1 ∗ (∃ f, arg4.view.loc c ↦[arg4.view.set]{fullShare} arg4.view.writes (Elt F) f L2) ∗ (∃ f, arg5.view.loc c ↦[arg5.view.set]{fullShare} arg5.view.writes (Elt F) f LS0)) -∗ K ⟨⟩))
          ⊢ wp frame (wpE (defs₀ (F := F)) Variants.none c none) E (cc4__agg_matmul_kernel i arg2 harg2 arg3 harg3 arg4 harg4 arg5 harg5) K } := by
  refine ⟨?_, ?_, fun E K => ?run⟩
  case run =>
    simp only [cc4__agg_matmul_kernel_eq_skeleton]; unfold cc4__agg_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

theorem cover4_C_2 (y : S1024x512.Idx) : ∃ pc ∈ (kernelRun4_C c i arg2 harg2 arg3 harg3 arg4 harg4 arg5 harg5 hc0 hc1 x0 x1 xs0).1, y ∈ pc.1.set :=
  View.cover_of_tiledL _ S1024x512.size (by sl_kernel_rfl) y

def out4_C_2 : Vec F S1024x512 .bf16 :=
  VO4_2.read (Elt F) (VO4_2.writes (Elt F) VO4_2.junk (kernelRun4_C c i arg2 harg2 arg3 harg3 arg4 harg4 arg5 harg5 hc0 hc1 x0 x1 xs0).1)

theorem scover4_C_0 (y : S1024x512.Idx) : ∃ pc ∈ (kernelRun4_C c i arg2 harg2 arg3 harg3 arg4 harg4 arg5 harg5 hc0 hc1 x0 x1 xs0).2.1, y ∈ pc.1.set :=
  View.cover_of_tiledL _ S1024x512.size (by sl_kernel_rfl) y

def sout4_C_0 : Vec F S1024x512 .f32 :=
  VS4_0.read (Elt F) (VS4_0.writes (Elt F) VS4_0.junk (kernelRun4_C c i arg2 harg2 arg3 harg3 arg4 harg4 arg5 harg5 hc0 hc1 x0 x1 xs0).2.1)

end C
end BC
end Body

-- The resting invariant, with what it says of the accumulator as a parameter.
abbrev inv4 (c : Dev nD) (P : sProp 𝕄) : sProp 𝕄 :=
  iprop(iprop(P ∗ Pipeline.scopedRestBut (Ix := Unit) (Name := ℕ) (U := UR sig nD τ) (Lvl := ℕ) (Val := Elt F) spec4 c [cc4_scratch0]) ∗ (∃ r, prngReg c r))

theorem PhiA4_eq (c : Dev nD) : (Pipeline.ΦA spec4 c : sProp 𝕄) = inv4 c iprop(∃ d, owns c scM4_0 fullShare d) := by
  unfold Pipeline.ΦA inv4; rw [scopedRest4_split]; simp only [scM4_0, owns_whole]; try rfl

section Region
variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

variable (t : Fin cfg4.N)

-- What point t leaves in the output block and in the accumulator, the accumulator entered at xs.
def step4 (xs : Vec F S1024x512 .f32) : Vec F S1024x512 .bf16 × Vec F S1024x512 .f32 :=
  if h0 : t.val % 5 = 0 then
    (out4_A_2 c (grid4.coords t) (ms4_0 t) (hs4_0 t) (ms4_1 t) (hs4_1 t) (ms4_2 t) (hs4_2 t) scM4_0 (Memref.isWhole_whole _) ((hcond4_0 t).mpr h0) (fun h => by have := (hcond4_1 t).mp h; omega) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => by have := (hcond4_1 t).mp h; omega) (iblk4 V c 0 t) (iblk4 V c 1 t))
  else if h1 : t.val % 5 = 4 then
    (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) xs, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) xs)
  else
    (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) xs, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) xs)

def outsAt4 : (n : ℕ) → n < cfg4.N → Vec F S1024x512 .bf16 × Vec F S1024x512 .f32
  | 0, hn => step4 V c ⟨0, hn⟩ (VS4_0.read (Elt F) VS4_0.junk)
  | n + 1, hn => step4 V c ⟨n + 1, hn⟩ (outsAt4 n (Nat.lt_of_succ_lt hn)).2

theorem outsAt4_A (h0 : t.val % 5 = 0) (h1 : ¬t.val % 5 = 4) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n <;> (show step4 V c _ _ = _; exact dif_pos h0)

theorem outsAt4_B (h0 : ¬t.val % 5 = 0) (h1 : ¬t.val % 5 = 4) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact absurd (Nat.zero_mod _) h0
  | succ n => show step4 V c _ _ = _; exact (dif_neg h0).trans (dif_neg h1)

theorem outsAt4_C (h0 : ¬t.val % 5 = 0) (h1 : t.val % 5 = 4) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact absurd (Nat.zero_mod _) h0
  | succ n => show step4 V c _ _ = _; exact (dif_neg h0).trans (dif_pos h1)

-- The invariant before position n: at rest before the first point, afterwards the accumulator at what the point before left.
def PhiS4 : (n : ℕ) → n ≤ cfg4.N → sProp 𝕄
  | 0, _ => Pipeline.ΦA spec4 c
  | n + 1, hn => inv4 c (owns c scM4_0 fullShare (outsAt4 V c n hn).2)

-- At any position the invariant gives the resting one back: the accumulator's named contents are forgotten.
theorem PhiS4_out : ∀ n hn, PhiS4 V c n hn ⊢ inv4 c iprop(∃ d, owns c scM4_0 fullShare d)
  | 0, _ => .of_eq (PhiA4_eq c)
  | n + 1, hn => by
    unfold PhiS4 inv4; iintro ⟨⟨HS0, HR⟩, Hg⟩; iframe HR Hg; iexists _; iexact HS0

theorem PhiS4_pos (n : ℕ) (h : n ≤ cfg4.N) (hz : n ≠ 0) :
    PhiS4 V c n h = inv4 c (owns c scM4_0 fullShare (outsAt4 V c (n - 1) (by omega)).2) := by
  cases n with
  | zero => exact absurd rfl hz
  | succ n => rfl

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (w : Fin cfg4.W) : (dat4 V c).A w = V c (Pipeline.arrRef spec4 w) := rfl

theorem after4_2 : (dat4 V c).after 2 t = (outsAt4 V c t.val t.isLt).1 := rfl

theorem before4_0 (d) : (dat4 V c).before 0 t d = iblk4 V c 0 t :=
  ((dat4 V c).before_in_eq_fetched 0 rfl (fun _ => rfl) (fun _ _ _ => rfl) (fun _ => rfl) t d).trans rfl
theorem before4_1 (d) : (dat4 V c).before 1 t d = iblk4 V c 1 t :=
  ((dat4 V c).before_in_eq_fetched 1 rfl (fun _ => rfl) (fun _ _ _ => rfl) (fun _ => rfl) t d).trans rfl

def bodyPre4 : sProp 𝕄 :=
  iprop((dat4 V c).Φ t.castSucc ∗ (dat4 V c).owesAt () t.castSucc
    ∗ (∃ d, owns c (ms4_0 t) fullShare ((dat4 V c).before 0 t d))
    ∗ (∃ d, owns c (ms4_1 t) fullShare ((dat4 V c).before 1 t d))
    ∗ (∃ d, owns c (ms4_2 t) fullShare ((dat4 V c).before 2 t d)))

def bodyPost4 : sProp 𝕄 :=
  iprop((dat4 V c).Φ t.succ ∗ (dat4 V c).owesAt () t.succ
    ∗ (dat4 V c).leavesExact 0 t ∗ (dat4 V c).leavesExact 1 t ∗ (dat4 V c).leavesExact 2 t)

-- The invariant hands the body the accumulator and takes it back at this point's contents; the rest is framed.
theorem sound_body4 :
    bodyPre4 V c t ⊢ wp frame (wpE (defs₀ (F := F)) Variants.none c none) Set.univ (bodyAt4 t) (fun _ => bodyPost4 V c t) := by
  unfold bodyPre4 bodyPost4 bodyAt4
  simp only [before4_0, before4_1]
  obtain ⟨i0, i1, i2, i3⟩ := idle4 t
  rw [show (dat4 V c).owesAt () t.succ = (dat4 V c).owesAt () t.castSucc from rfl,
    show (dat4 V c).Φ t.succ = inv4 c (owns c scM4_0 fullShare (outsAt4 V c t.val t.isLt).2) from rfl,
    show (dat4 V c).Φ t.castSucc = PhiS4 V c t.val (Nat.le_of_lt t.isLt) from rfl,
    show (dat4 V c).leavesExact 0 t = owns c (ms4_0 t) fullShare (iblk4 V c 0 t) from by unfold Dat.leavesExact; rw [i0]; try rfl,
    show (dat4 V c).leavesExact 1 t = owns c (ms4_1 t) fullShare (iblk4 V c 1 t) from by unfold Dat.leavesExact; rw [i1]; try rfl]
  unfold inv4
  by_cases h1 : t.val % 5 = 4
  · have h0 : ¬t.val % 5 = 0 := by omega
    rw [show (dat4 V c).leavesExact 2 t = owns c (ms4_2 t) fullShare ((dat4 V c).after 2 t) from by unfold Dat.leavesExact; rw [i2 h1],
      after4_2, outsAt4_C V c t h0 h1, PhiS4_pos V c t.val _ (by omega)]
    unfold out4_C_2 sout4_C_0; dsimp only
    iintro ⟨⟨⟨HS0, HR⟩, Hg⟩, Ho, ⟨%d0, H0⟩, ⟨%d1, H1⟩, ⟨%d2, H2⟩⟩
    iapply ((kernelRun4_C c (grid4.coords t) _ _ _ _ _ _ _ _ (mt (hcond4_0 t).mp h0) ((hcond4_1 t).mpr h1) _ _ _).2.2 Set.univ _)
    iframe H0 H1 HS0
    isplitl [H2]; · iexists _; iexact H2
    iintro ⟨H0, H1, ⟨%g, H2⟩, ⟨%f, HS0⟩⟩
    iframe HR Hg Ho H0 H1
    isplitl [HS0]
    · ihave H' := (Ring.owns_of_writes_tiledL VS4_0 S1024x512.size) $$ HS0; iapply H'; ipureintro; sl_kernel_rfl
    ihave H' := (Ring.owns_of_writes_tiledL VO4_2 S1024x512.size) $$ H2; iapply H'; ipureintro; sl_kernel_rfl
  · rw [Dat.leavesExact_idle (dat4 V c) 2 t (i3 h1).1 (i3 h1).2]
    by_cases h0 : t.val % 5 = 0
    · rw [outsAt4_A V c t h0 h1]
      unfold sout4_A_0; dsimp only
      iintro ⟨HΦ, Ho, ⟨%d0, H0⟩, ⟨%d1, H1⟩, ⟨%d2, H2⟩⟩
      ihave ⟨⟨HS0, HR⟩, Hg⟩ := (PhiS4_out V c _ _) $$ HΦ
      iapply ((kernelRun4_A c (grid4.coords t) _ _ _ _ _ _ _ _ ((hcond4_0 t).mpr h0) (mt (hcond4_1 t).mp h1) _ _).2.2 _ Set.univ _)
      iframe H0 H1 H2 HS0
      iintro ⟨H0, H1, H2, ⟨%f, HS0⟩⟩
      iframe HR Hg Ho H0 H1
      isplitl [HS0]
      · ihave H' := (Ring.owns_of_writes_tiledL VS4_0 S1024x512.size) $$ HS0; iapply H'; ipureintro; sl_kernel_rfl
      iexists _; iexact H2
    · rw [outsAt4_B V c t h0 h1, PhiS4_pos V c t.val _ (by omega)]
      unfold sout4_B_0; dsimp only
      iintro ⟨⟨⟨HS0, HR⟩, Hg⟩, Ho, ⟨%d0, H0⟩, ⟨%d1, H1⟩, ⟨%d2, H2⟩⟩
      iapply ((kernelRun4_B c (grid4.coords t) _ _ _ _ _ _ _ _ (mt (hcond4_0 t).mp h0) (mt (hcond4_1 t).mp h1) _ _ _).2.2 _ Set.univ _)
      iframe H0 H1 H2 HS0
      iintro ⟨H0, H1, H2, ⟨%f, HS0⟩⟩
      iframe HR Hg Ho H0 H1
      isplitl [HS0]
      · ihave H' := (Ring.owns_of_writes_tiledL VS4_0 S1024x512.size) $$ HS0; iapply H'; ipureintro; sl_kernel_rfl
      iexists _; iexact H2

theorem body_obligation4 : BodyObligation (dat4 (F := F) V c) (defs₀ (F := F)) Variants.none () Set.univ := fun t => by
  rw [bigSep_W4, bigSep_W4]
  exact sound_body4 V c t

theorem hin4 : Pipeline.ΦA spec4 c ⊢ (dat4 V c).Φ 0 := .rfl

theorem hout4 : (dat4 V c).Φ (Fin.last cfg4.N) ⊢ Pipeline.ΦA spec4 c :=
  (PhiS4_out V c cfg4.N (Nat.le_refl _)).trans (.of_eq (PhiA4_eq c).symm)

end Region

end Cert.KernelIdeal.Hand

end
-- ==== Proof.KI.Region5.lean ====
import proofs.«402230_j66554813219093_3_alg».proof.Proof.Gen.KernelIdeal.Launch
import proofs.«402230_j66554813219093_3_alg».proof.Proof.Gen.KernelIdeal.Skeleton
import proofs.«402230_j66554813219093_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
abbrev cond5_0 (i : grid5.Coords) : Prop :=
  (Scalar.cmpi .ne (Scalar.extui (Scalar.cmpi .eq (BitVec.ofNat 32 (i 1).val) 0#32)) 0#32) = 1#1
theorem hcond5_0 : ∀ t : Fin cfg5.N, cond5_0 (grid5.coords t) ↔ t.val % 5 = 0 :=
  (by decide +kernel : ∀ t : Fin grid5.N, cond5_0 (grid5.coords t) ↔ t.val % 5 = 0)
abbrev cond5_1 (i : grid5.Coords) : Prop := k5_cond2 i = 1#1
theorem hcond5_1 : ∀ t : Fin cfg5.N, cond5_1 (grid5.coords t) ↔ t.val % 5 = 4 :=
  (by decide +kernel : ∀ t : Fin grid5.N, cond5_1 (grid5.coords t) ↔ t.val % 5 = 4)
theorem idle5_3 : ∀ t : Fin cfg5.N, ¬cond5_1 (grid5.coords t) →
    cfg5.idle 3 (grid5.coords t) = true ∧ (cfg5.win 3).flush t = false := by decide +kernel
theorem liveAt5_3 : ∀ t : Fin cfg5.N, cond5_1 (grid5.coords t) → cfg5.idle 3 (grid5.coords t) = false := by decide +kernel
abbrev VO5_3 : View sig .tc .vmem S1024x512 .bf16 := (Memref.whole cc5_stg3_0 : Memref sig .tc .vmem S1024x512 .bf16).view
abbrev ms5_0 (t : Fin cfg5.N) : Memref sig .tc .vmem S1024x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S10240x512 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x512 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x512 .bf16 := win5_3.stage (cfg5.slots t 3)
abbrev hs5_3 (t : Fin cfg5.N) : (ms5_3 t).IsWhole := hstage5_3 ((cfg5.slots t 3).cast nbuf5_3)
abbrev scM5_0 : Memref sig .tc .vmem S1024x512 .f32 := Memref.whole cc5_scratch0
abbrev VS5_0 : View sig .tc .vmem S1024x512 .f32 := scM5_0.view
abbrev rest5 (c : Dev nD) : sProp 𝕄 :=
  Pipeline.scopedRestBut (Ix := Unit) (Name := ℕ) (U := UR sig nD τ) (Lvl := ℕ) (Val := Elt F) spec5 c [cc5_scratch0]
theorem PhiA5_eq (c : Dev nD) :
    (Pipeline.ΦA spec5 c : sProp 𝕄)
      = iprop(iprop((∃ d, owns (c : Thread nD τ) scM5_0 fullShare d) ∗ rest5 (F := F) c) ∗ (∃ r, prngReg c r)) := by
  unfold Pipeline.ΦA; rw [scopedRest5_split]; simp only [scM5_0, owns_whole]; try rfl
/-- Reading through a whole memref is a bijection, so owning it at `X` is owning its elements at the contents that read `X`. -/
theorem owns_unread {sp : Space} {sh : Shape} {e : EltTy} {m : Memref sig .tc sp sh e} (h : m.IsWhole) (c : Dev nD) (X : sh.Idx → Elt F e) :
    (owns (c : Thread nD τ) m fullShare X : sProp 𝕄) = (m.view.loc (c : Thread nD τ) ↦[m.view.set]{fullShare} h.unread X) := by
  rw [owns_eq_rep, h.eq_unread (View.read_rep _ X)]
/-- Stores that cover a buffer determine what it reads, whatever it held before. -/
theorem owns_of_cover {sp sp' : Space} {κ' : Kind} {sh : Shape} {e : EltTy} (c : Dev nD) (m : Memref sig .tc sp sh e)
    (v' : View sig κ' sp' sh e) (L : List (View.Piece (Elt F) sh e)) (hL : ∀ y, ∃ pc ∈ L, y ∈ pc.1.set) :
    iprop(∃ f, m.view.loc (c : Thread nD τ) ↦[m.view.set]{fullShare} m.view.writes (Elt F) f L)
      ⊢ (owns (c : Thread nD τ) m fullShare (v'.read (Elt F) (v'.writes (Elt F) v'.junk L)) : sProp 𝕄) := by
  unfold owns; iintro ⟨%f, H⟩; iexists _; isplitr; swap; · iexact H
  ipureintro; exact View.read_writes_of_cover _ _ _ _ _ hL
section Runs
variable (c : Dev nD) (i : grid5.Coords)
  (arg2 : Memref sig .tc .vmem S1024x2048 .bf16) (harg2 : arg2.IsWhole)
  (arg3 : Memref sig .tc .vmem S10240x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .f32) (harg6 : arg6.IsWhole)
section
variable (hc0 : cond5_0 i) (hc1 : ¬cond5_1 i) (x0 : Vec F S1024x2048 .bf16) (x1 : Vec F S10240x512 .bf16) (x2 : Vec F S1024x512 .bf16)
noncomputable def kernelRun5_A :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E
              (cc5__agg_combine_kernel i arg2 harg2 arg3 harg3 arg4 harg4 arg5 harg5 arg6 harg6) K } := by
  refine ⟨[], ?_, fun xi3 E K => ?run⟩
  case run =>
    simp only [owns_unread harg2, owns_unread harg3, owns_unread harg4, owns_unread harg5, owns_unread harg6]
    simp only [cc5__agg_combine_kernel_eq_skeleton]; unfold cc5__agg_combine_kernel_skel
    iintro ⟨H0, H1, H2, H3, ⟨%d, HS0⟩, Hk⟩
    sl_exec (disch := first | exact hc0 | exact hc1)
    sl_step
    iapply Hk
    iframe H0 H1 H2 H3
    iexists _; iexact HS0
local notation "runA5" => kernelRun5_A c i arg2 harg2 arg3 harg3 arg4 harg4 arg5 harg5 arg6 harg6
theorem scover5_A_0 (y : S1024x512.Idx) : ∃ pc ∈ (runA5 hc0 hc1 x0 x1 x2).2.1, y ∈ pc.1.set :=
  View.cover_of_tiledL (runA5 hc0 hc1 x0 x1 x2).2.1 S1024x512.size (by sl_kernel_rfl) y
def sout5_A_0 : Vec F S1024x512 .f32 :=
  VS5_0.read (Elt F) (VS5_0.writes (Elt F) VS5_0.junk (runA5 hc0 hc1 x0 x1 x2).2.1)
end
section
variable (hc0 : ¬cond5_0 i) (hc1 : ¬cond5_1 i) (x0 : Vec F S1024x2048 .bf16) (x1 : Vec F S10240x512 .bf16) (x2 : Vec F S1024x512 .bf16) (xs0 : Vec F S1024x512 .f32)
noncomputable def kernelRun5_B :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E
              (cc5__agg_combine_kernel i arg2 harg2 arg3 harg3 arg4 harg4 arg5 harg5 arg6 harg6) K } := by
  refine ⟨[], ?_, fun xi3 E K => ?run⟩
  case run =>
    simp only [owns_unread harg2, owns_unread harg3, owns_unread harg4, owns_unread harg5, owns_unread harg6]
    simp only [cc5__agg_combine_kernel_eq_skeleton]; unfold cc5__agg_combine_kernel_skel
    iintro ⟨H0, H1, H2, H3, HS0, Hk⟩
    sl_exec (disch := first | exact hc0 | exact hc1)
    sl_step
    iapply Hk
    iframe H0 H1 H2 H3
    iexists _; iexact HS0
local notation "runB5" => kernelRun5_B c i arg2 harg2 arg3 harg3 arg4 harg4 arg5 harg5 arg6 harg6
theorem scover5_B_0 (y : S1024x512.Idx) : ∃ pc ∈ (runB5 hc0 hc1 x0 x1 x2 xs0).2.1, y ∈ pc.1.set :=
  View.cover_of_tiledL (runB5 hc0 hc1 x0 x1 x2 xs0).2.1 S1024x512.size (by sl_kernel_rfl) y
def sout5_B_0 : Vec F S1024x512 .f32 :=
  VS5_0.read (Elt F) (VS5_0.writes (Elt F) VS5_0.junk (runB5 hc0 hc1 x0 x1 x2 xs0).2.1)
end
section
variable (hc0 : ¬cond5_0 i) (hc1 : cond5_1 i) (x0 : Vec F S1024x2048 .bf16) (x1 : Vec F S10240x512 .bf16) (x2 : Vec F S1024x512 .bf16) (xs0 : Vec F S1024x512 .f32)
noncomputable def kernelRun5_C :
    Σ' (L3 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E
              (cc5__agg_combine_kernel i arg2 harg2 arg3 harg3 arg4 harg4 arg5 harg5 arg6 harg6) K } := by
  refine ⟨?_, ?_, fun E K => ?run⟩
  case run =>
    simp only [owns_unread harg2, owns_unread harg3, owns_unread harg4, owns_unread harg5, owns_unread harg6]
    simp only [cc5__agg_combine_kernel_eq_skeleton]; unfold cc5__agg_combine_kernel_skel
    iintro ⟨H0, H1, H2, ⟨%d, H3⟩, HS0, Hk⟩
    sl_exec (disch := first | exact hc0 | exact hc1)
    sl_step
    iapply Hk
    iframe H0 H1 H2
    isplitl [H3]; · iexists _; iexact H3
    iexists _; iexact HS0
local notation "runC5" => kernelRun5_C c i arg2 harg2 arg3 harg3 arg4 harg4 arg5 harg5 arg6 harg6
theorem cover5_C_3 (y : S1024x512.Idx) : ∃ pc ∈ (runC5 hc0 hc1 x0 x1 x2 xs0).1, y ∈ pc.1.set :=
  View.cover_of_tiledL (runC5 hc0 hc1 x0 x1 x2 xs0).1 S1024x512.size (by sl_kernel_rfl) y
def out5_C_3 : Vec F S1024x512 .bf16 :=
  VO5_3.read (Elt F) (VO5_3.writes (Elt F) VO5_3.junk (runC5 hc0 hc1 x0 x1 x2 xs0).1)
theorem scover5_C_0 (y : S1024x512.Idx) : ∃ pc ∈ (runC5 hc0 hc1 x0 x1 x2 xs0).2.1, y ∈ pc.1.set :=
  View.cover_of_tiledL (runC5 hc0 hc1 x0 x1 x2 xs0).2.1 S1024x512.size (by sl_kernel_rfl) y
def sout5_C_0 : Vec F S1024x512 .f32 :=
  VS5_0.read (Elt F) (VS5_0.writes (Elt F) VS5_0.junk (runC5 hc0 hc1 x0 x1 x2 xs0).2.1)
end
end Runs
section Region
variable (V : (c : Dev nD) → (b : Ref sig .tc) → Buf (Elt F) ((c : Thread nD τ).loc b)) (c : Dev nD)
def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))
def ptA5 (t : Fin cfg5.N) (h0 : t.val % 5 = 0) : Vec F S1024x512 .bf16 × Vec F S1024x512 .f32 :=
  (VO5_3.read (Elt F) VO5_3.junk,
   sout5_A_0 c (grid5.coords t) (ms5_0 t) (hs5_0 t) (ms5_1 t) (hs5_1 t) (ms5_2 t) (hs5_2 t) (ms5_3 t) (hs5_3 t) scM5_0 (Memref.isWhole_whole _)
      ((hcond5_0 t).mpr h0) (fun h => by have := (hcond5_1 t).mp h; omega) (iblk5 V c 0 t) (iblk5 V c 1 t) (iblk5 V c 2 t))
def ptB5 (t : Fin cfg5.N) (h0 : ¬t.val % 5 = 0) (h1 : ¬t.val % 5 = 4) (xs : Vec F S1024x512 .f32) :
    Vec F S1024x512 .bf16 × Vec F S1024x512 .f32 :=
  (VO5_3.read (Elt F) VO5_3.junk,
   sout5_B_0 c (grid5.coords t) (ms5_0 t) (hs5_0 t) (ms5_1 t) (hs5_1 t) (ms5_2 t) (hs5_2 t) (ms5_3 t) (hs5_3 t) scM5_0 (Memref.isWhole_whole _)
      (fun h => h0 ((hcond5_0 t).mp h)) (fun h => h1 ((hcond5_1 t).mp h)) (iblk5 V c 0 t) (iblk5 V c 1 t) (iblk5 V c 2 t) xs)
def ptC5 (t : Fin cfg5.N) (h0 : ¬t.val % 5 = 0) (h1 : t.val % 5 = 4) (xs : Vec F S1024x512 .f32) :
    Vec F S1024x512 .bf16 × Vec F S1024x512 .f32 :=
  (out5_C_3 c (grid5.coords t) (ms5_0 t) (hs5_0 t) (ms5_1 t) (hs5_1 t) (ms5_2 t) (hs5_2 t) (ms5_3 t) (hs5_3 t) scM5_0 (Memref.isWhole_whole _)
      (fun h => h0 ((hcond5_0 t).mp h)) ((hcond5_1 t).mpr h1) (iblk5 V c 0 t) (iblk5 V c 1 t) (iblk5 V c 2 t) xs,
   sout5_C_0 c (grid5.coords t) (ms5_0 t) (hs5_0 t) (ms5_1 t) (hs5_1 t) (ms5_2 t) (hs5_2 t) (ms5_3 t) (hs5_3 t) scM5_0 (Memref.isWhole_whole _)
      (fun h => h0 ((hcond5_0 t).mp h)) ((hcond5_1 t).mpr h1) (iblk5 V c 0 t) (iblk5 V c 1 t) (iblk5 V c 2 t) xs)
def outsAt5 : (n : ℕ) → n < cfg5.N → Vec F S1024x512 .bf16 × Vec F S1024x512 .f32
  | 0, hn => ptA5 V c ⟨0, hn⟩ (Nat.zero_mod _)
  | n + 1, hn =>
    if h0 : (n + 1) % 5 = 0 then ptA5 V c ⟨n + 1, hn⟩ h0
    else
      if h1 : (n + 1) % 5 = 4 then ptC5 V c ⟨n + 1, hn⟩ h0 h1 (outsAt5 n (Nat.lt_of_succ_lt hn)).2
      else ptB5 V c ⟨n + 1, hn⟩ h0 h1 (outsAt5 n (Nat.lt_of_succ_lt hn)).2
theorem outsAt5_A (t : Fin cfg5.N) (h0 : t.val % 5 = 0) : outsAt5 V c t.val t.isLt = ptA5 V c t h0 := by
  obtain ⟨n, hn⟩ := t
  cases n with
  | zero => exact rfl
  | succ n => exact (dif_pos h0).trans rfl
theorem outsAt5_B (t : Fin cfg5.N) (h0 : ¬t.val % 5 = 0) (h1 : ¬t.val % 5 = 4) :
    outsAt5 V c t.val t.isLt
      = ptB5 V c t h0 h1 (outsAt5 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt5_C (t : Fin cfg5.N) (h0 : ¬t.val % 5 = 0) (h1 : t.val % 5 = 4) :
    outsAt5 V c t.val t.isLt
      = ptC5 V c t h0 h1 (outsAt5 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)
def PhiS5 : (n : ℕ) → n ≤ cfg5.N → sProp 𝕄
  | 0, _ => Pipeline.ΦA spec5 c
  | n + 1, hn => iprop(iprop(owns (c : Thread nD τ) scM5_0 fullShare ((outsAt5 V c n hn).2) ∗ rest5 (F := F) c) ∗ (∃ r, prngReg c r))
theorem PhiS5_pos (n : ℕ) (h : n ≤ cfg5.N) (hz : n ≠ 0) :
    PhiS5 V c n h
      = iprop(iprop(owns (c : Thread nD τ) scM5_0 fullShare ((outsAt5 V c (n - 1) (by omega)).2) ∗ rest5 (F := F) c) ∗ (∃ r, prngReg c r)) := by
  cases n with
  | zero => exact absurd rfl hz
  | succ n => rfl
def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0
theorem A_eq5 (w : Fin cfg5.W) : (dat5 V c).A w = V c (Pipeline.arrRef spec5 w) := by
  dsimp only [dat5]
theorem PhiS5_castSucc (t : Fin cfg5.N) :
    (dat5 V c).Φ t.castSucc = PhiS5 V c t.val (Nat.le_of_lt t.isLt) := by
  dsimp only [dat5]; simp only [Fin.coe_castSucc]
theorem after5_3 (t : Fin cfg5.N) : (dat5 V c).after 3 t = (outsAt5 V c t.val t.isLt).1 := by dsimp only [dat5]
theorem Phi5_succ (t : Fin cfg5.N) : (dat5 V c).Φ t.succ
    = iprop(iprop(owns (c : Thread nD τ) scM5_0 fullShare ((outsAt5 V c t.val t.isLt).2) ∗ rest5 (F := F) c) ∗ (∃ r, prngReg c r)) := rfl
/-- At any position the invariant holds the accumulator at some contents. -/
theorem PhiS5_any : ∀ (n : ℕ) (h : n ≤ cfg5.N), PhiS5 V c n h
    ⊢ iprop(iprop((∃ d, owns (c : Thread nD τ) scM5_0 fullShare d) ∗ rest5 (F := F) c) ∗ (∃ r, prngReg c r))
  | 0, _ => by rw [← PhiA5_eq]; exact .rfl
  | n + 1, _ => by
    rw [PhiS5]; iintro ⟨⟨HS0, Hr⟩, Hg⟩; iframe Hr Hg; iexists _; iexact HS0
/-- One argument for the three inputs, which differ only in the window. -/
theorem before5 (t : Fin cfg5.N) : (∀ d, (dat5 V c).before 0 t d = iblk5 V c 0 t)
    ∧ (∀ d, (dat5 V c).before 1 t d = iblk5 V c 1 t) ∧ (∀ d, (dat5 V c).before 2 t d = iblk5 V c 2 t) := by
  refine ⟨?_, ?_, ?_⟩ <;>
    exact fun d => ((dat5 V c).before_in_eq_fetched _ rfl (fun _ => rfl) (fun _ _ _ => rfl) (fun _ => rfl) t d).trans rfl
theorem leaves5_0 (t : Fin cfg5.N) :
    (dat5 V c).leavesExact 0 t = owns (c : Thread nD τ) (ms5_0 t) fullShare (iblk5 V c 0 t) := rfl
theorem leaves5_1 (t : Fin cfg5.N) :
    (dat5 V c).leavesExact 1 t = owns (c : Thread nD τ) (ms5_1 t) fullShare (iblk5 V c 1 t) := rfl
theorem leaves5_2 (t : Fin cfg5.N) :
    (dat5 V c).leavesExact 2 t = owns (c : Thread nD τ) (ms5_2 t) fullShare (iblk5 V c 2 t) := rfl
def bodyPre5 (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))
def bodyPost5 (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)
theorem sound_body5 (t : Fin cfg5.N) :
    bodyPre5 V c t ⊢ wp frame (wpE (defs₀ (F := F)) Variants.none c none) Set.univ (bodyAt5 t) (fun _ => bodyPost5 V c t) := by
  unfold bodyPre5 bodyPost5 bodyAt5
  simp only [(before5 V c t).1, (before5 V c t).2.1, (before5 V c t).2.2]
  rw [show (dat5 V c).owesAt () t.succ = (dat5 V c).owesAt () t.castSucc from rfl, Phi5_succ, PhiS5_castSucc,
    leaves5_0, leaves5_1, leaves5_2]
  by_cases h0 : t.val % 5 = 0
  · have hc1 : ¬cond5_1 (grid5.coords t) := fun h => by have := (hcond5_1 t).mp h; omega
    rw [Dat.leavesExact_idle (dat5 V c) 3 t (idle5_3 t hc1).1 (idle5_3 t hc1).2, outsAt5_A V c t h0]
    unfold ptA5 sout5_A_0; dsimp only
    refine (sep_mono_left (PhiS5_any V c _ _)).trans ?_
    iintro ⟨⟨⟨HS0, Hr⟩, Hg⟩, Ho, ⟨%d0, H0⟩, ⟨%d1, H1⟩, ⟨%d2, H2⟩, ⟨%d3, H3⟩⟩
    iapply ((kernelRun5_A c (grid5.coords t) _ _ _ _ _ _ _ _ _ _ ((hcond5_0 t).mpr h0) hc1 (iblk5 V c 0 t) (iblk5 V c 1 t) (iblk5 V c 2 t)).2.2
      ((dat5 V c).before 3 t d3) Set.univ _)
    iframe H0 H1 H2 H3 HS0
    iintro ⟨H0, H1, H2, H3, HS0⟩
    iframe Hr Hg Ho H0 H1 H2
    isplitl [HS0]; · iapply owns_of_cover c _ _ _ (scover5_A_0 c _ _ _ _ _ _ _ _ _ _ _ _ _ _ _ _); iexact HS0
    iexists _; iexact H3
  · rw [PhiS5_pos V c _ _ fun h => h0 (by rw [h])]
    by_cases h1 : t.val % 5 = 4
    · rw [show (dat5 V c).leavesExact 3 t = owns (c : Thread nD τ) (ms5_3 t) fullShare ((dat5 V c).after 3 t) from by
        unfold Dat.leavesExact; rw [liveAt5_3 t ((hcond5_1 t).mpr h1)], after5_3, outsAt5_C V c t h0 h1]
      unfold ptC5 out5_C_3 sout5_C_0; dsimp only
      iintro ⟨⟨⟨HS0, Hr⟩, Hg⟩, Ho, ⟨%d0, H0⟩, ⟨%d1, H1⟩, ⟨%d2, H2⟩, ⟨%d3, H3⟩⟩
      iapply ((kernelRun5_C c (grid5.coords t) _ _ _ _ _ _ _ _ _ _ (fun h => h0 ((hcond5_0 t).mp h)) ((hcond5_1 t).mpr h1)
        (iblk5 V c 0 t) (iblk5 V c 1 t) (iblk5 V c 2 t) _).2.2 Set.univ _)
      iframe H0 H1 H2 HS0
      isplitl [H3]; · iexists _; iexact H3
      iintro ⟨H0, H1, H2, H3, HS0⟩
      iframe Hr Hg Ho H0 H1 H2
      isplitl [HS0]; · iapply owns_of_cover c _ _ _ (scover5_C_0 c _ _ _ _ _ _ _ _ _ _ _ _ _ _ _ _ _); iexact HS0
      iapply owns_of_cover c _ _ _ (cover5_C_3 c _ _ _ _ _ _ _ _ _ _ _ _ _ _ _ _ _); iexact H3
    · have hc1 : ¬cond5_1 (grid5.coords t) := fun h => h1 ((hcond5_1 t).mp h)
      rw [Dat.leavesExact_idle (dat5 V c) 3 t (idle5_3 t hc1).1 (idle5_3 t hc1).2, outsAt5_B V c t h0 h1]
      unfold ptB5 sout5_B_0; dsimp only
      iintro ⟨⟨⟨HS0, Hr⟩, Hg⟩, Ho, ⟨%d0, H0⟩, ⟨%d1, H1⟩, ⟨%d2, H2⟩, ⟨%d3, H3⟩⟩
      iapply ((kernelRun5_B c (grid5.coords t) _ _ _ _ _ _ _ _ _ _ (fun h => h0 ((hcond5_0 t).mp h)) hc1
        (iblk5 V c 0 t) (iblk5 V c 1 t) (iblk5 V c 2 t) _).2.2 ((dat5 V c).before 3 t d3) Set.univ _)
      iframe H0 H1 H2 H3 HS0
      iintro ⟨H0, H1, H2, H3, HS0⟩
      iframe Hr Hg Ho H0 H1 H2
      isplitl [HS0]; · iapply owns_of_cover c _ _ _ (scover5_B_0 c _ _ _ _ _ _ _ _ _ _ _ _ _ _ _ _ _); iexact HS0
      iexists _; iexact H3
theorem body_obligation5 : BodyObligation (dat5 (F := F) V c) (defs₀ (F := F)) Variants.none () Set.univ := fun t => by
  rw [bigSep_W5, bigSep_W5]
  exact sound_body5 V c t
theorem hin5 : Pipeline.ΦA spec5 c ⊢ (dat5 V c).Φ 0 := .rfl
theorem hout5 : (dat5 V c).Φ (Fin.last cfg5.N) ⊢ Pipeline.ΦA spec5 c := by
  rw [PhiA5_eq]; exact PhiS5_any V c cfg5.N le_rfl
end Region
end Cert.KernelIdeal.Hand
end
-- ==== Proof.KI.Region6.lean ====
import proofs.«402230_j66554813219093_3_alg».proof.Proof.Gen.KernelIdeal.Launch
import proofs.«402230_j66554813219093_3_alg».proof.Proof.Gen.KernelIdeal.Skeleton
import proofs.«402230_j66554813219093_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1024x512 := Rect.unit (s := S1024x512) ![0, 0] S1024x512.size inb_S1024x512_S1024x512_0_0
abbrev r6_1 : Rect S512x256 := Rect.unit (s := S512x256) ![0, 0] S512x256.size inb_S512x256_S512x256_0_0
abbrev r6_2 : Rect S1x256 := Rect.unit (s := S1x256) ![0, 0] S1x256.size inb_S1x256_S1x256_0_0
abbrev r6_3 : Rect S1024x256 := Rect.unit (s := S1024x256) ![0, 0] S1024x256.size inb_S1024x256_S1024x256_0_0

def out6_7 (x0 : Vec F S1024x512 .bf16) (x1 : Vec F S1024x512 .bf16) (x2 : Vec F S1024x512 .bf16) (x3 : Vec F S512x256 .bf16) (x4 : Vec F S512x256 .bf16) (x5 : Vec F S512x256 .bf16) (x6 : Vec F S1x256 .f32) : Vec F S1024x256 .f32 :=
  View.canon [⟨r6_3, k6_pay1 (View.ld x0 r6_0) (View.ld x1 r6_0) (View.ld x2 r6_0) (View.ld x3 r6_1) (View.ld x4 r6_1) (View.ld x5 r6_1) (View.ld x6 r6_2)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := rfl

theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

-- the body leaves each input's block in place
theorem before6 (c : Dev nD) (t : Fin cfg6.N) (w : Fin cfg6.W) (hw : w ≠ 7) (d) : (dat6 V c).before w t d = (dat6 V c).after w t := by
  obtain ⟨_ | _ | _ | _ | _ | _ | _ | _ | n, h⟩ := w
  iterate 7 exact (dat6 V c).before_in_eq_fetched _ rfl (fun _ => rfl) (fun _ _ _ => rfl) (fun _ => rfl) t d
  · exact absurd rfl hw
  · exact absurd h (Nat.not_lt.2 (Nat.le_add_left 8 n))

-- the body reads its inputs and makes one store, of the output's whole block
theorem body_obligation6 (c : Dev nD) : BodyObligation (dat6 (F := F) V c) (defs₀ (F := F)) Variants.none () Set.univ := fun t => by
  rw [bigSep_W6, bigSep_W6]
  sl_whnfR [defs₀, Defs.onTc]
  simp only [before6 V c t 0 (by decide), before6 V c t 1 (by decide), before6 V c t 2 (by decide), before6 V c t 3 (by decide), before6 V c t 4 (by decide), before6 V c t 5 (by decide), before6 V c t 6 (by decide)]
  dsimp only [dat6]
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  sl_unfold [cc6__cheb_out_kernel]
  sl_exec
  sl_step
  iframe HΦ
  isplitl [Ho]; · iexact Ho
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  isplitl [H4]; · iexists _; iframe H4; ipureintro; exact hf4
  isplitl [H5]; · iexists _; iframe H5; ipureintro; exact hf5
  isplitl [H6]; · iexists _; iframe H6; ipureintro; exact hf6
  iexists _; iframe H7; ipureintro
  rw [← hf0, ← hf1, ← hf2, ← hf3, ← hf4, ← hf5, ← hf6]
  exact View.read_writes_eq_canon _ _ _ (View.cover_of_tiled _ S1024x256.size (by rfl))

theorem hin6 (c : Dev nD) : Pipeline.ΦA spec6 c ⊢ (dat6 V c).Φ 0 := .rfl

theorem hout6 (c : Dev nD) : (dat6 V c).Φ (Fin.last cfg6.N) ⊢ Pipeline.ΦA spec6 c := .rfl

end Cert.KernelIdeal.Hand

end
-- ==== Proof.KI.Run.lean ====
import proofs.«402230_j66554813219093_3_alg».proof.Proof.KI.ValueCond
import proofs.«402230_j66554813219093_3_alg».proof.Proof.KI.Region0
import proofs.«402230_j66554813219093_3_alg».proof.Proof.KI.Region1
import proofs.«402230_j66554813219093_3_alg».proof.Proof.KI.Region2
import proofs.«402230_j66554813219093_3_alg».proof.Proof.KI.Region3
import proofs.«402230_j66554813219093_3_alg».proof.Proof.KI.Region4
import proofs.«402230_j66554813219093_3_alg».proof.Proof.KI.Region5
import proofs.«402230_j66554813219093_3_alg».proof.Proof.KI.Region6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rd (W : Dev nD → Valuation τ sig (Elt F)) : (c : Dev nD) → (b : Ref sig .tc) → Buf (Elt F) ((c : Thread nD τ).loc b) :=
  fun c b => W c b

abbrev U7 : Dev nD → Valuation τ sig (Elt F) := fun c => V7 m c

def o105 (c : Dev nD) : Buf (Elt F) ((c : Thread nD τ).loc main_v105) :=
  (dat0 (rd (U7 m)) c).arrAt (2 : Fin cfg0.W) cfg0.N

abbrev U8 : Dev nD → Valuation τ sig (Elt F) := fun c => Function.update (U7 m c) main_v105 (o105 m c)

abbrev U9 : Dev nD → Valuation τ sig (Elt F) := fun c => StableHlo.after hostOps1 (U8 m c)

def o107 (c : Dev nD) : Buf (Elt F) ((c : Thread nD τ).loc main_v107) :=
  (dat1 (rd (U9 m)) c).arrAt (3 : Fin cfg1.W) cfg1.N

abbrev U10 : Dev nD → Valuation τ sig (Elt F) := fun c => Function.update (U9 m c) main_v107 (o107 m c)

def o108 (c : Dev nD) : Buf (Elt F) ((c : Thread nD τ).loc main_v108) :=
  (dat2 (rd (U10 m)) c).arrAt (2 : Fin cfg2.W) cfg2.N

abbrev U11 : Dev nD → Valuation τ sig (Elt F) := fun c => Function.update (U10 m c) main_v108 (o108 m c)

abbrev U12 : Dev nD → Valuation τ sig (Elt F) := fun c => StableHlo.after hostOps3 (U11 m c)

def o110 (c : Dev nD) : Buf (Elt F) ((c : Thread nD τ).loc main_v110) :=
  (dat3 (rd (U12 m)) c).arrAt (3 : Fin cfg3.W) cfg3.N

abbrev U13 : Dev nD → Valuation τ sig (Elt F) := fun c => Function.update (U12 m c) main_v110 (o110 m c)

def o111 (c : Dev nD) : Buf (Elt F) ((c : Thread nD τ).loc main_v111) :=
  (dat4 (rd (U13 m)) c).arrAt (2 : Fin cfg4.W) cfg4.N

abbrev U14 : Dev nD → Valuation τ sig (Elt F) := fun c => Function.update (U13 m c) main_v111 (o111 m c)

def o112 (c : Dev nD) : Buf (Elt F) ((c : Thread nD τ).loc main_v112) :=
  (dat5 (rd (U14 m)) c).arrAt (3 : Fin cfg5.W) cfg5.N

abbrev U15 : Dev nD → Valuation τ sig (Elt F) := fun c => Function.update (U14 m c) main_v112 (o112 m c)

abbrev U16 : Dev nD → Valuation τ sig (Elt F) := fun c => StableHlo.after hostOps6 (U15 m c)

def o114 (c : Dev nD) : Buf (Elt F) ((c : Thread nD τ).loc main_v114) :=
  (dat6 (rd (U16 m)) c).arrAt (7 : Fin cfg6.W) cfg6.N

abbrev U17 : Dev nD → Valuation τ sig (Elt F) := fun c => Function.update (U16 m c) main_v114 (o114 m c)

abbrev U18 : Dev nD → Valuation τ sig (Elt F) := fun c => StableHlo.after hostOps7 (U17 m c)

def outs : Outs (F := F) := fun _ r c =>
  if h : r = main_v105 then h ▸ o105 m c
  else if h : r = main_v107 then h ▸ o107 m c
  else if h : r = main_v108 then h ▸ o108 m c
  else if h : r = main_v110 then h ▸ o110 m c
  else if h : r = main_v111 then h ▸ o111 m c
  else if h : r = main_v112 then h ▸ o112 m c
  else if h : r = main_v114 then h ▸ o114 m c
  else m ((c : Thread nD τ).loc r)

theorem outs_v105 (J : ℕ) (c : Dev nD) : outs m J main_v105 c = o105 m c := by
  unfold outs; rw [dif_pos rfl]
theorem outs_v107 (J : ℕ) (c : Dev nD) : outs m J main_v107 c = o107 m c := by
  unfold outs; rw [dif_neg (by decide), dif_pos rfl]
theorem outs_v108 (J : ℕ) (c : Dev nD) : outs m J main_v108 c = o108 m c := by
  unfold outs; rw [dif_neg (by decide), dif_neg (by decide), dif_pos rfl]
theorem outs_v110 (J : ℕ) (c : Dev nD) : outs m J main_v110 c = o110 m c := by
  unfold outs; rw [dif_neg (by decide), dif_neg (by decide), dif_neg (by decide), dif_pos rfl]
theorem outs_v111 (J : ℕ) (c : Dev nD) : outs m J main_v111 c = o111 m c := by
  unfold outs; rw [dif_neg (by decide), dif_neg (by decide), dif_neg (by decide), dif_neg (by decide), dif_pos rfl]
theorem outs_v112 (J : ℕ) (c : Dev nD) : outs m J main_v112 c = o112 m c := by
  unfold outs; rw [dif_neg (by decide), dif_neg (by decide), dif_neg (by decide), dif_neg (by decide), dif_neg (by decide), dif_pos rfl]
theorem outs_v114 (J : ℕ) (c : Dev nD) : outs m J main_v114 c = o114 m c := by
  unfold outs; rw [dif_neg (by decide), dif_neg (by decide), dif_neg (by decide), dif_neg (by decide), dif_neg (by decide), dif_neg (by decide), dif_pos rfl]

theorem V8_eq (c : Dev nD) : V8 m (outs m) c = U8 m c := by
  show Function.update (V7 m c) main_v105 (outs m 8 main_v105 c) = _; rw [outs_v105]
theorem V9_eq (c : Dev nD) : V9 m (outs m) c = U9 m c := by
  show StableHlo.after hostOps1 (V8 m (outs m) c) = _; rw [V8_eq]
theorem V10_eq (c : Dev nD) : V10 m (outs m) c = U10 m c := by
  show Function.update (V9 m (outs m) c) main_v107 (outs m 10 main_v107 c) = _; rw [outs_v107, V9_eq]
theorem V11_eq (c : Dev nD) : V11 m (outs m) c = U11 m c := by
  show Function.update (V10 m (outs m) c) main_v108 (outs m 11 main_v108 c) = _; rw [outs_v108, V10_eq]
theorem V12_eq (c : Dev nD) : V12 m (outs m) c = U12 m c := by
  show StableHlo.after hostOps3 (V11 m (outs m) c) = _; rw [V11_eq]
theorem V13_eq (c : Dev nD) : V13 m (outs m) c = U13 m c := by
  show Function.update (V12 m (outs m) c) main_v110 (outs m 13 main_v110 c) = _; rw [outs_v110, V12_eq]
theorem V14_eq (c : Dev nD) : V14 m (outs m) c = U14 m c := by
  show Function.update (V13 m (outs m) c) main_v111 (outs m 14 main_v111 c) = _; rw [outs_v111, V13_eq]
theorem V15_eq (c : Dev nD) : V15 m (outs m) c = U15 m c := by
  show Function.update (V14 m (outs m) c) main_v112 (outs m 15 main_v112 c) = _; rw [outs_v112, V14_eq]
theorem V16_eq (c : Dev nD) : V16 m (outs m) c = U16 m c := by
  show StableHlo.after hostOps6 (V15 m (outs m) c) = _; rw [V15_eq]
theorem V17_eq (c : Dev nD) : V17 m (outs m) c = U17 m c := by
  show Function.update (V16 m (outs m) c) main_v114 (outs m 17 main_v114 c) = _; rw [outs_v114, V16_eq]
theorem V18_eq (c : Dev nD) : V18 m (outs m) c = U18 m c := by
  show StableHlo.after hostOps7 (V17 m (outs m) c) = _; rw [V17_eq]

def pdats : (p : Fin 7) → (c : Dev nD) → Dat τ (Elt F) Unit ℕ (UR sig nD τ) ℕ (cfgs p) c
  | ⟨0, _⟩ => fun c => dat0 (rd (U7 m)) c
  | ⟨1, _⟩ => fun c => dat1 (rd (U9 m)) c
  | ⟨2, _⟩ => fun c => dat2 (rd (U10 m)) c
  | ⟨3, _⟩ => fun c => dat3 (rd (U12 m)) c
  | ⟨4, _⟩ => fun c => dat4 (rd (U13 m)) c
  | ⟨5, _⟩ => fun c => dat5 (rd (U14 m)) c
  | ⟨6, _⟩ => fun c => dat6 (rd (U16 m)) c
abbrev 𝒱₀ : Variants := Variants.none

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

set_option backward.isDefEq.respectTransparency.types false in
/-- Every window but the output `wo` is an input and distinct windows have distinct arrays, so the exit contents are the entry contents updated at `wo`'s array. -/
def regOf (p : Fin 7) (lf : Pipeline.LaunchFacts (nD := nD) (τ := τ) cfgs p) (Uin Uout : Dev nD → Valuation τ sig (Elt F))
    (wo : Fin (cfgs p).W) (hio : ∀ w, w ≠ wo → ((cfgs p).win w).isOut = false)
    (hUout : ∀ c, Uout c = Function.update (Uin c) (Pipeline.arrRef (cfgs p).spec wo) ((pdats m p c).arrAt wo (cfgs p).N))
    (hbody : ∀ c, BodyObligation (pdats m p c) (defs₀ (F := F)) 𝒱₀ () Set.univ)
    (hq : ∀ c w, (pdats m p c).q w = fullShare) (howed : ∀ c t, (pdats m p c).owed t = 0) (hrec : ∀ c x, x ∈ (pdats m p c).recorded 0)
    (hA : ∀ c w, (pdats m p c).A w = rd Uin c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Uin c) ∗ Rst c)
  post c := iprop(StableHlo.held (c : Thread nD τ) (Pipeline.ucRefs τ sig) (Uout c) ∗ Rst c)
  X c := iprop(∃ r, prngReg c r)
  Y c := iprop(∃ r, prngReg c r)
  Z c := Pipeline.unscopedRest (Ix := Unit) (Name := ℕ) (U := UR sig nD τ) (Lvl := ℕ) (cfgs p).spec c (rd Uin c)
  hentry c := by
    rw [Pipeline.ownSems0_none]
    have hsplit := Pipeline.arrays_of_unscopedBufs (p := p) (pcfgs (F := F)) adm (pdats m) lf.win lf.arr_whole c
      ((pdats m p c).share_full (hq c)) (rd Uin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine (?_ : _ ⊢ Pipeline.ΦA (cfgs p).spec c).trans (hin c)
    unfold Pipeline.ΦA
    iintro ⟨Hp, -, Hr⟩
    isplitl [Hr]; · iexact Hr
    iexact Hp
  hout c := by
    rw [Pipeline.ownSems0_none]
    refine (hout c).trans (?_ : Pipeline.ΦA (cfgs p).spec c ⊢ _)
    unfold Pipeline.ΦA
    iintro ⟨Hr, Hp⟩
    isplitl [Hp]; · iexact Hp
    isplitr; · iempintro
    iexact Hr
  hexit c := by
    have hF : ∀ w, (pdats m p c).arrAt w (cfgs p).N = rd Uout c (Pipeline.arrRef (cfgs p).spec w) := fun w => by
      show _ = Uout c (Proc.devRef .tc (Pipeline.arrRef (cfgs p).spec w))
      rw [hUout c]
      by_cases h : w = wo
      · subst h; exact Eq.symm (Function.update_self _ _ (Uin c))
      · rw [(pdats m p c).arrAt_in w (hio w h), hA]
        exact (Function.update_of_ne (StableHlo.devRef_ne_of_ne (τ := τ) fun e => h (lf.win.arr_inj e)) _ _).symm
    have hrest : ∀ b, b ∉ Finset.univ.image (Pipeline.arrRef (cfgs p).spec) → rd Uout c b = rd Uin c b := fun b hb => by
      show Uout c _ = _
      rw [hUout c]
      exact Function.update_of_ne (StableHlo.devRef_ne_of_ne (τ := τ) fun e => hb (Finset.mem_image.mpr ⟨wo, Finset.mem_univ _, e.symm⟩)) _ _
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd Uin c) (rd Uout c) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m 0 launch0 (U7 m) (U8 m) 2 (by decide) (fun _ => rfl) (body_obligation0 _) (fun _ _ => rfl) (fun _ _ => rfl) (fun _ _ => trivial) (A_eq0 _) (hin0 _) (hout0 _)
def reg1 := regOf m 1 launch1 (U9 m) (U10 m) 3 (by decide) (fun _ => rfl) (body_obligation1 _) (fun _ _ => rfl) (fun _ _ => rfl) (fun _ _ => trivial) (A_eq1 _) (hin1 _) (hout1 _)
def reg2 := regOf m 2 launch2 (U10 m) (U11 m) 2 (by decide) (fun _ => rfl) (body_obligation2 _) (fun _ _ => rfl) (fun _ _ => rfl) (fun _ _ => trivial) (A_eq2 _) (hin2 _) (hout2 _)
def reg3 := regOf m 3 launch3 (U12 m) (U13 m) 3 (by decide) (fun _ => rfl) (body_obligation3 _) (fun _ _ => rfl) (fun _ _ => rfl) (fun _ _ => trivial) (A_eq3 _) (hin3 _) (hout3 _)
def reg4 := regOf m 4 launch4 (U13 m) (U14 m) 2 (by decide) (fun _ => rfl) (body_obligation4 _) (fun _ _ => rfl) (fun _ _ => rfl) (fun _ _ => trivial) (A_eq4 _) (hin4 _) (hout4 _)
def reg5 := regOf m 5 launch5 (U14 m) (U15 m) 3 (by decide) (fun _ => rfl) (body_obligation5 _) (fun _ _ => rfl) (fun _ _ => rfl) (fun _ _ => trivial) (A_eq5 _) (hin5 _) (hout5 _)
def reg6 := regOf m 6 launch6 (U16 m) (U17 m) 7 (by decide) (fun _ => rfl) (body_obligation6 _) (fun _ _ => rfl) (fun _ _ => rfl) (fun _ _ => trivial) (A_eq6 _) (hin6 _) (hout6 _)

set_option backward.isDefEq.respectTransparency.types false in
theorem run_value : θ_run defs (onTc (τ := τ) (main (F := F))) ⟨m, fun _ => 0, ρ⟩ (fun r => ∀ c : Dev nD,
      r.2.mem ((c.tc : Thread nD τ).loc main_v115) = U18 m c main_v115
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := value_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      have hcore : ∀ c : Dev nD, (iprop(unscopedSems0 c ∗ owes (c : Thread nD τ) ((0 : Dev nD → CellTallies nD τ sig Unit) c) ∅
          ∗ Pipeline.launchCred (0 : Dev nD → CellTallies nD τ sig Unit) c ∗ prngReg c (ρ c) ∗ (fun _ : Dev nD => (iprop(emp) : sProp 𝕄)) c) : sProp 𝕄)
          ⊢ Rst (F := F) c := fun c => by
        iintro ⟨-, HO, -, Hp, -⟩
        isplitl [Hp]; · iexists _; iexact Hp
        iexists ∅; iexact HO
      have hmono : (bigSep Finset.univ fun c : Dev nD => (iprop(unscopedSems0 c ∗ owes (c : Thread nD τ) ((0 : Dev nD → CellTallies nD τ sig Unit) c) ∅
          ∗ Pipeline.launchCred (0 : Dev nD → CellTallies nD τ sig Unit) c ∗ prngReg c (ρ c) ∗ (fun _ : Dev nD => (iprop(emp) : sProp 𝕄)) c) : sProp 𝕄))
          ⊢ bigSep Finset.univ (fun c : Dev nD => Rst (F := F) c) := bigSep_mono fun c _ => hcore c
      iintro ⟨H, -⟩
      imodintro
      iapply hmono
      iexact H)
    (hE7 := fun c => by iintro ⟨-, HO⟩; iexact HO)
    (reg0 m) (fun c => .rfl) (fun c => by rw [V8_eq]; exact .rfl)
    (reg1 m) (fun c => by rw [V9_eq]; exact .rfl) (fun c => by rw [V10_eq]; exact .rfl)
    (reg2 m) (fun c => by rw [V10_eq]; exact .rfl) (fun c => by rw [V11_eq]; exact .rfl)
    (reg3 m) (fun c => by rw [V12_eq]; exact .rfl) (fun c => by rw [V13_eq]; exact .rfl)
    (reg4 m) (fun c => by rw [V13_eq]; exact .rfl) (fun c => by rw [V14_eq]; exact .rfl)
    (reg5 m) (fun c => by rw [V14_eq]; exact .rfl) (fun c => by rw [V15_eq]; exact .rfl)
    (reg6 m) (fun c => by rw [V16_eq]; exact .rfl) (fun c => by rw [V17_eq]; exact .rfl)
  refine (θ_run defs _ _).mono (fun r hr c => ?_) h
  have := hr c
  rw [V18_eq] at this
  exact this

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

def mm {M K N : Nat} (a : (⟨2, ![M, K]⟩ : Shape).Idx → EReal) (b : (⟨2, ![K, N]⟩ : Shape).Idx → EReal)
    (r : Fin M) (c : Fin N) : EReal :=
  ∑ k : Fin K, a (ix2 r k) * b (ix2 k c)

def celuK (y : EReal) : EReal := if 0 < y then y else Ideal.exp y - 1

def celuR (y : EReal) : EReal := max y 0 + 1 * (Ideal.exp (Ideal.div (min y 0) 1) - 1)

end Cert.Spec

end
-- ==== Proof.KI.Value0.lean ====
import proofs.«402230_j66554813219093_3_alg».proof.Proof.KI.Region0
import proofs.«402230_j66554813219093_3_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]

theorem hz0 : (![0, 0] : Fin 2 → Nat) = fun _ => 0 := funext fun a => by fin_cases a <;> rfl

-- A load through the whole rectangle reads the payload of the last store through it, whatever the earlier stores were.
theorem readCov_cons_unit_zero0 {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), View.mem_set_unit_zero rfl inb y⟩),
    View.canon_cons_unit_zero rfl, View.ld_unit_zero rfl]

-- The body clears the accumulator, adds the product of the two blocks, and narrows the sum.
theorem out0_2_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1024x512 .f32) (harg5 : arg5.IsWhole) (hc0 : cond0_0 i) (hc1 : cond0_1 i)
    (x0 : Vec F S1024x512 .bf16) (x1 : Vec F S512x512 .bf16) :
    out0_2 c i arg2 harg2 arg3 harg3 arg4 harg4 arg5 harg5 hc0 hc1 x0 x1 = k0_pay3 (k0_pay2 x0 x1 (k0_pay1 (F := F))) := by
  unfold out0_2
  rw [View.read_writes_eq_canon _ _ _ (cover0_2 c i arg2 harg2 arg3 harg3 arg4 harg4 arg5 harg5 hc0 hc1 x0 x1)]
  unfold kernelRun0
  dsimp only
  sl_unfold_words
  rw [View.canon_unit_zero (S := S1024x512) hz0]
  simp only [readCov_cons_unit_zero0 (S := S1024x512) _ hz0, View.readAt_eq_ld, harg2.read_unread, harg3.read_unread,
    View.ld_unit_zero (S := S1024x512) hz0, View.ld_unit_zero (S := S512x512) hz0]

-- Without rounding the payload at (r, q) is zero plus the plain sum over the contracted axis.
theorem pay0_apply (x0 : FVec Ideal S1024x512 .bf16) (x1 : FVec Ideal S512x512 .bf16) (r : Fin 1024) (q : Fin 512) :
    k0_pay3 (F := Ideal) (k0_pay2 (F := Ideal) x0 x1 (k0_pay1 (F := Ideal))) (ix2 r q) = ∑ k : Fin 512, x0 (ix2 r k) * x1 (ix2 k q) := by
  unfold k0_pay3 k0_pay2 k0_pay1
  simp only [shapeCast_self]
  show (Ideal.ofBits .f32 0x00000000#32 : EReal)
      + FloatOps.matmul dot_S1024x512_S512x512_S1024x512_1_0_0_1_n_n none x0 x1 (constant S1024x512 .f32 0x00000000#32) (ix2 r q) = _
  refine (congrArg₂ (· + ·) Ideal.ofBits_zero_f32 (Ideal.matmul_constant_zero_apply _ none x0 x1 (ix2 r q))).trans ?_
  refine (zero_add _).trans ?_
  refine Eq.trans (Finset.sum_congr rfl fun k _ => ?_)
    (Equiv.sum_comp (contrEquiv1 dot_S1024x512_S512x512_S1024x512_1_0_0_1_n_n 512 rfl rfl) (fun k : Fin 512 => x0 (ix2 r k) * x1 (ix2 k q)))
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

variable (W : (c : Dev nD) → (b : Ref sig .tc) → Buf (Elt Ideal) ((c : Thread nD τ).loc b))

abbrev aArr0 (c : Dev nD) : FVec Ideal S10240x512 .bf16 := W c main_v93
abbrev bArr0 (c : Dev nD) : FVec Ideal S512x512 .bf16 := W c main_v94

def prod0 (c : Dev nD) : FVec Ideal S10240x512 .bf16 := fun i => Cert.Spec.mm (aArr0 W c) (bArr0 W c) (i 0) (i 1)

-- Row-block t of the first operand and of the result, the one block of the second.
theorem index0 : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

theorem oBlk0_apply (G : FVec Ideal S10240x512 .bf16) (t : Fin cfg0.N) (r : Fin 1024) (q : Fin 512) (r' : Fin 10240)
    (hr : r'.val = t.val * 1024 + r.val) :
    ((cfg0.win 2).blk t).view.read (Elt Ideal) G (ix2 r q) = G (ix2 r' q) := by
  refine congrArg G (funext fun a => Fin.ext ?_)
  match a with
  | ⟨0, _⟩ => show win0_2.index t 0 * 1024 + 1 * r.val = r'.val; rw [(index0 t).2.2.2.2.1, hr]; omega
  | ⟨1, _⟩ => show win0_2.index t 1 * 512 + 1 * q.val = q.val; rw [(index0 t).2.2.2.2.2]; omega

-- What a point writes back is its block of the product, entry by entry.
theorem flushed0_eq (c : Dev nD) (t : Fin cfg0.N) (hf : (cfg0.win 2).flush t = true) :
    (dat0 (F := Ideal) W c).flushed 2 t = ((cfg0.win 2).blk t).view.read (Elt Ideal) (prod0 W c) := by
  funext j
  obtain ⟨r, q, rfl⟩ : ∃ (r : Fin 1024) (q : Fin 512), j = ix2 r q := ⟨j 0, j 1, eq_ix2 (n0 := 1024) (n1 := 512) j⟩
  have hN : cfg0.N = 10 := N_0
  have hlt : t.val * 1024 + r.val < 10240 := by have := t.isLt; have := r.isLt; omega
  refine Eq.trans ?_ (oBlk0_apply (prod0 W c) t r q ⟨t.val * 1024 + r.val, hlt⟩ rfl).symm
  show (dat0 (F := Ideal) W c).after 2 t (ix2 r q) = ∑ k : Fin 512, aArr0 W c (ix2 ⟨t.val * 1024 + r.val, hlt⟩ k) * bArr0 W c (ix2 k q)
  rw [after0_2 (F := Ideal), out0_2_eq (F := Ideal)]
  refine (pay0_apply _ _ r q).trans (Finset.sum_congr rfl fun k _ => congrArg₂ (· * ·)
    (congrArg (W c main_v93) (funext fun a => Fin.ext ?_)) (congrArg (W c main_v94) (funext fun a => Fin.ext ?_)))
  · match a with
    | ⟨0, _⟩ => show win0_0.index t 0 * 1024 + 1 * r.val = t.val * 1024 + r.val; rw [(index0 t).1]; omega
    | ⟨1, _⟩ => show win0_0.index t 1 * 512 + 1 * k.val = k.val; rw [(index0 t).2.1]; omega
  · match a with
    | ⟨0, _⟩ => show win0_1.index t 0 * 512 + 1 * k.val = k.val; rw [(index0 t).2.2.1]; omega
    | ⟨1, _⟩ => show win0_1.index t 1 * 512 + 1 * q.val = q.val; rw [(index0 t).2.2.2.1]; omega

-- Every entry of the result array lies in the block of the point its row falls in.
theorem cover0 (i : S10240x512.Idx) : ∃ t : Fin cfg0.N, (cfg0.win 2).flush t = true ∧ i ∈ ((cfg0.win 2).blk t).view.set := by
  have h0 : (i 0 : Nat) < 10240 := (i 0).isLt
  have h1 : (i 1 : Nat) < 512 := (i 1).isLt
  have hN : cfg0.N = 10 := N_0
  let t : Fin cfg0.N := ⟨(i 0 : Nat) / 1024, by omega⟩
  have ht : t.val = (i 0 : Nat) / 1024 := rfl
  refine ⟨t, flush0_2 _, ?_⟩
  show i ∈ ((View.whole main_v105).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [(index0 t).2.2.2.2.1]; omega
  | ⟨1, _⟩ => show win0_2.index t 1 * 512 ≤ (i 1 : Nat) ∧ (i 1 : Nat) < win0_2.index t 1 * 512 + 512
              rw [(index0 t).2.2.2.2.2]; omega

theorem final0 (V : (c : Dev nD) → (b : Ref sig .tc) → Buf (Elt Ideal) ((c : Thread nD τ).loc b)) (c : Dev nD) :
    (dat0 (F := Ideal) V c).arrAt (2 : Fin cfg0.W) cfg0.N = fun i => Cert.Spec.mm (V c main_v93) (V c main_v94) (i 0) (i 1) :=
  (dat0 (F := Ideal) V c).arrAt_eq_of_cover 2 (prod0 V c) (flushed0_eq V c) (cover0)

end Cert.KernelIdeal.Hand

end
-- ==== Proof.KI.ValueAgg.lean ====
import proofs.«402230_j66554813219093_3_alg».proof.Proof.Gen.KernelIdeal.Skeleton
import proofs.«402230_j66554813219093_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand.Agg

open Cert.KernelIdeal Cert.KernelIdeal.Gen
open Idealize.ShloMosaic Idealize.ShloMosaic.TcCoe Idealize.SL.Sem
open Idealize.ShloMosaic.ValueIdx

abbrev Dm : DotDims S1024x2048 S2048x512 S1024x512 := dot_S1024x2048_S2048x512_S1024x512_1_0_0_1_n_n

def cEm : Dm.contr.Idx ≃ Fin 2048 := contrEquiv1 Dm 2048 rfl rfl

theorem lhsDm (r : Fin 1024) (cc : Fin 512) (k : Dm.contr.Idx) : Dm.lhsIdx (ix2 r cc) k = ix2 r (cEm k) := by
  funext a
  apply Fin.ext
  match a with
  | ⟨0, _⟩ => rfl
  | ⟨1, _⟩ => exact Dm.lhsIdx_val_of_single rfl (ix2 r cc) k

theorem rhsDm (r : Fin 1024) (cc : Fin 512) (k : Dm.contr.Idx) : Dm.rhsIdx (ix2 r cc) k = ix2 (cEm k) cc := by
  funext a
  apply Fin.ext
  match a with
  | ⟨0, _⟩ => exact Dm.rhsIdx_val_of_single rfl (ix2 r cc) k
  | ⟨1, _⟩ => rfl

-- The block product's contraction, re-indexed by its one coordinate.
theorem sum_contr (x0 : S1024x2048.Idx → EReal) (x1 : S2048x512.Idx → EReal) (r : Fin 1024) (cc : Fin 512) :
    ∑ k : Dm.contr.Idx, x0 (Dm.lhsIdx (ix2 r cc) k) * x1 (Dm.rhsIdx (ix2 r cc) k) = ∑ q : Fin 2048, x0 (ix2 r q) * x1 (ix2 q cc) :=
  (Finset.sum_congr rfl fun k _ => by rw [lhsDm, rhsDm]).trans (Equiv.sum_comp cEm fun q : Fin 2048 => x0 (ix2 r q) * x1 (ix2 q cc))

theorem sum_range_blocks {M : Type*} [AddCommMonoid M] (F : ℕ → M) (b : ℕ) : ∀ a : ℕ,
    ∑ kk ∈ Finset.range a, ∑ q ∈ Finset.range b, F (b * kk + q) = ∑ K ∈ Finset.range (a * b), F K
  | 0 => by simp
  | a + 1 => by
    rw [Finset.sum_range_succ, sum_range_blocks F b a, Nat.succ_mul, Finset.sum_range_add]
    simp only [Nat.mul_comm b a]

def w10240 (R : ℕ) : Fin 10240 := ⟨R % 10240, Nat.mod_lt _ (by decide)⟩
theorem w10240_val {R : ℕ} (h : R < 10240) : (w10240 R).val = R := Nat.mod_eq_of_lt h
theorem w10240_self (K : Fin 10240) : w10240 K.val = K := Fin.ext (Nat.mod_eq_of_lt K.isLt)

def Tk (A : S10240x10240.Idx → EReal) (B : S10240x512.Idx → EReal) (ib kk : ℕ) (r : Fin 1024) (cc : Fin 512) : EReal :=
  ∑ q : Fin 2048, A (ix2 (w10240 (1024 * ib + r.val)) (w10240 (2048 * kk + q.val))) * B (ix2 (w10240 (2048 * kk + q.val)) cc)

-- Five blocks of 2048 are the whole contracted axis: addition regrouped, nothing else.
theorem sum_Tk (A : S10240x10240.Idx → EReal) (B : S10240x512.Idx → EReal) (ib : ℕ) (r : Fin 1024) (cc : Fin 512) :
    ∑ kk ∈ Finset.range 5, Tk A B ib kk r cc = Cert.Spec.mm A B (w10240 (1024 * ib + r.val)) cc := by
  let F : ℕ → EReal := fun K => A (ix2 (w10240 (1024 * ib + r.val)) (w10240 K)) * B (ix2 (w10240 K) cc)
  have h1 : ∀ kk, Tk A B ib kk r cc = ∑ q ∈ Finset.range 2048, F (2048 * kk + q) := fun kk =>
    Fin.sum_univ_eq_sum_range (fun q => F (2048 * kk + q)) 2048
  rw [Finset.sum_congr rfl (fun kk _ => h1 kk), sum_range_blocks F 2048 5]
  show ∑ K ∈ Finset.range 10240, F K = _
  rw [← Fin.sum_univ_eq_sum_range F 10240]
  unfold Cert.Spec.mm
  exact Finset.sum_congr rfl fun K _ => by
    show A (ix2 _ (w10240 K.val)) * B (ix2 (w10240 K.val) cc) = _
    rw [w10240_self]

theorem hz : (![0, 0] : Fin 2 → Nat) = fun _ => 0 := funext fun a => by fin_cases a <;> rfl

theorem ext_blk {α : Type} (X Y : S1024x512.Idx → α) (h : ∀ (r : Fin 1024) (cc : Fin 512), X (ix2 r cc) = Y (ix2 r cc)) : X = Y :=
  funext fun j => by rw [eq_ix2 j]; exact h _ _

end Cert.KernelIdeal.Hand.Agg

end
-- ==== Proof.KI.Value1.lean ====
import proofs.«402230_j66554813219093_3_alg».proof.Proof.KI.Region1
import proofs.«402230_j66554813219093_3_alg».proof.Proof.KI.ValueAgg
import Idealize.ShloMosaic.Lib.IdealHost
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open Agg

namespace Val1

theorem pay1_apply (j : S1024x512.Idx) : (k1_pay1 (F := Ideal)) j = 0 := by
  unfold k1_pay1
  simp only [shapeCast_self, broadcast_apply]
  exact Ideal.ofBits_zero_f32

theorem pay2_apply (x0 : Vec Ideal S1024x2048 .bf16) (x1 : Vec Ideal S2048x512 .bf16) (acc : Vec Ideal S1024x512 .f32)
    (r : Fin 1024) (cc : Fin 512) :
    k1_pay2 x0 x1 acc (ix2 r cc) = acc (ix2 r cc) + ∑ q : Fin 2048, x0 (ix2 r q) * x1 (ix2 q cc) := by
  unfold k1_pay2
  simp only [shapeCast_self, addf_apply, matmul]
  rw [Ideal.matmul_constant_zero_apply]
  exact congrArg (acc (ix2 r cc) + ·) (sum_contr x0 x1 r cc)

theorem pay3_apply (acc : Vec Ideal S1024x512 .f32) (b : Vec Ideal S1x512 .f32) (r : Fin 1024) (cc : Fin 512) :
    k1_pay3 acc b (ix2 r cc) = Cert.Spec.celuK (acc (ix2 r cc) + b (ix2 0 cc)) := by
  have hb : broadcastTo S1024x512 b broadcasts_S1x512_S1024x512 (ix2 r cc) = b (ix2 0 cc) :=
    broadcastTo_apply b broadcasts_S1x512_S1024x512 (ix2 r cc) (ix2 0 cc) (fun a => by
      match a with
      | ⟨0, _⟩ => rfl
      | ⟨1, _⟩ => rfl)
  unfold k1_pay3
  simp only [shapeCast_self]
  show Scalar.select (Ideal.cmp .ogt (acc (ix2 r cc) + broadcastTo S1024x512 b broadcasts_S1x512_S1024x512 (ix2 r cc)) (Ideal.ofBits .f32 0x00000000#32))
      (acc (ix2 r cc) + broadcastTo S1024x512 b broadcasts_S1x512_S1024x512 (ix2 r cc))
      (Ideal.exp (acc (ix2 r cc) + broadcastTo S1024x512 b broadcasts_S1x512_S1024x512 (ix2 r cc)) - Ideal.ofBits .f32 0x3F800000#32) = _
  rw [hb, Ideal.ofBits_zero_f32, Ideal.ofBits_one_f32]
  unfold Cert.Spec.celuK Ideal.cmp
  by_cases hy : 0 < acc (ix2 r cc) + b (ix2 0 cc)
  · simp [hy, Scalar.select]
  · simp [hy, Scalar.select]

section Pieces
variable {F : FTy → Type} [FloatOps F] {c : Dev nD} {i : grid1.Coords}
  {arg2 : Memref sig .tc .vmem S1024x2048 .bf16} {harg2 : arg2.IsWhole} {arg3 : Memref sig .tc .vmem S10240x512 .bf16} {harg3 : arg3.IsWhole}
  {arg4 : Memref sig .tc .vmem S1x512 .f32} {harg4 : arg4.IsWhole} {arg5 : Memref sig .tc .vmem S1024x512 .bf16} {harg5 : arg5.IsWhole}
  {arg6 : Memref sig .tc .vmem S1024x512 .f32} {harg6 : arg6.IsWhole}
  {x0 : Vec F S1024x2048 .bf16} {x1 : Vec F S10240x512 .bf16} {x2 : Vec F S1x512 .f32} {xs0 : Vec F S1024x512 .f32}

abbrev rB (i : grid1.Coords) : Rect S10240x512 := Rect.unit (s := S10240x512) (k1_off1 i) S2048x512.size (k1_off1_inb i)

theorem sout_A {hc0 : cond1_0 i} {hc1 : ¬cond1_1 i} :
    sout1_A_0 c i arg2 harg2 arg3 harg3 arg4 harg4 arg5 harg5 arg6 harg6 hc0 hc1 x0 x1 x2 = k1_pay2 x0 (View.ld x1 (rB i)) k1_pay1 := by
  unfold sout1_A_0
  rw [View.read_writes_eq_canon _ _ _ (scover1_A_0 _ _ _ _ _ _ _ _ _ _ _ _ _ _ _ _ _)]
  unfold kernelRun1_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x2048) hz]
  rfl

theorem sout_B {hc0 : ¬cond1_0 i} {hc1 : ¬cond1_1 i} :
    sout1_B_0 c i arg2 harg2 arg3 harg3 arg4 harg4 arg5 harg5 arg6 harg6 hc0 hc1 x0 x1 x2 xs0 = k1_pay2 x0 (View.ld x1 (rB i)) xs0 := by
  unfold sout1_B_0
  rw [View.read_writes_eq_canon _ _ _ (scover1_B_0 _ _ _ _ _ _ _ _ _ _ _ _ _ _ _ _ _ _)]
  unfold kernelRun1_B
  dsimp only
  sl_unfold_words
  rw [View.canon_unit_zero hz]
  simp only [View.readAt_eq_ld, harg2.read_unread, harg3.read_unread, harg6.read_unread, View.ld_unit_zero (S := S1024x2048) hz, View.ld_unit_zero (S := S1024x512) hz]
  rfl

theorem sout_C {hc0 : ¬cond1_0 i} {hc1 : cond1_1 i} :
    sout1_C_0 c i arg2 harg2 arg3 harg3 arg4 harg4 arg5 harg5 arg6 harg6 hc0 hc1 x0 x1 x2 xs0 = k1_pay2 x0 (View.ld x1 (rB i)) xs0 := by
  unfold sout1_C_0
  rw [View.read_writes_eq_canon _ _ _ (scover1_C_0 _ _ _ _ _ _ _ _ _ _ _ _ _ _ _ _ _ _)]
  unfold kernelRun1_C
  dsimp only
  sl_unfold_words
  rw [View.canon_unit_zero hz]
  simp only [View.readAt_eq_ld, harg2.read_unread, harg3.read_unread, harg6.read_unread, View.ld_unit_zero (S := S1024x2048) hz, View.ld_unit_zero (S := S1024x512) hz]
  rfl

theorem out_C {hc0 : ¬cond1_0 i} {hc1 : cond1_1 i} :
    out1_C_3 c i arg2 harg2 arg3 harg3 arg4 harg4 arg5 harg5 arg6 harg6 hc0 hc1 x0 x1 x2 xs0 = k1_pay3 (k1_pay2 x0 (View.ld x1 (rB i)) xs0) x2 := by
  unfold out1_C_3
  rw [View.read_writes_eq_canon _ _ _ (cover1_C_3 _ _ _ _ _ _ _ _ _ _ _ _ _ _ _ _ _ _)]
  unfold kernelRun1_C
  dsimp only
  sl_unfold_words
  rw [View.canon_unit_zero hz]
  simp only [View.readAt_eq_ld, harg2.read_unread, harg3.read_unread, harg4.read_unread, harg6.read_unread, View.readCov_unit_zero (S := S1024x512) _ hz, View.ld_unit_zero (S := S1024x2048) hz, View.ld_unit_zero (S := S1024x512) hz, View.ld_unit_zero (S := S1x512) hz]
  rfl

end Pieces

section AtIdeal
variable (V : (c : Dev nD) → (b : Ref sig .tc) → Buf (Elt Ideal) ((c : Thread nD τ).loc b)) (c : Dev nD) (t : Fin cfg1.N)

abbrev Aarr : Vec Ideal S10240x10240 .bf16 := V c main_v47
abbrev Barr : Vec Ideal S10240x512 .bf16 := V c main_v105
abbrev Carr : Vec Ideal S1x512 .f32 := V c main_v106
abbrev blkA : Vec Ideal S1024x2048 .bf16 := iblk1 V c 0 t
abbrev blkB : Vec Ideal S10240x512 .bf16 := iblk1 V c 1 t
abbrev blkC : Vec Ideal S1x512 .f32 := iblk1 V c 2 t

theorem idxA : ∀ t : Fin cfg1.N, win1_0.index t 0 = t.val / 5 ∧ win1_0.index t 1 = t.val % 5 := by decide +kernel
theorem idxB : ∀ t : Fin cfg1.N, win1_1.index t 0 = 0 ∧ win1_1.index t 1 = 0 := by decide +kernel
theorem idxC : ∀ t : Fin cfg1.N, win1_2.index t 0 = 0 ∧ win1_2.index t 1 = 0 := by decide +kernel
theorem idxO : ∀ t : Fin cfg1.N, win1_3.index t 0 = t.val / 5 ∧ win1_3.index t 1 = 0 := by decide +kernel
theorem offB_eq : ∀ t : Fin cfg1.N, k1_off1 (grid1.coords t) 0 = 2048 * (t.val % 5) ∧ k1_off1 (grid1.coords t) 1 = 0 := by decide +kernel

theorem blkA_apply (r : Fin 1024) (q : Fin 2048) :
    blkA V c t (ix2 r q) = Aarr V c (ix2 (w10240 (1024 * (t.val / 5) + r.val)) (w10240 (2048 * (t.val % 5) + q.val))) := by
  have hN : t.val < 50 := lt_of_lt_of_eq t.isLt N_1
  unfold blkA iblk1
  rw [View.read_apply]
  refine congrArg (V c main_v47) (Shape.idx_ext₂ ?_ ?_)
  · show win1_0.index t 0 * 1024 + 1 * r.val = (w10240 (1024 * (t.val / 5) + r.val)).val
    rw [(idxA t).1, w10240_val (by omega)]; omega
  · show win1_0.index t 1 * 2048 + 1 * q.val = (w10240 (2048 * (t.val % 5) + q.val)).val
    rw [(idxA t).2, w10240_val (by omega)]; omega

theorem blkC_apply (y : S1x512.Idx) : blkC V c t y = Carr V c y := by
  unfold blkC iblk1
  rw [View.read_apply]
  refine congrArg (V c main_v106) (Shape.idx_ext₂ ?_ ?_)
  · show win1_2.index t 0 * 1 + 1 * (y 0).val = (y 0).val; rw [(idxC t).1]; omega
  · show win1_2.index t 1 * 512 + 1 * (y 1).val = (y 1).val; rw [(idxC t).2]; omega

theorem ldB_apply (q : Fin 2048) (cc : Fin 512) :
    View.ld (blkB V c t) (rB (grid1.coords t)) (ix2 q cc) = Barr V c (ix2 (w10240 (2048 * (t.val % 5) + q.val)) cc) := by
  have hN : t.val < 50 := lt_of_lt_of_eq t.isLt N_1
  show iblk1 V c 1 t ((rB (grid1.coords t)).idx (ix2 q cc)) = _
  unfold iblk1
  rw [View.read_apply]
  refine congrArg (V c main_v105) (Shape.idx_ext₂ ?_ ?_)
  · show win1_1.index t 0 * 10240 + 1 * (k1_off1 (grid1.coords t) 0 + 1 * q.val) = (w10240 (2048 * (t.val % 5) + q.val)).val
    rw [(idxB t).1, (offB_eq t).1, w10240_val (by omega)]; omega
  · show win1_1.index t 1 * 512 + 1 * (k1_off1 (grid1.coords t) 1 + 1 * cc.val) = cc.val
    rw [(idxB t).2, (offB_eq t).2]; omega

-- The block product added at point t = (i, k) is row block i's k-th block of the contracted axis.
theorem block_term (r : Fin 1024) (cc : Fin 512) :
    ∑ q : Fin 2048, blkA V c t (ix2 r q) * View.ld (blkB V c t) (rB (grid1.coords t)) (ix2 q cc)
      = Tk (Aarr V c) (Barr V c) (t.val / 5) (t.val % 5) r cc :=
  Finset.sum_congr rfl fun q _ => by rw [blkA_apply, ldB_apply]

-- One point's update of the accumulator: the block product added to the zero block (k = 0) or to what the point before left.
theorem acc_step : (outsAt1 V c t.val t.isLt).2 = k1_pay2 (blkA V c t) (View.ld (blkB V c t) (rB (grid1.coords t)))
      (if t.val % 5 = 0 then k1_pay1 (F := Ideal) else (outsAt1 V c (t.val - 1) (Nat.lt_of_le_of_lt (Nat.sub_le _ _) t.isLt)).2) := by
  by_cases h0 : t.val % 5 = 0
  · rw [if_pos h0, outsAt1_A V c t h0 (by omega)]; dsimp only; exact sout_A (F := Ideal)
  · rw [if_neg h0]
    by_cases h1 : t.val % 5 = 4
    · rw [outsAt1_C V c t h0 h1]; dsimp only; exact sout_C (F := Ideal)
    · rw [outsAt1_B V c t h0 h1]; dsimp only; exact sout_B (F := Ideal)

-- After point n = (i, k) the accumulator holds the sum of row block i's block products 0 … k: induction on the point.
theorem acc_eq : ∀ (n : ℕ) (h : n < cfg1.N) (r : Fin 1024) (cc : Fin 512),
    ((outsAt1 V c n h).2 : Vec Ideal S1024x512 .f32) (ix2 r cc)
      = ∑ kk ∈ Finset.range (n % 5 + 1), Tk (Aarr V c) (Barr V c) (n / 5) kk r cc
  | 0, h, r, cc => by
    rw [acc_step V c ⟨0, h⟩, pay2_apply, if_pos (Nat.zero_mod 5), pay1_apply, zero_add, block_term]
    simp
  | n + 1, h, r, cc => by
    rw [acc_step V c ⟨n + 1, h⟩, pay2_apply, block_term]
    show _ + Tk _ _ ((n + 1) / 5) ((n + 1) % 5) r cc = _
    by_cases h0 : (n + 1) % 5 = 0
    · rw [if_pos h0, pay1_apply, zero_add, h0]; simp
    · rw [if_neg h0]
      show ((outsAt1 V c n _).2 : Vec Ideal S1024x512 .f32) (ix2 r cc) + _ = _
      rw [acc_eq n (Nat.lt_of_succ_lt h) r cc, show (n + 1) / 5 = n / 5 by omega, show (n + 1) % 5 = n % 5 + 1 by omega]
      exact (Finset.sum_range_succ _ _).symm

-- At a point (i, 4) the output block is the last payload of the accumulator the same point leaves.
theorem out_eq (h0 : ¬t.val % 5 = 0) (h4 : t.val % 5 = 4) :
    (outsAt1 V c t.val t.isLt).1 = k1_pay3 (outsAt1 V c t.val t.isLt).2 (blkC V c t) := by
  rw [outsAt1_C V c t h0 h4]; dsimp only; rw [sout_C]; exact out_C

abbrev Gout : Buf (Elt Ideal) ((c : Thread nD τ).loc main_v107) :=
  fun i => Cert.Spec.celuK (Cert.Spec.mm (Aarr V c) (Barr V c) (i 0) (i 1) + Carr V c (ix2 0 (i 1)))

theorem Gout_blk (r : Fin 1024) (cc : Fin 512) :
    (((cfg1.win 3).blk t).view.read (Elt Ideal) (Gout V c) : S1024x512.Idx → EReal) (ix2 r cc)
      = Cert.Spec.celuK (Cert.Spec.mm (Aarr V c) (Barr V c) (w10240 (1024 * (t.val / 5) + r.val)) cc + Carr V c (ix2 0 cc)) := by
  have hN : t.val < 50 := lt_of_lt_of_eq t.isLt N_1
  rw [View.read_apply]
  show Gout V c (((cfg1.win 3).blk t).view.emb (ix2 r cc)) = _
  have e0 : (((cfg1.win 3).blk t).view.emb (ix2 r cc)) 0 = w10240 (1024 * (t.val / 5) + r.val) := Fin.ext (by
    show win1_3.index t 0 * 1024 + 1 * r.val = (w10240 (1024 * (t.val / 5) + r.val)).val
    rw [(idxO t).1, w10240_val (by omega)]; omega)
  have e1 : (((cfg1.win 3).blk t).view.emb (ix2 r cc)) 1 = cc := Fin.ext (by
    show win1_3.index t 1 * 512 + 1 * cc.val = cc.val
    rw [(idxO t).2]; omega)
  show Cert.Spec.celuK (Cert.Spec.mm (Aarr V c) (Barr V c) ((((cfg1.win 3).blk t).view.emb (ix2 r cc)) 0) ((((cfg1.win 3).blk t).view.emb (ix2 r cc)) 1)
      + Carr V c (ix2 0 ((((cfg1.win 3).blk t).view.emb (ix2 r cc)) 1))) = _
  rw [e0, e1]

-- At t = (i, 4) the flushed block is block i of the whole product plus the bias, through CELU.
theorem flushed_out (hf : (cfg1.win 3).flush t = true) :
    (dat1 (F := Ideal) V c).flushed 3 t = ((cfg1.win 3).blk t).view.read (Elt Ideal) (Gout V c) := by
  have h4 : t.val % 5 = 4 := (flush1_3 t).mp hf
  show (cfg1.win 3).cut (grid1.coords t) ((dat1 (F := Ideal) V c).after 3 t) = _
  rw [after1_3]
  refine ext_blk _ _ fun r cc => (Eq.trans ?_ (Gout_blk V c t r cc).symm)
  show ((outsAt1 V c t.val t.isLt).1 : Vec Ideal S1024x512 .bf16) (ix2 r cc) = _
  rw [out_eq V c t (by omega) h4, pay3_apply, acc_eq V c t.val t.isLt r cc, blkC_apply, h4]
  show Cert.Spec.celuK ((∑ kk ∈ Finset.range 5, Tk (Aarr V c) (Barr V c) (t.val / 5) kk r cc) + _) = _
  rw [sum_Tk]

-- An entry of row block i lies in the block of every point of that row block.
theorem mem_blk (i : S10240x512.Idx) (h : t.val / 5 = (i 0 : ℕ) / 1024) : i ∈ ((cfg1.win 3).blk t).view.set := by
  have h1 : (i 1 : ℕ) < 512 := (i 1).isLt
  show i ∈ ((View.whole main_v107).slice (win1_3.rect t)).set
  rw [View.set_slice_whole, Rect.mem_set_unit]
  intro a
  match a with
  | ⟨0, _⟩ =>
    show win1_3.index t 0 * 1024 ≤ (i 0 : ℕ) ∧ (i 0 : ℕ) < win1_3.index t 0 * 1024 + 1024
    rw [(idxO t).1]; omega
  | ⟨1, _⟩ =>
    show win1_3.index t 1 * 512 ≤ (i 1 : ℕ) ∧ (i 1 : ℕ) < win1_3.index t 1 * 512 + 512
    rw [(idxO t).2]; omega

theorem cover_out (i : S10240x512.Idx) : ∃ t : Fin cfg1.N, (cfg1.win 3).flush t = true ∧ i ∈ ((cfg1.win 3).blk t).view.set := by
  have h0 : (i 0 : ℕ) < 10240 := (i 0).isLt
  have hN : cfg1.N = 50 := N_1
  have hT : 5 * ((i 0 : ℕ) / 1024) + 4 < cfg1.N := by omega
  exact ⟨⟨_, hT⟩, (flush1_3 _).mpr (by show (5 * ((i 0 : ℕ) / 1024) + 4) % 5 = 4; omega),
    mem_blk ⟨_, hT⟩ i (by show (5 * ((i 0 : ℕ) / 1024) + 4) / 5 = _; omega)⟩

end AtIdeal

end Val1

theorem final1 (V : (c : Dev nD) → (b : Ref sig .tc) → Buf (Elt Ideal) ((c : Thread nD τ).loc b)) (c : Dev nD) :
    (dat1 (F := Ideal) V c).arrAt (3 : Fin cfg1.W) cfg1.N
      = fun i => Cert.Spec.celuK (Cert.Spec.mm (V c main_v47) (V c main_v105) (i 0) (i 1) + (V c main_v106 : S1x512.Idx → EReal) (ix2 0 (i 1))) :=
  (dat1 (F := Ideal) V c).arrAt_eq_of_cover 3 (Val1.Gout V c) (Val1.flushed_out V c) Val1.cover_out

end Cert.KernelIdeal.Hand

end
-- ==== Proof.KI.Value2.lean ====
import proofs.«402230_j66554813219093_3_alg».proof.Proof.KI.Region2
import proofs.«402230_j66554813219093_3_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]

theorem hz2 : (![0, 0] : Fin 2 → Nat) = fun _ => 0 := funext fun a => by fin_cases a <;> rfl

-- A load through the whole rectangle reads the payload of the last store through it, whatever the earlier stores were.
theorem readCov_cons_unit_zero2 {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), View.mem_set_unit_zero rfl inb y⟩),
    View.canon_cons_unit_zero rfl, View.ld_unit_zero rfl]

-- The body clears the accumulator, adds the product of the two blocks, and narrows the sum.
theorem out2_2_eq (c : Dev nD) (i : grid2.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1024x512 .f32) (harg5 : arg5.IsWhole) (hc0 : cond2_0 i) (hc1 : cond2_1 i)
    (x0 : Vec F S1024x512 .bf16) (x1 : Vec F S512x512 .bf16) :
    out2_2 c i arg2 harg2 arg3 harg3 arg4 harg4 arg5 harg5 hc0 hc1 x0 x1 = k2_pay3 (k2_pay2 x0 x1 (k2_pay1 (F := F))) := by
  unfold out2_2
  rw [View.read_writes_eq_canon _ _ _ (cover2_2 c i arg2 harg2 arg3 harg3 arg4 harg4 arg5 harg5 hc0 hc1 x0 x1)]
  unfold kernelRun2
  dsimp only
  sl_unfold_words
  rw [View.canon_unit_zero (S := S1024x512) hz2]
  simp only [readCov_cons_unit_zero2 (S := S1024x512) _ hz2, View.readAt_eq_ld, harg2.read_unread, harg3.read_unread,
    View.ld_unit_zero (S := S1024x512) hz2, View.ld_unit_zero (S := S512x512) hz2]

-- Without rounding the payload at (r, q) is zero plus the plain sum over the contracted axis.
theorem pay2_apply (x0 : FVec Ideal S1024x512 .bf16) (x1 : FVec Ideal S512x512 .bf16) (r : Fin 1024) (q : Fin 512) :
    k2_pay3 (F := Ideal) (k2_pay2 (F := Ideal) x0 x1 (k2_pay1 (F := Ideal))) (ix2 r q) = ∑ k : Fin 512, x0 (ix2 r k) * x1 (ix2 k q) := by
  unfold k2_pay3 k2_pay2 k2_pay1
  simp only [shapeCast_self]
  show (Ideal.ofBits .f32 0x00000000#32 : EReal)
      + FloatOps.matmul dot_S1024x512_S512x512_S1024x512_1_0_0_1_n_n none x0 x1 (constant S1024x512 .f32 0x00000000#32) (ix2 r q) = _
  refine (congrArg₂ (· + ·) Ideal.ofBits_zero_f32 (Ideal.matmul_constant_zero_apply _ none x0 x1 (ix2 r q))).trans ?_
  refine (zero_add _).trans ?_
  refine Eq.trans (Finset.sum_congr rfl fun k _ => ?_)
    (Equiv.sum_comp (contrEquiv1 dot_S1024x512_S512x512_S1024x512_1_0_0_1_n_n 512 rfl rfl) (fun k : Fin 512 => x0 (ix2 r k) * x1 (ix2 k q)))
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

variable (W : (c : Dev nD) → (b : Ref sig .tc) → Buf (Elt Ideal) ((c : Thread nD τ).loc b))

abbrev aArr2 (c : Dev nD) : FVec Ideal S10240x512 .bf16 := W c main_v107
abbrev bArr2 (c : Dev nD) : FVec Ideal S512x512 .bf16 := W c main_v95

def prod2 (c : Dev nD) : FVec Ideal S10240x512 .bf16 := fun i => Cert.Spec.mm (aArr2 W c) (bArr2 W c) (i 0) (i 1)

-- Row-block t of the first operand and of the result, the one block of the second.
theorem index2 : ∀ t : Fin cfg2.N, win2_0.index t 0 = t.val ∧ win2_0.index t 1 = 0 ∧ win2_1.index t 0 = 0 ∧ win2_1.index t 1 = 0
    ∧ win2_2.index t 0 = t.val ∧ win2_2.index t 1 = 0 :=
  (by decide +kernel : ∀ t : Fin grid2.N, _)

theorem oBlk2_apply (G : FVec Ideal S10240x512 .bf16) (t : Fin cfg2.N) (r : Fin 1024) (q : Fin 512) (r' : Fin 10240)
    (hr : r'.val = t.val * 1024 + r.val) :
    ((cfg2.win 2).blk t).view.read (Elt Ideal) G (ix2 r q) = G (ix2 r' q) := by
  refine congrArg G (funext fun a => Fin.ext ?_)
  match a with
  | ⟨0, _⟩ => show win2_2.index t 0 * 1024 + 1 * r.val = r'.val; rw [(index2 t).2.2.2.2.1, hr]; omega
  | ⟨1, _⟩ => show win2_2.index t 1 * 512 + 1 * q.val = q.val; rw [(index2 t).2.2.2.2.2]; omega

-- What a point writes back is its block of the product, entry by entry.
theorem flushed2_eq (c : Dev nD) (t : Fin cfg2.N) (hf : (cfg2.win 2).flush t = true) :
    (dat2 (F := Ideal) W c).flushed 2 t = ((cfg2.win 2).blk t).view.read (Elt Ideal) (prod2 W c) := by
  funext j
  obtain ⟨r, q, rfl⟩ : ∃ (r : Fin 1024) (q : Fin 512), j = ix2 r q := ⟨j 0, j 1, eq_ix2 (n0 := 1024) (n1 := 512) j⟩
  have hN : cfg2.N = 10 := N_2
  have hlt : t.val * 1024 + r.val < 10240 := by have := t.isLt; have := r.isLt; omega
  refine Eq.trans ?_ (oBlk2_apply (prod2 W c) t r q ⟨t.val * 1024 + r.val, hlt⟩ rfl).symm
  show (dat2 (F := Ideal) W c).after 2 t (ix2 r q) = ∑ k : Fin 512, aArr2 W c (ix2 ⟨t.val * 1024 + r.val, hlt⟩ k) * bArr2 W c (ix2 k q)
  rw [after2_2 (F := Ideal), out2_2_eq (F := Ideal)]
  refine (pay2_apply _ _ r q).trans (Finset.sum_congr rfl fun k _ => congrArg₂ (· * ·)
    (congrArg (W c main_v107) (funext fun a => Fin.ext ?_)) (congrArg (W c main_v95) (funext fun a => Fin.ext ?_)))
  · match a with
    | ⟨0, _⟩ => show win2_0.index t 0 * 1024 + 1 * r.val = t.val * 1024 + r.val; rw [(index2 t).1]; omega
    | ⟨1, _⟩ => show win2_0.index t 1 * 512 + 1 * k.val = k.val; rw [(index2 t).2.1]; omega
  · match a with
    | ⟨0, _⟩ => show win2_1.index t 0 * 512 + 1 * k.val = k.val; rw [(index2 t).2.2.1]; omega
    | ⟨1, _⟩ => show win2_1.index t 1 * 512 + 1 * q.val = q.val; rw [(index2 t).2.2.2.1]; omega

-- Every entry of the result array lies in the block of the point its row falls in.
theorem cover2 (i : S10240x512.Idx) : ∃ t : Fin cfg2.N, (cfg2.win 2).flush t = true ∧ i ∈ ((cfg2.win 2).blk t).view.set := by
  have h0 : (i 0 : Nat) < 10240 := (i 0).isLt
  have h1 : (i 1 : Nat) < 512 := (i 1).isLt
  have hN : cfg2.N = 10 := N_2
  let t : Fin cfg2.N := ⟨(i 0 : Nat) / 1024, by omega⟩
  have ht : t.val = (i 0 : Nat) / 1024 := rfl
  refine ⟨t, flush2_2 _, ?_⟩
  show i ∈ ((View.whole main_v108).slice (win2_2.rect t)).set
  rw [View.set_slice_whole, Rect.mem_set_unit]
  intro a
  match a with
  | ⟨0, _⟩ => show win2_2.index t 0 * 1024 ≤ (i 0 : Nat) ∧ (i 0 : Nat) < win2_2.index t 0 * 1024 + 1024
              rw [(index2 t).2.2.2.2.1]; omega
  | ⟨1, _⟩ => show win2_2.index t 1 * 512 ≤ (i 1 : Nat) ∧ (i 1 : Nat) < win2_2.index t 1 * 512 + 512
              rw [(index2 t).2.2.2.2.2]; omega

theorem final2 (V : (c : Dev nD) → (b : Ref sig .tc) → Buf (Elt Ideal) ((c : Thread nD τ).loc b)) (c : Dev nD) :
    (dat2 (F := Ideal) V c).arrAt (2 : Fin cfg2.W) cfg2.N = fun i => Cert.Spec.mm (V c main_v107) (V c main_v95) (i 0) (i 1) :=
  (dat2 (F := Ideal) V c).arrAt_eq_of_cover 2 (prod2 V c) (flushed2_eq V c) (cover2)

end Cert.KernelIdeal.Hand

end
-- ==== Proof.KI.Value3.lean ====
import proofs.«402230_j66554813219093_3_alg».proof.Proof.KI.Region3
import proofs.«402230_j66554813219093_3_alg».proof.Proof.KI.ValueAgg
import Idealize.ShloMosaic.Lib.IdealHost
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open Agg

namespace Val3

theorem pay1_apply (j : S1024x512.Idx) : (k3_pay1 (F := Ideal)) j = 0 := by
  unfold k3_pay1
  simp only [shapeCast_self, broadcast_apply]
  exact Ideal.ofBits_zero_f32

theorem pay2_apply (x0 : Vec Ideal S1024x2048 .bf16) (x1 : Vec Ideal S2048x512 .bf16) (acc : Vec Ideal S1024x512 .f32)
    (r : Fin 1024) (cc : Fin 512) :
    k3_pay2 x0 x1 acc (ix2 r cc) = acc (ix2 r cc) + ∑ q : Fin 2048, x0 (ix2 r q) * x1 (ix2 q cc) := by
  unfold k3_pay2
  simp only [shapeCast_self, addf_apply, matmul]
  rw [Ideal.matmul_constant_zero_apply]
  exact congrArg (acc (ix2 r cc) + ·) (sum_contr x0 x1 r cc)

theorem pay3_apply (acc : Vec Ideal S1024x512 .f32) (b : Vec Ideal S1x512 .f32) (r : Fin 1024) (cc : Fin 512) :
    k3_pay3 acc b (ix2 r cc) = Cert.Spec.celuK (acc (ix2 r cc) + b (ix2 0 cc)) := by
  have hb : broadcastTo S1024x512 b broadcasts_S1x512_S1024x512 (ix2 r cc) = b (ix2 0 cc) :=
    broadcastTo_apply b broadcasts_S1x512_S1024x512 (ix2 r cc) (ix2 0 cc) (fun a => by
      match a with
      | ⟨0, _⟩ => rfl
      | ⟨1, _⟩ => rfl)
  unfold k3_pay3
  simp only [shapeCast_self]
  show Scalar.select (Ideal.cmp .ogt (acc (ix2 r cc) + broadcastTo S1024x512 b broadcasts_S1x512_S1024x512 (ix2 r cc)) (Ideal.ofBits .f32 0x00000000#32))
      (acc (ix2 r cc) + broadcastTo S1024x512 b broadcasts_S1x512_S1024x512 (ix2 r cc))
      (Ideal.exp (acc (ix2 r cc) + broadcastTo S1024x512 b broadcasts_S1x512_S1024x512 (ix2 r cc)) - Ideal.ofBits .f32 0x3F800000#32) = _
  rw [hb, Ideal.ofBits_zero_f32, Ideal.ofBits_one_f32]
  unfold Cert.Spec.celuK Ideal.cmp
  by_cases hy : 0 < acc (ix2 r cc) + b (ix2 0 cc)
  · simp [hy, Scalar.select]
  · simp [hy, Scalar.select]

section Pieces
variable {F : FTy → Type} [FloatOps F] {c : Dev nD} {i : grid3.Coords}
  {arg2 : Memref sig .tc .vmem S1024x2048 .bf16} {harg2 : arg2.IsWhole} {arg3 : Memref sig .tc .vmem S10240x512 .bf16} {harg3 : arg3.IsWhole}
  {arg4 : Memref sig .tc .vmem S1x512 .f32} {harg4 : arg4.IsWhole} {arg5 : Memref sig .tc .vmem S1024x512 .bf16} {harg5 : arg5.IsWhole}
  {arg6 : Memref sig .tc .vmem S1024x512 .f32} {harg6 : arg6.IsWhole}
  {x0 : Vec F S1024x2048 .bf16} {x1 : Vec F S10240x512 .bf16} {x2 : Vec F S1x512 .f32} {xs0 : Vec F S1024x512 .f32}

abbrev rB (i : grid3.Coords) : Rect S10240x512 := Rect.unit (s := S10240x512) (k3_off1 i) S2048x512.size (k3_off1_inb i)

theorem sout_A {hc0 : cond3_0 i} {hc1 : ¬cond3_1 i} :
    sout3_A_0 c i arg2 harg2 arg3 harg3 arg4 harg4 arg5 harg5 arg6 harg6 hc0 hc1 x0 x1 x2 = k3_pay2 x0 (View.ld x1 (rB i)) k3_pay1 := by
  unfold sout3_A_0
  rw [View.read_writes_eq_canon _ _ _ (scover3_A_0 _ _ _ _ _ _ _ _ _ _ _ _ _ _ _ _ _)]
  unfold kernelRun3_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x2048) hz]
  rfl

theorem sout_B {hc0 : ¬cond3_0 i} {hc1 : ¬cond3_1 i} :
    sout3_B_0 c i arg2 harg2 arg3 harg3 arg4 harg4 arg5 harg5 arg6 harg6 hc0 hc1 x0 x1 x2 xs0 = k3_pay2 x0 (View.ld x1 (rB i)) xs0 := by
  unfold sout3_B_0
  rw [View.read_writes_eq_canon _ _ _ (scover3_B_0 _ _ _ _ _ _ _ _ _ _ _ _ _ _ _ _ _ _)]
  unfold kernelRun3_B
  dsimp only
  sl_unfold_words
  rw [View.canon_unit_zero hz]
  simp only [View.readAt_eq_ld, harg2.read_unread, harg3.read_unread, harg6.read_unread, View.ld_unit_zero (S := S1024x2048) hz, View.ld_unit_zero (S := S1024x512) hz]
  rfl

theorem sout_C {hc0 : ¬cond3_0 i} {hc1 : cond3_1 i} :
    sout3_C_0 c i arg2 harg2 arg3 harg3 arg4 harg4 arg5 harg5 arg6 harg6 hc0 hc1 x0 x1 x2 xs0 = k3_pay2 x0 (View.ld x1 (rB i)) xs0 := by
  unfold sout3_C_0
  rw [View.read_writes_eq_canon _ _ _ (scover3_C_0 _ _ _ _ _ _ _ _ _ _ _ _ _ _ _ _ _ _)]
  unfold kernelRun3_C
  dsimp only
  sl_unfold_words
  rw [View.canon_unit_zero hz]
  simp only [View.readAt_eq_ld, harg2.read_unread, harg3.read_unread, harg6.read_unread, View.ld_unit_zero (S := S1024x2048) hz, View.ld_unit_zero (S := S1024x512) hz]
  rfl

theorem out_C {hc0 : ¬cond3_0 i} {hc1 : cond3_1 i} :
    out3_C_3 c i arg2 harg2 arg3 harg3 arg4 harg4 arg5 harg5 arg6 harg6 hc0 hc1 x0 x1 x2 xs0 = k3_pay3 (k3_pay2 x0 (View.ld x1 (rB i)) xs0) x2 := by
  unfold out3_C_3
  rw [View.read_writes_eq_canon _ _ _ (cover3_C_3 _ _ _ _ _ _ _ _ _ _ _ _ _ _ _ _ _ _)]
  unfold kernelRun3_C
  dsimp only
  sl_unfold_words
  rw [View.canon_unit_zero hz]
  simp only [View.readAt_eq_ld, harg2.read_unread, harg3.read_unread, harg4.read_unread, harg6.read_unread, View.readCov_unit_zero (S := S1024x512) _ hz, View.ld_unit_zero (S := S1024x2048) hz, View.ld_unit_zero (S := S1024x512) hz, View.ld_unit_zero (S := S1x512) hz]
  rfl

end Pieces

section AtIdeal
variable (V : (c : Dev nD) → (b : Ref sig .tc) → Buf (Elt Ideal) ((c : Thread nD τ).loc b)) (c : Dev nD) (t : Fin cfg3.N)

abbrev Aarr : Vec Ideal S10240x10240 .bf16 := V c main_v47
abbrev Barr : Vec Ideal S10240x512 .bf16 := V c main_v108
abbrev Carr : Vec Ideal S1x512 .f32 := V c main_v109
abbrev blkA : Vec Ideal S1024x2048 .bf16 := iblk3 V c 0 t
abbrev blkB : Vec Ideal S10240x512 .bf16 := iblk3 V c 1 t
abbrev blkC : Vec Ideal S1x512 .f32 := iblk3 V c 2 t

theorem idxA : ∀ t : Fin cfg3.N, win3_0.index t 0 = t.val / 5 ∧ win3_0.index t 1 = t.val % 5 := by decide +kernel
theorem idxB : ∀ t : Fin cfg3.N, win3_1.index t 0 = 0 ∧ win3_1.index t 1 = 0 := by decide +kernel
theorem idxC : ∀ t : Fin cfg3.N, win3_2.index t 0 = 0 ∧ win3_2.index t 1 = 0 := by decide +kernel
theorem idxO : ∀ t : Fin cfg3.N, win3_3.index t 0 = t.val / 5 ∧ win3_3.index t 1 = 0 := by decide +kernel
theorem offB_eq : ∀ t : Fin cfg3.N, k3_off1 (grid3.coords t) 0 = 2048 * (t.val % 5) ∧ k3_off1 (grid3.coords t) 1 = 0 := by decide +kernel

theorem blkA_apply (r : Fin 1024) (q : Fin 2048) :
    blkA V c t (ix2 r q) = Aarr V c (ix2 (w10240 (1024 * (t.val / 5) + r.val)) (w10240 (2048 * (t.val % 5) + q.val))) := by
  have hN : t.val < 50 := lt_of_lt_of_eq t.isLt N_3
  unfold blkA iblk3
  rw [View.read_apply]
  refine congrArg (V c main_v47) (Shape.idx_ext₂ ?_ ?_)
  · show win3_0.index t 0 * 1024 + 1 * r.val = (w10240 (1024 * (t.val / 5) + r.val)).val
    rw [(idxA t).1, w10240_val (by omega)]; omega
  · show win3_0.index t 1 * 2048 + 1 * q.val = (w10240 (2048 * (t.val % 5) + q.val)).val
    rw [(idxA t).2, w10240_val (by omega)]; omega

theorem blkC_apply (y : S1x512.Idx) : blkC V c t y = Carr V c y := by
  unfold blkC iblk3
  rw [View.read_apply]
  refine congrArg (V c main_v109) (Shape.idx_ext₂ ?_ ?_)
  · show win3_2.index t 0 * 1 + 1 * (y 0).val = (y 0).val; rw [(idxC t).1]; omega
  · show win3_2.index t 1 * 512 + 1 * (y 1).val = (y 1).val; rw [(idxC t).2]; omega

theorem ldB_apply (q : Fin 2048) (cc : Fin 512) :
    View.ld (blkB V c t) (rB (grid3.coords t)) (ix2 q cc) = Barr V c (ix2 (w10240 (2048 * (t.val % 5) + q.val)) cc) := by
  have hN : t.val < 50 := lt_of_lt_of_eq t.isLt N_3
  show iblk3 V c 1 t ((rB (grid3.coords t)).idx (ix2 q cc)) = _
  unfold iblk3
  rw [View.read_apply]
  refine congrArg (V c main_v108) (Shape.idx_ext₂ ?_ ?_)
  · show win3_1.index t 0 * 10240 + 1 * (k3_off1 (grid3.coords t) 0 + 1 * q.val) = (w10240 (2048 * (t.val % 5) + q.val)).val
    rw [(idxB t).1, (offB_eq t).1, w10240_val (by omega)]; omega
  · show win3_1.index t 1 * 512 + 1 * (k3_off1 (grid3.coords t) 1 + 1 * cc.val) = cc.val
    rw [(idxB t).2, (offB_eq t).2]; omega

-- The block product added at point t = (i, k) is row block i's k-th block of the contracted axis.
theorem block_term (r : Fin 1024) (cc : Fin 512) :
    ∑ q : Fin 2048, blkA V c t (ix2 r q) * View.ld (blkB V c t) (rB (grid3.coords t)) (ix2 q cc)
      = Tk (Aarr V c) (Barr V c) (t.val / 5) (t.val % 5) r cc :=
  Finset.sum_congr rfl fun q _ => by rw [blkA_apply, ldB_apply]

-- One point's update of the accumulator: the block product added to the zero block (k = 0) or to what the point before left.
theorem acc_step : (outsAt3 V c t.val t.isLt).2 = k3_pay2 (blkA V c t) (View.ld (blkB V c t) (rB (grid3.coords t)))
      (if t.val % 5 = 0 then k3_pay1 (F := Ideal) else (outsAt3 V c (t.val - 1) (Nat.lt_of_le_of_lt (Nat.sub_le _ _) t.isLt)).2) := by
  by_cases h0 : t.val % 5 = 0
  · rw [if_pos h0, outsAt3_A V c t h0 (by omega)]; dsimp only; exact sout_A (F := Ideal)
  · rw [if_neg h0]
    by_cases h1 : t.val % 5 = 4
    · rw [outsAt3_C V c t h0 h1]; dsimp only; exact sout_C (F := Ideal)
    · rw [outsAt3_B V c t h0 h1]; dsimp only; exact sout_B (F := Ideal)

-- After point n = (i, k) the accumulator holds the sum of row block i's block products 0 … k: induction on the point.
theorem acc_eq : ∀ (n : ℕ) (h : n < cfg3.N) (r : Fin 1024) (cc : Fin 512),
    ((outsAt3 V c n h).2 : Vec Ideal S1024x512 .f32) (ix2 r cc)
      = ∑ kk ∈ Finset.range (n % 5 + 1), Tk (Aarr V c) (Barr V c) (n / 5) kk r cc
  | 0, h, r, cc => by
    rw [acc_step V c ⟨0, h⟩, pay2_apply, if_pos (Nat.zero_mod 5), pay1_apply, zero_add, block_term]
    simp
  | n + 1, h, r, cc => by
    rw [acc_step V c ⟨n + 1, h⟩, pay2_apply, block_term]
    show _ + Tk _ _ ((n + 1) / 5) ((n + 1) % 5) r cc = _
    by_cases h0 : (n + 1) % 5 = 0
    · rw [if_pos h0, pay1_apply, zero_add, h0]; simp
    · rw [if_neg h0]
      show ((outsAt3 V c n _).2 : Vec Ideal S1024x512 .f32) (ix2 r cc) + _ = _
      rw [acc_eq n (Nat.lt_of_succ_lt h) r cc, show (n + 1) / 5 = n / 5 by omega, show (n + 1) % 5 = n % 5 + 1 by omega]
      exact (Finset.sum_range_succ _ _).symm

-- At a point (i, 4) the output block is the last payload of the accumulator the same point leaves.
theorem out_eq (h0 : ¬t.val % 5 = 0) (h4 : t.val % 5 = 4) :
    (outsAt3 V c t.val t.isLt).1 = k3_pay3 (outsAt3 V c t.val t.isLt).2 (blkC V c t) := by
  rw [outsAt3_C V c t h0 h4]; dsimp only; rw [sout_C]; exact out_C

abbrev Gout : Buf (Elt Ideal) ((c : Thread nD τ).loc main_v110) :=
  fun i => Cert.Spec.celuK (Cert.Spec.mm (Aarr V c) (Barr V c) (i 0) (i 1) + Carr V c (ix2 0 (i 1)))

theorem Gout_blk (r : Fin 1024) (cc : Fin 512) :
    (((cfg3.win 3).blk t).view.read (Elt Ideal) (Gout V c) : S1024x512.Idx → EReal) (ix2 r cc)
      = Cert.Spec.celuK (Cert.Spec.mm (Aarr V c) (Barr V c) (w10240 (1024 * (t.val / 5) + r.val)) cc + Carr V c (ix2 0 cc)) := by
  have hN : t.val < 50 := lt_of_lt_of_eq t.isLt N_3
  rw [View.read_apply]
  show Gout V c (((cfg3.win 3).blk t).view.emb (ix2 r cc)) = _
  have e0 : (((cfg3.win 3).blk t).view.emb (ix2 r cc)) 0 = w10240 (1024 * (t.val / 5) + r.val) := Fin.ext (by
    show win3_3.index t 0 * 1024 + 1 * r.val = (w10240 (1024 * (t.val / 5) + r.val)).val
    rw [(idxO t).1, w10240_val (by omega)]; omega)
  have e1 : (((cfg3.win 3).blk t).view.emb (ix2 r cc)) 1 = cc := Fin.ext (by
    show win3_3.index t 1 * 512 + 1 * cc.val = cc.val
    rw [(idxO t).2]; omega)
  show Cert.Spec.celuK (Cert.Spec.mm (Aarr V c) (Barr V c) ((((cfg3.win 3).blk t).view.emb (ix2 r cc)) 0) ((((cfg3.win 3).blk t).view.emb (ix2 r cc)) 1)
      + Carr V c (ix2 0 ((((cfg3.win 3).blk t).view.emb (ix2 r cc)) 1))) = _
  rw [e0, e1]

-- At t = (i, 4) the flushed block is block i of the whole product plus the bias, through CELU.
theorem flushed_out (hf : (cfg3.win 3).flush t = true) :
    (dat3 (F := Ideal) V c).flushed 3 t = ((cfg3.win 3).blk t).view.read (Elt Ideal) (Gout V c) := by
  have h4 : t.val % 5 = 4 := (flush3_3 t).mp hf
  show (cfg3.win 3).cut (grid3.coords t) ((dat3 (F := Ideal) V c).after 3 t) = _
  rw [after3_3]
  refine ext_blk _ _ fun r cc => (Eq.trans ?_ (Gout_blk V c t r cc).symm)
  show ((outsAt3 V c t.val t.isLt).1 : Vec Ideal S1024x512 .bf16) (ix2 r cc) = _
  rw [out_eq V c t (by omega) h4, pay3_apply, acc_eq V c t.val t.isLt r cc, blkC_apply, h4]
  show Cert.Spec.celuK ((∑ kk ∈ Finset.range 5, Tk (Aarr V c) (Barr V c) (t.val / 5) kk r cc) + _) = _
  rw [sum_Tk]

-- An entry of row block i lies in the block of every point of that row block.
theorem mem_blk (i : S10240x512.Idx) (h : t.val / 5 = (i 0 : ℕ) / 1024) : i ∈ ((cfg3.win 3).blk t).view.set := by
  have h1 : (i 1 : ℕ) < 512 := (i 1).isLt
  show i ∈ ((View.whole main_v110).slice (win3_3.rect t)).set
  rw [View.set_slice_whole, Rect.mem_set_unit]
  intro a
  match a with
  | ⟨0, _⟩ =>
    show win3_3.index t 0 * 1024 ≤ (i 0 : ℕ) ∧ (i 0 : ℕ) < win3_3.index t 0 * 1024 + 1024
    rw [(idxO t).1]; omega
  | ⟨1, _⟩ =>
    show win3_3.index t 1 * 512 ≤ (i 1 : ℕ) ∧ (i 1 : ℕ) < win3_3.index t 1 * 512 + 512
    rw [(idxO t).2]; omega

theorem cover_out (i : S10240x512.Idx) : ∃ t : Fin cfg3.N, (cfg3.win 3).flush t = true ∧ i ∈ ((cfg3.win 3).blk t).view.set := by
  have h0 : (i 0 : ℕ) < 10240 := (i 0).isLt
  have hN : cfg3.N = 50 := N_3
  have hT : 5 * ((i 0 : ℕ) / 1024) + 4 < cfg3.N := by omega
  exact ⟨⟨_, hT⟩, (flush3_3 _).mpr (by show (5 * ((i 0 : ℕ) / 1024) + 4) % 5 = 4; omega),
    mem_blk ⟨_, hT⟩ i (by show (5 * ((i 0 : ℕ) / 1024) + 4) / 5 = _; omega)⟩

end AtIdeal

end Val3

theorem final3 (V : (c : Dev nD) → (b : Ref sig .tc) → Buf (Elt Ideal) ((c : Thread nD τ).loc b)) (c : Dev nD) :
    (dat3 (F := Ideal) V c).arrAt (3 : Fin cfg3.W) cfg3.N
      = fun i => Cert.Spec.celuK (Cert.Spec.mm (V c main_v47) (V c main_v108) (i 0) (i 1) + (V c main_v109 : S1x512.Idx → EReal) (ix2 0 (i 1))) :=
  (dat3 (F := Ideal) V c).arrAt_eq_of_cover 3 (Val3.Gout V c) (Val3.flushed_out V c) Val3.cover_out

end Cert.KernelIdeal.Hand

end
-- ==== Proof.KI.Value4.lean ====
import proofs.«402230_j66554813219093_3_alg».proof.Proof.KI.Region4
import proofs.«402230_j66554813219093_3_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

-- Entry (r, q) of a two-axis array, zero outside it, so that sums over blocks are written over plain numbers.
def at4 {M N : Nat} (X : (⟨2, ![M, N]⟩ : Shape).Idx → EReal) (r q : ℕ) : EReal :=
  if h : r < M ∧ q < N then X (ix2 ⟨r, h.1⟩ ⟨q, h.2⟩) else 0

theorem at4_of_lt {M N : Nat} (X : (⟨2, ![M, N]⟩ : Shape).Idx → EReal) (r q : ℕ) (hr : r < M) (hq : q < N) :
    at4 X r q = X (ix2 ⟨r, hr⟩ ⟨q, hq⟩) := dif_pos ⟨hr, hq⟩

def term4 (A : S10240x10240.Idx → EReal) (B : S10240x512.Idx → EReal) (i k : ℕ) (r : Fin 1024) (cc : Fin 512) : EReal :=
  ∑ j : Fin 2048, at4 A (1024 * i + r.val) (2048 * k + j.val) * at4 B (2048 * k + j.val) cc.val

def psum4 (A : S10240x10240.Idx → EReal) (B : S10240x512.Idx → EReal) (i : ℕ) (r : Fin 1024) (cc : Fin 512) : ℕ → EReal
  | 0 => term4 A B i 0 r cc
  | k + 1 => psum4 A B i r cc k + term4 A B i (k + 1) r cc

-- The five column blocks together are the whole contracted axis.
theorem psum4_four (A : S10240x10240.Idx → EReal) (B : S10240x512.Idx → EReal) (i : ℕ) (hi : i < 10) (r : Fin 1024) (cc : Fin 512) :
    psum4 A B i r cc 4 = Cert.Spec.mm A B (⟨1024 * i + r.val, by omega⟩ : Fin 10240) cc := by
  unfold Cert.Spec.mm
  have e : ∀ f : Fin 10240 → EReal, ∑ q : Fin 10240, f q = ∑ k : Fin 5, ∑ j : Fin 2048, f ⟨2048 * k.val + j.val, by omega⟩ := by
    intro f
    rw [← Fintype.sum_prod_type', ← Equiv.sum_comp (finProdFinEquiv (m := 5) (n := 2048)) f]
    refine Finset.sum_congr rfl fun p _ => congrArg f (Fin.ext ?_)
    show p.2.val + 2048 * p.1.val = 2048 * p.1.val + p.2.val
    omega
  rw [e, Fin.sum_univ_five]
  simp only [psum4, term4]
  have t : ∀ k : Fin 5, (∑ j : Fin 2048, at4 A (1024 * i + r.val) (2048 * k.val + j.val) * at4 B (2048 * k.val + j.val) cc.val)
      = ∑ j : Fin 2048, A (ix2 (⟨1024 * i + r.val, by omega⟩ : Fin 10240) (⟨2048 * k.val + j.val, by omega⟩ : Fin 10240))
          * B (ix2 (⟨2048 * k.val + j.val, by omega⟩ : Fin 10240) cc) := by
    intro k
    refine Finset.sum_congr rfl fun j _ => ?_
    rw [at4_of_lt A _ _ (by omega) (by omega), at4_of_lt B _ _ (by omega) cc.isLt]
  exact congrArg₂ (· + ·) (congrArg₂ (· + ·) (congrArg₂ (· + ·) (congrArg₂ (· + ·) (t 0) (t 1)) (t 2)) (t 3)) (t 4)

-- Without rounding, the product into a zero accumulator is the plain sum over the contracted coordinate.
theorem mm4_apply (X : FVec Ideal S1024x2048 .bf16) (Y : FVec Ideal S2048x512 .bf16) (r : Fin 1024) (cc : Fin 512) :
    matmul dot_S1024x2048_S2048x512_S1024x512_1_0_0_1_n_n none X Y (constant S1024x512 .f32 0x00000000#32) (ix2 r cc)
      = ∑ j : Fin 2048, X (ix2 r j) * Y (ix2 j cc) := by
  show FloatOps.matmul _ none X Y _ (ix2 r cc) = _
  rw [Ideal.matmul_constant_zero_apply]
  refine Eq.trans (Finset.sum_congr rfl fun k _ => ?_)
    (Equiv.sum_comp (contrEquiv1 dot_S1024x2048_S2048x512_S1024x512_1_0_0_1_n_n 2048 rfl rfl) fun j : Fin 2048 => X (ix2 r j) * Y (ix2 j cc))
  refine congrArg₂ (· * ·) (congrArg X (funext fun x => Fin.ext ?_)) (congrArg Y (funext fun x => Fin.ext ?_))
  · match x with
    | ⟨0, _⟩ => rfl
    | ⟨1, _⟩ => rfl
  · match x with
    | ⟨0, _⟩ => rfl
    | ⟨1, _⟩ => rfl

theorem pay1_apply4 (y : S1024x512.Idx) : k4_pay1 (F := Ideal) y = 0 := by
  unfold k4_pay1
  simp only [shapeCast_self]
  exact Ideal.ofBits_zero_f32

theorem pay2_apply4 (x0 : Vec Ideal S1024x2048 .bf16) (v8 : Vec Ideal S2048x512 .bf16) (acc : Vec Ideal S1024x512 .f32)
    (r : Fin 1024) (cc : Fin 512) :
    k4_pay2 x0 v8 acc (ix2 r cc) = acc (ix2 r cc) + ∑ j : Fin 2048, x0 (ix2 r j) * v8 (ix2 j cc) := by
  unfold k4_pay2
  simp only [shapeCast_self]
  exact congrArg (acc (ix2 r cc) + ·) (mm4_apply x0 v8 r cc)

theorem pay3_apply4 (v : Vec Ideal S1024x512 .f32) (y : S1024x512.Idx) : k4_pay3 v y = v y := rfl

section Pieces
variable {F : FTy → Type} [FloatOps F]

theorem hz4 : (![0, 0] : Fin 2 → Nat) = fun _ => 0 := funext fun a => by fin_cases a <;> rfl

variable (c : Dev nD) (i : grid4.Coords) (a2 : Memref sig .tc .vmem S1024x2048 .bf16) (h2 : a2.IsWhole)
  (a3 : Memref sig .tc .vmem S10240x512 .bf16) (h3 : a3.IsWhole) (a4 : Memref sig .tc .vmem S1024x512 .bf16) (h4 : a4.IsWhole)
  (a5 : Memref sig .tc .vmem S1024x512 .f32) (h5 : a5.IsWhole) (x0 : Vec F S1024x2048 .bf16) (x1 : Vec F S10240x512 .bf16) (xs : Vec F S1024x512 .f32)

theorem sout4_A_eq (hc0 : cond4_0 i) (hc1 : ¬cond4_1 i) :
    sout4_A_0 c i a2 h2 a3 h3 a4 h4 a5 h5 hc0 hc1 x0 x1 = k4_pay2 x0 (View.ld x1 (Rect.unit (s := S10240x512) (k4_off1 i) S2048x512.size (k4_off1_inb i))) k4_pay1 := by
  unfold sout4_A_0
  rw [View.read_writes_eq_canon _ _ _ (scover4_A_0 c i a2 h2 a3 h3 a4 h4 a5 h5 hc0 hc1 x0 x1)]
  unfold kernelRun4_A
  dsimp only
  sl_unfold_words
  rw [View.canon_cons_unit_zero (S := S1024x512) hz4, View.readCov_unit_zero (S := S1024x512) _ hz4]
  simp only [View.readAt_eq_ld, h2.read_unread, h3.read_unread, View.ld_unit_zero (S := S1024x2048) hz4]

theorem sout4_B_eq (hc0 : ¬cond4_0 i) (hc1 : ¬cond4_1 i) :
    sout4_B_0 c i a2 h2 a3 h3 a4 h4 a5 h5 hc0 hc1 x0 x1 xs = k4_pay2 x0 (View.ld x1 (Rect.unit (s := S10240x512) (k4_off1 i) S2048x512.size (k4_off1_inb i))) xs := by
  unfold sout4_B_0
  rw [View.read_writes_eq_canon _ _ _ (scover4_B_0 c i a2 h2 a3 h3 a4 h4 a5 h5 hc0 hc1 x0 x1 xs)]
  unfold kernelRun4_B
  dsimp only
  sl_unfold_words
  rw [View.canon_unit_zero (S := S1024x512) hz4]
  simp only [View.readAt_eq_ld, h2.read_unread, h3.read_unread, h5.read_unread, View.ld_unit_zero (S := S1024x2048) hz4, View.ld_unit_zero (S := S1024x512) hz4]

theorem sout4_C_eq (hc0 : ¬cond4_0 i) (hc1 : cond4_1 i) :
    sout4_C_0 c i a2 h2 a3 h3 a4 h4 a5 h5 hc0 hc1 x0 x1 xs = k4_pay2 x0 (View.ld x1 (Rect.unit (s := S10240x512) (k4_off1 i) S2048x512.size (k4_off1_inb i))) xs := by
  unfold sout4_C_0
  rw [View.read_writes_eq_canon _ _ _ (scover4_C_0 c i a2 h2 a3 h3 a4 h4 a5 h5 hc0 hc1 x0 x1 xs)]
  unfold kernelRun4_C
  dsimp only
  sl_unfold_words
  rw [View.canon_unit_zero (S := S1024x512) hz4]
  simp only [View.readAt_eq_ld, h2.read_unread, h3.read_unread, h5.read_unread, View.ld_unit_zero (S := S1024x2048) hz4, View.ld_unit_zero (S := S1024x512) hz4]

theorem out4_C_eq (hc0 : ¬cond4_0 i) (hc1 : cond4_1 i) :
    out4_C_2 c i a2 h2 a3 h3 a4 h4 a5 h5 hc0 hc1 x0 x1 xs = k4_pay3 (k4_pay2 x0 (View.ld x1 (Rect.unit (s := S10240x512) (k4_off1 i) S2048x512.size (k4_off1_inb i))) xs) := by
  unfold out4_C_2
  rw [View.read_writes_eq_canon _ _ _ (cover4_C_2 c i a2 h2 a3 h3 a4 h4 a5 h5 hc0 hc1 x0 x1 xs)]
  unfold kernelRun4_C
  dsimp only
  sl_unfold_words
  rw [View.canon_unit_zero (S := S1024x512) hz4, View.readCov_unit_zero (S := S1024x512) _ hz4]
  simp only [View.readAt_eq_ld, h2.read_unread, h3.read_unread, h5.read_unread, View.ld_unit_zero (S := S1024x2048) hz4, View.ld_unit_zero (S := S1024x512) hz4]

end Pieces

section Value
variable (V : (c : Dev nD) → (b : Ref sig .tc) → Buf (Elt Ideal) ((c : Thread nD τ).loc b))

abbrev arrA4 (c : Dev nD) : Vec Ideal S10240x10240 .bf16 := V c main_v89
abbrev arrB4 (c : Dev nD) : Vec Ideal S10240x512 .bf16 := V c main_v110
abbrev blkA4 (c : Dev nD) (t : Fin cfg4.N) : Vec Ideal S1024x2048 .bf16 := iblk4 V c 0 t
abbrev blkB4 (c : Dev nD) (t : Fin cfg4.N) : Vec Ideal S10240x512 .bf16 := iblk4 V c 1 t

abbrev rowsB4 (c : Dev nD) (t : Fin cfg4.N) : Vec Ideal S2048x512 .bf16 :=
  View.ld (blkB4 V c t) (Rect.unit (s := S10240x512) (k4_off1 (grid4.coords t)) S2048x512.size (k4_off1_inb (grid4.coords t)))

-- The block indices and the load's row offset at the point t = 5 i + k.
theorem idx4 : ∀ t : Fin grid4.N, win4_0.index t 0 = t.val / 5 ∧ win4_0.index t 1 = t.val % 5 ∧ win4_1.index t 0 = 0 ∧ win4_1.index t 1 = 0
    ∧ win4_2.index t 0 = t.val / 5 ∧ win4_2.index t 1 = 0 ∧ k4_off1 (grid4.coords t) 0 = 2048 * (t.val % 5) ∧ k4_off1 (grid4.coords t) 1 = 0 := by
  decide +kernel

theorem blkA4_apply (c : Dev nD) (t : Fin cfg4.N) (r : Fin 1024) (j : Fin 2048) :
    blkA4 V c t (ix2 r j) = at4 (arrA4 V c) (1024 * (t.val / 5) + r.val) (2048 * (t.val % 5) + j.val) := by
  have hN : t.val < 50 := lt_of_lt_of_eq t.isLt (show cfg4.N = 50 from N_4)
  rw [at4_of_lt _ _ _ (by omega) (by omega)]
  refine congrArg (V c main_v89) (funext fun a => Fin.ext ?_)
  match a with
  | ⟨0, _⟩ => show win4_0.index t 0 * 1024 + 1 * r.val = 1024 * (t.val / 5) + r.val; rw [(idx4 t).1]; omega
  | ⟨1, _⟩ => show win4_0.index t 1 * 2048 + 1 * j.val = 2048 * (t.val % 5) + j.val; rw [(idx4 t).2.1]; omega

theorem rowsB4_apply (c : Dev nD) (t : Fin cfg4.N) (j : Fin 2048) (cc : Fin 512) :
    rowsB4 V c t (ix2 j cc) = at4 (arrB4 V c) (2048 * (t.val % 5) + j.val) cc.val := by
  have hN : t.val < 50 := lt_of_lt_of_eq t.isLt (show cfg4.N = 50 from N_4)
  rw [at4_of_lt _ _ _ (by omega) cc.isLt]
  refine congrArg (V c main_v110) (funext fun a => Fin.ext ?_)
  match a with
  | ⟨0, _⟩ => show win4_1.index t 0 * 10240 + 1 * (k4_off1 (grid4.coords t) 0 + 1 * j.val) = 2048 * (t.val % 5) + j.val
              rw [(idx4 t).2.2.1, (idx4 t).2.2.2.2.2.2.1]; omega
  | ⟨1, _⟩ => show win4_1.index t 1 * 512 + 1 * (k4_off1 (grid4.coords t) 1 + 1 * cc.val) = cc.val
              rw [(idx4 t).2.2.2.1, (idx4 t).2.2.2.2.2.2.2]; omega

theorem upd4 (c : Dev nD) (t : Fin cfg4.N) (acc : Vec Ideal S1024x512 .f32) (r : Fin 1024) (cc : Fin 512) :
    k4_pay2 (blkA4 V c t) (rowsB4 V c t) acc (ix2 r cc)
      = acc (ix2 r cc) + term4 (arrA4 V c) (arrB4 V c) (t.val / 5) (t.val % 5) r cc := by
  refine (pay2_apply4 (blkA4 V c t) (rowsB4 V c t) acc r cc).trans ?_
  unfold term4
  exact congrArg (acc (ix2 r cc) + ·) (Finset.sum_congr rfl fun j _ => by rw [blkA4_apply, rowsB4_apply])

theorem accA4 (c : Dev nD) (t : Fin cfg4.N) (h0 : t.val % 5 = 0) (h1 : ¬t.val % 5 = 4) :
    (outsAt4 V c t.val t.isLt).2 = fun y => term4 (arrA4 V c) (arrB4 V c) (t.val / 5) 0 (y 0) (y 1) := by
  rw [outsAt4_A V c t h0 h1]
  dsimp only
  rw [sout4_A_eq (F := Ideal)]
  funext y
  obtain ⟨r, cc, rfl⟩ : ∃ r cc, y = ix2 r cc := ⟨y 0, y 1, eq_ix2 y⟩
  show k4_pay2 (blkA4 V c t) (rowsB4 V c t) (k4_pay1 (F := Ideal)) (ix2 r cc) = term4 (arrA4 V c) (arrB4 V c) (t.val / 5) 0 r cc
  rw [upd4, pay1_apply4, zero_add, h0]

theorem accBC4 (c : Dev nD) (t : Fin cfg4.N) (h0 : ¬t.val % 5 = 0) :
    (outsAt4 V c t.val t.isLt).2
      = fun y => (outsAt4 V c (t.val - 1) (Nat.lt_of_le_of_lt (Nat.sub_le _ _) t.isLt)).2 y + term4 (arrA4 V c) (arrB4 V c) (t.val / 5) (t.val % 5) (y 0) (y 1) := by
  funext y
  obtain ⟨r, cc, rfl⟩ : ∃ r cc, y = ix2 r cc := ⟨y 0, y 1, eq_ix2 y⟩
  by_cases h1 : t.val % 5 = 4
  · rw [outsAt4_C V c t h0 h1]
    dsimp only
    rw [sout4_C_eq (F := Ideal)]
    exact upd4 V c t _ r cc
  · rw [outsAt4_B V c t h0 h1]
    dsimp only
    rw [sout4_B_eq (F := Ideal)]
    exact upd4 V c t _ r cc

-- After the point 5 i + k the accumulator holds the contributions of column blocks 0..k of row block i.
theorem acc4_eq (c : Dev nD) : ∀ (n : ℕ) (h : n < cfg4.N),
    (outsAt4 V c n h).2 = fun y => psum4 (arrA4 V c) (arrB4 V c) (n / 5) (y 0) (y 1) (n % 5)
  | 0, h => accA4 V c ⟨0, h⟩ rfl (by show ¬0 % 5 = 4; decide)
  | n + 1, h => by
    by_cases h0 : (n + 1) % 5 = 0
    · rw [accA4 V c ⟨n + 1, h⟩ h0 (by dsimp only; omega)]
      funext y
      dsimp only
      rw [h0]
      rfl
    · rw [accBC4 V c ⟨n + 1, h⟩ h0]
      funext y
      show (outsAt4 V c n _).2 y + term4 (arrA4 V c) (arrB4 V c) ((n + 1) / 5) ((n + 1) % 5) (y 0) (y 1) = _
      rw [acc4_eq c n]
      have e1 : (n + 1) / 5 = n / 5 := by omega
      have e2 : (n + 1) % 5 = n % 5 + 1 := by omega
      rw [e1, e2]
      rfl

theorem outC4 (c : Dev nD) (t : Fin cfg4.N) (h0 : ¬t.val % 5 = 0) (h1 : t.val % 5 = 4) (r : Fin 1024) (cc : Fin 512) :
    (outsAt4 V c t.val t.isLt).1 (ix2 r cc)
      = Cert.Spec.mm (arrA4 V c) (arrB4 V c) (⟨1024 * (t.val / 5) + r.val, by have := t.isLt; have : cfg4.N = 50 := N_4; omega⟩ : Fin 10240) cc := by
  have hN : t.val < 50 := lt_of_lt_of_eq t.isLt (show cfg4.N = 50 from N_4)
  rw [outsAt4_C V c t h0 h1]
  dsimp only
  rw [out4_C_eq (F := Ideal)]
  refine (pay3_apply4 _ (ix2 r cc)).trans ?_
  refine (upd4 V c t _ r cc).trans ?_
  rw [acc4_eq V c (t.val - 1)]
  have e1 : (t.val - 1) / 5 = t.val / 5 := by omega
  have e2 : (t.val - 1) % 5 = 3 := by omega
  show psum4 (arrA4 V c) (arrB4 V c) ((t.val - 1) / 5) r cc ((t.val - 1) % 5) + term4 (arrA4 V c) (arrB4 V c) (t.val / 5) (t.val % 5) r cc = _
  rw [e1, e2, h1]
  exact psum4_four (arrA4 V c) (arrB4 V c) (t.val / 5) (by omega) r cc

abbrev result4 (c : Dev nD) : Buf (Elt Ideal) ((c : Thread nD τ).loc main_v111) :=
  fun i => Cert.Spec.mm (arrA4 V c) (arrB4 V c) (i 0) (i 1)

theorem flushed4_eq (c : Dev nD) (t : Fin cfg4.N) (hf : (cfg4.win 2).flush t = true) :
    (dat4 (F := Ideal) V c).flushed 2 t = ((cfg4.win 2).blk t).view.read (Elt Ideal) (result4 V c) := by
  have hN : t.val < 50 := lt_of_lt_of_eq t.isLt (show cfg4.N = 50 from N_4)
  have h1 : t.val % 5 = 4 := (flush4_2 t).mp hf
  show (cfg4.win 2).cut (grid4.coords t) ((dat4 (F := Ideal) V c).after 2 t) = _
  rw [after4_2]
  funext y
  obtain ⟨r, cc, rfl⟩ : ∃ r cc, y = ix2 r cc := ⟨y 0, y 1, eq_ix2 y⟩
  refine (outC4 V c t (by omega) h1 r cc).trans (congrArg₂ (Cert.Spec.mm (arrA4 V c) (arrB4 V c)) (Fin.ext ?_) (Fin.ext ?_))
  · show 1024 * (t.val / 5) + r.val = win4_2.index t 0 * 1024 + 1 * r.val
    rw [(idx4 t).2.2.2.2.1]; omega
  · show cc.val = win4_2.index t 1 * 512 + 1 * cc.val
    rw [(idx4 t).2.2.2.2.2.1]; omega

theorem cover4 (i : S10240x512.Idx) : ∃ t : Fin cfg4.N, (cfg4.win 2).flush t = true ∧ i ∈ ((cfg4.win 2).blk t).view.set := by
  have h0 : (i 0 : Nat) < 10240 := (i 0).isLt
  have h1 : (i 1 : Nat) < 512 := (i 1).isLt
  have hN : cfg4.N = 50 := N_4
  let t : Fin cfg4.N := ⟨5 * ((i 0 : Nat) / 1024) + 4, by omega⟩
  have ht : t.val = 5 * ((i 0 : Nat) / 1024) + 4 := rfl
  refine ⟨t, (flush4_2 t).mpr (by omega), ?_⟩
  show i ∈ ((View.whole main_v111).slice (win4_2.rect t)).set
  rw [View.set_slice_whole, Rect.mem_set_unit]
  intro a
  match a with
  | ⟨0, _⟩ => show win4_2.index t 0 * 1024 ≤ (i 0 : Nat) ∧ (i 0 : Nat) < win4_2.index t 0 * 1024 + 1024
              rw [(idx4 t).2.2.2.2.1]; omega
  | ⟨1, _⟩ => show win4_2.index t 1 * 512 ≤ (i 1 : Nat) ∧ (i 1 : Nat) < win4_2.index t 1 * 512 + 512
              rw [(idx4 t).2.2.2.2.2.1]; omega

end Value

theorem final4 (V : (c : Dev nD) → (b : Ref sig .tc) → Buf (Elt Ideal) ((c : Thread nD τ).loc b)) (c : Dev nD) :
    (dat4 (F := Ideal) V c).arrAt (2 : Fin cfg4.W) cfg4.N = fun i => Cert.Spec.mm (V c main_v89) (V c main_v110) (i 0) (i 1) :=
  (dat4 (F := Ideal) V c).arrAt_eq_of_cover 2 (result4 V c) (flushed4_eq V c) cover4

end Cert.KernelIdeal.Hand

end
-- ==== Proof.KI.Value5.lean ====
import proofs.«402230_j66554813219093_3_alg».proof.Proof.KI.Region5
import proofs.«402230_j66554813219093_3_alg».proof.Proof.KI.ValueAgg
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open Agg

namespace Val5

theorem pay1_apply (j : S1024x512.Idx) : (k5_pay1 (F := Ideal)) j = 0 := by
  unfold k5_pay1
  simp only [shapeCast_self, broadcast_apply]
  exact Ideal.ofBits_zero_f32

theorem pay2_apply (x0 : Vec Ideal S1024x2048 .bf16) (x1 : Vec Ideal S2048x512 .bf16) (acc : Vec Ideal S1024x512 .f32)
    (r : Fin 1024) (cc : Fin 512) :
    k5_pay2 x0 x1 acc (ix2 r cc) = acc (ix2 r cc) + ∑ q : Fin 2048, x0 (ix2 r q) * x1 (ix2 q cc) := by
  unfold k5_pay2
  simp only [shapeCast_self, addf_apply, matmul]
  rw [Ideal.matmul_constant_zero_apply]
  exact congrArg (acc (ix2 r cc) + ·) (sum_contr x0 x1 r cc)

-- The word of the literal 2.0 is the extended real 2.
theorem two : Ideal.ofBits .f32 0x40000000#32 = (2 : EReal) := by
  rw [show (2 : EReal) = ((2 : ℝ) : EReal) by norm_cast]
  simp [Ideal.ofBits, Ideal.ieee, -EReal.coe_mul]; norm_num

theorem pay3_apply (s : Vec Ideal S1024x512 .f32) (x2 : Vec Ideal S1024x512 .bf16) (y : S1024x512.Idx) :
    k5_pay3 s x2 y = 2 * s y - x2 y := by
  unfold k5_pay3
  simp only [shapeCast_self, truncf_apply, subf_apply, mulf_apply, extf_apply, broadcast_apply]
  rw [show (Scalar.ofBits .f32 0x40000000#32 : Ideal .f32) = (2 : EReal) from two]

section Pieces
variable {F : FTy → Type} [FloatOps F] {c : Dev nD} {i : grid5.Coords}
  {arg2 : Memref sig .tc .vmem S1024x2048 .bf16} {harg2 : arg2.IsWhole} {arg3 : Memref sig .tc .vmem S10240x512 .bf16} {harg3 : arg3.IsWhole}
  {arg4 : Memref sig .tc .vmem S1024x512 .bf16} {harg4 : arg4.IsWhole} {arg5 : Memref sig .tc .vmem S1024x512 .bf16} {harg5 : arg5.IsWhole}
  {arg6 : Memref sig .tc .vmem S1024x512 .f32} {harg6 : arg6.IsWhole}
  {x0 : Vec F S1024x2048 .bf16} {x1 : Vec F S10240x512 .bf16} {x2 : Vec F S1024x512 .bf16} {xs0 : Vec F S1024x512 .f32}

abbrev rB (i : grid5.Coords) : Rect S10240x512 := Rect.unit (s := S10240x512) (k5_off1 i) S2048x512.size (k5_off1_inb i)

theorem sout_A {hc0 : cond5_0 i} {hc1 : ¬cond5_1 i} :
    sout5_A_0 c i arg2 harg2 arg3 harg3 arg4 harg4 arg5 harg5 arg6 harg6 hc0 hc1 x0 x1 x2 = k5_pay2 x0 (View.ld x1 (rB i)) k5_pay1 := by
  unfold sout5_A_0
  rw [View.read_writes_eq_canon _ _ _ (scover5_A_0 _ _ _ _ _ _ _ _ _ _ _ _ _ _ _ _ _)]
  unfold kernelRun5_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x2048) hz]
  rfl

theorem sout_B {hc0 : ¬cond5_0 i} {hc1 : ¬cond5_1 i} :
    sout5_B_0 c i arg2 harg2 arg3 harg3 arg4 harg4 arg5 harg5 arg6 harg6 hc0 hc1 x0 x1 x2 xs0 = k5_pay2 x0 (View.ld x1 (rB i)) xs0 := by
  unfold sout5_B_0
  rw [View.read_writes_eq_canon _ _ _ (scover5_B_0 _ _ _ _ _ _ _ _ _ _ _ _ _ _ _ _ _ _)]
  unfold kernelRun5_B
  dsimp only
  sl_unfold_words
  rw [View.canon_unit_zero hz]
  simp only [View.readAt_eq_ld, harg2.read_unread, harg3.read_unread, harg6.read_unread, View.ld_unit_zero (S := S1024x2048) hz, View.ld_unit_zero (S := S1024x512) hz]
  rfl

theorem sout_C {hc0 : ¬cond5_0 i} {hc1 : cond5_1 i} :
    sout5_C_0 c i arg2 harg2 arg3 harg3 arg4 harg4 arg5 harg5 arg6 harg6 hc0 hc1 x0 x1 x2 xs0 = k5_pay2 x0 (View.ld x1 (rB i)) xs0 := by
  unfold sout5_C_0
  rw [View.read_writes_eq_canon _ _ _ (scover5_C_0 _ _ _ _ _ _ _ _ _ _ _ _ _ _ _ _ _ _)]
  unfold kernelRun5_C
  dsimp only
  sl_unfold_words
  rw [View.canon_unit_zero hz]
  simp only [View.readAt_eq_ld, harg2.read_unread, harg3.read_unread, harg6.read_unread, View.ld_unit_zero (S := S1024x2048) hz, View.ld_unit_zero (S := S1024x512) hz]
  rfl

theorem out_C {hc0 : ¬cond5_0 i} {hc1 : cond5_1 i} :
    out5_C_3 c i arg2 harg2 arg3 harg3 arg4 harg4 arg5 harg5 arg6 harg6 hc0 hc1 x0 x1 x2 xs0 = k5_pay3 (k5_pay2 x0 (View.ld x1 (rB i)) xs0) x2 := by
  unfold out5_C_3
  rw [View.read_writes_eq_canon _ _ _ (cover5_C_3 _ _ _ _ _ _ _ _ _ _ _ _ _ _ _ _ _ _)]
  unfold kernelRun5_C
  dsimp only
  sl_unfold_words
  rw [View.canon_unit_zero hz]
  simp only [View.readAt_eq_ld, harg2.read_unread, harg3.read_unread, harg4.read_unread, harg6.read_unread, View.readCov_unit_zero (S := S1024x512) _ hz, View.ld_unit_zero (S := S1024x2048) hz, View.ld_unit_zero (S := S1024x512) hz]
  rfl

end Pieces

section AtIdeal
variable (V : (c : Dev nD) → (b : Ref sig .tc) → Buf (Elt Ideal) ((c : Thread nD τ).loc b)) (c : Dev nD) (t : Fin cfg5.N)

abbrev Aarr : Vec Ideal S10240x10240 .bf16 := V c main_v89
abbrev Barr : Vec Ideal S10240x512 .bf16 := V c main_v111
abbrev Tarr : Vec Ideal S10240x512 .bf16 := V c main_v110
abbrev blkA : Vec Ideal S1024x2048 .bf16 := iblk5 V c 0 t
abbrev blkB : Vec Ideal S10240x512 .bf16 := iblk5 V c 1 t
abbrev blkT : Vec Ideal S1024x512 .bf16 := iblk5 V c 2 t

theorem idxA : ∀ t : Fin cfg5.N, win5_0.index t 0 = t.val / 5 ∧ win5_0.index t 1 = t.val % 5 := by decide +kernel
theorem idxB : ∀ t : Fin cfg5.N, win5_1.index t 0 = 0 ∧ win5_1.index t 1 = 0 := by decide +kernel
theorem idxC : ∀ t : Fin cfg5.N, win5_2.index t 0 = t.val / 5 ∧ win5_2.index t 1 = 0 := by decide +kernel
theorem idxO : ∀ t : Fin cfg5.N, win5_3.index t 0 = t.val / 5 ∧ win5_3.index t 1 = 0 := by decide +kernel
theorem offB_eq : ∀ t : Fin cfg5.N, k5_off1 (grid5.coords t) 0 = 2048 * (t.val % 5) ∧ k5_off1 (grid5.coords t) 1 = 0 := by decide +kernel

theorem blkA_apply (r : Fin 1024) (q : Fin 2048) :
    blkA V c t (ix2 r q) = Aarr V c (ix2 (w10240 (1024 * (t.val / 5) + r.val)) (w10240 (2048 * (t.val % 5) + q.val))) := by
  have hN : t.val < 50 := lt_of_lt_of_eq t.isLt N_5
  unfold blkA iblk5
  rw [View.read_apply]
  refine congrArg (V c main_v89) (Shape.idx_ext₂ ?_ ?_)
  · show win5_0.index t 0 * 1024 + 1 * r.val = (w10240 (1024 * (t.val / 5) + r.val)).val
    rw [(idxA t).1, w10240_val (by omega)]; omega
  · show win5_0.index t 1 * 2048 + 1 * q.val = (w10240 (2048 * (t.val % 5) + q.val)).val
    rw [(idxA t).2, w10240_val (by omega)]; omega

theorem blkT_apply (r : Fin 1024) (cc : Fin 512) :
    blkT V c t (ix2 r cc) = Tarr V c (ix2 (w10240 (1024 * (t.val / 5) + r.val)) cc) := by
  have hN : t.val < 50 := lt_of_lt_of_eq t.isLt N_5
  unfold blkT iblk5
  rw [View.read_apply]
  refine congrArg (V c main_v110) (Shape.idx_ext₂ ?_ ?_)
  · show win5_2.index t 0 * 1024 + 1 * r.val = (w10240 (1024 * (t.val / 5) + r.val)).val
    rw [(idxC t).1, w10240_val (by omega)]; omega
  · show win5_2.index t 1 * 512 + 1 * cc.val = cc.val
    rw [(idxC t).2]; omega

theorem ldB_apply (q : Fin 2048) (cc : Fin 512) :
    View.ld (blkB V c t) (rB (grid5.coords t)) (ix2 q cc) = Barr V c (ix2 (w10240 (2048 * (t.val % 5) + q.val)) cc) := by
  have hN : t.val < 50 := lt_of_lt_of_eq t.isLt N_5
  show iblk5 V c 1 t ((rB (grid5.coords t)).idx (ix2 q cc)) = _
  unfold iblk5
  rw [View.read_apply]
  refine congrArg (V c main_v111) (Shape.idx_ext₂ ?_ ?_)
  · show win5_1.index t 0 * 10240 + 1 * (k5_off1 (grid5.coords t) 0 + 1 * q.val) = (w10240 (2048 * (t.val % 5) + q.val)).val
    rw [(idxB t).1, (offB_eq t).1, w10240_val (by omega)]; omega
  · show win5_1.index t 1 * 512 + 1 * (k5_off1 (grid5.coords t) 1 + 1 * cc.val) = cc.val
    rw [(idxB t).2, (offB_eq t).2]; omega

-- The block product added at point t = (i, k) is row block i's k-th block of the contracted axis.
theorem block_term (r : Fin 1024) (cc : Fin 512) :
    ∑ q : Fin 2048, blkA V c t (ix2 r q) * View.ld (blkB V c t) (rB (grid5.coords t)) (ix2 q cc)
      = Tk (Aarr V c) (Barr V c) (t.val / 5) (t.val % 5) r cc :=
  Finset.sum_congr rfl fun q _ => by rw [blkA_apply, ldB_apply]

-- One point's update of the accumulator: the block product added to the zero block (k = 0) or to what the point before left.
theorem acc_step : (outsAt5 V c t.val t.isLt).2 = k5_pay2 (blkA V c t) (View.ld (blkB V c t) (rB (grid5.coords t)))
      (if t.val % 5 = 0 then k5_pay1 (F := Ideal) else (outsAt5 V c (t.val - 1) (Nat.lt_of_le_of_lt (Nat.sub_le _ _) t.isLt)).2) := by
  by_cases h0 : t.val % 5 = 0
  · rw [if_pos h0, outsAt5_A V c t h0]; dsimp only [ptA5]; exact sout_A (F := Ideal)
  · rw [if_neg h0]
    by_cases h1 : t.val % 5 = 4
    · rw [outsAt5_C V c t h0 h1]; dsimp only [ptC5]; exact sout_C (F := Ideal)
    · rw [outsAt5_B V c t h0 h1]; dsimp only [ptB5]; exact sout_B (F := Ideal)

-- After point n = (i, k) the accumulator holds the sum of row block i's block products 0 … k: induction on the point.
theorem acc_eq : ∀ (n : ℕ) (h : n < cfg5.N) (r : Fin 1024) (cc : Fin 512),
    ((outsAt5 V c n h).2 : Vec Ideal S1024x512 .f32) (ix2 r cc)
      = ∑ kk ∈ Finset.range (n % 5 + 1), Tk (Aarr V c) (Barr V c) (n / 5) kk r cc
  | 0, h, r, cc => by
    rw [acc_step V c ⟨0, h⟩, pay2_apply, if_pos (Nat.zero_mod 5), pay1_apply, zero_add, block_term]
    simp
  | n + 1, h, r, cc => by
    rw [acc_step V c ⟨n + 1, h⟩, pay2_apply, block_term]
    show _ + Tk _ _ ((n + 1) / 5) ((n + 1) % 5) r cc = _
    by_cases h0 : (n + 1) % 5 = 0
    · rw [if_pos h0, pay1_apply, zero_add, h0]; simp
    · rw [if_neg h0]
      show ((outsAt5 V c n _).2 : Vec Ideal S1024x512 .f32) (ix2 r cc) + _ = _
      rw [acc_eq n (Nat.lt_of_succ_lt h) r cc, show (n + 1) / 5 = n / 5 by omega, show (n + 1) % 5 = n % 5 + 1 by omega]
      exact (Finset.sum_range_succ _ _).symm

-- At a point (i, 4) the output block is the last payload of the accumulator the same point leaves.
theorem out_eq (h0 : ¬t.val % 5 = 0) (h4 : t.val % 5 = 4) :
    (outsAt5 V c t.val t.isLt).1 = k5_pay3 (outsAt5 V c t.val t.isLt).2 (blkT V c t) := by
  rw [outsAt5_C V c t h0 h4]; dsimp only [ptC5]; rw [sout_C]; exact out_C

abbrev Gout : Buf (Elt Ideal) ((c : Thread nD τ).loc main_v112) :=
  fun i => (2 : EReal) * Cert.Spec.mm (Aarr V c) (Barr V c) (i 0) (i 1) - Tarr V c (ix2 (i 0) (i 1))

theorem Gout_blk (r : Fin 1024) (cc : Fin 512) :
    (((cfg5.win 3).blk t).view.read (Elt Ideal) (Gout V c) : S1024x512.Idx → EReal) (ix2 r cc)
      = 2 * Cert.Spec.mm (Aarr V c) (Barr V c) (w10240 (1024 * (t.val / 5) + r.val)) cc - Tarr V c (ix2 (w10240 (1024 * (t.val / 5) + r.val)) cc) := by
  have hN : t.val < 50 := lt_of_lt_of_eq t.isLt N_5
  rw [View.read_apply]
  show Gout V c (((cfg5.win 3).blk t).view.emb (ix2 r cc)) = _
  have e0 : (((cfg5.win 3).blk t).view.emb (ix2 r cc)) 0 = w10240 (1024 * (t.val / 5) + r.val) := Fin.ext (by
    show win5_3.index t 0 * 1024 + 1 * r.val = (w10240 (1024 * (t.val / 5) + r.val)).val
    rw [(idxO t).1, w10240_val (by omega)]; omega)
  have e1 : (((cfg5.win 3).blk t).view.emb (ix2 r cc)) 1 = cc := Fin.ext (by
    show win5_3.index t 1 * 512 + 1 * cc.val = cc.val
    rw [(idxO t).2]; omega)
  show 2 * Cert.Spec.mm (Aarr V c) (Barr V c) ((((cfg5.win 3).blk t).view.emb (ix2 r cc)) 0) ((((cfg5.win 3).blk t).view.emb (ix2 r cc)) 1)
      - Tarr V c (ix2 ((((cfg5.win 3).blk t).view.emb (ix2 r cc)) 0) ((((cfg5.win 3).blk t).view.emb (ix2 r cc)) 1)) = _
  rw [e0, e1]

-- At t = (i, 4) the flushed block is block i of twice the whole product minus the third operand.
theorem flushed_out (hf : (cfg5.win 3).flush t = true) :
    (dat5 (F := Ideal) V c).flushed 3 t = ((cfg5.win 3).blk t).view.read (Elt Ideal) (Gout V c) := by
  have h4 : t.val % 5 = 4 := (flush5_3 t).mp hf
  show (cfg5.win 3).cut (grid5.coords t) ((dat5 (F := Ideal) V c).after 3 t) = _
  rw [after5_3]
  refine ext_blk _ _ fun r cc => (Eq.trans ?_ (Gout_blk V c t r cc).symm)
  show ((outsAt5 V c t.val t.isLt).1 : Vec Ideal S1024x512 .bf16) (ix2 r cc) = _
  rw [out_eq V c t (by omega) h4, pay3_apply, acc_eq V c t.val t.isLt r cc, blkT_apply, h4]
  show 2 * (∑ kk ∈ Finset.range 5, Tk (Aarr V c) (Barr V c) (t.val / 5) kk r cc) - _ = _
  rw [sum_Tk]

-- An entry of row block i lies in the block of every point of that row block.
theorem mem_blk (i : S10240x512.Idx) (h : t.val / 5 = (i 0 : ℕ) / 1024) : i ∈ ((cfg5.win 3).blk t).view.set := by
  have h1 : (i 1 : ℕ) < 512 := (i 1).isLt
  show i ∈ ((View.whole main_v112).slice (win5_3.rect t)).set
  rw [View.set_slice_whole, Rect.mem_set_unit]
  intro a
  match a with
  | ⟨0, _⟩ =>
    show win5_3.index t 0 * 1024 ≤ (i 0 : ℕ) ∧ (i 0 : ℕ) < win5_3.index t 0 * 1024 + 1024
    rw [(idxO t).1]; omega
  | ⟨1, _⟩ =>
    show win5_3.index t 1 * 512 ≤ (i 1 : ℕ) ∧ (i 1 : ℕ) < win5_3.index t 1 * 512 + 512
    rw [(idxO t).2]; omega

theorem cover_out (i : S10240x512.Idx) : ∃ t : Fin cfg5.N, (cfg5.win 3).flush t = true ∧ i ∈ ((cfg5.win 3).blk t).view.set := by
  have h0 : (i 0 : ℕ) < 10240 := (i 0).isLt
  have hN : cfg5.N = 50 := N_5
  have hT : 5 * ((i 0 : ℕ) / 1024) + 4 < cfg5.N := by omega
  exact ⟨⟨_, hT⟩, (flush5_3 _).mpr (by show (5 * ((i 0 : ℕ) / 1024) + 4) % 5 = 4; omega),
    mem_blk ⟨_, hT⟩ i (by show (5 * ((i 0 : ℕ) / 1024) + 4) / 5 = _; omega)⟩

end AtIdeal

end Val5

theorem final5 (V : (c : Dev nD) → (b : Ref sig .tc) → Buf (Elt Ideal) ((c : Thread nD τ).loc b)) (c : Dev nD) :
    (dat5 (F := Ideal) V c).arrAt (3 : Fin cfg5.W) cfg5.N
      = fun i => (2 : EReal) * Cert.Spec.mm (V c main_v89) (V c main_v111) (i 0) (i 1) - (V c main_v110 : S10240x512.Idx → EReal) i :=
  ((dat5 (F := Ideal) V c).arrAt_eq_of_cover 3 (Val5.Gout V c) (Val5.flushed_out V c) Val5.cover_out).trans
    (funext fun i => congrArg (fun z : S10240x512.Idx => (2 : EReal) * Cert.Spec.mm (V c main_v89) (V c main_v111) (i 0) (i 1) - (V c main_v110 : S10240x512.Idx → EReal) z) (eq_ix2 i).symm)

end Cert.KernelIdeal.Hand

end
-- ==== Proof.KI.Value6.lean ====
import proofs.«402230_j66554813219093_3_alg».proof.Proof.KI.Region6
import proofs.«402230_j66554813219093_3_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- Without rounding, the product into a zero accumulator is the plain sum over the contracted axis.
theorem matmul6_apply (a : FVec Ideal S1024x512 .bf16) (b : FVec Ideal S512x256 .bf16) (p : Fin 1024) (q : Fin 256) :
    matmul (F := Ideal) dot_S1024x512_S512x256_S1024x256_1_0_0_1_n_n none a b (constant (F := Ideal) S1024x256 .f32 0x00000000#32) (ix2 p q) = Cert.Spec.mm a b p q := by
  unfold Cert.Spec.mm
  show FloatOps.matmul dot_S1024x512_S512x256_S1024x256_1_0_0_1_n_n none a b (constant (F := Ideal) S1024x256 .f32 0x00000000#32) (ix2 p q) = _
  rw [Ideal.matmul_constant_zero_apply]
  refine Eq.trans (Finset.sum_congr rfl fun k _ => ?_)
    (Equiv.sum_comp (contrEquiv1 dot_S1024x512_S512x256_S1024x256_1_0_0_1_n_n 512 rfl rfl) fun k : Fin 512 => a (ix2 p k) * b (ix2 k q))
  refine congrArg₂ (· * ·) (congrArg a (funext fun x => Fin.ext ?_)) (congrArg b (funext fun x => Fin.ext ?_))
  · match x with
    | ⟨0, _⟩ => rfl
    | ⟨1, _⟩ => rfl
  · match x with
    | ⟨0, _⟩ => rfl
    | ⟨1, _⟩ => rfl

theorem select_ogt_zero (y a b : EReal) :
    Scalar.select (Ideal.cmp .ogt y 0) a b = if 0 < y then a else b := by
  unfold Ideal.cmp Scalar.select
  by_cases h : 0 < y <;> simp [h]

-- The body's payload at an entry: the three products summed, the bias row added, and CELU of the sum.
theorem pay6_apply (x0 x1 x2 : Vec Ideal S1024x512 .bf16) (x3 x4 x5 : Vec Ideal S512x256 .bf16) (x6 : Vec Ideal S1x256 .f32)
    (p : Fin 1024) (q : Fin 256) :
    k6_pay1 (F := Ideal) x0 x1 x2 x3 x4 x5 x6 (ix2 p q)
      = Cert.Spec.celuK (Cert.Spec.mm x0 x3 p q + Cert.Spec.mm x1 x4 p q + Cert.Spec.mm x2 x5 p q + x6 (ix2 0 q)) := by
  unfold k6_pay1
  simp only [shapeCast_self]
  rw [select_apply, cmpf_apply, subf_apply, broadcast_apply, broadcast_apply]
  have hb : broadcastTo S1024x256 x6 broadcasts_S1x256_S1024x256 (ix2 p q) = x6 (ix2 0 q) :=
    broadcastTo_apply x6 broadcasts_S1x256_S1024x256 (ix2 p q) (ix2 0 q) (fun a => by
      match a with
      | ⟨0, _⟩ => rfl
      | ⟨1, _⟩ => rfl)
  show Scalar.select (Ideal.cmp .ogt _ (Ideal.ofBits .f32 0x00000000#32)) _ (Ideal.exp (addf (F := Ideal) _ _ (ix2 p q)) - Ideal.ofBits .f32 0x3F800000#32) = _
  simp only [addf_apply, matmul6_apply, hb]
  rw [Ideal.ofBits_zero_f32, Ideal.ofBits_one_f32, select_ogt_zero]
  rfl

variable (V : (c : Dev nD) → (b : Ref sig .tc) → Buf (Elt Ideal) ((c : Thread nD τ).loc b))

theorem hz6 : (![0, 0] : Fin 2 → Nat) = fun _ => 0 := funext fun a => by fin_cases a <;> rfl

def G6 (c : Dev nD) : S10240x256.Idx → EReal := fun i =>
  Cert.Spec.celuK (Cert.Spec.mm (V c main_v110) (V c main_v98) (i 0) (i 1) + Cert.Spec.mm (V c main_v111) (V c main_v101) (i 0) (i 1) + Cert.Spec.mm (V c main_v112) (V c main_v104) (i 0) (i 1) + (V c main_v113 : S1x256.Idx → EReal) (ix2 0 (i 1)))

-- The left operands and the output move by row blocks with the point; the right operands and the bias row stay.
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

-- What point t writes back is row block t of the target: each block entry is the matching array entry.
theorem flushed6_eq (c : Dev nD) (t : Fin cfg6.N) :
    (dat6 (F := Ideal) V c).flushed 7 t = ((cfg6.win 7).blk t).view.read (Elt Ideal) (G6 V c) := by
  show (cfg6.win 7).cut (grid6.coords t) ((dat6 (F := Ideal) V c).after 7 t) = _
  rw [after6_7]
  unfold out6_7
  rw [View.canon_unit_zero hz6]
  simp only [View.ld_unit_zero (S := S1024x512) hz6, View.ld_unit_zero (S := S512x256) hz6, View.ld_unit_zero (S := S1x256) hz6]
  obtain ⟨e00, e01, e10, e11, e20, e21, e30, e31, e40, e41, e50, e51, e60, e61, e70, e71⟩ := idx_facts6 t
  have ht : t.val < 10 := lt_of_lt_of_eq t.isLt N_6
  funext j
  obtain ⟨p, q, rfl⟩ : ∃ (p : Fin 1024) (q : Fin 256), j = ix2 p q := ⟨j 0, j 1, eq_ix2 j⟩
  have hp : p.val < 1024 := p.isLt
  have hr : t.val * 1024 + p.val < 10240 := by omega
  have he : ((cfg6.win 7).blk t).view.emb (ix2 p q) = ix2 (⟨t.val * 1024 + p.val, hr⟩ : Fin 10240) q := by
    funext a; apply Fin.ext
    match a with
    | ⟨0, _⟩ => show win6_7.index t (0 : Fin 2) * 1024 + 1 * p.val = t.val * 1024 + p.val; omega
    | ⟨1, _⟩ => show win6_7.index t (1 : Fin 2) * 256 + 1 * q.val = q.val; omega
  show k6_pay1 (F := Ideal) (iblk6 V c 0 t) (iblk6 V c 1 t) (iblk6 V c 2 t) (iblk6 V c 3 t) (iblk6 V c 4 t) (iblk6 V c 5 t) (iblk6 V c 6 t) (ix2 p q)
    = G6 V c (((cfg6.win 7).blk t).view.emb (ix2 p q))
  rw [he, pay6_apply]
  unfold G6 Cert.Spec.mm
  refine congrArg Cert.Spec.celuK (congrArg₂ (· + ·) (congrArg₂ (· + ·) (congrArg₂ (· + ·)
    (Finset.sum_congr rfl fun k _ => congrArg₂ (· * ·) (congrArg (V c main_v110) (funext fun a => Fin.ext ?_)) (congrArg (V c main_v98) (funext fun a => Fin.ext ?_)))
    (Finset.sum_congr rfl fun k _ => congrArg₂ (· * ·) (congrArg (V c main_v111) (funext fun a => Fin.ext ?_)) (congrArg (V c main_v101) (funext fun a => Fin.ext ?_))))
    (Finset.sum_congr rfl fun k _ => congrArg₂ (· * ·) (congrArg (V c main_v112) (funext fun a => Fin.ext ?_)) (congrArg (V c main_v104) (funext fun a => Fin.ext ?_))))
    (congrArg (V c main_v113) (funext fun a => Fin.ext ?_)))
  · match a with
    | ⟨0, _⟩ => show win6_0.index t (0 : Fin 2) * 1024 + 1 * p.val = t.val * 1024 + p.val; omega
    | ⟨1, _⟩ => show win6_0.index t (1 : Fin 2) * 512 + 1 * k.val = k.val; omega
  · match a with
    | ⟨0, _⟩ => show win6_3.index t (0 : Fin 2) * 512 + 1 * k.val = k.val; omega
    | ⟨1, _⟩ => show win6_3.index t (1 : Fin 2) * 256 + 1 * q.val = q.val; omega
  · match a with
    | ⟨0, _⟩ => show win6_1.index t (0 : Fin 2) * 1024 + 1 * p.val = t.val * 1024 + p.val; omega
    | ⟨1, _⟩ => show win6_1.index t (1 : Fin 2) * 512 + 1 * k.val = k.val; omega
  · match a with
    | ⟨0, _⟩ => show win6_4.index t (0 : Fin 2) * 512 + 1 * k.val = k.val; omega
    | ⟨1, _⟩ => show win6_4.index t (1 : Fin 2) * 256 + 1 * q.val = q.val; omega
  · match a with
    | ⟨0, _⟩ => show win6_2.index t (0 : Fin 2) * 1024 + 1 * p.val = t.val * 1024 + p.val; omega
    | ⟨1, _⟩ => show win6_2.index t (1 : Fin 2) * 512 + 1 * k.val = k.val; omega
  · match a with
    | ⟨0, _⟩ => show win6_5.index t (0 : Fin 2) * 512 + 1 * k.val = k.val; omega
    | ⟨1, _⟩ => show win6_5.index t (1 : Fin 2) * 256 + 1 * q.val = q.val; omega
  · match a with
    | ⟨0, _⟩ => show win6_6.index t (0 : Fin 2) * 1 + 1 * (0 : Fin 1).val = (0 : Fin 1).val; omega
    | ⟨1, _⟩ => show win6_6.index t (1 : Fin 2) * 256 + 1 * q.val = q.val; omega

-- The ten row blocks fill the output array: row r is in the block of point r / 1024.
theorem cover6 (i : S10240x256.Idx) :
    ∃ t : Fin cfg6.N, (cfg6.win 7).flush t = true ∧ i ∈ ((cfg6.win 7).blk t).view.set := by
  have hi0 : (i 0).val < 10240 := (i 0).isLt
  have hi1 : (i 1).val < 256 := (i 1).isLt
  have hN : cfg6.N = 10 := N_6
  let t : Fin cfg6.N := ⟨(i 0).val / 1024, by omega⟩
  have ht : t.val = (i 0).val / 1024 := rfl
  obtain ⟨-, -, -, -, -, -, -, -, -, -, -, -, -, -, e70, e71⟩ := idx_facts6 t
  refine ⟨t, flush6_7 _, ?_⟩
  show i ∈ ((View.whole main_v114).slice (win6_7.rect t)).set
  rw [View.set_slice_whole, Rect.mem_set_unit]
  intro a
  match a with
  | ⟨0, _⟩ => show win6_7.index t (0 : Fin 2) * 1024 ≤ (i 0).val ∧ (i 0).val < win6_7.index t (0 : Fin 2) * 1024 + 1024; omega
  | ⟨1, _⟩ => show win6_7.index t (1 : Fin 2) * 256 ≤ (i 1).val ∧ (i 1).val < win6_7.index t (1 : Fin 2) * 256 + 256; omega

theorem final6 (c : Dev nD) :
    (dat6 (F := Ideal) V c).arrAt (7 : Fin cfg6.W) cfg6.N
      = fun i => Cert.Spec.celuK (Cert.Spec.mm (V c main_v110) (V c main_v98) (i 0) (i 1) + Cert.Spec.mm (V c main_v111) (V c main_v101) (i 0) (i 1) + Cert.Spec.mm (V c main_v112) (V c main_v104) (i 0) (i 1) + (V c main_v113 : S1x256.Idx → EReal) (ix2 0 (i 1))) :=
  (dat6 (F := Ideal) V c).arrAt_eq_of_cover 7 (G6 V c) (fun t _ => flushed6_eq V c t) cover6

end Cert.KernelIdeal.Hand

end
-- ==== Proof.BridgeDefs.lean ====
import proofs.«402230_j66554813219093_3_alg».proof.Proof.Spec

noncomputable section

namespace Cert.Bridge

open Idealize.ShloMosaic Idealize.ShloMosaic.ValueIdx Cert.Spec

abbrev T (a b : Nat) : Shape := ⟨2, ![a, b]⟩

def dense {R : Nat} (dst src : Fin R → ℤ) (coef : Fin R → EReal) (i j : Fin 10240) : EReal :=
  0 + ∑ e ∈ Finset.univ.filter (fun e : Fin R => dst e = (i.val : ℤ) ∧ src e = (j.val : ℤ)), coef e

def denseArr {R : Nat} (dst src : Fin R → ℤ) (coef : Fin R → EReal) : (T 10240 10240).Idx → EReal :=
  fun i => dense dst src coef (i 0) (i 1)

def clampRow (z : ℤ) : Fin 10000 := ⟨min z.toNat 9999, by omega⟩

def segsum {R : Nat} (dst src : Fin R → ℤ) (coef : Fin R → EReal) (H : (T 10000 512).Idx → EReal)
    (c : Fin 10000) (f : Fin 512) : EReal :=
  0 + ∑ e ∈ Finset.univ.filter (fun e : Fin R => dst e = (c.val : ℤ)), coef e * H (ix2 (clampRow (src e)) f)

section Pipelines

variable (x : (T 10000 512).Idx → EReal) (W1 W2 : (T 512 512).Idx → EReal) (b1 b2 : Fin 512 → EReal)
  (Wc0 Wc1 Wc2 : (T 512 256).Idx → EReal) (bc : Fin 256 → EReal)
  {Rg : Nat} (gdst gsrc : Fin Rg → ℤ) (gcoef : Fin Rg → EReal)
  {Rc : Nat} (cdst csrc : Fin Rc → ℤ) (ccoef : Fin Rc → EReal)

def xpad : (T 10240 512).Idx → EReal :=
  fun i => if h : (i 0).val < 10000 then x (ix2 ⟨(i 0).val, h⟩ (i 1)) else 0

def K1mid : (T 10240 512).Idx → EReal := fun i => mm (xpad x) W1 (i 0) (i 1)
def K1 : (T 10240 512).Idx → EReal :=
  fun i => celuK (mm (denseArr gdst gsrc gcoef) (K1mid x W1) (i 0) (i 1) + b1 (i 1))
def K2mid : (T 10240 512).Idx → EReal := fun i => mm (K1 x W1 b1 gdst gsrc gcoef) W2 (i 0) (i 1)
def K2 : (T 10240 512).Idx → EReal :=
  fun i => celuK (mm (denseArr gdst gsrc gcoef) (K2mid x W1 W2 b1 gdst gsrc gcoef) (i 0) (i 1) + b2 (i 1))

def KT1 : (T 10240 512).Idx → EReal :=
  fun i => mm (denseArr cdst csrc (fun e => -ccoef e)) (K2 x W1 W2 b1 b2 gdst gsrc gcoef) (i 0) (i 1)
def KT2 : (T 10240 512).Idx → EReal :=
  fun i => (2 : EReal) * mm (denseArr cdst csrc (fun e => -ccoef e)) (KT1 x W1 W2 b1 b2 gdst gsrc gcoef cdst csrc ccoef) (i 0) (i 1)
    - K2 x W1 W2 b1 b2 gdst gsrc gcoef i
def Kout : (T 10240 256).Idx → EReal :=
  fun i => celuK (mm (K2 x W1 W2 b1 b2 gdst gsrc gcoef) Wc0 (i 0) (i 1)
      + mm (KT1 x W1 W2 b1 b2 gdst gsrc gcoef cdst csrc ccoef) Wc1 (i 0) (i 1)
      + mm (KT2 x W1 W2 b1 b2 gdst gsrc gcoef cdst csrc ccoef) Wc2 (i 0) (i 1) + bc (i 1))

def Kres : (T 10000 256).Idx → EReal :=
  fun i => Kout x W1 W2 b1 b2 Wc0 Wc1 Wc2 bc gdst gsrc gcoef cdst csrc ccoef (ix2 ⟨(i 0).val, by have := idx2_lt0 i; omega⟩ (i 1))

def R1mid : (T 10000 512).Idx → EReal := fun i => mm x W1 (i 0) (i 1)
def R1 : (T 10000 512).Idx → EReal :=
  fun i => celuR (segsum gdst gsrc gcoef (R1mid x W1) (i 0) (i 1) + b1 (i 1))
def R2mid : (T 10000 512).Idx → EReal := fun i => mm (R1 x W1 b1 gdst gsrc gcoef) W2 (i 0) (i 1)
def R2 : (T 10000 512).Idx → EReal :=
  fun i => celuR (segsum gdst gsrc gcoef (R2mid x W1 W2 b1 gdst gsrc gcoef) (i 0) (i 1) + b2 (i 1))
def RT1 : (T 10000 512).Idx → EReal :=
  fun i => -segsum cdst csrc ccoef (R2 x W1 W2 b1 b2 gdst gsrc gcoef) (i 0) (i 1)
def RT2 : (T 10000 512).Idx → EReal :=
  fun i => (2 : EReal) * (-segsum cdst csrc ccoef (RT1 x W1 W2 b1 b2 gdst gsrc gcoef cdst csrc ccoef) (i 0) (i 1))
    - R2 x W1 W2 b1 b2 gdst gsrc gcoef i
def Rres : (T 10000 256).Idx → EReal :=
  fun i => celuR (mm (R2 x W1 W2 b1 b2 gdst gsrc gcoef) Wc0 (i 0) (i 1)
      + mm (RT1 x W1 W2 b1 b2 gdst gsrc gcoef cdst csrc ccoef) Wc1 (i 0) (i 1)
      + mm (RT2 x W1 W2 b1 b2 gdst gsrc gcoef cdst csrc ccoef) Wc2 (i 0) (i 1) + bc (i 1))

end Pipelines

end Cert.Bridge

end
-- ==== Proof.KI.HostVals.lean ====
import proofs.«402230_j66554813219093_3_alg».proof.Proof.Gen.KernelIdeal.Regions
import proofs.«402230_j66554813219093_3_alg».proof.Proof.BridgeDefs
import Idealize.ShloMosaic.PureOps.Ideal.Laws
import Idealize.ShloMosaic.Lib.ValueIdx
import Idealize.ShloMosaic.Lib.Pipeline.Value
import Idealize.ShloMosaic.Lib.ValueLayout

noncomputable section

namespace Cert.BlockScatter

open Idealize.ShloMosaic Idealize.ShloMosaic.ValueIdx

-- Read at i', a fold of overwriting steps holds what the steps landing on i' write, or the start's value when none lands there.
theorem foldl_overwrite_apply {ι κ α : Type} (g : κ → Option ι) (w : κ → α) (step : (ι → α) → κ → ι → α) (i' : ι)
    (hs : ∀ r n, g n = some i' → step r n i' = w n) (hn : ∀ r n, g n ≠ some i' → step r n i' = r i') (v : α) :
    ∀ l : List κ, (∀ n ∈ l, g n = some i' → w n = v) → ∀ x : ι → α, ((∃ n ∈ l, g n = some i') ∨ x i' = v) →
      l.foldl step x i' = v
  | [], _, _, h => h.elim (fun ⟨_, hm, _⟩ => absurd hm List.not_mem_nil) id
  | a :: t, hv, x, h => by
    rw [List.foldl_cons]
    refine foldl_overwrite_apply g w step i' hs hn v t (fun n hm => hv n (List.mem_cons_of_mem _ hm)) _ ?_
    by_cases ha : g a = some i'
    · exact .inr ((hs _ _ ha).trans (hv a List.mem_cons_self ha))
    · exact h.imp (fun ⟨n, hm, hg⟩ => ⟨n, (List.mem_cons.mp hm).resolve_left fun e => ha (e ▸ hg), hg⟩)
        fun h => (hn _ _ ha).trans h

abbrev blockDims (N C R : Nat)
    (wf : ScatterDims.WF ⟨2, ![N, C]⟩ ⟨1, ![1]⟩ ⟨2, ![R, C]⟩ [0, 1] [] [0] 0) :
    ScatterDims ⟨2, ![N, C]⟩ ⟨1, ![1]⟩ ⟨2, ![R, C]⟩ where
  updateWindowDims := [0, 1]
  insertedWindowDims := []
  scatterDimsToOperandDims := [0]
  indexVectorDim := 0
  wf := wf

variable {N C R w : Nat}
  (wf : ScatterDims.WF ⟨2, ![N, C]⟩ ⟨1, ![1]⟩ ⟨2, ![R, C]⟩ [0, 1] [] [0] 0) (hRN : R ≤ N)
  (idx : IVec ⟨1, ![1]⟩ w) (hidx : ∀ k, (idx k).toInt = 0)

include hidx in
-- The one start index is zero, and the column axis is not indexed.
theorem start_eq (j : (⟨2, ![R, C]⟩ : Shape).Idx) (a : Fin 2) : (blockDims N C R wf).start j idx a = 0 := by
  unfold ScatterDims.start
  split
  exacts [hidx _, rfl]

-- Both axes of the updates are window axes.
theorem window_eq (j : (⟨2, ![R, C]⟩ : Shape).Idx) (a : Fin 2) : (blockDims N C R wf).window j a = (j a).val :=
  match a with
  | ⟨0, _⟩ => (dif_pos (by simp [ScatterDims.sKept, Shape.kept])).trans rfl
  | ⟨1, _⟩ => (dif_pos (by simp [ScatterDims.sKept, Shape.kept])).trans rfl

include hidx in
-- With the start zero, update (e, c) lands on table element (e, c), inside the table since the block has no more rows.
theorem resultIdx?_eq (e : Fin R) (c : Fin C) :
    (blockDims N C R wf).resultIdx? (ix2 e c) idx = some (ix2 ⟨e.val, Nat.lt_of_lt_of_le e.isLt hRN⟩ c) := by
  have key : ∀ a, (blockDims N C R wf).start (ix2 e c) idx a + ((blockDims N C R wf).window (ix2 e c) a : Nat)
      = (((ix2 ⟨e.val, Nat.lt_of_lt_of_le e.isLt hRN⟩ c : (⟨2, ![N, C]⟩ : Shape).Idx) a).val : Int) := fun a => by
    rw [start_eq wf idx hidx, window_eq, zero_add]
    match a with
    | ⟨0, _⟩ => rfl
    | ⟨1, _⟩ => rfl
  unfold ScatterDims.resultIdx?
  split
  · exact congrArg some (funext fun a => Fin.ext ((congrArg Int.toNat (key a)).trans (Int.toNat_natCast _)))
  · next h => exact absurd (fun a => key a ▸ ⟨Int.natCast_nonneg _, Int.ofNat_lt.mpr (Fin.isLt _)⟩) h

include hidx hRN in
-- The overwriting scatter of one block at start zero, read at (i, c): the block's entry on its rows, the table's below.
theorem scatter_block_apply {α : Type} (x : (⟨2, ![N, C]⟩ : Shape).Idx → α) (upd : (⟨2, ![R, C]⟩ : Shape).Idx → α)
    (i : Fin N) (c : Fin C) :
    Host.scatter (blockDims N C R wf) (fun _ b => b) x idx upd (ix2 i c)
      = if h : i.val < R then upd (ix2 ⟨i.val, h⟩ c) else x (ix2 i c) := by
  unfold Host.scatter
  refine foldl_overwrite_apply
    (fun n => (blockDims N C R wf).resultIdx? ((⟨2, ![R, C]⟩ : Shape).rowMajor.symm n) idx)
    (fun n => upd ((⟨2, ![R, C]⟩ : Shape).rowMajor.symm n)) _ (ix2 i c) ?_ ?_ _ _ ?_ x ?_
  · intro r n h
    dsimp only at h ⊢
    rw [h]
    exact if_pos rfl
  · intro r n h
    generalize (blockDims N C R wf).resultIdx? ((⟨2, ![R, C]⟩ : Shape).rowMajor.symm n) idx = o at h ⊢
    cases o with
    | none => rfl
    | some j =>
      show (if ix2 i c = j then _ else r (ix2 i c)) = r (ix2 i c)
      exact if_neg fun e => h (congrArg some e.symm)
  · intro n _ h
    obtain ⟨a, b, hab⟩ : ∃ a b, (⟨2, ![R, C]⟩ : Shape).rowMajor.symm n = ix2 a b := ⟨_, _, eq_ix2 _⟩
    rw [hab] at h ⊢
    rw [resultIdx?_eq wf hRN idx hidx] at h
    have hf := Option.some.inj h
    have h0 : a.val = i.val := congrArg (fun f : (⟨2, ![N, C]⟩ : Shape).Idx => (f (0 : Fin 2)).val) hf
    have h1 : b.val = c.val := congrArg (fun f : (⟨2, ![N, C]⟩ : Shape).Idx => (f (1 : Fin 2)).val) hf
    have hi : i.val < R := h0 ▸ a.isLt
    rw [dif_pos hi]
    exact congrArg upd (by rw [show a = ⟨i.val, hi⟩ from Fin.ext h0, show b = c from Fin.ext h1])
  · by_cases hi : i.val < R
    · refine .inl ⟨(⟨2, ![R, C]⟩ : Shape).rowMajor (ix2 ⟨i.val, hi⟩ c), List.mem_finRange _, ?_⟩
      rw [Equiv.symm_apply_apply, resultIdx?_eq wf hRN idx hidx]
    · right
      rw [dif_neg hi]

end Cert.BlockScatter

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

-- The last stretch before the first region writes the values wanted here in its last seventeen operations: it is cut there.
abbrev W7 : Valuation τ sig (Elt Ideal) := StableHlo.after (hostOps0_6.take 42) (V6 m c)

theorem V7_eq_tail (r : DevRef τ sig) : V7 m c r = StableHlo.after (hostOps0_6.drop 42) (W7 m c) r :=
  (congrArg (fun l => StableHlo.after l (V6 m c) r) (List.take_append_drop 42 hostOps0_6).symm).trans
    (congrFun (StableHlo.after_append _ _ _) r)

-- A reference no host stretch before the first region writes holds its launch contents there, and at the cut.
theorem arg_V7 (r : Ref sig .tc) (h0 : r ∉ hostOps0_W := by decide) (h1 : r ∉ hostOps0_1_W := by decide)
    (h2 : r ∉ hostOps0_2_W := by decide) (h3 : r ∉ hostOps0_3_W := by decide) (h4 : r ∉ hostOps0_4_W := by decide)
    (h5 : r ∉ hostOps0_5_W := by decide) (h6 : r ∉ hostOps0_6_W := by decide) :
    V7 m c r = m ((c : Thread nD τ).loc r) ∧ W7 m c r = m ((c : Thread nD τ).loc r) :=
  have e : V6 m c r = m ((c : Thread nD τ).loc r) :=
    (V6_of m c r h5).trans <| (V5_of m c r h4).trans <| (V4_of m c r h3).trans <| (V3_of m c r h2).trans <|
      (V2_of m c r h1).trans <| (V1_of m c r h0).trans rfl
  ⟨(V7_of m c r h6).trans e, (StableHlo.after_of_writes_sub _ _ (List.forall_iff_forall_mem.mpr fun op hop =>
    List.forall_iff_forall_mem.mp hostOps0_6_writes op (List.mem_of_mem_take hop)) h6).trans e⟩

-- Over the extended reals a bf16 copy is the array itself.
theorem hv94 : (V7 m c main_v94 : S512x512.Idx → EReal) = m ((c : Thread nD τ).loc main_arg3) := by
  rw [V7_eq_tail, ← (arg_V7 m c main_arg3).2]
  generalize W7 m c = W
  conv in (List.drop _ _) => whnf
  after_results
  rfl

theorem hv95 : (V7 m c main_v95 : S512x512.Idx → EReal) = m ((c : Thread nD τ).loc main_arg5) := by
  rw [V7_eq_tail, ← (arg_V7 m c main_arg5).2]
  generalize W7 m c = W
  conv in (List.drop _ _) => whnf
  after_results
  rfl

-- Plane k of a [3, 512, 256] array, sliced out, its unit axis dropped and copied to bf16, is the array at (k, ·, ·).
theorem plane_apply (k : Nat) (hk : k < 3) (X : FVec Ideal S3x512x256 .f32)
    (hs : S3x512x256.Slices ![k, 0, 0] S1x512x256) (i : S512x256.Idx) :
    (truncf .bf16 (shapeCast S512x256 (extractStridedSlice S1x512x256 ![k, 0, 0] X hs)
        shapeCasts_S1x512x256_S512x256 : FVec Ideal S512x256 .f32) bitsLt_bf16_f32 : FVec Ideal S512x256 .bf16) i
    = X (ix3 ⟨k, hk⟩ (i 0) (i 1)) := by
  obtain ⟨p, q, rfl⟩ : ∃ (p : Fin 512) (q : Fin 256), i = ix2 p q := ⟨i 0, i 1, eq_ix2 i⟩
  rw [truncf_apply, shapeCast_1ab_ab_apply]
  exact extractStridedSlice_apply _ _ _ _ _ fun a => match a with
    | ⟨0, _⟩ => by show k = k + 0; omega
    | ⟨1, _⟩ => by show p.val = 0 + p.val; omega
    | ⟨2, _⟩ => by show q.val = 0 + q.val; omega

theorem hv98 : (V7 m c main_v98 : S512x256.Idx → EReal)
    = fun i => (m ((c : Thread nD τ).loc main_arg7) : S3x512x256.Idx → EReal) (ix3 0 (i 0) (i 1)) := by
  rw [V7_eq_tail, ← (arg_V7 m c main_arg7).2]
  generalize W7 m c = W
  conv in (List.drop _ _) => whnf
  after_results
  exact funext fun i => plane_apply 0 (by omega) _ _ i

theorem hv101 : (V7 m c main_v101 : S512x256.Idx → EReal)
    = fun i => (m ((c : Thread nD τ).loc main_arg7) : S3x512x256.Idx → EReal) (ix3 1 (i 0) (i 1)) := by
  rw [V7_eq_tail, ← (arg_V7 m c main_arg7).2]
  generalize W7 m c = W
  conv in (List.drop _ _) => whnf
  after_results
  exact funext fun i => plane_apply 1 (by omega) _ _ i

theorem hv104 : (V7 m c main_v104 : S512x256.Idx → EReal)
    = fun i => (m ((c : Thread nD τ).loc main_arg7) : S3x512x256.Idx → EReal) (ix3 2 (i 0) (i 1)) := by
  rw [V7_eq_tail, ← (arg_V7 m c main_arg7).2]
  generalize W7 m c = W
  conv in (List.drop _ _) => whnf
  after_results
  exact funext fun i => plane_apply 2 (by omega) _ _ i

-- The features written at row 0 into 10240 rows of zeros: the features on the first 10000 rows, zero below.
theorem hv93 : (V7 m c main_v93 : S10240x512.Idx → EReal)
    = Cert.Bridge.xpad (m ((c : Thread nD τ).loc main_arg0)) := by
  rw [V7_eq_tail, ← (arg_V7 m c main_arg0).2]
  generalize W7 m c = W
  conv in (List.drop _ _) => whnf
  after_results
  funext i
  obtain ⟨p, q, rfl⟩ : ∃ (p : Fin 10240) (q : Fin 512), i = ix2 p q := ⟨i 0, i 1, eq_ix2 i⟩
  rw [truncf_apply]
  refine (Cert.BlockScatter.scatter_block_apply scatter_S10240x512_S1_S10000x512_01_n_0_0_wf (by omega) _ (fun k => ?_) _ _ p q).trans ?_
  · exact (by decide : (0#32 : BitVec 32).toInt = 0)
  exact dite_congr rfl (fun _ => rfl) fun _ => Ideal.ofBits_zero_f32

-- From the first region's entry on, nothing but the regions' outputs and the three reshaped biases is written.
theorem carry_from7 (r : Ref sig .tc) (h8 : r ∉ [main_v105] := by decide) (h9 : r ∉ hostOps1_W := by decide)
    (h10 : r ∉ [main_v107] := by decide) (h11 : r ∉ [main_v108] := by decide)
    (h12 : r ∉ hostOps3_W := by decide) (h13 : r ∉ [main_v110] := by decide)
    (h14 : r ∉ [main_v111] := by decide) (h15 : r ∉ [main_v112] := by decide)
    (h16 : r ∉ hostOps6_W := by decide) :
    V8 m outs c r = V7 m c r ∧ V9 m outs c r = V7 m c r ∧ V10 m outs c r = V7 m c r ∧ V11 m outs c r = V7 m c r
      ∧ V12 m outs c r = V7 m c r ∧ V13 m outs c r = V7 m c r ∧ V14 m outs c r = V7 m c r ∧ V15 m outs c r = V7 m c r
      ∧ V16 m outs c r = V7 m c r :=
  have e8 := V8_of m outs c r h8
  have e9 := (V9_of m outs c r h9).trans e8
  have e10 := (V10_of m outs c r h10).trans e9
  have e11 := (V11_of m outs c r h11).trans e10
  have e12 := (V12_of m outs c r h12).trans e11
  have e13 := (V13_of m outs c r h13).trans e12
  have e14 := (V14_of m outs c r h14).trans e13
  have e15 := (V15_of m outs c r h15).trans e14
  ⟨e8, e9, e10, e11, e12, e13, e14, e15, (V16_of m outs c r h16).trans e15⟩

-- A bias reshaped to one row.
theorem hv106 : (V9 m outs c main_v106 : S1x512.Idx → EReal)
    = fun i => (m ((c : Thread nD τ).loc main_arg4) : S512.Idx → EReal) (ix1 (i 1)) := by
  rw [← (arg_V7 m c main_arg4).1, ← (carry_from7 m outs c main_arg4).1]
  show StableHlo.after hostOps1 (V8 m outs c) (Proc.devRef .tc main_v106) = _
  simp only [hostOps1]
  after_results
  exact funext fun i => (congrArg _ (eq_ix2 i)).trans (shapeCast_a_1a_apply _ _ (i 0) (i 1))

theorem hv109 : (V12 m outs c main_v109 : S1x512.Idx → EReal)
    = fun i => (m ((c : Thread nD τ).loc main_arg6) : S512.Idx → EReal) (ix1 (i 1)) := by
  rw [← (arg_V7 m c main_arg6).1, ← (carry_from7 m outs c main_arg6).2.2.2.1]
  show StableHlo.after hostOps3 (V11 m outs c) (Proc.devRef .tc main_v109) = _
  simp only [hostOps3]
  after_results
  exact funext fun i => (congrArg _ (eq_ix2 i)).trans (shapeCast_a_1a_apply _ _ (i 0) (i 1))

theorem hv113 : (V16 m outs c main_v113 : S1x256.Idx → EReal)
    = fun i => (m ((c : Thread nD τ).loc main_arg8) : S256.Idx → EReal) (ix1 (i 1)) := by
  rw [← (arg_V7 m c main_arg8).1, ← (carry_from7 m outs c main_arg8).2.2.2.2.2.2.2.1]
  show StableHlo.after hostOps6 (V15 m outs c) (Proc.devRef .tc main_v113) = _
  simp only [hostOps6]
  after_results
  exact funext fun i => (congrArg _ (eq_ix2 i)).trans (shapeCast_a_1a_apply _ _ (i 0) (i 1))

-- The result: the first 10000 rows of what the last region leaves.
theorem hv115 : (V18 m outs c main_v115 : S10000x256.Idx → EReal)
    = fun (i : S10000x256.Idx) => (V17 m outs c main_v114 : S10240x256.Idx → EReal)
        (ix2 ⟨(i 0).val, by have : (i 0).val < 10000 := (i 0).isLt; omega⟩ (i 1)) := by
  show StableHlo.after hostOps7 (V17 m outs c) (Proc.devRef .tc main_v115) = _
  simp only [hostOps7]
  after_results
  exact funext fun i => extractStridedSlice_apply _ _ _ _ _ fun a => match a with
    | ⟨0, _⟩ => (Nat.zero_add _).symm
    | ⟨1, _⟩ => (Nat.zero_add _).symm

theorem carry_v47_9 : V9 m outs c main_v47 = V7 m c main_v47 := (carry_from7 m outs c main_v47).2.1
theorem carry_v47_12 : V12 m outs c main_v47 = V7 m c main_v47 := (carry_from7 m outs c main_v47).2.2.2.2.1
theorem carry_v89_13 : V13 m outs c main_v89 = V7 m c main_v89 := (carry_from7 m outs c main_v89).2.2.2.2.2.1
theorem carry_v89_14 : V14 m outs c main_v89 = V7 m c main_v89 := (carry_from7 m outs c main_v89).2.2.2.2.2.2.1
theorem carry_v95_10 : V10 m outs c main_v95 = V7 m c main_v95 := (carry_from7 m outs c main_v95).2.2.1
theorem carry_v98_16 : V16 m outs c main_v98 = V7 m c main_v98 := (carry_from7 m outs c main_v98).2.2.2.2.2.2.2.2
theorem carry_v101_16 : V16 m outs c main_v101 = V7 m c main_v101 := (carry_from7 m outs c main_v101).2.2.2.2.2.2.2.2
theorem carry_v104_16 : V16 m outs c main_v104 = V7 m c main_v104 := (carry_from7 m outs c main_v104).2.2.2.2.2.2.2.2

theorem carry_v105_9 : V9 m outs c main_v105 = outs 8 main_v105 c :=
  (V9_of m outs c main_v105 (by decide)).trans (Function.update_self _ _ _)
theorem carry_v107_10 : V10 m outs c main_v107 = outs 10 main_v107 c := Function.update_self _ _ _
theorem carry_v108_12 : V12 m outs c main_v108 = outs 11 main_v108 c :=
  (V12_of m outs c main_v108 (by decide)).trans (Function.update_self _ _ _)
theorem carry_v110_13 : V13 m outs c main_v110 = outs 13 main_v110 c := Function.update_self _ _ _
theorem carry_v110_14 : V14 m outs c main_v110 = outs 13 main_v110 c :=
  (V14_of m outs c main_v110 (by decide)).trans (carry_v110_13 m outs c)
theorem carry_v110_16 : V16 m outs c main_v110 = outs 13 main_v110 c :=
  (V16_of m outs c main_v110 (by decide)).trans <| (V15_of m outs c main_v110 (by decide)).trans (carry_v110_14 m outs c)
theorem carry_v111_14 : V14 m outs c main_v111 = outs 14 main_v111 c := Function.update_self _ _ _
theorem carry_v111_16 : V16 m outs c main_v111 = outs 14 main_v111 c :=
  (V16_of m outs c main_v111 (by decide)).trans <| (V15_of m outs c main_v111 (by decide)).trans (carry_v111_14 m outs c)
theorem carry_v112_16 : V16 m outs c main_v112 = outs 15 main_v112 c :=
  (V16_of m outs c main_v112 (by decide)).trans (Function.update_self _ _ _)
theorem carry_v114_17 : V17 m outs c main_v114 = outs 17 main_v114 c := Function.update_self _ _ _

end Cert.KernelIdeal.Hand

end
-- ==== Proof.Lib2DScatter.lean ====
import Idealize.ShloMosaic.Lib.ValueIdx
import Idealize.ShloMosaic.PureOps.Ideal
import Idealize.ShloMosaic.PureOps.Contract

noncomputable section

namespace Cert.Scatter2D

open Idealize.ShloMosaic Idealize.ShloMosaic.ValueIdx

-- An update lands on element (i, k) of a rank-2 table exactly when start plus window coordinate is i on axis 0 and k on axis 1.
theorem resultIdx?_eq_some_iff {N M w : Nat} {si u : Shape} (d : ScatterDims ⟨2, ![N, M]⟩ si u) (j : u.Idx)
    (idx : IVec si w) (i : Fin N) (k : Fin M) :
    d.resultIdx? j idx = some (ix2 i k)
      ↔ d.start j idx (0 : Fin 2) + d.window j (0 : Fin 2) = i.val ∧ d.start j idx (1 : Fin 2) + d.window j (1 : Fin 2) = k.val := by
  unfold ScatterDims.resultIdx?
  constructor
  · intro hEq
    split at hEq
    · rename_i h
      have hf := Option.some.inj hEq
      have h0 : (d.start j idx (0 : Fin 2) + d.window j (0 : Fin 2)).toNat = i.val :=
        congrArg (fun f : (⟨2, ![N, M]⟩ : Shape).Idx => (f (0 : Fin 2)).val) hf
      have h1 : (d.start j idx (1 : Fin 2) + d.window j (1 : Fin 2)).toNat = k.val :=
        congrArg (fun f : (⟨2, ![N, M]⟩ : Shape).Idx => (f (1 : Fin 2)).val) hf
      have := (h (0 : Fin 2)).1
      have := (h (1 : Fin 2)).1
      exact ⟨by omega, by omega⟩
    · exact absurd hEq (by simp)
  · rintro ⟨h0, h1⟩
    have hall : ∀ a : Fin 2, 0 ≤ d.start j idx a + d.window j a
        ∧ d.start j idx a + d.window j a < ((⟨2, ![N, M]⟩ : Shape).size a : Nat) := by
      intro a
      match a with
      | ⟨0, _⟩ =>
        show 0 ≤ d.start j idx (0 : Fin 2) + d.window j (0 : Fin 2) ∧ d.start j idx (0 : Fin 2) + d.window j (0 : Fin 2) < (N : Int)
        have := i.isLt
        omega
      | ⟨1, _⟩ =>
        show 0 ≤ d.start j idx (1 : Fin 2) + d.window j (1 : Fin 2) ∧ d.start j idx (1 : Fin 2) + d.window j (1 : Fin 2) < (M : Int)
        have := k.isLt
        omega
    rw [dif_pos hall]
    refine congrArg some (funext fun a => Fin.ext ?_)
    match a with
    | ⟨0, _⟩ =>
      show (d.start j idx (0 : Fin 2) + d.window j (0 : Fin 2)).toNat = i.val
      omega
    | ⟨1, _⟩ =>
      show (d.start j idx (1 : Fin 2) + d.window j (1 : Fin 2)).toNat = k.val
      omega

abbrev pairDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section
variable {N M R w : Nat}
  (wf : ScatterDims.WF ⟨2, ![N, M]⟩ ⟨2, ![R, 2]⟩ ⟨1, ![R]⟩ [] [0, 1] [0, 1] 1)
  (idx : IVec ⟨2, ![R, 2]⟩ w) (e : Fin R)

-- On either axis the window of update e starts at that word of e's index pair, read signed.
theorem start_eq (a : Fin 2) : (pairDims N M R wf).start (ix1 e) idx a = (idx (ix2 e a)).toInt := by
  unfold ScatterDims.start
  rw [dif_pos (show a ∈ (pairDims N M R wf).scatterDimsToOperandDims from by
    match a with | ⟨0, _⟩ => simp | ⟨1, _⟩ => simp)]
  refine congrArg (fun i => (idx i).toInt) (funext fun b => Fin.ext ?_)
  match a, b with
  | ⟨0, _⟩, ⟨0, _⟩ => rfl
  | ⟨0, _⟩, ⟨1, _⟩ => rfl
  | ⟨1, _⟩, ⟨0, _⟩ => rfl
  | ⟨1, _⟩, ⟨1, _⟩ => rfl

-- Both axes of the table are inserted, so the window coordinate is 0 on both.
theorem window_zero (a : Fin 2) : (pairDims N M R wf).window (ix1 e) a = 0 := by
  have h : ¬ a ∈ (pairDims N M R wf).sKept := by
    match a with
    | ⟨0, _⟩ => simp [ScatterDims.sKept, Shape.kept]
    | ⟨1, _⟩ => simp [ScatterDims.sKept, Shape.kept]
  unfold ScatterDims.window
  rw [dif_neg h]

theorem lands (i : Fin N) (j : Fin M) :
    (pairDims N M R wf).resultIdx? (ix1 e) idx = some (ix2 i j)
      ↔ (idx (ix2 e (0 : Fin 2))).toInt = (i.val : Int) ∧ (idx (ix2 e (1 : Fin 2))).toInt = (j.val : Int) := by
  rw [resultIdx?_eq_some_iff, start_eq, start_eq, window_zero, window_zero, Nat.cast_zero, add_zero, add_zero]

end

/-- The accumulating scatter of scalars at index pairs, read at (i, j): the table there plus the updates whose index
    pair, read signed, is (i, j). -/
theorem scatterAdd_pairs_apply {N M R w : Nat} {φ : FTy}
    (wf : ScatterDims.WF ⟨2, ![N, M]⟩ ⟨2, ![R, 2]⟩ ⟨1, ![R]⟩ [] [0, 1] [0, 1] 1)
    (x : FVec Ideal ⟨2, ![N, M]⟩ φ) (idx : IVec ⟨2, ![R, 2]⟩ w) (upd : FVec Ideal ⟨1, ![R]⟩ φ)
    (i : Fin N) (j : Fin M) :
    Host.scatterAdd (pairDims N M R wf) x idx upd (ix2 i j)
      = x (ix2 i j) + ∑ e ∈ Finset.univ.filter (fun e : Fin R =>
            (idx (ix2 e (0 : Fin 2))).toInt = (i.val : Int) ∧ (idx (ix2 e (1 : Fin 2))).toInt = (j.val : Int)),
          upd (ix1 e) := by
  unfold Host.scatterAdd
  rw [Ideal.hostScatterAdd_def]
  unfold Ideal.hostScatterAdd
  refine congrArg (x (ix2 i j) + ·) (Finset.sum_nbij' (fun e : Fin R => (ix1 e : (⟨1, ![R]⟩ : Shape).Idx))
    (fun k : (⟨1, ![R]⟩ : Shape).Idx => (k (0 : Fin 1) : Fin R)) ?_ ?_ (fun _ _ => rfl) (fun k _ => (eq_ix1 k).symm)
    (fun _ _ => rfl)).symm
  · intro e he
    rw [Finset.mem_filter] at he ⊢
    exact ⟨Finset.mem_univ _, (lands wf idx e i j).mpr he.2⟩
  · intro k hk
    obtain ⟨a, rfl⟩ : ∃ a, k = ix1 a := ⟨k 0, eq_ix1 k⟩
    rw [Finset.mem_filter] at hk ⊢
    exact ⟨Finset.mem_univ _, (lands wf idx a i j).mp hk.2⟩

end Cert.Scatter2D

end
-- ==== Proof.Graph.lean ====
import proofs.«402230_j66554813219093_3_alg».proof.Proof.Gen.ReferenceIdeal.Read
import proofs.«402230_j66554813219093_3_alg».proof.Proof.BridgeDefs

noncomputable section

namespace Cert.Graph

open Idealize.ShloMosaic Idealize.ShloMosaic.ValueIdx Cert.ReferenceIdeal Cert.ReferenceIdeal.Read

variable (ei : IVec S2x160000 32) (w : FVec Ideal S160000 .f32)

def gdst (e : Fin 170000) : ℤ := ((val_main_v6 (F := Ideal) ei : S170000.Idx → BitVec 32) (ix1 e)).toInt

def gsrc (e : Fin 170000) : ℤ := ((val_main_v5 (F := Ideal) ei : S170000.Idx → BitVec 32) (ix1 e)).toInt

def gcoef (e : Fin 170000) : EReal := (val_main_v31 (F := Ideal) ei w : S170000.Idx → EReal) (ix1 e)

def cdst (e : Fin 160000) : ℤ := ((val_main_v3 (F := Ideal) ei : S160000.Idx → BitVec 32) (ix1 e)).toInt

def csrc (e : Fin 160000) : ℤ := ((val_main_v1 (F := Ideal) ei : S160000.Idx → BitVec 32) (ix1 e)).toInt

def ccoef (e : Fin 160000) : EReal := (val_main_v120 (F := Ideal) ei w : S160000.Idx → EReal) (ix1 e)

end Cert.Graph

end
-- ==== Proof.LibReal.lean ====
import Idealize.ShloMosaic.PureOps.Ideal
import Idealize.ShloMosaic.PureOps.Ideal.Laws
import Idealize.ShloMosaic.PureOps.Contract
import Idealize.ShloMosaic.Lib.ValueIdx
import Idealize.ShloMosaic.Lib.IdealHost

noncomputable section

namespace Cert.RealVal

open Idealize.ShloMosaic

open scoped BigOperators

def IsReal {ι : Type} (v : ι → EReal) : Prop := ∀ i, v i ≠ ⊤ ∧ v i ≠ ⊥

def Real1 (x : EReal) : Prop := x ≠ ⊤ ∧ x ≠ ⊥

theorem real1_coe (r : ℝ) : Real1 (r : EReal) := ⟨EReal.coe_ne_top r, EReal.coe_ne_bot r⟩

theorem Real1.exists_coe {x : EReal} (h : Real1 x) : ∃ r : ℝ, x = (r : EReal) :=
  ⟨x.toReal, (EReal.coe_toReal h.1 h.2).symm⟩

theorem real1_zero : Real1 (0 : EReal) := real1_coe 0

theorem real1_one : Real1 (1 : EReal) := real1_coe 1

theorem Real1.add {a b : EReal} (ha : Real1 a) (hb : Real1 b) : Real1 (a + b) := by
  obtain ⟨r, rfl⟩ := ha.exists_coe
  obtain ⟨q, rfl⟩ := hb.exists_coe
  exact real1_coe (r + q)

theorem Real1.mul {a b : EReal} (ha : Real1 a) (hb : Real1 b) : Real1 (a * b) := by
  obtain ⟨r, rfl⟩ := ha.exists_coe
  obtain ⟨q, rfl⟩ := hb.exists_coe
  exact real1_coe (r * q)

theorem real1_sum {κ : Type} (s : Finset κ) (f : κ → EReal) (h : ∀ k ∈ s, Real1 (f k)) : Real1 (∑ k ∈ s, f k) :=
  Finset.sum_induction f Real1 (fun _ _ ha hb => ha.add hb) real1_zero h

theorem Real1.rsqrt {x : EReal} (hx : Real1 x) (hpos : 0 < x) : Real1 (Ideal.rsqrt x) := by
  obtain ⟨r, rfl⟩ := hx.exists_coe
  have hr : 0 < r := by exact_mod_cast hpos
  rw [Ideal.rsqrt_coe, if_neg (not_lt.mpr hr.le), if_neg hr.ne']
  exact real1_coe _

section Arrays
variable {s t : Shape} {φ : FTy}

theorem constant_zero_apply (s : Shape) (i : s.Idx) : constant (F := Ideal) s .f32 0x00000000#32 i = 0 :=
  Ideal.ofBits_zero_f32

theorem constant_one_apply (s : Shape) (i : s.Idx) : constant (F := Ideal) s .f32 0x3F800000#32 i = 1 :=
  Ideal.ofBits_one_f32

theorem isReal_constant_zero (s : Shape) : IsReal (constant (F := Ideal) s .f32 0x00000000#32) := fun i => by
  rw [constant_zero_apply]; exact real1_zero

theorem isReal_constant_one (s : Shape) : IsReal (constant (F := Ideal) s .f32 0x3F800000#32) := fun i => by
  rw [constant_one_apply]; exact real1_one

theorem isReal_broadcastInDim (dims : Fin s.rank → Fin t.rank) (h : s.BroadcastsInDim t dims) {x : s.Idx → EReal}
    (hx : IsReal x) : IsReal (broadcastInDim t dims h x) :=
  fun _ => hx _

theorem isReal_mulf {x y : FVec Ideal s φ} (hx : IsReal x) (hy : IsReal y) : IsReal (mulf x y) :=
  fun i => Real1.mul (hx i) (hy i)

theorem isReal_select (c : IVec s 1) {a b : s.Idx → EReal} (ha : IsReal a) (hb : IsReal b) : IsReal (select c a b) :=
  fun i => by
    show Real1 (Scalar.select (c i) (a i) (b i))
    unfold Scalar.select
    split
    · exact ha i
    · exact hb i

theorem isReal_gather {si : Shape} {w : Nat} (d : GatherDims s si t) {x : s.Idx → EReal} (hx : IsReal x) (idx : IVec si w) :
    IsReal (Host.gather d x idx) :=
  fun _ => hx _

theorem isReal_scatterAdd {si u : Shape} {w : Nat} (d : ScatterDims s si u) {x : FVec Ideal s φ} (hx : IsReal x)
    (idx : IVec si w) {upd : FVec Ideal u φ} (hu : IsReal upd) : IsReal (Host.scatterAdd d x idx upd) :=
  fun i => by
    have e : Host.scatterAdd d x idx upd i = Ideal.hostScatterAdd d x idx upd i := rfl
    rw [e]
    unfold Ideal.hostScatterAdd
    exact Real1.add (hx i) (real1_sum _ _ fun j _ => hu j)

end Arrays

end Cert.RealVal

end
-- ==== Proof.GraphFacts.lean ====
import proofs.«402230_j66554813219093_3_alg».proof.Proof.Graph
import proofs.«402230_j66554813219093_3_alg».proof.Proof.LibReal
import Idealize.ShloMosaic.Lib.Pipeline.Value
import Idealize.ShloMosaic.Lib.ValueIdx
import Idealize.ShloMosaic.PureOps.Ideal.Laws

noncomputable section

namespace Cert.Graph

open Idealize.ShloMosaic Idealize.ShloMosaic.ValueIdx Cert.ReferenceIdeal Cert.ReferenceIdeal.Read Cert.RealVal

section Readings
variable {α : Type}

theorem concat_apply_lt (x₁ : S160000.Idx → α) (x₂ : S10000.Idx → α)
    (h : Shape.Concatenates [S160000, S10000] S170000 0) (e : Fin 170000) (he : e.val < 160000) :
    concatenate S170000 0 [⟨S160000, x₁⟩, ⟨S10000, x₂⟩] h (ix1 e) = x₁ (ix1 ⟨e.val, he⟩) :=
  concatenate_pair_apply_left 0 x₁ x₂ h (ix1 e) rfl (ix1 ⟨e.val, he⟩) (fun b => match b with | ⟨0, _⟩ => rfl)

theorem concat_apply_ge (x₁ : S160000.Idx → α) (x₂ : S10000.Idx → α)
    (h : Shape.Concatenates [S160000, S10000] S170000 0) (e : Fin 170000) (he : 160000 ≤ e.val) :
    concatenate S170000 0 [⟨S160000, x₁⟩, ⟨S10000, x₂⟩] h (ix1 e)
      = x₂ (ix1 ⟨e.val - 160000, by have := e.isLt; omega⟩) :=
  concatenate_pair_apply_right 0 x₁ x₂ h (ix1 e) rfl rfl (ix1 ⟨e.val - 160000, by have := e.isLt; omega⟩)
    (fun b => match b with | ⟨0, _⟩ => fun hb => absurd rfl hb)
    (by show e.val - 160000 + 160000 = e.val; omega)

theorem toInt_ofNat_small (k : Nat) (hk : k < 10000) : (BitVec.ofNat 32 k).toInt = (k : ℤ) := by
  have hn : (BitVec.ofNat 32 k).toNat = k := by
    rw [BitVec.toNat_ofNat]; exact Nat.mod_eq_of_lt (by omega)
  rw [BitVec.toInt_eq_toNat_of_lt (by rw [hn]; omega), hn]

end Readings

variable (ei : IVec S2x160000 32) (w : FVec Ideal S160000 .f32)

theorem row_apply (e : Fin 160000) : val_main_v1 (F := Ideal) ei (ix1 e) = ei (ix2 (0 : Fin 2) e) := by
  rw [val_main_v1_apply, val_main_v0_apply]
  exact congrArg ei (funext fun a => by
    match a with | ⟨0, _⟩ => rfl | ⟨1, _⟩ => exact Fin.ext (Nat.mod_eq_of_lt e.isLt))

theorem col_apply (e : Fin 160000) : val_main_v3 (F := Ideal) ei (ix1 e) = ei (ix2 (1 : Fin 2) e) := by
  rw [val_main_v3_apply, val_main_v2_apply]
  exact congrArg ei (funext fun a => by
    match a with | ⟨0, _⟩ => rfl | ⟨1, _⟩ => exact Fin.ext (Nat.mod_eq_of_lt e.isLt))

-- A self loop's index word is its node's number, below 10000.
theorem loop_apply (x₁ : S160000.Idx → BitVec 32) (h : Shape.Concatenates [S160000, S10000] S170000 0) (e : Fin 170000)
    (he : 160000 ≤ e.val) :
    (concatenate S170000 0 [⟨S160000, x₁⟩, ⟨S10000, val_main_v4 (F := Ideal)⟩] h (ix1 e)).toInt = ((e.val - 160000 : ℕ) : ℤ) := by
  have hk : e.val - 160000 < 10000 := by have := e.isLt; omega
  rw [concat_apply_ge _ _ _ e he]
  exact toInt_ofNat_small _ hk

-- A given edge's indices are words of the input; a self loop's are its node's number.
theorem gidx_range (hr : ∀ i, 0 ≤ (ei i).toInt ∧ (ei i).toInt < 10000) :
    ∀ e, 0 ≤ gdst ei e ∧ gdst ei e < 10000 ∧ 0 ≤ gsrc ei e ∧ gsrc ei e < 10000 := by
  intro e
  unfold gdst gsrc val_main_v5 val_main_v6
  by_cases he : e.val < 160000
  · rw [concat_apply_lt _ _ _ e he, concat_apply_lt _ _ _ e he, row_apply, col_apply]
    exact ⟨(hr _).1, (hr _).2, (hr _).1, (hr _).2⟩
  · rw [loop_apply _ _ e (Nat.le_of_not_lt he), loop_apply _ _ e (Nat.le_of_not_lt he)]
    have := e.isLt
    omega

theorem cidx_range (hr : ∀ i, 0 ≤ (ei i).toInt ∧ (ei i).toInt < 10000) :
    ∀ e, 0 ≤ cdst ei e ∧ cdst ei e < 10000 ∧ 0 ≤ csrc ei e ∧ csrc ei e < 10000 := by
  intro e
  unfold cdst csrc
  rw [col_apply, row_apply]
  exact ⟨(hr _).1, (hr _).2, (hr _).1, (hr _).2⟩

-- The reciprocal square root is read only where the degree is a positive real.
theorem isReal_where_pos_rsqrt {s : Shape} (deg zero z : FVec Ideal s .f32) (hdeg : IsReal deg)
    (hzero : ∀ i, zero i = 0) (hz : IsReal z) :
    IsReal (select (cmpf .ogt deg zero) (Host.rsqrt deg) z) := by
  intro i
  show Real1 (Scalar.select (Ideal.cmp .ogt (deg i) (zero i)) (Ideal.rsqrt (deg i)) (z i))
  rw [hzero i]
  by_cases h : (0 : EReal) < deg i
  · have hc : Ideal.cmp .ogt (deg i) 0 = 1#1 := by
      show BitVec.ofBool (decide ((0 : EReal) < deg i)) = 1#1
      rw [decide_eq_true h]; rfl
    rw [hc, select_one]; exact Real1.rsqrt (hdeg i) h
  · have hc : Ideal.cmp .ogt (deg i) 0 = 0#1 := by
      show BitVec.ofBool (decide ((0 : EReal) < deg i)) = 0#1
      rw [decide_eq_false h]; rfl
    rw [hc, select_zero]; exact hz i

theorem isReal_wall (hw : IsReal w) : IsReal (val_main_v8 (F := Ideal) w) := by
  intro i
  obtain ⟨e, rfl⟩ : ∃ e : Fin 170000, i = ix1 e := ⟨i 0, eq_ix1 i⟩
  unfold val_main_v8
  by_cases he : e.val < 160000
  · rw [concat_apply_lt _ _ _ e he]; exact hw _
  · rw [concat_apply_ge _ _ _ e (Nat.le_of_not_lt he), val_main_v7_apply]; exact isReal_constant_one S_ _

-- Degrees are finite sums of real weights, their inverse square roots real or zero, and a coefficient is a product of three such reals.
theorem gcoef_real (hw : IsReal w) : ∀ e, Real1 (gcoef ei w e) := by
  have hdeg : IsReal (val_main_v11 (F := Ideal) ei w) := by
    unfold val_main_v11 val_main_v9 val_main_cst_0
    exact isReal_scatterAdd _ (isReal_broadcastInDim _ _ (isReal_constant_zero S_)) _ (isReal_wall w hw)
  have hd : IsReal (val_main_v15 (F := Ideal) ei w) := by
    unfold val_main_v15 val_main_v13 val_main_v14 val_main_call0_v1 val_main_call0_v0 val_main_cst_2
    exact isReal_where_pos_rsqrt _ _ _ hdeg (fun i => by rw [val_main_v12_apply]; exact constant_zero_apply S_ _)
      (isReal_broadcastInDim _ _ (isReal_constant_zero S_))
  have h : IsReal (val_main_v31 (F := Ideal) ei w) := by
    unfold val_main_v31 val_main_v23 val_main_v22 val_main_v30
    exact isReal_mulf (isReal_mulf (isReal_gather _ hd _) (isReal_wall w hw)) (isReal_gather _ hd _)
  exact fun e => h (ix1 e)

theorem ccoef_real (hw : IsReal w) : ∀ e, Real1 (ccoef ei w e) := by
  have hw0 : IsReal (val_main_v97 (F := Ideal) ei w) := by
    unfold val_main_v97 val_main_call4_v0 val_main_cst_20
    exact isReal_select _ (isReal_broadcastInDim _ _ (isReal_constant_zero S_)) hw
  have hdeg : IsReal (val_main_v100 (F := Ideal) ei w) := by
    unfold val_main_v100 val_main_v98 val_main_cst_21
    exact isReal_scatterAdd _ (isReal_broadcastInDim _ _ (isReal_constant_zero S_)) _ hw0
  have hd : IsReal (val_main_v104 (F := Ideal) ei w) := by
    unfold val_main_v104 val_main_v102 val_main_v103 val_main_call5_v1 val_main_call5_v0 val_main_cst_23
    exact isReal_where_pos_rsqrt _ _ _ hdeg (fun i => by rw [val_main_v101_apply]; exact constant_zero_apply S_ _)
      (isReal_broadcastInDim _ _ (isReal_constant_zero S_))
  have h : IsReal (val_main_v120 (F := Ideal) ei w) := by
    unfold val_main_v120 val_main_v112 val_main_v111 val_main_v119
    exact isReal_mulf (isReal_mulf (isReal_gather _ hd _) hw0) (isReal_gather _ hd _)
  exact fun e => h (ix1 e)

end Cert.Graph

end
-- ==== Proof.KI.AdjacencyG.lean ====
import proofs.«402230_j66554813219093_3_alg».proof.Proof.Gen.KernelIdeal.Regions
import proofs.«402230_j66554813219093_3_alg».proof.Proof.Lib2DScatter
import proofs.«402230_j66554813219093_3_alg».proof.Proof.GraphFacts
import proofs.«402230_j66554813219093_3_alg».proof.Proof.LibReal
import Idealize.ShloMosaic.Lib.StableHlo.Run
import Idealize.ShloMosaic.Lib.StableHlo.Predicate
import Idealize.ShloMosaic.PureOps.Ideal.Laws
import Idealize.ShloMosaic.Lib.ValueIdx
import Idealize.ShloMosaic.Lib.Pipeline.Value
import Idealize.ShloMosaic.Lib.ValueLayout

noncomputable section
namespace Cert.KernelIdeal.Hand
open Cert.KernelIdeal Cert.KernelIdeal.Gen
open Idealize.ShloMosaic Idealize.ShloMosaic.TcCoe Idealize.ShloMosaic.ValueIdx Idealize.ShloMosaic.StableHlo
open Cert.ReferenceIdeal.Read Cert.Graph

variable (m : (ℓ : Loc nD τ sig) → Buf (Elt Ideal) ℓ) (c : Dev nD) (W : Valuation τ sig (Elt Ideal))

section Pointwise
variable {n : Nat}

-- An entry that is nonnegative as a signed integer is left alone by the shift of the negative entries.
theorem shiftNeg_apply (d0 : Fin (⟨0, ![]⟩ : Shape).rank → Fin (⟨1, ![n]⟩ : Shape).rank)
    (h0 : (⟨0, ![]⟩ : Shape).BroadcastsInDim ⟨1, ![n]⟩ d0) (k : BitVec 32)
    (x : IVec ⟨1, ![n]⟩ 32) (e : (⟨1, ![n]⟩ : Shape).Idx) (h : 0 ≤ (x e).toInt) :
    select (cmpi .slt x (broadcastInDim ⟨1, ![n]⟩ d0 h0 (constantI ⟨0, ![]⟩ 32 0#32)))
      (addi x (broadcastInDim ⟨1, ![n]⟩ d0 h0 (constantI ⟨0, ![]⟩ 32 k))) x e = x e := by
  have hs : (x e).slt 0#32 = false := by
    rw [BitVec.slt_eq_decide, BitVec.toInt_zero]; exact decide_eq_false (by omega)
  show Scalar.select (BitVec.ofBool ((x e).slt 0#32)) _ _ = _
  rw [hs]
  rfl

-- Entry (e, 0) of the column built from a vector is the vector's entry e.
theorem column_apply {α : Type} (hb : (⟨1, ![n]⟩ : Shape).BroadcastsInDim ⟨2, ![n, 1]⟩ ![0])
    (u : (⟨1, ![n]⟩ : Shape).Idx → α) (e : Fin n) :
    broadcastInDim ⟨2, ![n, 1]⟩ ![0] hb u (ix2 e (0 : Fin 1)) = u (ix1 e) := by
  refine broadcastInDim_apply _ hb u _ (ix1 e) ?_
  intro a
  match a with
  | ⟨0, _⟩ =>
    show e.val = if n = 1 then 0 else e.val
    have := e.isLt
    split <;> omega

-- Two vectors side by side as the columns of an [n, 2] array: row e holds their entries at e.
theorem pairs_apply {α : Type} (hb : (⟨1, ![n]⟩ : Shape).BroadcastsInDim ⟨2, ![n, 1]⟩ ![0])
    (hc : Shape.Concatenates [(⟨2, ![n, 1]⟩ : Shape), ⟨2, ![n, 1]⟩] ⟨2, ![n, 2]⟩ (1 : Fin 2))
    (u v : (⟨1, ![n]⟩ : Shape).Idx → α) (e : Fin n) :
    concatenate ⟨2, ![n, 2]⟩ (1 : Fin 2)
        [⟨⟨2, ![n, 1]⟩, broadcastInDim ⟨2, ![n, 1]⟩ ![0] hb u⟩, ⟨⟨2, ![n, 1]⟩, broadcastInDim ⟨2, ![n, 1]⟩ ![0] hb v⟩] hc
        (ix2 e (0 : Fin 2)) = u (ix1 e)
    ∧ concatenate ⟨2, ![n, 2]⟩ (1 : Fin 2)
        [⟨⟨2, ![n, 1]⟩, broadcastInDim ⟨2, ![n, 1]⟩ ![0] hb u⟩, ⟨⟨2, ![n, 1]⟩, broadcastInDim ⟨2, ![n, 1]⟩ ![0] hb v⟩] hc
        (ix2 e (1 : Fin 2)) = v (ix1 e) := by
  constructor
  · rw [concatenate_pair_apply_left (t := ⟨2, ![n, 2]⟩) (s₁ := ⟨2, ![n, 1]⟩) (s₂ := ⟨2, ![n, 1]⟩) (1 : Fin 2) _ _ hc (ix2 e (0 : Fin 2)) rfl (ix2 e (0 : Fin 1))
      (by intro b; match b with | ⟨0, _⟩ => rfl | ⟨1, _⟩ => rfl)]
    exact column_apply hb u e
  · rw [concatenate_pair_apply_right (t := ⟨2, ![n, 2]⟩) (s₁ := ⟨2, ![n, 1]⟩) (s₂ := ⟨2, ![n, 1]⟩) (1 : Fin 2) _ _ hc (ix2 e (1 : Fin 2)) rfl rfl (ix2 e (0 : Fin 1))
      (by intro b hb'; match b with | ⟨0, _⟩ => rfl | ⟨1, _⟩ => exact absurd rfl hb') rfl]
    exact column_apply hb v e

end Pointwise

theorem host0_v5 :
    (StableHlo.after hostOps0 W (Proc.devRef .tc main_v5) : IVec S170000 32)
      = val_main_v5 (F := Ideal) (W main_arg1 : IVec S2x160000 32) := by
  simp only [hostOps0]
  after_results
  rfl

theorem host0_v6 :
    (StableHlo.after hostOps0 W (Proc.devRef .tc main_v6) : IVec S170000 32)
      = val_main_v6 (F := Ideal) (W main_arg1 : IVec S2x160000 32) := by
  simp only [hostOps0]
  after_results
  rfl

theorem host0_v8 :
    (StableHlo.after hostOps0 W (Proc.devRef .tc main_v8) : FVec Ideal S170000 .f32)
      = val_main_v8 (F := Ideal) (W main_arg2 : FVec Ideal S160000 .f32) := by
  simp only [hostOps0]
  after_results
  rfl

theorem host0_v13 :
    (StableHlo.after hostOps0 W (Proc.devRef .tc main_v13) : IVec S10000 1)
      = val_main_v13 (F := Ideal) (W main_arg1 : IVec S2x160000 32) (W main_arg2 : FVec Ideal S160000 .f32) := by
  simp only [hostOps0]
  after_results
  rfl

theorem host0_v14 :
    (StableHlo.after hostOps0 W (Proc.devRef .tc main_v14) : FVec Ideal S10000 .f32)
      = val_main_v14 (F := Ideal) (W main_arg1 : IVec S2x160000 32) (W main_arg2 : FVec Ideal S160000 .f32) := by
  simp only [hostOps0]
  after_results
  rfl

theorem host0_v1 :
    (StableHlo.after hostOps0 W (Proc.devRef .tc main_v1) : IVec S160000 32)
      = val_main_v1 (F := Ideal) (W main_arg1 : IVec S2x160000 32) := by
  simp only [hostOps0]
  after_results
  rfl

theorem host0_v3 :
    (StableHlo.after hostOps0 W (Proc.devRef .tc main_v3) : IVec S160000 32)
      = val_main_v3 (F := Ideal) (W main_arg1 : IVec S2x160000 32) := by
  simp only [hostOps0]
  after_results
  rfl

theorem host0_cst_2 :
    (StableHlo.after hostOps0 W (Proc.devRef .tc main_cst_2) : FVec Ideal S_ .f32)
      = val_main_cst_2 (F := Ideal) := by
  simp only [hostOps0]
  after_results
  rfl

theorem host01_v15 :
    (StableHlo.after hostOps0_1 W (Proc.devRef .tc main_v15) : FVec Ideal S10000 .f32)
      = select (W main_v13 : IVec S10000 1) (W main_v14 : FVec Ideal S10000 .f32)
          (broadcastInDim S10000 ![] bcast_S_S10000 (id (W main_cst_2 : FVec Ideal S_ .f32))) := by
  simp only [hostOps0_1]
  after_results
  rfl

theorem adjG_tail :
    (StableHlo.after ((hostOps0_2 : List (HloOp τ sig (Elt Ideal))).drop 38) W (Proc.devRef .tc main_v47) : S10240x10240.Idx → EReal)
      = (truncf .bf16 (Host.scatterAdd (F := Ideal) scatter_S10240x10240_S170000x2_S170000_n_01_01_1
          (W main_v32 : FVec Ideal S10240x10240 .f32)
          (concatenate S170000x2 1 [⟨S170000x1, (W main_v43 : IVec S170000x1 32)⟩, ⟨S170000x1, (W main_v44 : IVec S170000x1 32)⟩]
            concatenates_S170000x1_S170000x1_S170000x2_d1)
          (W main_v31 : FVec Ideal S170000 .f32)) bitsLt_bf16_f32 : FVec Ideal S10240x10240 .bf16) := by
  conv in (List.drop _ _) => whnf
  after_results

abbrev shiftNeg17 (k : BitVec 32) (x : IVec S170000 32) : IVec S170000 32 :=
  select (cmpi .slt x (broadcastInDim S170000 ![] bcast_S_S170000 (constantI S_ 32 0#32)))
    (addi x (broadcastInDim S170000 ![] bcast_S_S170000 (constantI S_ 32 k))) x

abbrev coefG (V : Valuation τ sig (Elt Ideal)) : FVec Ideal S170000 .f32 :=
  mulf (mulf (Host.gather gather_S10000_S170000x1_S170000_n_0_n_n_0_1_1 (V main_v15 : FVec Ideal S10000 .f32)
        (broadcastInDim S170000x1 ![0] bcast_S170000_S170000x1_0 (shiftNeg17 10000#32 (V main_v5))))
      (V main_v8 : FVec Ideal S170000 .f32))
    (Host.gather gather_S10000_S170000x1_S170000_n_0_n_n_0_1_1 (V main_v15 : FVec Ideal S10000 .f32)
        (broadcastInDim S170000x1 ![0] bcast_S170000_S170000x1_0 (shiftNeg17 10000#32 (V main_v6))))

theorem adjG_head :
    (StableHlo.after ((hostOps0_2 : List (HloOp τ sig (Elt Ideal))).take 38) W main_v32 : FVec Ideal S10240x10240 .f32)
      = broadcastInDim S10240x10240 ![] bcast_S_S10240x10240 (constant (F := Ideal) S_ .f32 0x00000000#32)
    ∧ (StableHlo.after ((hostOps0_2 : List (HloOp τ sig (Elt Ideal))).take 38) W main_v43 : IVec S170000x1 32)
      = broadcastInDim S170000x1 ![0] bcast_S170000_S170000x1_0 (shiftNeg17 10240#32 (W main_v6))
    ∧ (StableHlo.after ((hostOps0_2 : List (HloOp τ sig (Elt Ideal))).take 38) W main_v44 : IVec S170000x1 32)
      = broadcastInDim S170000x1 ![0] bcast_S170000_S170000x1_0 (shiftNeg17 10240#32 (W main_v5))
    ∧ (StableHlo.after ((hostOps0_2 : List (HloOp τ sig (Elt Ideal))).take 38) W main_v31 : FVec Ideal S170000 .f32) = coefG W := by
  simp only [hostOps0_2, List.take_succ_cons, List.take_zero]
  refine ⟨?_, ?_, ?_, ?_⟩ <;> after_results_simp

set_option quotPrecheck false in
local notation "a₁" => (m ((c : Thread nD τ).loc main_arg1) : IVec S2x160000 32)
set_option quotPrecheck false in
local notation "a₂" => (m ((c : Thread nD τ).loc main_arg2) : FVec Ideal S160000 .f32)

theorem kV2_v5 : (V2 m c main_v5 : IVec S170000 32) = val_main_v5 (F := Ideal) a₁ :=
  (V2_of m c main_v5 (by decide)).trans (host0_v5 (V0 m c))

theorem kV2_v6 : (V2 m c main_v6 : IVec S170000 32) = val_main_v6 (F := Ideal) a₁ :=
  (V2_of m c main_v6 (by decide)).trans (host0_v6 (V0 m c))

theorem kV2_v8 : (V2 m c main_v8 : FVec Ideal S170000 .f32) = val_main_v8 (F := Ideal) a₂ :=
  (V2_of m c main_v8 (by decide)).trans (host0_v8 (V0 m c))

theorem kV2_v15 : (V2 m c main_v15 : FVec Ideal S10000 .f32) = val_main_v15 (F := Ideal) a₁ a₂ := by
  have e13 : (V1 m c main_v13 : IVec S10000 1) = val_main_v13 (F := Ideal) a₁ a₂ := host0_v13 (V0 m c)
  have e14 : (V1 m c main_v14 : FVec Ideal S10000 .f32) = val_main_v14 (F := Ideal) a₁ a₂ := host0_v14 (V0 m c)
  have ec : (V1 m c main_cst_2 : FVec Ideal S_ .f32) = val_main_cst_2 (F := Ideal) := host0_cst_2 (V0 m c)
  refine (host01_v15 (V1 m c)).trans ?_
  rw [e13, e14, ec]
  rfl

theorem coefG_eq : coefG (V2 m c) = val_main_v31 (F := Ideal) a₁ a₂ := by
  dsimp only [coefG, shiftNeg17]
  rw [kV2_v5, kV2_v6, kV2_v8, kV2_v15]
  rfl

theorem shiftNeg17_apply (k : BitVec 32) (x : IVec S170000 32) (e : S170000.Idx) (h : 0 ≤ (x e).toInt) :
    shiftNeg17 k x e = x e := shiftNeg_apply _ _ k x e h

theorem adjG_scatter_eq : scatter_S10240x10240_S170000x2_S170000_n_01_01_1
    = Cert.Scatter2D.pairDims 10240 10240 170000 scatter_S10240x10240_S170000x2_S170000_n_01_01_1_wf := rfl

-- Running a list of operations is running its first n, then the rest.
theorem after_cut (ops : List (HloOp τ sig (Elt Ideal))) (n : Nat) (V : Valuation τ sig (Elt Ideal)) (r : DevRef τ sig) :
    StableHlo.after ops V r = StableHlo.after (ops.drop n) (StableHlo.after (ops.take n) V) r :=
  (congrArg (fun l => StableHlo.after l V r) (List.take_append_drop n ops).symm).trans
    (congrFun (StableHlo.after_append _ _ _) r)

theorem adjG_v47 :
    (V3 m c main_v47 : S10240x10240.Idx → EReal)
      = (truncf .bf16 (Host.scatterAdd (F := Ideal) scatter_S10240x10240_S170000x2_S170000_n_01_01_1
          (broadcastInDim S10240x10240 ![] bcast_S_S10240x10240 (constant (F := Ideal) S_ .f32 0x00000000#32))
          (concatenate S170000x2 1
            [⟨S170000x1, broadcastInDim S170000x1 ![0] bcast_S170000_S170000x1_0 (shiftNeg17 10240#32 (V2 m c main_v6))⟩,
             ⟨S170000x1, broadcastInDim S170000x1 ![0] bcast_S170000_S170000x1_0 (shiftNeg17 10240#32 (V2 m c main_v5))⟩]
            concatenates_S170000x1_S170000x1_S170000x2_d1)
          (coefG (V2 m c))) bitsLt_bf16_f32 : FVec Ideal S10240x10240 .bf16) := by
  have h := adjG_head (V2 m c)
  refine (after_cut hostOps0_2 38 (V2 m c) _).trans ?_
  rw [adjG_tail, h.1, h.2.1, h.2.2.1, h.2.2.2]

-- With nonnegative indices nothing is shifted, so entry (i, j) accumulates the coefficients of the edges with destination i and source j.
theorem hv47_of (hg : ∀ e, 0 ≤ gdst a₁ e ∧ 0 ≤ gsrc a₁ e) :
    (V7 m c main_v47 : S10240x10240.Idx → EReal)
      = Cert.Bridge.denseArr (gdst a₁) (gsrc a₁) (gcoef a₁ a₂) := by
  have e7 : (V7 m c main_v47 : S10240x10240.Idx → EReal) = V3 m c main_v47 :=
    (V7_of m c main_v47 (by decide)).trans <| (V6_of m c main_v47 (by decide)).trans <|
      (V5_of m c main_v47 (by decide)).trans (V4_of m c main_v47 (by decide))
  rw [e7, adjG_v47, kV2_v5, kV2_v6, coefG_eq]
  funext i
  obtain ⟨p, q, rfl⟩ : ∃ p q, i = ix2 p q := ⟨i 0, i 1, eq_ix2 i⟩
  rw [truncf_apply, adjG_scatter_eq, Cert.Scatter2D.scatterAdd_pairs_apply]
  show _ = (0 : EReal) + ∑ e ∈ Finset.univ.filter (fun e : Fin 170000 =>
    gdst a₁ e = (p.val : ℤ) ∧ gsrc a₁ e = (q.val : ℤ)), gcoef a₁ a₂ e
  refine congrArg₂ (· + ·) ?_ ?_
  · exact Cert.RealVal.constant_zero_apply _ _
  · refine Finset.sum_congr (Finset.filter_congr fun e _ => ?_) (fun e _ => rfl)
    obtain ⟨h0, h1⟩ := pairs_apply bcast_S170000_S170000x1_0 concatenates_S170000x1_S170000x1_S170000x2_d1
      (shiftNeg17 10240#32 (val_main_v6 (F := Ideal) a₁))
      (shiftNeg17 10240#32 (val_main_v5 (F := Ideal) a₁)) e
    rw [h0, h1, shiftNeg17_apply _ _ _ (hg e).1, shiftNeg17_apply _ _ _ (hg e).2]
    exact Iff.rfl

theorem hv47 (hr : ∀ i, 0 ≤ (a₁ i).toInt ∧ (a₁ i).toInt < 10000) :
    (V7 m c main_v47 : S10240x10240.Idx → EReal)
      = Cert.Bridge.denseArr (gdst a₁) (gsrc a₁) (gcoef a₁ a₂) :=
  hv47_of m c fun e => ⟨(gidx_range a₁ hr e).1, (gidx_range a₁ hr e).2.2.1⟩

end Cert.KernelIdeal.Hand

end
-- ==== Proof.KI.AdjacencyC.lean ====
import proofs.«402230_j66554813219093_3_alg».proof.Proof.KI.AdjacencyG

noncomputable section
namespace Cert.KernelIdeal.Hand
open Cert.KernelIdeal Cert.KernelIdeal.Gen
open Idealize.ShloMosaic Idealize.ShloMosaic.TcCoe Idealize.ShloMosaic.ValueIdx Idealize.ShloMosaic.StableHlo
open Cert.ReferenceIdeal.Read Cert.Graph

variable (m : (ℓ : Loc nD τ sig) → Buf (Elt Ideal) ℓ) (c : Dev nD) (W : Valuation τ sig (Elt Ideal))

abbrev shiftNeg16 (k : BitVec 32) (x : IVec S160000 32) : IVec S160000 32 :=
  select (cmpi .slt x (broadcastInDim S160000 ![] bcast_S_S160000 (constantI S_ 32 0#32)))
    (addi x (broadcastInDim S160000 ![] bcast_S_S160000 (constantI S_ 32 k))) x

abbrev coefC (V : Valuation τ sig (Elt Ideal)) : FVec Ideal S160000 .f32 :=
  mulf (mulf (Host.gather gather_S10000_S160000x1_S160000_n_0_n_n_0_1_1 (V main_v56 : FVec Ideal S10000 .f32)
        (broadcastInDim S160000x1 ![0] bcast_S160000_S160000x1_0 (shiftNeg16 10000#32 (V main_v1))))
      (V main_v49 : FVec Ideal S160000 .f32))
    (Host.gather gather_S10000_S160000x1_S160000_n_0_n_n_0_1_1 (V main_v56 : FVec Ideal S10000 .f32)
        (broadcastInDim S160000x1 ![0] bcast_S160000_S160000x1_0 (shiftNeg16 10000#32 (V main_v3))))

theorem adjC_tail :
    (StableHlo.after ((hostOps0_6 : List (HloOp τ sig (Elt Ideal))).drop 39) W (Proc.devRef .tc main_v89) : S10240x10240.Idx → EReal)
      = (truncf .bf16 (Host.scatterAdd (F := Ideal) scatter_S10240x10240_S160000x2_S160000_n_01_01_1
          (W main_v73 : FVec Ideal S10240x10240 .f32)
          (concatenate S160000x2 1 [⟨S160000x1, (W main_v85 : IVec S160000x1 32)⟩, ⟨S160000x1, (W main_v86 : IVec S160000x1 32)⟩]
            concatenates_S160000x1_S160000x1_S160000x2_d1)
          (W main_v74 : FVec Ideal S160000 .f32)) bitsLt_bf16_f32 : FVec Ideal S10240x10240 .bf16) := by
  conv in (List.drop _ _) => whnf
  after_results

theorem adjC_head :
    (StableHlo.after ((hostOps0_6 : List (HloOp τ sig (Elt Ideal))).take 39) W main_v73 : FVec Ideal S10240x10240 .f32)
      = broadcastInDim S10240x10240 ![] bcast_S_S10240x10240 (constant (F := Ideal) S_ .f32 0x00000000#32)
    ∧ (StableHlo.after ((hostOps0_6 : List (HloOp τ sig (Elt Ideal))).take 39) W main_v85 : IVec S160000x1 32)
      = broadcastInDim S160000x1 ![0] bcast_S160000_S160000x1_0 (shiftNeg16 10240#32 (W main_v3))
    ∧ (StableHlo.after ((hostOps0_6 : List (HloOp τ sig (Elt Ideal))).take 39) W main_v86 : IVec S160000x1 32)
      = broadcastInDim S160000x1 ![0] bcast_S160000_S160000x1_0 (shiftNeg16 10240#32 (W main_v1))
    ∧ (StableHlo.after ((hostOps0_6 : List (HloOp τ sig (Elt Ideal))).take 39) W main_v74 : FVec Ideal S160000 .f32)
      = Host.negf (coefC W) := by
  simp only [hostOps0_6, List.take_succ_cons, List.take_zero]
  refine ⟨?_, ?_, ?_, ?_⟩ <;> after_results_simp

theorem host02_v48 :
    (StableHlo.after hostOps0_2 W (Proc.devRef .tc main_v48) : IVec S160000 1)
      = cmpi .eq (W main_v1 : IVec S160000 32) (W main_v3 : IVec S160000 32) := by
  simp only [hostOps0_2]
  after_results_simp

theorem host02_cst_11 :
    (StableHlo.after hostOps0_2 W (Proc.devRef .tc main_cst_11) : FVec Ideal S_ .f32)
      = constant (F := Ideal) S_ .f32 0x00000000#32 := by
  simp only [hostOps0_2]
  after_results_simp

theorem host03_v49 :
    (StableHlo.after hostOps0_3 W (Proc.devRef .tc main_v49) : FVec Ideal S160000 .f32)
      = select (W main_v48 : IVec S160000 1) (broadcastInDim S160000 ![] bcast_S_S160000 (W main_cst_11 : FVec Ideal S_ .f32)) (W main_arg2 : FVec Ideal S160000 .f32) := by
  simp only [hostOps0_3]
  after_results
  rfl

abbrev degC : FVec Ideal S10000 .f32 :=
  Host.scatterAdd (F := Ideal) scatter_S10000_S160000x1_S160000_n_0_0_1
    (broadcastInDim S10000 ![] bcast_S_S10000 (constant (F := Ideal) S_ .f32 0x00000000#32))
    (broadcastInDim S160000x1 ![0] bcast_S160000_S160000x1_0 (W main_v1 : IVec S160000 32))
    (W main_v49 : FVec Ideal S160000 .f32)

theorem host04_v54 :
    (StableHlo.after hostOps0_4 W (Proc.devRef .tc main_v54) : IVec S10000 1)
      = cmpf .ogt (degC W) (broadcastInDim S10000 ![] bcast_S_S10000 (constant (F := Ideal) S_ .f32 0x00000000#32)) := by
  simp only [hostOps0_4]
  after_results

theorem host04_v55 :
    (StableHlo.after hostOps0_4 W (Proc.devRef .tc main_v55) : FVec Ideal S10000 .f32)
      = Host.rsqrt (degC W) := by
  simp only [hostOps0_4]
  after_results

theorem host04_cst_14 :
    (StableHlo.after hostOps0_4 W (Proc.devRef .tc main_cst_14) : FVec Ideal S_ .f32)
      = constant (F := Ideal) S_ .f32 0x00000000#32 := by
  simp only [hostOps0_4]
  after_results

theorem host05_v56 :
    (StableHlo.after hostOps0_5 W (Proc.devRef .tc main_v56) : FVec Ideal S10000 .f32)
      = select (W main_v54 : IVec S10000 1) (W main_v55 : FVec Ideal S10000 .f32) (broadcastInDim S10000 ![] bcast_S_S10000 (id (W main_cst_14 : FVec Ideal S_ .f32))) := by
  simp only [hostOps0_5]
  after_results
  rfl

set_option quotPrecheck false in
local notation "a₁" => (m ((c : Thread nD τ).loc main_arg1) : IVec S2x160000 32)
set_option quotPrecheck false in
local notation "a₂" => (m ((c : Thread nD τ).loc main_arg2) : FVec Ideal S160000 .f32)

theorem kV2_v1 : (V2 m c main_v1 : IVec S160000 32) = val_main_v1 (F := Ideal) a₁ :=
  (V2_of m c main_v1 (by decide)).trans (host0_v1 (V0 m c))
theorem kV2_v3 : (V2 m c main_v3 : IVec S160000 32) = val_main_v3 (F := Ideal) a₁ :=
  (V2_of m c main_v3 (by decide)).trans (host0_v3 (V0 m c))
theorem kV4_v1 : (V4 m c main_v1 : IVec S160000 32) = val_main_v1 (F := Ideal) a₁ :=
  (V4_of m c main_v1 (by decide)).trans <| (V3_of m c main_v1 (by decide)).trans (kV2_v1 m c)
theorem kV6_v1 : (V6 m c main_v1 : IVec S160000 32) = val_main_v1 (F := Ideal) a₁ :=
  (V6_of m c main_v1 (by decide)).trans <| (V5_of m c main_v1 (by decide)).trans (kV4_v1 m c)
theorem kV6_v3 : (V6 m c main_v3 : IVec S160000 32) = val_main_v3 (F := Ideal) a₁ :=
  (V6_of m c main_v3 (by decide)).trans <| (V5_of m c main_v3 (by decide)).trans <|
    (V4_of m c main_v3 (by decide)).trans <| (V3_of m c main_v3 (by decide)).trans (kV2_v3 m c)
theorem kV3_arg2 : (V3 m c main_arg2 : FVec Ideal S160000 .f32) = a₂ :=
  (V3_of m c main_arg2 (by decide)).trans <| (V2_of m c main_arg2 (by decide)).trans <|
    (V1_of m c main_arg2 (by decide)).trans rfl

theorem kV4_v49 : (V4 m c main_v49 : FVec Ideal S160000 .f32) = val_main_v97 (F := Ideal) a₁ a₂ := by
  have e48 : (V3 m c main_v48 : IVec S160000 1) = val_main_v96 (F := Ideal) a₁ := by
    refine (host02_v48 (V2 m c)).trans ?_
    rw [kV2_v1, kV2_v3]
    rfl
  have ec : (V3 m c main_cst_11 : FVec Ideal S_ .f32) = val_main_cst_20 (F := Ideal) :=
    (host02_cst_11 (V2 m c)).trans rfl
  refine (host03_v49 (V3 m c)).trans ?_
  rw [e48, ec, kV3_arg2]
  rfl

theorem kV6_v49 : (V6 m c main_v49 : FVec Ideal S160000 .f32) = val_main_v97 (F := Ideal) a₁ a₂ :=
  (V6_of m c main_v49 (by decide)).trans <| (V5_of m c main_v49 (by decide)).trans (kV4_v49 m c)

theorem kV6_v56 : (V6 m c main_v56 : FVec Ideal S10000 .f32) = val_main_v104 (F := Ideal) a₁ a₂ := by
  have e54 : (V5 m c main_v54 : IVec S10000 1) = val_main_v102 (F := Ideal) a₁ a₂ := by
    refine (host04_v54 (V4 m c)).trans ?_
    dsimp only [degC]
    rw [kV4_v1, kV4_v49]
    rfl
  have e55 : (V5 m c main_v55 : FVec Ideal S10000 .f32) = val_main_v103 (F := Ideal) a₁ a₂ := by
    refine (host04_v55 (V4 m c)).trans ?_
    dsimp only [degC]
    rw [kV4_v1, kV4_v49]
    rfl
  have ec : (V5 m c main_cst_14 : FVec Ideal S_ .f32) = val_main_cst_23 (F := Ideal) :=
    (host04_cst_14 (V4 m c)).trans rfl
  refine (host05_v56 (V5 m c)).trans ?_
  rw [e54, e55, ec]
  rfl

theorem coefC_eq : coefC (V6 m c) = val_main_v120 (F := Ideal) a₁ a₂ := by
  dsimp only [coefC, shiftNeg16]
  rw [kV6_v1, kV6_v3, kV6_v49, kV6_v56]
  rfl

theorem shiftNeg16_apply (k : BitVec 32) (x : IVec S160000 32) (e : S160000.Idx) (h : 0 ≤ (x e).toInt) :
    shiftNeg16 k x e = x e := shiftNeg_apply _ _ k x e h

theorem adjC_scatter_eq : scatter_S10240x10240_S160000x2_S160000_n_01_01_1
    = Cert.Scatter2D.pairDims 10240 10240 160000 scatter_S10240x10240_S160000x2_S160000_n_01_01_1_wf := rfl

theorem adjC_v89 :
    (V7 m c main_v89 : S10240x10240.Idx → EReal)
      = (truncf .bf16 (Host.scatterAdd (F := Ideal) scatter_S10240x10240_S160000x2_S160000_n_01_01_1
          (broadcastInDim S10240x10240 ![] bcast_S_S10240x10240 (constant (F := Ideal) S_ .f32 0x00000000#32))
          (concatenate S160000x2 1
            [⟨S160000x1, broadcastInDim S160000x1 ![0] bcast_S160000_S160000x1_0 (shiftNeg16 10240#32 (V6 m c main_v3))⟩,
             ⟨S160000x1, broadcastInDim S160000x1 ![0] bcast_S160000_S160000x1_0 (shiftNeg16 10240#32 (V6 m c main_v1))⟩]
            concatenates_S160000x1_S160000x1_S160000x2_d1)
          (Host.negf (coefC (V6 m c)))) bitsLt_bf16_f32 : FVec Ideal S10240x10240 .bf16) := by
  have h := adjC_head (V6 m c)
  refine (after_cut hostOps0_6 39 (V6 m c) _).trans ?_
  rw [adjC_tail, h.1, h.2.1, h.2.2.1, h.2.2.2]

-- As for the first adjacency, over the 160000 given edges and with the negated Chebyshev coefficients.
theorem hv89_of (hg : ∀ e, 0 ≤ cdst a₁ e ∧ 0 ≤ csrc a₁ e) :
    (V7 m c main_v89 : S10240x10240.Idx → EReal)
      = Cert.Bridge.denseArr (cdst a₁) (csrc a₁) (fun e => -ccoef a₁ a₂ e) := by
  rw [adjC_v89, kV6_v1, kV6_v3, coefC_eq]
  funext i
  obtain ⟨p, q, rfl⟩ : ∃ p q, i = ix2 p q := ⟨i 0, i 1, eq_ix2 i⟩
  rw [truncf_apply, adjC_scatter_eq, Cert.Scatter2D.scatterAdd_pairs_apply]
  show _ = (0 : EReal) + ∑ e ∈ Finset.univ.filter (fun e : Fin 160000 =>
    cdst a₁ e = (p.val : ℤ) ∧ csrc a₁ e = (q.val : ℤ)), -ccoef a₁ a₂ e
  refine congrArg₂ (· + ·) ?_ ?_
  · exact Cert.RealVal.constant_zero_apply _ _
  · refine Finset.sum_congr (Finset.filter_congr fun e _ => ?_) (fun e _ => rfl)
    obtain ⟨h0, h1⟩ := pairs_apply bcast_S160000_S160000x1_0 concatenates_S160000x1_S160000x1_S160000x2_d1
      (shiftNeg16 10240#32 (val_main_v3 (F := Ideal) a₁))
      (shiftNeg16 10240#32 (val_main_v1 (F := Ideal) a₁)) e
    rw [h0, h1, shiftNeg16_apply _ _ _ (hg e).1, shiftNeg16_apply _ _ _ (hg e).2]
    exact Iff.rfl

theorem hv89 (hr : ∀ i, 0 ≤ (a₁ i).toInt ∧ (a₁ i).toInt < 10000) :
    (V7 m c main_v89 : S10240x10240.Idx → EReal)
      = Cert.Bridge.denseArr (cdst a₁) (csrc a₁) (fun e => -ccoef a₁ a₂ e) :=
  hv89_of m c fun e => ⟨(cidx_range a₁ hr e).1, (cidx_range a₁ hr e).2.2.1⟩

end Cert.KernelIdeal.Hand

end
-- ==== Proof.KI.KernelValue.lean ====
import proofs.«402230_j66554813219093_3_alg».proof.Proof.KI.Run
import proofs.«402230_j66554813219093_3_alg».proof.Proof.KI.Value0
import proofs.«402230_j66554813219093_3_alg».proof.Proof.KI.Value1
import proofs.«402230_j66554813219093_3_alg».proof.Proof.KI.Value2
import proofs.«402230_j66554813219093_3_alg».proof.Proof.KI.Value3
import proofs.«402230_j66554813219093_3_alg».proof.Proof.KI.Value4
import proofs.«402230_j66554813219093_3_alg».proof.Proof.KI.Value5
import proofs.«402230_j66554813219093_3_alg».proof.Proof.KI.Value6
import proofs.«402230_j66554813219093_3_alg».proof.Proof.KI.HostVals
import proofs.«402230_j66554813219093_3_alg».proof.Proof.KI.AdjacencyG
import proofs.«402230_j66554813219093_3_alg».proof.Proof.KI.AdjacencyC
import proofs.«402230_j66554813219093_3_alg».proof.Proof.Graph

noncomputable section

namespace Cert.KernelIdeal.Hand

open Cert.KernelIdeal Cert.KernelIdeal.Gen
open Idealize.ShloMosaic Idealize.ShloMosaic.TcCoe Idealize.ShloMosaic.ValueIdx Idealize.SL.Sem
open Cert.Bridge Cert.Graph Cert.Spec

variable (m : (ℓ : Loc nD τ sig) → Buf (Elt Ideal) ℓ) (c : Dev nD)

abbrev xA : S10000x512.Idx → EReal := m ((c : Thread nD τ).loc main_arg0)
abbrev eiA : IVec S2x160000 32 := m ((c : Thread nD τ).loc main_arg1)
abbrev wA : FVec Ideal S160000 .f32 := m ((c : Thread nD τ).loc main_arg2)
abbrev W1A : S512x512.Idx → EReal := m ((c : Thread nD τ).loc main_arg3)
abbrev b1A : Fin 512 → EReal := fun f => (m ((c : Thread nD τ).loc main_arg4) : S512.Idx → EReal) (ix1 f)
abbrev W2A : S512x512.Idx → EReal := m ((c : Thread nD τ).loc main_arg5)
abbrev b2A : Fin 512 → EReal := fun f => (m ((c : Thread nD τ).loc main_arg6) : S512.Idx → EReal) (ix1 f)
abbrev Wc0A : S512x256.Idx → EReal := fun i => (m ((c : Thread nD τ).loc main_arg7) : S3x512x256.Idx → EReal) (ix3 0 (i 0) (i 1))
abbrev Wc1A : S512x256.Idx → EReal := fun i => (m ((c : Thread nD τ).loc main_arg7) : S3x512x256.Idx → EReal) (ix3 1 (i 0) (i 1))
abbrev Wc2A : S512x256.Idx → EReal := fun i => (m ((c : Thread nD τ).loc main_arg7) : S3x512x256.Idx → EReal) (ix3 2 (i 0) (i 1))
abbrev bcA : Fin 256 → EReal := fun f => (m ((c : Thread nD τ).loc main_arg8) : S256.Idx → EReal) (ix1 f)

theorem u9_v47 : U9 m c main_v47 = V7 m c main_v47 := (congrFun (V9_eq m c) _).symm.trans (carry_v47_9 m (outs m) c)
theorem u9_v105 : U9 m c main_v105 = o105 m c :=
  (congrFun (V9_eq m c) _).symm.trans ((carry_v105_9 m (outs m) c).trans (outs_v105 m 8 c))
theorem u9_v106 : (U9 m c main_v106 : S1x512.Idx → EReal) = fun i => (m ((c : Thread nD τ).loc main_arg4) : S512.Idx → EReal) (ix1 (i 1)) :=
  (congrFun (V9_eq m c) _).symm.trans (hv106 m (outs m) c)
theorem u10_v107 : U10 m c main_v107 = o107 m c :=
  (congrFun (V10_eq m c) _).symm.trans ((carry_v107_10 m (outs m) c).trans (outs_v107 m 10 c))
theorem u10_v95 : U10 m c main_v95 = V7 m c main_v95 := (congrFun (V10_eq m c) _).symm.trans (carry_v95_10 m (outs m) c)
theorem u12_v47 : U12 m c main_v47 = V7 m c main_v47 := (congrFun (V12_eq m c) _).symm.trans (carry_v47_12 m (outs m) c)
theorem u12_v108 : U12 m c main_v108 = o108 m c :=
  (congrFun (V12_eq m c) _).symm.trans ((carry_v108_12 m (outs m) c).trans (outs_v108 m 11 c))
theorem u12_v109 : (U12 m c main_v109 : S1x512.Idx → EReal) = fun i => (m ((c : Thread nD τ).loc main_arg6) : S512.Idx → EReal) (ix1 (i 1)) :=
  (congrFun (V12_eq m c) _).symm.trans (hv109 m (outs m) c)
theorem u13_v89 : U13 m c main_v89 = V7 m c main_v89 := (congrFun (V13_eq m c) _).symm.trans (carry_v89_13 m (outs m) c)
theorem u13_v110 : U13 m c main_v110 = o110 m c :=
  (congrFun (V13_eq m c) _).symm.trans ((carry_v110_13 m (outs m) c).trans (outs_v110 m 13 c))
theorem u14_v89 : U14 m c main_v89 = V7 m c main_v89 := (congrFun (V14_eq m c) _).symm.trans (carry_v89_14 m (outs m) c)
theorem u14_v111 : U14 m c main_v111 = o111 m c :=
  (congrFun (V14_eq m c) _).symm.trans ((carry_v111_14 m (outs m) c).trans (outs_v111 m 14 c))
theorem u14_v110 : U14 m c main_v110 = o110 m c :=
  (congrFun (V14_eq m c) _).symm.trans ((carry_v110_14 m (outs m) c).trans (outs_v110 m 13 c))
theorem u16_v110 : U16 m c main_v110 = o110 m c :=
  (congrFun (V16_eq m c) _).symm.trans ((carry_v110_16 m (outs m) c).trans (outs_v110 m 13 c))
theorem u16_v111 : U16 m c main_v111 = o111 m c :=
  (congrFun (V16_eq m c) _).symm.trans ((carry_v111_16 m (outs m) c).trans (outs_v111 m 14 c))
theorem u16_v112 : U16 m c main_v112 = o112 m c :=
  (congrFun (V16_eq m c) _).symm.trans ((carry_v112_16 m (outs m) c).trans (outs_v112 m 15 c))
theorem u16_v98 : U16 m c main_v98 = V7 m c main_v98 := (congrFun (V16_eq m c) _).symm.trans (carry_v98_16 m (outs m) c)
theorem u16_v101 : U16 m c main_v101 = V7 m c main_v101 := (congrFun (V16_eq m c) _).symm.trans (carry_v101_16 m (outs m) c)
theorem u16_v104 : U16 m c main_v104 = V7 m c main_v104 := (congrFun (V16_eq m c) _).symm.trans (carry_v104_16 m (outs m) c)
theorem u16_v113 : (U16 m c main_v113 : S1x256.Idx → EReal) = fun i => (m ((c : Thread nD τ).loc main_arg8) : S256.Idx → EReal) (ix1 (i 1)) :=
  (congrFun (V16_eq m c) _).symm.trans (hv113 m (outs m) c)

section Layers

variable (hr : ∀ i, 0 ≤ ((eiA m c) i).toInt ∧ ((eiA m c) i).toInt < 10000)

theorem k105 : (o105 m c : S10240x512.Idx → EReal) = K1mid (xA m c) (W1A m c) := by
  unfold o105
  rw [final0]
  funext i
  show mm (V7 m c main_v93) (V7 m c main_v94) (i 0) (i 1) = _
  rw [hv93, hv94]
  rfl

include hr in
theorem k107 : (o107 m c : S10240x512.Idx → EReal)
    = K1 (xA m c) (W1A m c) (b1A m c) (gdst (eiA m c)) (gsrc (eiA m c)) (gcoef (eiA m c) (wA m c)) := by
  unfold o107
  rw [final1]
  funext i
  show celuK (mm (U9 m c main_v47) (U9 m c main_v105) (i 0) (i 1) + (U9 m c main_v106 : S1x512.Idx → EReal) (ix2 0 (i 1))) = _
  rw [u9_v47, u9_v105, u9_v106, hv47 m c hr, k105]
  rfl

include hr in
theorem k108 : (o108 m c : S10240x512.Idx → EReal)
    = K2mid (xA m c) (W1A m c) (W2A m c) (b1A m c) (gdst (eiA m c)) (gsrc (eiA m c)) (gcoef (eiA m c) (wA m c)) := by
  unfold o108
  rw [final2]
  funext i
  show mm (U10 m c main_v107) (U10 m c main_v95) (i 0) (i 1) = _
  rw [u10_v107, u10_v95, k107 m c hr, hv95]
  rfl

include hr in
theorem k110 : (o110 m c : S10240x512.Idx → EReal)
    = K2 (xA m c) (W1A m c) (W2A m c) (b1A m c) (b2A m c) (gdst (eiA m c)) (gsrc (eiA m c)) (gcoef (eiA m c) (wA m c)) := by
  unfold o110
  rw [final3]
  funext i
  show celuK (mm (U12 m c main_v47) (U12 m c main_v108) (i 0) (i 1) + (U12 m c main_v109 : S1x512.Idx → EReal) (ix2 0 (i 1))) = _
  rw [u12_v47, u12_v108, u12_v109, hv47 m c hr, k108 m c hr]
  rfl

include hr in
theorem k111 : (o111 m c : S10240x512.Idx → EReal)
    = KT1 (xA m c) (W1A m c) (W2A m c) (b1A m c) (b2A m c) (gdst (eiA m c)) (gsrc (eiA m c)) (gcoef (eiA m c) (wA m c))
        (cdst (eiA m c)) (csrc (eiA m c)) (ccoef (eiA m c) (wA m c)) := by
  unfold o111
  rw [final4]
  funext i
  show mm (U13 m c main_v89) (U13 m c main_v110) (i 0) (i 1) = _
  rw [u13_v89, u13_v110, hv89 m c hr, k110 m c hr]
  rfl

include hr in
theorem k112 : (o112 m c : S10240x512.Idx → EReal)
    = KT2 (xA m c) (W1A m c) (W2A m c) (b1A m c) (b2A m c) (gdst (eiA m c)) (gsrc (eiA m c)) (gcoef (eiA m c) (wA m c))
        (cdst (eiA m c)) (csrc (eiA m c)) (ccoef (eiA m c) (wA m c)) := by
  unfold o112
  rw [final5]
  funext i
  show (2 : EReal) * mm (U14 m c main_v89) (U14 m c main_v111) (i 0) (i 1) - (U14 m c main_v110 : S10240x512.Idx → EReal) i = _
  rw [u14_v89, u14_v111, u14_v110, hv89 m c hr, k111 m c hr, k110 m c hr]
  rfl

include hr in
theorem k114 : (o114 m c : S10240x256.Idx → EReal)
    = Kout (xA m c) (W1A m c) (W2A m c) (b1A m c) (b2A m c) (Wc0A m c) (Wc1A m c) (Wc2A m c) (bcA m c)
        (gdst (eiA m c)) (gsrc (eiA m c)) (gcoef (eiA m c) (wA m c))
        (cdst (eiA m c)) (csrc (eiA m c)) (ccoef (eiA m c) (wA m c)) := by
  unfold o114
  rw [final6]
  funext i
  show celuK (mm (U16 m c main_v110) (U16 m c main_v98) (i 0) (i 1) + mm (U16 m c main_v111) (U16 m c main_v101) (i 0) (i 1)
      + mm (U16 m c main_v112) (U16 m c main_v104) (i 0) (i 1) + (U16 m c main_v113 : S1x256.Idx → EReal) (ix2 0 (i 1))) = _
  rw [u16_v110, u16_v111, u16_v112, u16_v98, u16_v101, u16_v104, u16_v113, hv98, hv101, hv104, k110 m c hr, k111 m c hr, k112 m c hr]
  rfl

-- Each region's output is the matching stage of the dense computation; the result keeps its first 10000 rows.
include hr in
theorem kres : (U18 m c main_v115 : S10000x256.Idx → EReal)
    = Kres (xA m c) (W1A m c) (W2A m c) (b1A m c) (b2A m c) (Wc0A m c) (Wc1A m c) (Wc2A m c) (bcA m c)
        (gdst (eiA m c)) (gsrc (eiA m c)) (gcoef (eiA m c) (wA m c))
        (cdst (eiA m c)) (csrc (eiA m c)) (ccoef (eiA m c) (wA m c)) := by
  rw [show (U18 m c main_v115 : S10000x256.Idx → EReal) = V18 m (outs m) c main_v115 from (congrFun (V18_eq m c) _).symm, hv115]
  funext i
  show (V17 m (outs m) c main_v114 : S10240x256.Idx → EReal) _ = _
  rw [show V17 m (outs m) c main_v114 = o114 m c from (carry_v114_17 m (outs m) c).trans (outs_v114 m 17 c), k114 m c hr]
  rfl

end Layers

end Cert.KernelIdeal.Hand

end
-- ==== Proof.LibRowGather2.lean ====
import Idealize.ShloMosaic.Lib.ValueIdx

noncomputable section

namespace Cert.RowGather2

open Idealize.ShloMosaic Idealize.ShloMosaic.ValueIdx

variable {α : Type}

abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section
variable {N C R w : Nat}
  (wf : GatherDims.WF ⟨2, ![N, C]⟩ ⟨2, ![R, 1]⟩ ⟨2, ![R, C]⟩ [1] [0] [] [0] [] 1 ![1, C])
  (idx : IVec ⟨2, ![R, 1]⟩ w) (r : Fin R) (c : Fin C)

theorem one_not_mem_startIndexMap : ¬ (1 : Fin 2) ∈ (rowDims N C R wf).startIndexMap := fun h =>
  absurd (congrArg Fin.val (List.mem_singleton.mp h)) Nat.one_ne_zero

theorem one_mem_sKept : (1 : Fin 2) ∈ (rowDims N C R wf).sKept :=
  (GatherDims.mem_sKept _ _).mpr ⟨fun h => absurd (congrArg Fin.val (List.mem_singleton.mp h)) Nat.one_ne_zero, List.not_mem_nil⟩

theorem operandIdx_row :
    ((rowDims N C R wf).operandIdx (ix2 r c) idx (0 : Fin 2)).val = min (idx (ix2 r (0 : Fin 1))).toInt.toNat (N - 1) := by
  show (rowDims N C R wf).start (ix2 r c) idx 0 + (rowDims N C R wf).batchCoord (ix2 r c) 0
      + (rowDims N C R wf).offCoord (ix2 r c) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ (rowDims N C R wf).startIndexMap from List.mem_singleton.mpr rfl)]
  have hsi : (rowDims N C R wf).siIdx (ix2 r c) ⟨List.idxOf (0 : Fin 2) (rowDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

theorem operandIdx_col :
    ((rowDims N C R wf).operandIdx (ix2 r c) idx (1 : Fin 2)).val = c.val := by
  show (rowDims N C R wf).start (ix2 r c) idx 1 + (rowDims N C R wf).batchCoord (ix2 r c) 1
      + (rowDims N C R wf).offCoord (ix2 r c) 1 = _
  rw [GatherDims.batchCoord_eq_zero _ _ _ List.not_mem_nil, Nat.add_zero]
  unfold GatherDims.start
  rw [dif_neg (one_not_mem_startIndexMap wf), Nat.zero_add]
  unfold GatherDims.offCoord
  rw [dif_pos (one_mem_sKept wf)]
  rfl

end

theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  refine congrArg x (funext fun a => Fin.ext ?_)
  match a with
  | ⟨0, _⟩ => exact operandIdx_row wf idx r c
  | ⟨1, _⟩ => exact operandIdx_col wf idx r c

end Cert.RowGather2

end
-- ==== Proof.LibRowScatter.lean ====
import proofs.«402230_j66554813219093_3_alg».proof.Proof.Lib2DScatter

noncomputable section

namespace Cert.RowScatter

open Idealize.ShloMosaic Idealize.ShloMosaic.ValueIdx

abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N C R w : Nat}
  (wf : ScatterDims.WF ⟨2, ![N, C]⟩ ⟨2, ![R, 1]⟩ ⟨2, ![R, C]⟩ [1] [0] [0] 1)
  (idx : IVec ⟨2, ![R, 1]⟩ w) (e : Fin R) (c : Fin C)

-- On the row axis the window of update (e, c) starts at row e's index word, read signed.
theorem start_row : (rowDims N C R wf).start (ix2 e c) idx (0 : Fin 2) = (idx (ix2 e (0 : Fin 1))).toInt := by
  unfold ScatterDims.start
  rw [dif_pos (show (0 : Fin 2) ∈ (rowDims N C R wf).scatterDimsToOperandDims from List.mem_singleton.mpr rfl)]
  refine congrArg (fun i => (idx i).toInt) (funext fun b => Fin.ext ?_)
  match b with
  | ⟨0, _⟩ => rfl
  | ⟨1, _⟩ => rfl

-- The column axis is not scatter-indexed: its window starts at 0.
theorem start_col : (rowDims N C R wf).start (ix2 e c) idx (1 : Fin 2) = 0 := by
  unfold ScatterDims.start
  rw [dif_neg (fun h => absurd (congrArg Fin.val (List.mem_singleton.mp h)) Nat.one_ne_zero)]

-- The row axis is inserted: window coordinate 0.
theorem window_row : (rowDims N C R wf).window (ix2 e c) (0 : Fin 2) = 0 := by
  have h : ¬ (0 : Fin 2) ∈ (rowDims N C R wf).sKept := by simp [ScatterDims.sKept, Shape.kept]
  unfold ScatterDims.window
  rw [dif_neg h]

-- The column axis is the one kept axis: window coordinate c.
theorem window_col : (rowDims N C R wf).window (ix2 e c) (1 : Fin 2) = c.val := by
  have h : (1 : Fin 2) ∈ (rowDims N C R wf).sKept := by simp [ScatterDims.sKept, Shape.kept]
  unfold ScatterDims.window
  rw [dif_pos h]
  rfl

theorem lands (i : Fin N) (c' : Fin C) :
    (rowDims N C R wf).resultIdx? (ix2 e c) idx = some (ix2 i c')
      ↔ (idx (ix2 e (0 : Fin 1))).toInt = (i.val : Int) ∧ c = c' := by
  rw [Cert.Scatter2D.resultIdx?_eq_some_iff, start_row, start_col, window_row, window_col, Nat.cast_zero, add_zero,
    zero_add, Nat.cast_inj, Fin.val_inj]

end

/-- The accumulating scatter of rows at a column of indices, read at (i, c): the table there plus the updates (e, c)
    of the rows e whose index, read signed, is i. -/
theorem scatterAdd_rows_apply {N C R w : Nat} {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (i : Fin N) (c : Fin C) :
    Host.scatterAdd (rowDims N C R wf) x idx upd (ix2 i c)
      = x (ix2 i c) + ∑ e ∈ Finset.univ.filter (fun e : Fin R => (idx (ix2 e (0 : Fin 1))).toInt = (i.val : Int)),
          upd (ix2 e c) := by
  unfold Host.scatterAdd
  rw [Ideal.hostScatterAdd_def]
  unfold Ideal.hostScatterAdd
  refine congrArg (x (ix2 i c) + ·) (Finset.sum_nbij' (fun e : Fin R => (ix2 e c : (⟨2, ![R, C]⟩ : Shape).Idx))
    (fun j : (⟨2, ![R, C]⟩ : Shape).Idx => (j (0 : Fin 2) : Fin R)) ?_ ?_ (fun _ _ => rfl) ?_ (fun _ _ => rfl)).symm
  · intro e he
    rw [Finset.mem_filter] at he ⊢
    exact ⟨Finset.mem_univ _, (lands wf idx e c i c).mpr ⟨he.2, rfl⟩⟩
  · intro j hj
    obtain ⟨a, b, rfl⟩ : ∃ a b, j = ix2 a b := ⟨j 0, j 1, eq_ix2 j⟩
    rw [Finset.mem_filter] at hj ⊢
    exact ⟨Finset.mem_univ _, ((lands wf idx a b i c).mp hj.2).1⟩
  · intro j hj
    obtain ⟨a, b, rfl⟩ : ∃ a b, j = ix2 a b := ⟨j 0, j 1, eq_ix2 j⟩
    rw [((lands wf idx a b i c).mp (Finset.mem_filter.mp hj).2).2]

end Cert.RowScatter

end
-- ==== Proof.RefRead.lean ====
import proofs.«402230_j66554813219093_3_alg».proof.Proof.BridgeDefs
import proofs.«402230_j66554813219093_3_alg».proof.Proof.LibRowGather2
import proofs.«402230_j66554813219093_3_alg».proof.Proof.LibRowScatter
import proofs.«402230_j66554813219093_3_alg».proof.Proof.LibReal

noncomputable section

namespace Cert.RefValue

open Idealize.ShloMosaic Idealize.ShloMosaic.ValueIdx Cert.Spec Cert.Bridge

theorem wrap_of_nonneg (s : BitVec 32) (h : 0 ≤ s.toInt) :
    Scalar.select (IntOp.cmpi .slt s 0#32) (IntOp.addi s 10000#32) s = s := by
  unfold Scalar.select
  rw [if_neg]
  have hf : s.slt 0#32 = false := by
    rw [Bool.eq_false_iff]
    intro ht
    have h1 : s.toInt < (0#32 : BitVec 32).toInt := BitVec.slt_iff_toInt_lt.mp ht
    have h0 : (0#32 : BitVec 32).toInt = 0 := by decide
    omega
  show ¬ (BitVec.ofBool (s.slt 0#32) = 1)
  rw [hf]
  decide

theorem celu_read {s : Shape} (y z0 z1 o1 o2 : FVec Ideal s .f32)
    (h0 : ∀ i, z0 i = 0) (h1 : ∀ i, z1 i = 0) (ho1 : ∀ i, o1 i = 1) (ho2 : ∀ i, o2 i = 1) (i : s.Idx) :
    addf (maximumf y z0) (mulf o2 (Host.expm1 (Host.divf (minimumf y z1) o1))) i = celuR (y i) := by
  show FloatOps.addf (FloatOps.maximumf (y i) (z0 i))
      (FloatOps.mulf (o2 i) (FloatOps.hostUnary .expm1 (FloatOps.hostDivf (FloatOps.minimumf (y i) (z1 i)) (o1 i)))) = _
  rw [h0, h1, ho1, ho2]
  rfl

theorem ofBits_two_f32 : Ideal.ofBits .f32 0x40000000#32 = 2 := by
  rw [show (2 : EReal) = ((2 : ℝ) : EReal) by norm_cast]
  simp [Ideal.ofBits, Ideal.ieee, -EReal.coe_mul]; norm_num

theorem mm_read {N : Nat} (x : FVec Ideal ⟨2, ![10000, 512]⟩ .f32) (w : FVec Ideal ⟨2, ![512, N]⟩ .f32)
    (p : Fin 10000) (q : Fin N)
    (l : Fin 512 → (⟨2, ![10000, 512]⟩ : Shape).Idx) (r : Fin 512 → (⟨2, ![512, N]⟩ : Shape).Idx)
    (hl : ∀ k, l k = ix2 p k) (hr : ∀ k, r k = ix2 k q) :
    ∑ k : Fin 512, x (l k) * w (r k) = mm x w p q := by
  unfold mm
  exact Finset.sum_congr rfl fun k _ => by rw [hl, hr]

theorem segsum_read {R : Nat}
    (wfS : ScatterDims.WF ⟨2, ![10000, 512]⟩ ⟨2, ![R, 1]⟩ ⟨2, ![R, 512]⟩ [1] [0] [0] 1)
    (wfG : GatherDims.WF ⟨2, ![10000, 512]⟩ ⟨2, ![R, 1]⟩ ⟨2, ![R, 512]⟩ [1] [0] [] [0] [] 1 ![1, 512])
    (zero : FVec Ideal ⟨2, ![10000, 512]⟩ .f32) (dcol scol : IVec ⟨2, ![R, 1]⟩ 32)
    (cf : FVec Ideal ⟨2, ![R, 512]⟩ .f32) (H : FVec Ideal ⟨2, ![10000, 512]⟩ .f32)
    (dst src : Fin R → ℤ) (coef : Fin R → EReal)
    (hz : ∀ i, zero i = 0)
    (hd : ∀ e, (dcol (ix2 e (0 : Fin 1))).toInt = dst e) (hs : ∀ e, (scol (ix2 e (0 : Fin 1))).toInt = src e)
    (hc : ∀ e c, cf (ix2 e c) = coef e) (i : Fin 10000) (c : Fin 512) :
    Host.scatterAdd (Cert.RowScatter.rowDims 10000 512 R wfS) zero dcol
        (mulf cf (Host.gather (Cert.RowGather2.rowDims 10000 512 R wfG) H scol)) (ix2 i c)
      = segsum dst src coef H i c := by
  rw [Cert.RowScatter.scatterAdd_rows_apply, hz]
  unfold segsum
  congr 1
  refine Finset.sum_congr ?_ fun e _ => ?_
  · ext e
    simp only [Finset.mem_filter, Finset.mem_univ, true_and, hd]
  · show FloatOps.mulf (cf (ix2 e c)) (Host.gather (Cert.RowGather2.rowDims 10000 512 R wfG) H scol (ix2 e c)) = _
    rw [Cert.RowGather2.gather_rows_apply (by decide), hc]
    simp only [hs]
    rfl

end Cert.RefValue

end
-- ==== Proof.RefValue1.lean ====
import proofs.«402230_j66554813219093_3_alg».proof.Proof.Graph
import proofs.«402230_j66554813219093_3_alg».proof.Proof.RefRead

noncomputable section

namespace Cert.RefValue

open Idealize.ShloMosaic Idealize.ShloMosaic.ValueIdx Cert.ReferenceIdeal Cert.ReferenceIdeal.Gen Cert.ReferenceIdeal.Read
  Cert.Spec Cert.Bridge Cert.Graph

theorem scatterG_eq : scatter_S10000x512_S170000x1_S170000x512_1_0_0_1
    = Cert.RowScatter.rowDims 10000 512 170000 scatter_S10000x512_S170000x1_S170000x512_1_0_0_1_wf := rfl

theorem gatherG_eq : gather_S10000x512_S170000x1_S170000x512_1_0_n_n_0_1_1512
    = Cert.RowGather2.rowDims 10000 512 170000 gather_S10000x512_S170000x1_S170000x512_1_0_n_n_0_1_1512_wf := rfl

section Layer1

variable (a0 : FVec Ideal S10000x512 .f32) (a1 : IVec S2x160000 32) (a2 : FVec Ideal S160000 .f32)
  (a3 : FVec Ideal S512x512 .f32) (a4 : FVec Ideal S512 .f32)

theorem v32_eq : val_main_v32 (F := Ideal) a0 a3 = R1mid a0 a3 := by
  funext i
  rw [val_main_v32_apply]
  exact mm_read a0 a3 (i 0) (i 1) _ _
    (fun k => funext fun a => Fin.ext (by match a with | ⟨0, _⟩ => rfl | ⟨1, _⟩ => rfl))
    (fun k => funext fun a => Fin.ext (by match a with | ⟨0, _⟩ => rfl | ⟨1, _⟩ => rfl))

theorem v39_read (hg : ∀ e, 0 ≤ gsrc a1 e) (e : Fin 170000) :
    (val_main_v39 (F := Ideal) a1 (ix2 e (0 : Fin 1))).toInt = gsrc a1 e := by
  rw [val_main_v39_apply, val_main_v38_apply, val_main_v35_apply, val_main_v37_apply, val_main_v34_apply,
    val_main_v36_apply, val_main_c_6_apply, val_main_c_7_apply]
  have ei : idx_main_v39 (ix2 e (0 : Fin 1)) = ix1 e := funext fun a => Fin.ext (by match a with | ⟨0, _⟩ => rfl)
  rw [ei, wrap_of_nonneg _ (hg e)]
  rfl

theorem v44_read (e : Fin 170000) : (val_main_v44 (F := Ideal) a1 (ix2 e (0 : Fin 1))).toInt = gdst a1 e := by
  rw [val_main_v44_apply]
  have ei : idx_main_v44 (ix2 e (0 : Fin 1)) = ix1 e := funext fun a => Fin.ext (by match a with | ⟨0, _⟩ => rfl)
  rw [ei]
  rfl

theorem v41_read (e : Fin 170000) (c : Fin 512) : val_main_v41 (F := Ideal) a1 a2 (ix2 e c) = gcoef a1 a2 e := by
  rw [val_main_v41_apply, val_main_v33_apply]
  have ei : idx_main_v33 (idx_main_v41 (ix2 e c)) = ix1 e := funext fun a => Fin.ext (by match a with | ⟨0, _⟩ => rfl)
  rw [ei]
  rfl

theorem v43_read (i : S10000x512.Idx) : val_main_v43 (F := Ideal) i = 0 := by
  rw [val_main_v43_apply, val_main_cst_8_apply]
  exact Ideal.ofBits_zero_f32

theorem v45_read (hg : ∀ e, 0 ≤ gsrc a1 e) (i : Fin 10000) (c : Fin 512) :
    val_main_v45 (F := Ideal) a0 a1 a2 a3 (ix2 i c)
      = segsum (gdst a1) (gsrc a1) (gcoef a1 a2) (val_main_v32 (F := Ideal) a0 a3) i c := by
  unfold val_main_v45 val_main_v42 val_main_v40
  rw [scatterG_eq, gatherG_eq]
  exact segsum_read _ _ _ _ _ _ _ _ _ _ v43_read (v44_read a1) (v39_read a1 hg) (v41_read a1 a2) i c

theorem v47_read (i : Fin 10000) (c : Fin 512) : val_main_v47 (F := Ideal) a4 (ix2 i c) = a4 (ix1 c) := by
  rw [val_main_v47_apply, val_main_v46_apply]
  exact congrArg a4 (funext fun a => Fin.ext (by match a with | ⟨0, _⟩ => rfl))

theorem v49_eq (hg : ∀ e, 0 ≤ gsrc a1 e) :
    val_main_v49 (F := Ideal) a0 a1 a2 a3 a4
      = R1 a0 a3 (fun f => a4 (ix1 f)) (gdst a1) (gsrc a1) (gcoef a1 a2) := by
  funext i
  obtain ⟨p, q, rfl⟩ : ∃ (p : Fin 10000) (q : Fin 512), i = ix2 p q := ⟨i 0, i 1, eq_ix2 i⟩
  have hz0 : ∀ j, val_main_call1_v0 (F := Ideal) j = 0 := fun j => by
    rw [val_main_call1_v0_apply, val_main_call1_cst_apply]; exact Ideal.ofBits_zero_f32
  have hz1 : ∀ j, val_main_call1_v2 (F := Ideal) j = 0 := fun j => by
    rw [val_main_call1_v2_apply, val_main_call1_cst_0_apply]; exact Ideal.ofBits_zero_f32
  have ho1 : ∀ j, val_main_call1_v4 (F := Ideal) j = 1 := fun j => by
    rw [val_main_call1_v4_apply, val_main_call1_cst_1_apply]; exact Ideal.ofBits_one_f32
  have ho2 : ∀ j, val_main_call1_v7 (F := Ideal) j = 1 := fun j => by
    rw [val_main_call1_v7_apply, val_main_call1_cst_2_apply]; exact Ideal.ofBits_one_f32
  unfold val_main_v49 val_main_call1_v1 val_main_call1_v8 val_main_call1_v6 val_main_call1_v5 val_main_call1_v3
  rw [celu_read _ _ _ _ _ hz0 hz1 ho1 ho2, val_main_v48_apply, v45_read a0 a1 a2 a3 hg, v47_read, v32_eq]
  rfl

end Layer1

end Cert.RefValue

end
-- ==== Proof.RefValue2.lean ====
import proofs.«402230_j66554813219093_3_alg».proof.Proof.RefValue1

noncomputable section

namespace Cert.RefValue

open Idealize.ShloMosaic Idealize.ShloMosaic.ValueIdx Cert.ReferenceIdeal Cert.ReferenceIdeal.Gen Cert.ReferenceIdeal.Read
  Cert.Spec Cert.Bridge Cert.Graph

section Layer2

variable (a0 : FVec Ideal S10000x512 .f32) (a1 : IVec S2x160000 32) (a2 : FVec Ideal S160000 .f32)
  (a3 : FVec Ideal S512x512 .f32) (a4 : FVec Ideal S512 .f32) (a5 : FVec Ideal S512x512 .f32) (a6 : FVec Ideal S512 .f32)

theorem v51_eq : val_main_v51 (F := Ideal) a1 = val_main_v5 (F := Ideal) a1 := rfl

theorem v52_eq : val_main_v52 (F := Ideal) a1 = val_main_v6 (F := Ideal) a1 := rfl

theorem v77_eq : val_main_v77 (F := Ideal) a1 a2 = val_main_v31 (F := Ideal) a1 a2 := rfl

theorem v78_eq (hg : ∀ e, 0 ≤ gsrc a1 e) :
    val_main_v78 (F := Ideal) a0 a1 a2 a3 a4 a5
      = R2mid a0 a3 a5 (fun f => a4 (ix1 f)) (gdst a1) (gsrc a1) (gcoef a1 a2) := by
  funext i
  rw [val_main_v78_apply, v49_eq a0 a1 a2 a3 a4 hg]
  exact mm_read _ a5 (i 0) (i 1) _ _
    (fun k => funext fun a => Fin.ext (by match a with | ⟨0, _⟩ => rfl | ⟨1, _⟩ => rfl))
    (fun k => funext fun a => Fin.ext (by match a with | ⟨0, _⟩ => rfl | ⟨1, _⟩ => rfl))

theorem v85_read (hg : ∀ e, 0 ≤ gsrc a1 e) (e : Fin 170000) :
    (val_main_v85 (F := Ideal) a1 (ix2 e (0 : Fin 1))).toInt = gsrc a1 e := by
  rw [val_main_v85_apply, val_main_v84_apply, val_main_v81_apply, val_main_v83_apply, val_main_v80_apply,
    val_main_v82_apply, val_main_c_17_apply, val_main_c_18_apply]
  have ei : idx_main_v85 (ix2 e (0 : Fin 1)) = ix1 e := funext fun a => Fin.ext (by match a with | ⟨0, _⟩ => rfl)
  rw [ei, v51_eq, wrap_of_nonneg _ (hg e)]
  rfl

theorem v90_read (e : Fin 170000) : (val_main_v90 (F := Ideal) a1 (ix2 e (0 : Fin 1))).toInt = gdst a1 e := by
  rw [val_main_v90_apply]
  have ei : idx_main_v90 (ix2 e (0 : Fin 1)) = ix1 e := funext fun a => Fin.ext (by match a with | ⟨0, _⟩ => rfl)
  rw [ei, v52_eq]
  rfl

theorem v87_read (e : Fin 170000) (c : Fin 512) : val_main_v87 (F := Ideal) a1 a2 (ix2 e c) = gcoef a1 a2 e := by
  rw [val_main_v87_apply, val_main_v79_apply]
  have ei : idx_main_v79 (idx_main_v87 (ix2 e c)) = ix1 e := funext fun a => Fin.ext (by match a with | ⟨0, _⟩ => rfl)
  rw [ei, v77_eq]
  rfl

theorem v89_read (i : S10000x512.Idx) : val_main_v89 (F := Ideal) i = 0 := by
  rw [val_main_v89_apply, val_main_cst_19_apply]
  exact Ideal.ofBits_zero_f32

theorem v91_read (hg : ∀ e, 0 ≤ gsrc a1 e) (i : Fin 10000) (c : Fin 512) :
    val_main_v91 (F := Ideal) a0 a1 a2 a3 a4 a5 (ix2 i c)
      = segsum (gdst a1) (gsrc a1) (gcoef a1 a2) (val_main_v78 (F := Ideal) a0 a1 a2 a3 a4 a5) i c := by
  unfold val_main_v91 val_main_v88 val_main_v86
  rw [scatterG_eq, gatherG_eq]
  exact segsum_read _ _ _ _ _ _ _ _ _ _ v89_read (v90_read a1) (v85_read a1 hg) (v87_read a1 a2) i c

theorem v93_read (i : Fin 10000) (c : Fin 512) : val_main_v93 (F := Ideal) a6 (ix2 i c) = a6 (ix1 c) := by
  rw [val_main_v93_apply, val_main_v92_apply]
  exact congrArg a6 (funext fun a => Fin.ext (by match a with | ⟨0, _⟩ => rfl))

theorem v95_eq (hg : ∀ e, 0 ≤ gsrc a1 e) :
    val_main_v95 (F := Ideal) a0 a1 a2 a3 a4 a5 a6
      = R2 a0 a3 a5 (fun f => a4 (ix1 f)) (fun f => a6 (ix1 f)) (gdst a1) (gsrc a1) (gcoef a1 a2) := by
  funext i
  obtain ⟨p, q, rfl⟩ : ∃ (p : Fin 10000) (q : Fin 512), i = ix2 p q := ⟨i 0, i 1, eq_ix2 i⟩
  have hz0 : ∀ j, val_main_call3_v0 (F := Ideal) j = 0 := fun j => by
    rw [val_main_call3_v0_apply, val_main_call3_cst_apply]; exact Ideal.ofBits_zero_f32
  have hz1 : ∀ j, val_main_call3_v2 (F := Ideal) j = 0 := fun j => by
    rw [val_main_call3_v2_apply, val_main_call3_cst_0_apply]; exact Ideal.ofBits_zero_f32
  have ho1 : ∀ j, val_main_call3_v4 (F := Ideal) j = 1 := fun j => by
    rw [val_main_call3_v4_apply, val_main_call3_cst_1_apply]; exact Ideal.ofBits_one_f32
  have ho2 : ∀ j, val_main_call3_v7 (F := Ideal) j = 1 := fun j => by
    rw [val_main_call3_v7_apply, val_main_call3_cst_2_apply]; exact Ideal.ofBits_one_f32
  unfold val_main_v95 val_main_call3_v1 val_main_call3_v8 val_main_call3_v6 val_main_call3_v5 val_main_call3_v3
  rw [celu_read _ _ _ _ _ hz0 hz1 ho1 ho2, val_main_v94_apply, v91_read a0 a1 a2 a3 a4 a5 hg, v93_read,
    v78_eq a0 a1 a2 a3 a4 a5 hg]
  rfl

end Layer2

end Cert.RefValue

end
-- ==== Proof.RefValue3.lean ====
import proofs.«402230_j66554813219093_3_alg».proof.Proof.RefValue2

noncomputable section

namespace Cert.RefValue

open Idealize.ShloMosaic Idealize.ShloMosaic.ValueIdx Cert.ReferenceIdeal Cert.ReferenceIdeal.Gen Cert.ReferenceIdeal.Read
  Cert.Spec Cert.Bridge Cert.Graph

theorem scatterC_eq : scatter_S10000x512_S160000x1_S160000x512_1_0_0_1
    = Cert.RowScatter.rowDims 10000 512 160000 scatter_S10000x512_S160000x1_S160000x512_1_0_0_1_wf := rfl

theorem gatherC_eq : gather_S10000x512_S160000x1_S160000x512_1_0_n_n_0_1_1512
    = Cert.RowGather2.rowDims 10000 512 160000 gather_S10000x512_S160000x1_S160000x512_1_0_n_n_0_1_1512_wf := rfl

section Cheb

variable (a0 : FVec Ideal S10000x512 .f32) (a1 : IVec S2x160000 32) (a2 : FVec Ideal S160000 .f32)
  (a3 : FVec Ideal S512x512 .f32) (a4 : FVec Ideal S512 .f32) (a5 : FVec Ideal S512x512 .f32) (a6 : FVec Ideal S512 .f32)
  (a7 : FVec Ideal S3x512x256 .f32) (a8 : FVec Ideal S256 .f32)

theorem v130_read (hc : ∀ e, 0 ≤ csrc a1 e) (e : Fin 160000) :
    (val_main_v130 (F := Ideal) a1 (ix2 e (0 : Fin 1))).toInt = csrc a1 e := by
  rw [val_main_v130_apply, val_main_v129_apply, val_main_v126_apply, val_main_v128_apply, val_main_v125_apply,
    val_main_v127_apply, val_main_c_28_apply, val_main_c_29_apply]
  have ei : idx_main_v130 (ix2 e (0 : Fin 1)) = ix1 e := funext fun a => Fin.ext (by match a with | ⟨0, _⟩ => rfl)
  rw [ei, wrap_of_nonneg _ (hc e)]
  rfl

theorem v135_read (e : Fin 160000) : (val_main_v135 (F := Ideal) a1 (ix2 e (0 : Fin 1))).toInt = cdst a1 e := by
  rw [val_main_v135_apply]
  have ei : idx_main_v135 (ix2 e (0 : Fin 1)) = ix1 e := funext fun a => Fin.ext (by match a with | ⟨0, _⟩ => rfl)
  rw [ei]
  rfl

theorem v132_read (e : Fin 160000) (c : Fin 512) : val_main_v132 (F := Ideal) a1 a2 (ix2 e c) = ccoef a1 a2 e := by
  rw [val_main_v132_apply, val_main_v124_apply]
  have ei : idx_main_v124 (idx_main_v132 (ix2 e c)) = ix1 e := funext fun a => Fin.ext (by match a with | ⟨0, _⟩ => rfl)
  rw [ei]
  rfl

theorem v134_read (i : S10000x512.Idx) : val_main_v134 (F := Ideal) i = 0 := by
  rw [val_main_v134_apply, val_main_cst_30_apply]
  exact Ideal.ofBits_zero_f32

-- One Chebyshev aggregation of a table H is the segment sum of H's rows; the layer aggregates twice, the second layer's output and then T1.
theorem chebAgg_read (H : FVec Ideal S10000x512 .f32) (hc : ∀ e, 0 ≤ csrc a1 e) (i : Fin 10000) (c : Fin 512) :
    Host.scatterAdd scatter_S10000x512_S160000x1_S160000x512_1_0_0_1 (val_main_v134 (F := Ideal))
        (val_main_v135 (F := Ideal) a1) (mulf (val_main_v132 (F := Ideal) a1 a2)
          (Host.gather gather_S10000x512_S160000x1_S160000x512_1_0_n_n_0_1_1512 H (val_main_v130 (F := Ideal) a1))) (ix2 i c)
      = segsum (cdst a1) (csrc a1) (ccoef a1 a2) H i c := by
  rw [scatterC_eq, gatherC_eq]
  exact segsum_read _ _ _ _ _ _ _ _ _ _ v134_read (v135_read a1) (v130_read a1 hc) (v132_read a1 a2) i c

theorem v137_eq (hg : ∀ e, 0 ≤ gsrc a1 e) (hc : ∀ e, 0 ≤ csrc a1 e) :
    val_main_v137 (F := Ideal) a0 a1 a2 a3 a4 a5 a6
      = RT1 a0 a3 a5 (fun f => a4 (ix1 f)) (fun f => a6 (ix1 f)) (gdst a1) (gsrc a1) (gcoef a1 a2) (cdst a1) (csrc a1) (ccoef a1 a2) := by
  funext i
  obtain ⟨p, q, rfl⟩ : ∃ (p : Fin 10000) (q : Fin 512), i = ix2 p q := ⟨i 0, i 1, eq_ix2 i⟩
  rw [val_main_v137_apply, show val_main_v136 (F := Ideal) a0 a1 a2 a3 a4 a5 a6 (ix2 p q) = _ from
    chebAgg_read a1 a2 _ hc p q, v95_eq a0 a1 a2 a3 a4 a5 a6 hg]
  rfl

theorem v156_read (i : S10000x512.Idx) : val_main_v156 (F := Ideal) i = 2 := by
  rw [val_main_v156_apply, val_main_cst_34_apply]
  exact ofBits_two_f32

theorem v158_eq (hg : ∀ e, 0 ≤ gsrc a1 e) (hc : ∀ e, 0 ≤ csrc a1 e) :
    val_main_v158 (F := Ideal) a0 a1 a2 a3 a4 a5 a6
      = RT2 a0 a3 a5 (fun f => a4 (ix1 f)) (fun f => a6 (ix1 f)) (gdst a1) (gsrc a1) (gcoef a1 a2) (cdst a1) (csrc a1) (ccoef a1 a2) := by
  funext i
  obtain ⟨p, q, rfl⟩ : ∃ (p : Fin 10000) (q : Fin 512), i = ix2 p q := ⟨i 0, i 1, eq_ix2 i⟩
  rw [val_main_v158_apply, val_main_v157_apply, v156_read, val_main_v155_apply,
    show val_main_v154 (F := Ideal) a0 a1 a2 a3 a4 a5 a6 (ix2 p q) = _ from chebAgg_read a1 a2 _ hc p q,
    v137_eq a0 a1 a2 a3 a4 a5 a6 hg hc, v95_eq a0 a1 a2 a3 a4 a5 a6 hg]
  rfl

-- Slice s of the [3, 512, 256] weights, flattened and read back at (i 0, i 1), is the index (s, i 0, i 1).
theorem slice_idx (s : Fin 3) (i : S512x256.Idx) (j : S3x512x256.Idx) (h0 : j 0 = s)
    (h1 : (j 1).val = ((i 0).val * 256 + (i 1).val) / 256 % 512) (h2 : (j 2).val = ((i 0).val * 256 + (i 1).val) % 256) :
    j = ix3 s (i 0) (i 1) := by
  have h0' : (i 0).val < 512 := (i 0).isLt
  have h1' : (i 1).val < 256 := (i 1).isLt
  refine funext fun a => ?_
  match a with
  | ⟨0, _⟩ => exact h0
  | ⟨1, _⟩ => exact Fin.ext (h1.trans (by show _ = (i 0).val; omega))
  | ⟨2, _⟩ => exact Fin.ext (h2.trans (by show _ = (i 1).val; omega))

theorem v122_eq : val_main_v122 (F := Ideal) a7 = fun i => a7 (ix3 0 (i 0) (i 1)) := funext fun i => by
  rw [val_main_v122_apply, val_main_v121_apply]
  exact congrArg a7 (slice_idx 0 i _ rfl rfl rfl)

theorem v139_eq : val_main_v139 (F := Ideal) a7 = fun i => a7 (ix3 1 (i 0) (i 1)) := funext fun i => by
  rw [val_main_v139_apply, val_main_v138_apply]
  exact congrArg a7 (slice_idx 1 i _ rfl rfl rfl)

theorem v160_eq : val_main_v160 (F := Ideal) a7 = fun i => a7 (ix3 2 (i 0) (i 1)) := funext fun i => by
  rw [val_main_v160_apply, val_main_v159_apply]
  exact congrArg a7 (slice_idx 2 i _ rfl rfl rfl)

theorem v164_read (i : Fin 10000) (c : Fin 256) : val_main_v164 (F := Ideal) a8 (ix2 i c) = a8 (ix1 c) := by
  rw [val_main_v164_apply, val_main_v163_apply]
  exact congrArg a8 (funext fun a => Fin.ext (by match a with | ⟨0, _⟩ => rfl))

theorem v165_read (hg : ∀ e, 0 ≤ gsrc a1 e) (hc : ∀ e, 0 ≤ csrc a1 e) (p : Fin 10000) (q : Fin 256) :
    val_main_v165 (F := Ideal) a0 a1 a2 a3 a4 a5 a6 a7 a8 (ix2 p q)
      = mm (R2 a0 a3 a5 (fun f => a4 (ix1 f)) (fun f => a6 (ix1 f)) (gdst a1) (gsrc a1) (gcoef a1 a2)) (val_main_v122 (F := Ideal) a7) p q
        + mm (RT1 a0 a3 a5 (fun f => a4 (ix1 f)) (fun f => a6 (ix1 f)) (gdst a1) (gsrc a1) (gcoef a1 a2) (cdst a1) (csrc a1) (ccoef a1 a2)) (val_main_v139 (F := Ideal) a7) p q
        + mm (RT2 a0 a3 a5 (fun f => a4 (ix1 f)) (fun f => a6 (ix1 f)) (gdst a1) (gsrc a1) (gcoef a1 a2) (cdst a1) (csrc a1) (ccoef a1 a2)) (val_main_v160 (F := Ideal) a7) p q
        + a8 (ix1 q) := by
  rw [val_main_v165_apply, val_main_v162_apply, val_main_v141_apply, val_main_v123_apply, val_main_v140_apply,
    val_main_v161_apply, v95_eq a0 a1 a2 a3 a4 a5 a6 hg, v137_eq a0 a1 a2 a3 a4 a5 a6 hg hc,
    v158_eq a0 a1 a2 a3 a4 a5 a6 hg hc, v164_read]
  refine congrArg₂ (· + ·) (congrArg₂ (· + ·) (congrArg₂ (· + ·) ?_ ?_) ?_) rfl <;>
    exact mm_read _ _ p q _ _ (fun k => funext fun a => Fin.ext (by match a with | ⟨0, _⟩ => rfl | ⟨1, _⟩ => rfl))
      (fun k => funext fun a => Fin.ext (by match a with | ⟨0, _⟩ => rfl | ⟨1, _⟩ => rfl))

theorem v166_eq (hg : ∀ e, 0 ≤ gsrc a1 e) (hc : ∀ e, 0 ≤ csrc a1 e) :
    val_main_v166 (F := Ideal) a0 a1 a2 a3 a4 a5 a6 a7 a8
      = Rres a0 a3 a5 (fun f => a4 (ix1 f)) (fun f => a6 (ix1 f)) (fun i => a7 (ix3 0 (i 0) (i 1))) (fun i => a7 (ix3 1 (i 0) (i 1)))
          (fun i => a7 (ix3 2 (i 0) (i 1))) (fun f => a8 (ix1 f)) (gdst a1) (gsrc a1) (gcoef a1 a2) (cdst a1) (csrc a1) (ccoef a1 a2) := by
  funext i
  obtain ⟨p, q, rfl⟩ : ∃ (p : Fin 10000) (q : Fin 256), i = ix2 p q := ⟨i 0, i 1, eq_ix2 i⟩
  have hz0 : ∀ j, val_main_call6_v0 (F := Ideal) j = 0 := fun j => by
    rw [val_main_call6_v0_apply, val_main_call6_cst_apply]; exact Ideal.ofBits_zero_f32
  have hz1 : ∀ j, val_main_call6_v2 (F := Ideal) j = 0 := fun j => by
    rw [val_main_call6_v2_apply, val_main_call6_cst_0_apply]; exact Ideal.ofBits_zero_f32
  have ho1 : ∀ j, val_main_call6_v4 (F := Ideal) j = 1 := fun j => by
    rw [val_main_call6_v4_apply, val_main_call6_cst_1_apply]; exact Ideal.ofBits_one_f32
  have ho2 : ∀ j, val_main_call6_v7 (F := Ideal) j = 1 := fun j => by
    rw [val_main_call6_v7_apply, val_main_call6_cst_2_apply]; exact Ideal.ofBits_one_f32
  unfold val_main_v166 val_main_call6_v1 val_main_call6_v8 val_main_call6_v6 val_main_call6_v5 val_main_call6_v3
  rw [celu_read _ _ _ _ _ hz0 hz1 ho1 ho2, v165_read a0 a1 a2 a3 a4 a5 a6 a7 a8 hg hc, v122_eq, v139_eq, v160_eq]
  rfl

end Cheb

end Cert.RefValue

end
-- ==== Proof.RefValue.lean ====
import proofs.«402230_j66554813219093_3_alg».proof.Proof.RefValue3
import proofs.«402230_j66554813219093_3_alg».proof.Proof.GraphFacts

noncomputable section

namespace Cert.RefValue

open Idealize.ShloMosaic Idealize.ShloMosaic.ValueIdx Cert.ReferenceIdeal Cert.ReferenceIdeal.Read Cert.Spec Cert.Bridge

theorem ref_eq (a0 : FVec Ideal S10000x512 .f32) (a1 : IVec S2x160000 32) (a2 : FVec Ideal S160000 .f32)
    (a3 : FVec Ideal S512x512 .f32) (a4 : FVec Ideal S512 .f32) (a5 : FVec Ideal S512x512 .f32) (a6 : FVec Ideal S512 .f32)
    (a7 : FVec Ideal S3x512x256 .f32) (a8 : FVec Ideal S256 .f32)
    (hr : ∀ i, 0 ≤ (a1 i).toInt ∧ (a1 i).toInt < 10000) :
    (val_main_v166 (F := Ideal) a0 a1 a2 a3 a4 a5 a6 a7 a8 : S10000x256.Idx → EReal)
      = Cert.Bridge.Rres a0 a3 a5 (fun f => a4 (ix1 f)) (fun f => a6 (ix1 f)) (fun i => a7 (ix3 0 (i 0) (i 1)))
          (fun i => a7 (ix3 1 (i 0) (i 1))) (fun i => a7 (ix3 2 (i 0) (i 1))) (fun f => a8 (ix1 f))
          (Cert.Graph.gdst a1) (Cert.Graph.gsrc a1) (Cert.Graph.gcoef a1 a2)
          (Cert.Graph.cdst a1) (Cert.Graph.csrc a1) (Cert.Graph.ccoef a1 a2) :=
  v166_eq a0 a1 a2 a3 a4 a5 a6 a7 a8 (fun e => (Cert.Graph.gidx_range a1 hr e).2.2.1)
    (fun e => (Cert.Graph.cidx_range a1 hr e).2.2.1)

end Cert.RefValue

end
-- ==== Proof.Bridge.lean ====
import proofs.«402230_j66554813219093_3_alg».proof.Proof.BridgeDefs
import proofs.«402230_j66554813219093_3_alg».proof.Proof.LibReal

noncomputable section

namespace Cert.Bridge

open Idealize.ShloMosaic Idealize.ShloMosaic.ValueIdx Cert.Spec Cert.RealVal

open scoped BigOperators

theorem real1_neg {a : EReal} (ha : Real1 a) : Real1 (-a) := by
  obtain ⟨r, rfl⟩ := ha.exists_coe
  exact real1_coe (-r)

theorem real1_sub {a b : EReal} (ha : Real1 a) (hb : Real1 b) : Real1 (a - b) := by
  rw [sub_eq_add_neg]
  exact ha.add (real1_neg hb)

theorem real1_two : Real1 (2 : EReal) := by
  rw [← one_add_one_eq_two]
  exact real1_one.add real1_one

-- Multiplication by a real distributes over a finite sum of reals (over the extended reals this needs the finiteness).
theorem real_sum_mul {ι : Type} (s : Finset ι) (f : ι → EReal) (hf : ∀ i ∈ s, Real1 (f i)) {a : EReal} (ha : Real1 a) :
    (∑ i ∈ s, f i) * a = ∑ i ∈ s, f i * a := by
  classical
  obtain ⟨r, rfl⟩ := ha.exists_coe
  induction s using Finset.induction_on with
  | empty => rw [Finset.sum_empty, Finset.sum_empty, zero_mul]
  | insert i s hi ih =>
    have hs : ∀ j ∈ s, Real1 (f j) := fun j hj => hf j (Finset.mem_insert_of_mem hj)
    obtain ⟨p, hp⟩ := (hf i (Finset.mem_insert_self i s)).exists_coe
    obtain ⟨q, hq⟩ := (real1_sum s f hs).exists_coe
    rw [Finset.sum_insert hi, Finset.sum_insert hi, ← ih hs, hp, hq]
    exact_mod_cast add_mul p q r

theorem div_one (z : EReal) : Ideal.div z 1 = z := by
  have h := Ideal.div_coe (y := 1) one_ne_zero z
  rw [EReal.coe_one] at h
  rw [h, one_div, inv_one, EReal.coe_one, mul_one]

-- On a real argument both spellings of CELU take the same branch: the argument itself when positive, exp - 1 otherwise.
theorem celu_real {y : EReal} (hy : Real1 y) : celuK y = celuR y ∧ Real1 (celuR y) := by
  obtain ⟨r, rfl⟩ := hy.exists_coe
  unfold celuK celuR
  rw [div_one, one_mul]
  by_cases h : (0 : EReal) < (r : EReal)
  · have e0 : Ideal.exp 0 - 1 = 0 := by
      show Ideal.exp ((0 : ℝ) : EReal) - ((1 : ℝ) : EReal) = ((0 : ℝ) : EReal)
      rw [Ideal.exp_coe, Real.exp_zero, ← EReal.coe_sub, sub_self]
    rw [if_pos h, max_eq_left h.le, min_eq_right h.le, e0, add_zero]
    exact ⟨rfl, real1_coe r⟩
  · rw [if_neg h, max_eq_right (not_lt.mp h), min_eq_left (not_lt.mp h), zero_add, Ideal.exp_coe]
    exact ⟨rfl, real1_sub (real1_coe _) real1_one⟩

-- Regrouping a sum over edges by the column each edge points at; the coefficients and the entries read are real.
theorem sum_fiber_mul {E J : Type} [Fintype J] [DecidableEq J] (S : Finset E) (σ : E → J) (coef : E → EReal)
    (g : J → EReal) (hcoef : ∀ e ∈ S, Real1 (coef e)) (hg : ∀ e ∈ S, Real1 (g (σ e))) :
    ∑ k : J, (∑ e ∈ S.filter (fun e => σ e = k), coef e) * g k = ∑ e ∈ S, coef e * g (σ e) := by
  rw [← Finset.sum_fiberwise S σ (fun e => coef e * g (σ e))]
  refine Finset.sum_congr rfl fun k _ => ?_
  rcases (S.filter (fun e => σ e = k)).eq_empty_or_nonempty with h | ⟨e0, he0⟩
  · rw [h, Finset.sum_empty, Finset.sum_empty, zero_mul]
  · have hm := Finset.mem_filter.mp he0
    rw [real_sum_mul _ _ (fun e he => hcoef e (Finset.mem_filter.mp he).1) (hm.2 ▸ hg e0 hm.1)]
    exact Finset.sum_congr rfl fun e he => by rw [(Finset.mem_filter.mp he).2]

def padRow (r : Fin 10000) : Fin 10240 := ⟨r.val, by have := r.isLt; omega⟩

/-- A 10240-row array agrees on its first 10000 rows with a real 10000-row array. -/
structure Agree {N : Nat} (HK : (T 10240 N).Idx → EReal) (HR : (T 10000 N).Idx → EReal) : Prop where
  real : IsReal HR
  eq : ∀ r f, HK (ix2 (padRow r) f) = HR (ix2 r f)

namespace Agree

variable {N : Nat} {A B : (T 10240 N).Idx → EReal} {A' B' : (T 10000 N).Idx → EReal}

theorem xpad {x : (T 10000 512).Idx → EReal} (hx : IsReal x) : Agree (xpad x) x :=
  ⟨hx, fun r _ => dif_pos r.isLt⟩

theorem bias {b : Fin N → EReal} (hb : IsReal b) : Agree (fun i : (T 10240 N).Idx => b (i 1)) (fun i : (T 10000 N).Idx => b (i 1)) :=
  ⟨fun _ => hb _, fun _ _ => rfl⟩

theorem add (h : Agree A A') (g : Agree B B') : Agree (fun i => A i + B i) (fun i => A' i + B' i) :=
  ⟨fun i => Real1.add (h.real i) (g.real i), fun r f => by
    show A _ + B _ = A' _ + B' _
    rw [h.eq, g.eq]⟩

theorem cheb (h : Agree A A') (g : Agree B B') : Agree (fun i => 2 * A i - B i) (fun i => 2 * A' i - B' i) :=
  ⟨fun i => real1_sub (real1_two.mul (h.real i)) (g.real i), fun r f => by
    show 2 * A _ - B _ = 2 * A' _ - B' _
    rw [h.eq, g.eq]⟩

theorem celu (h : Agree A A') : Agree (fun i => celuK (A i)) (fun i => celuR (A' i)) :=
  ⟨fun i => (celu_real (h.real i)).2, fun r f => by
    show celuK (A _) = celuR (A' _)
    rw [h.eq, (celu_real (h.real _)).1]⟩

theorem mm {P : Nat} (h : Agree A A') {W : (T N P).Idx → EReal} (hW : IsReal W) :
    Agree (fun i : (T 10240 P).Idx => mm A W (i 0) (i 1)) (fun i : (T 10000 P).Idx => mm A' W (i 0) (i 1)) :=
  ⟨fun _ => real1_sum _ _ fun _ _ => Real1.mul (h.real _) (hW _), fun r f => by
    show ∑ k, A (ix2 (padRow r) k) * W (ix2 k f) = ∑ k, A' (ix2 r k) * W (ix2 k f)
    exact Finset.sum_congr rfl fun k _ => by rw [h.eq]⟩

variable {R : Nat} {dst src : Fin R → ℤ} {coef : Fin R → EReal}
  (hrng : ∀ e, 0 ≤ dst e ∧ dst e < 10000 ∧ 0 ≤ src e ∧ src e < 10000) (hcoef : ∀ e, Real1 (coef e))
  {HK : (T 10240 512).Idx → EReal} {HR : (T 10000 512).Idx → EReal} (h : Agree HK HR)
include hrng hcoef h

-- A column no edge points at carries a zero coefficient; a column some edge points at is below 10000 and meets a real entry, where the accumulated coefficients distribute.
theorem dense : Agree (fun i : (T 10240 512).Idx => Spec.mm (denseArr dst src coef) HK (i 0) (i 1))
    (fun i : (T 10000 512).Idx => segsum dst src coef HR (i 0) (i 1)) := by
  refine ⟨fun _ => real1_zero.add (real1_sum _ _ fun e _ => (hcoef e).mul (h.real _)), fun c f => ?_⟩
  have hσ : ∀ (e : Fin R) (k : Fin 10240), src e = (k.val : ℤ) ↔ padRow (clampRow (src e)) = k := fun e k => by
    obtain ⟨_, _, h0, h1⟩ := hrng e
    refine ⟨fun h => Fin.ext ?_, fun h => ?_⟩
    · show min (src e).toNat 9999 = k.val
      omega
    · have h2 : min (src e).toNat 9999 = k.val := congrArg Fin.val h
      omega
  have hfil : ∀ k : Fin 10240,
      Finset.univ.filter (fun e : Fin R => dst e = ((padRow c).val : ℤ) ∧ src e = (k.val : ℤ))
        = (Finset.univ.filter (fun e : Fin R => dst e = (c.val : ℤ))).filter
            (fun e => padRow (clampRow (src e)) = k) := fun k => by
    rw [Finset.filter_filter]
    exact Finset.filter_congr fun e _ => by rw [hσ e k]; rfl
  show ∑ k : Fin 10240, Bridge.dense dst src coef (padRow c) k * HK (ix2 k f) = segsum dst src coef HR c f
  unfold Bridge.dense segsum
  simp only [zero_add, hfil]
  rw [sum_fiber_mul _ _ _ (fun k => HK (ix2 k f)) (fun e _ => hcoef e) (fun e _ => by rw [h.eq]; exact h.real _)]
  exact Finset.sum_congr rfl fun e _ => by rw [h.eq]

-- Negating every coefficient negates the segment sum, the terms being real.
theorem denseNeg : Agree (fun i : (T 10240 512).Idx => Spec.mm (denseArr dst src (fun e => -coef e)) HK (i 0) (i 1))
    (fun i : (T 10000 512).Idx => -segsum dst src coef HR (i 0) (i 1)) := by
  have e : (fun i : (T 10000 512).Idx => segsum dst src (fun e => -coef e) HR (i 0) (i 1))
      = fun i => -segsum dst src coef HR (i 0) (i 1) := funext fun i => by
    unfold segsum
    rw [zero_add, zero_add, ← mul_neg_one, real_sum_mul _ _ (fun e _ => (hcoef e).mul (h.real _)) (real1_neg real1_one)]
    exact Finset.sum_congr rfl fun e _ => by rw [mul_neg_one, EReal.neg_mul]
  rw [← e]
  exact h.dense hrng fun e => real1_neg (hcoef e)

end Agree

/-- The two computations give the same 10000 x 256 array: the agreement is carried through the layers in order. -/
theorem Kres_eq_Rres (x : (T 10000 512).Idx → EReal) (W1 W2 : (T 512 512).Idx → EReal) (b1 b2 : Fin 512 → EReal)
    (Wc0 Wc1 Wc2 : (T 512 256).Idx → EReal) (bc : Fin 256 → EReal)
    {Rg : Nat} (gdst gsrc : Fin Rg → ℤ) (gcoef : Fin Rg → EReal)
    {Rc : Nat} (cdst csrc : Fin Rc → ℤ) (ccoef : Fin Rc → EReal)
    (hx : IsReal x) (hW1 : IsReal W1) (hW2 : IsReal W2) (hb1 : IsReal b1) (hb2 : IsReal b2)
    (hWc0 : IsReal Wc0) (hWc1 : IsReal Wc1) (hWc2 : IsReal Wc2) (hbc : IsReal bc)
    (hg : ∀ e, 0 ≤ gdst e ∧ gdst e < 10000 ∧ 0 ≤ gsrc e ∧ gsrc e < 10000) (hgc : ∀ e, Real1 (gcoef e))
    (hc : ∀ e, 0 ≤ cdst e ∧ cdst e < 10000 ∧ 0 ≤ csrc e ∧ csrc e < 10000) (hcc : ∀ e, Real1 (ccoef e)) :
    Kres x W1 W2 b1 b2 Wc0 Wc1 Wc2 bc gdst gsrc gcoef cdst csrc ccoef
      = Rres x W1 W2 b1 b2 Wc0 Wc1 Wc2 bc gdst gsrc gcoef cdst csrc ccoef := by
  have A1 := ((((Agree.xpad hx).mm hW1).dense hg hgc).add (.bias hb1)).celu
  have A2 := (((A1.mm hW2).dense hg hgc).add (.bias hb2)).celu
  have AT1 := A2.denseNeg hc hcc
  have AT2 := (AT1.denseNeg hc hcc).cheb A2
  have Aout := ((((A2.mm hWc0).add (AT1.mm hWc1)).add (AT2.mm hWc2)).add (.bias hbc)).celu
  funext i
  exact (Aout.eq (i 0) (i 1)).trans
    (congrArg (Rres x W1 W2 b1 b2 Wc0 Wc1 Wc2 bc gdst gsrc gcoef cdst csrc ccoef) (eq_ix2 i).symm)

end Cert.Bridge

end
-- ==== Proof.PreFacts.lean ====
import proofs.«402230_j66554813219093_3_alg».proof.Pre_finite_inputs
import proofs.«402230_j66554813219093_3_alg».proof.Proof.LibReal
import Idealize.ShloMosaic.Lib.ReduceAll
import Idealize.ShloMosaic.Lib.ValueIdx
import Idealize.ShloMosaic.Lib.StableHlo.Predicate
import Idealize.ShloMosaic.PureOps.Ideal

noncomputable section

namespace Cert.PreFacts

open Idealize.ShloMosaic Idealize.ShloMosaic.ValueIdx
open Cert.RealVal Cert.Pre_finite_inputs

instance : Subsingleton S_.Idx := ⟨fun a b => funext fun d => d.elim0⟩

theorem ofBits_inf : Ideal.ofBits .f32 0x7F800000#32 = (⊤ : EReal) := by
  simp [Ideal.ofBits, Ideal.ieee]

theorem real1_of_abs_lt_top (x : EReal) (h : max x (-x) < ⊤) : Real1 x := by
  constructor
  · rintro rfl; simp at h
  · rintro rfl; simp at h

theorem real1_of_cmp (x : EReal) (h : Ideal.cmp .olt (max x (-x)) (Ideal.ofBits .f32 0x7F800000#32) = 1#1) : Real1 x := by
  rw [ofBits_inf] at h
  unfold Ideal.cmp at h
  rw [StableHlo.Predicate.ofBool_eq_one_iff, decide_eq_true_eq] at h
  exact real1_of_abs_lt_top x h

theorem isReal_of_all {s : Shape} {axes : List (Fin s.rank)} (hb : S_.BroadcastsInDim s (![] : Fin 0 → Fin s.rank))
    (hr : s.ReducesTo axes S_) (h0 : 0 < S_.numel) (a : FVec Ideal s .f32)
    (e : Host.reduce IntOp.andi (cmpf .olt (Host.absf a) (broadcastInDim s ![] hb (constant S_ .f32 0x7F800000#32)))
          (constantI S_ 1 1#1) hr h0 ix0 = 1#1) : IsReal a := by
  intro i
  have hi := Host.reduce_andi_all _ _ hr h0 ix0 e i
  exact real1_of_cmp (a i) hi

theorem toInt_nonneg_of_sge (w : BitVec 32) (h : IntOp.cmpi .sge w 0#32 = 1#1) : 0 ≤ w.toInt := by
  unfold IntOp.cmpi at h
  rw [StableHlo.Predicate.ofBool_eq_one_iff] at h
  simpa [BitVec.sle] using h

theorem toInt_lt_of_slt (w : BitVec 32) (h : IntOp.cmpi .slt w 10000#32 = 1#1) : w.toInt < 10000 := by
  unfold IntOp.cmpi at h
  rw [StableHlo.Predicate.ofBool_eq_one_iff] at h
  have c : (10000#32 : BitVec 32).toInt = 10000 := by decide
  simpa [BitVec.slt, c] using h

theorem range_of_all {s : Shape} {axes : List (Fin s.rank)} (hb : S_.BroadcastsInDim s (![] : Fin 0 → Fin s.rank))
    (hr : s.ReducesTo axes S_) (h0 : 0 < S_.numel) (a : IVec s 32)
    (e : Host.reduce IntOp.andi
          (andi (cmpi .sge a (broadcastInDim s ![] hb (constantI S_ 32 0#32)))
                (cmpi .slt a (broadcastInDim s ![] hb (constantI S_ 32 10000#32))))
          (constantI S_ 1 1#1) hr h0 ix0 = 1#1) : ∀ i, 0 ≤ (a i).toInt ∧ (a i).toInt < 10000 := by
  intro i
  have hi := Host.reduce_andi_all _ _ hr h0 ix0 e i
  obtain ⟨h1, h2⟩ := IntOp.andi_eq_one.1 hi
  exact ⟨toInt_nonneg_of_sge _ h1, toInt_lt_of_slt _ h2⟩

theorem andi_at {s : Shape} {w : Nat} (x y : IVec s w) (i : s.Idx) : andi x y i = IntOp.andi (x i) (y i) := rfl

theorem of_pre [Cert.Pre_finite_inputs.Facts]
    (a0 : FVec Ideal S10000x512 .f32) (a1 : IVec S2x160000 32) (a2 : FVec Ideal S160000 .f32)
    (a3 : FVec Ideal S512x512 .f32) (a4 : FVec Ideal S512 .f32) (a5 : FVec Ideal S512x512 .f32)
    (a6 : FVec Ideal S512 .f32) (a7 : FVec Ideal S3x512x256 .f32) (a8 : FVec Ideal S256 .f32)
    (h : Cert.Pre_finite_inputs.fn (F := Ideal) a0 a1 a2 a3 a4 a5 a6 a7 a8 = fun _ => 1#1) :
    IsReal a0 ∧ IsReal a2 ∧ IsReal a3 ∧ IsReal a4 ∧ IsReal a5 ∧ IsReal a6 ∧ IsReal a7 ∧ IsReal a8
      ∧ (∀ i, 0 ≤ (a1 i).toInt ∧ (a1 i).toInt < 10000) := by
  have e := congrFun h ix0
  simp only [fn, fn_part1, fn_part2, andi_at, IntOp.andi_eq_one] at e
  obtain ⟨⟨⟨⟨⟨⟨⟨⟨e0, e2⟩, e3⟩, e4⟩, e5⟩, e6⟩, e7⟩, e8⟩, e1⟩ := e
  exact ⟨isReal_of_all _ _ _ a0 e0, isReal_of_all _ _ _ a2 e2, isReal_of_all _ _ _ a3 e3, isReal_of_all _ _ _ a4 e4,
    isReal_of_all _ _ _ a5 e5, isReal_of_all _ _ _ a6 e6, isReal_of_all _ _ _ a7 e7, isReal_of_all _ _ _ a8 e8,
    range_of_all _ _ _ a1 e1⟩

end Cert.PreFacts

end
-- ==== Proof.lean ====
import proofs.«402230_j66554813219093_3_alg».proof.Defs
import proofs.«402230_j66554813219093_3_alg».proof.Proof.Gen.Kernel
import proofs.«402230_j66554813219093_3_alg».proof.Proof.Gen.KernelIdeal
import proofs.«402230_j66554813219093_3_alg».proof.Proof.Gen.ReferenceIdeal
import proofs.«402230_j66554813219093_3_alg».proof.Proof.Gen.Pre_finite_inputs
import proofs.«402230_j66554813219093_3_alg».proof.Proof.Gen.ReferenceIdeal.Run
import proofs.«402230_j66554813219093_3_alg».proof.Proof.Gen.ReferenceIdeal.Read
import proofs.«402230_j66554813219093_3_alg».proof.Proof.K.Run
import proofs.«402230_j66554813219093_3_alg».proof.Proof.KI.KernelValue
import proofs.«402230_j66554813219093_3_alg».proof.Proof.RefValue
import proofs.«402230_j66554813219093_3_alg».proof.Proof.GraphFacts
import proofs.«402230_j66554813219093_3_alg».proof.Proof.Bridge
import proofs.«402230_j66554813219093_3_alg».proof.Proof.PreFacts

noncomputable section

namespace Cert.Proof

open Idealize.ShloMosaic Idealize.ShloMosaic.TcCoe Idealize.SL.Sem Idealize.ShloMosaic.ValueIdx

instance : Cert.Pre_finite_inputs.Facts := Cert.Pre_finite_inputs.Gen.facts

theorem frame_k : Cert.frame_Kernel (hKernel := Cert.Kernel.Gen.facts) := fun m ρ _ =>
  (θ_run Cert.Kernel.defs _ _).mono (fun _ h c => (h c).2) (Cert.Kernel.Hand.run_value (F := Bits) m ρ)

theorem frame_ki : Cert.frame_KernelIdeal (hKernelIdeal := Cert.KernelIdeal.Gen.facts) := fun m ρ _ =>
  (θ_run Cert.KernelIdeal.defs _ _).mono (fun _ h c => (h c).2) (Cert.KernelIdeal.Hand.run_value (F := Ideal) m ρ)

theorem frame_ri : Cert.frame_ReferenceIdeal (hReferenceIdeal := Cert.ReferenceIdeal.Gen.facts) := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) := by
  intro m ρ m' ρ' hpre hagree
  refine ⟨fun c => Cert.KernelIdeal.Hand.U18 m c Cert.KernelIdeal.main_v115, Cert.KernelIdeal.Hand.run_value (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨h0, h2, h3, h4, h5, h6, h7, h8, hr⟩ := Cert.PreFacts.of_pre _ _ _ _ _ _ _ _ _ (hpre c)
  obtain ⟨e0, e1, e2, e3, e4, e5, e6, e7, e8⟩ := hagree c
  rw [Cert.ReferenceIdeal.Read.val_main_v166_eq, e0, e1, e2, e3, e4, e5, e6, e7, e8, Cert.RefValue.ref_eq _ _ _ _ _ _ _ _ _ hr]
  refine Eq.trans ?_ (Cert.KernelIdeal.Hand.kres m c hr).symm
  symm
  exact Cert.Bridge.Kres_eq_Rres _ _ _ _ _ _ _ _ _ _ _ _ _ _ _ h0 h3 h5
    (fun f => h4 (ix1 f)) (fun f => h6 (ix1 f)) (fun i => h7 _) (fun i => h7 _) (fun i => h7 _) (fun f => h8 (ix1 f))
    (Cert.Graph.gidx_range _ hr) (Cert.Graph.gcoef_real _ _ h2) (Cert.Graph.cidx_range _ hr) (Cert.Graph.ccoef_real _ _ h2)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
